-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v222)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v222) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v407) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel

variable [Facts]

def fn {F : FTy → Type} [FloatOps F] (main_arg0 : FVec F S8x3x1024x1024 .f32) (main_arg1 : FVec F S8x3x1024x1024 .f32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  let main_v4 : FVec F S8x3x1024x1024 .f32 := Host.absf main_arg1
  let main_cst_0 : FVec F S_ .f32 := constant S_ .f32 0x7F800000#32
  let main_v5 : FVec F S8x3x1024x1024 .f32 := broadcastInDim S8x3x1024x1024 ![] bcast_S_S8x3x1024x1024 main_cst_0
  let main_v6 : IVec S8x3x1024x1024 1 := cmpf .olt main_v4 main_v5
  let main_c_1 : IVec S_ 1 := constantI S_ 1 1#1
  let main_v7 : IVec S_ 1 := (fun x v => Host.reduce IntOp.andi x v reducesTo_S8x3x1024x1024_S_d0_1_2_3 h_S_) main_v6 main_c_1
  let main_v8 : IVec S_ 1 := andi main_v3 main_v7
  main_v8
-- ==== Kernel.lean ====
abbrev S8x3x1024x1024 : Shape := ⟨4, ![8, 3, 1024, 1024]⟩
abbrev S8x1024x1024 : Shape := ⟨3, ![8, 1024, 1024]⟩
abbrev S8x3x1x1 : Shape := ⟨4, ![8, 3, 1, 1]⟩
abbrev S8x1x1x1 : Shape := ⟨4, ![8, 1, 1, 1]⟩
abbrev S1x3x256x1024 : Shape := ⟨4, ![1, 3, 256, 1024]⟩
abbrev S1x256x1024 : Shape := ⟨3, ![1, 256, 1024]⟩
abbrev S1x3x1x1 : Shape := ⟨4, ![1, 3, 1, 1]⟩
abbrev S1x1x1x1 : Shape := ⟨4, ![1, 1, 1, 1]⟩
abbrev S1x3 : Shape := ⟨2, ![1, 3]⟩
abbrev S1x1x1 : Shape := ⟨3, ![1, 1, 1]⟩
abbrev S1x8x1024x1024 : Shape := ⟨4, ![1, 8, 1024, 1024]⟩
abbrev S2x8x1024x1024 : Shape := ⟨4, ![2, 8, 1024, 1024]⟩
abbrev S1x1x1024x1024 : Shape := ⟨4, ![1, 1, 1024, 1024]⟩
abbrev S1024x1024 : Shape := ⟨2, ![1024, 1024]⟩
abbrev S1x1024 : Shape := ⟨2, ![1, 1024]⟩
abbrev S1026x1024 : Shape := ⟨2, ![1026, 1024]⟩
abbrev S1026x1 : Shape := ⟨2, ![1026, 1]⟩
abbrev S1026x1026 : Shape := ⟨2, ![1026, 1026]⟩
abbrev S_ : Shape := ⟨0, ![]⟩
abbrev S1025x1024 : Shape := ⟨2, ![1025, 1024]⟩
abbrev S1026x1025 : Shape := ⟨2, ![1026, 1025]⟩
abbrev S8x1x1 : Shape := ⟨3, ![8, 1, 1]⟩
abbrev S1x1024x1024 : Shape := ⟨3, ![1, 1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1024x1025 : Shape := ⟨2, ![1024, 1025]⟩
abbrev S1024x1026 : Shape := ⟨2, ![1024, 1026]⟩
abbrev S8x3 : Shape := ⟨2, ![8, 3]⟩

abbrev nBuf : Space → Nat
  | .hbm => 371
  | .vmem => 30
  | .smem => 0
  | _ => 0

abbrev hbmTy0_0 (i : Nat) : BufTy := match i % 128 with
  | 0 => ⟨S8x3x1024x1024, .f32⟩
  | 1 => ⟨S8x3x1024x1024, .f32⟩
  | 2 => ⟨S8x1024x1024, .f32⟩
  | 3 => ⟨S8x1024x1024, .f32⟩
  | 4 => ⟨S8x3x1x1, .f32⟩
  | 5 => ⟨S8x3x1x1, .f32⟩
  | 6 => ⟨S8x3x1x1, .f32⟩
  | 7 => ⟨S8x3x1x1, .f32⟩
  | 8 => ⟨S8x1x1x1, .f32⟩
  | 9 => ⟨S1x8x1024x1024, .f32⟩
  | 10 => ⟨S1x8x1024x1024, .f32⟩
  | 11 => ⟨S2x8x1024x1024, .f32⟩
  | 12 => ⟨S2x8x1024x1024, .f32⟩
  | 13 => ⟨S1x8x1024x1024, .f32⟩
  | 14 => ⟨S8x1024x1024, .f32⟩
  | 15 => ⟨S1x8x1024x1024, .f32⟩
  | 16 => ⟨S8x1024x1024, .f32⟩
  | 17 => ⟨S1x1x1024x1024, .f32⟩
  | 18 => ⟨S1024x1024, .f32⟩
  | 19 => ⟨S1x1x1024x1024, .f32⟩
  | 20 => ⟨S1024x1024, .f32⟩
  | 21 => ⟨S_, .i32⟩
  | 22 => ⟨S1x1024, .f32⟩
  | 23 => ⟨S1x1024, .f32⟩
  | 24 => ⟨S1x1024, .f32⟩
  | 25 => ⟨S1025x1024, .f32⟩
  | 26 => ⟨S1x1024, .f32⟩
  | 27 => ⟨S1x1024, .f32⟩
  | 28 => ⟨S1x1024, .f32⟩
  | 29 => ⟨S1026x1024, .f32⟩
  | 30 => ⟨S1026x1, .f32⟩
  | 31 => ⟨S1026x1, .f32⟩
  | 32 => ⟨S1026x1, .f32⟩
  | 33 => ⟨S1026x1025, .f32⟩
  | 34 => ⟨S1026x1, .f32⟩
  | 35 => ⟨S1026x1, .f32⟩
  | 36 => ⟨S1026x1, .f32⟩
  | 37 => ⟨S1026x1026, .f32⟩
  | 38 => ⟨S_, .f32⟩
  | 39 => ⟨S1024x1024, .f32⟩
  | 40 => ⟨S1024x1024, .f32⟩
  | 41 => ⟨S_, .f32⟩
  | 42 => ⟨S1024x1024, .f32⟩
  | 43 => ⟨S1024x1024, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S1024x1024, .f32⟩
  | 51 => ⟨S_, .f32⟩
  | 52 => ⟨S1024x1024, .f32⟩
  | 53 => ⟨S1024x1024, .f32⟩
  | 54 => ⟨S1024x1024, .f32⟩
  | 55 => ⟨S1024x1024, .f32⟩
  | 56 => ⟨S_, .f32⟩
  | 57 => ⟨S1024x1024, .f32⟩
  | 58 => ⟨S1024x1024, .f32⟩
  | 59 => ⟨S1024x1024, .f32⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S1024x1024, .f32⟩
  | 66 => ⟨S_, .f32⟩
  | 67 => ⟨S1024x1024, .f32⟩
  | 68 => ⟨S1024x1024, .f32⟩
  | 69 => ⟨S1024x1024, .f32⟩
  | 70 => ⟨S1024x1024, .f32⟩
  | 71 => ⟨S_, .f32⟩
  | 72 => ⟨S1024x1024, .f32⟩
  | 73 => ⟨S1024x1024, .f32⟩
  | 74 => ⟨S1024x1024, .f32⟩
  | 75 => ⟨S1024x1024, .f32⟩
  | 76 => ⟨S_, .f32⟩
  | 77 => ⟨S1024x1024, .f32⟩
  | 78 => ⟨S1024x1024, .f32⟩
  | 79 => ⟨S1024x1024, .f32⟩
  | 80 => ⟨S1024x1024, .f32⟩
  | 81 => ⟨S_, .f32⟩
  | 82 => ⟨S1024x1024, .f32⟩
  | 83 => ⟨S1024x1024, .f32⟩
  | 84 => ⟨S1024x1024, .f32⟩
  | 85 => ⟨S_, .i32⟩
  | 86 => ⟨S1x1024, .f32⟩
  | 87 => ⟨S1x1024, .f32⟩
  | 88 => ⟨S1x1024, .f32⟩
  | 89 => ⟨S1025x1024, .f32⟩
  | 90 => ⟨S1x1024, .f32⟩
  | 91 => ⟨S1x1024, .f32⟩
  | 92 => ⟨S1x1024, .f32⟩
  | 93 => ⟨S1026x1024, .f32⟩
  | 94 => ⟨S1026x1, .f32⟩
  | 95 => ⟨S1026x1, .f32⟩
  | 96 => ⟨S1026x1, .f32⟩
  | 97 => ⟨S1026x1025, .f32⟩
  | 98 => ⟨S1026x1, .f32⟩
  | 99 => ⟨S1026x1, .f32⟩
  | 100 => ⟨S1026x1, .f32⟩
  | 101 => ⟨S1026x1026, .f32⟩
  | 102 => ⟨S_, .f32⟩
  | 103 => ⟨S1024x1024, .f32⟩
  | 104 => ⟨S1024x1024, .f32⟩
  | 105 => ⟨S_, .f32⟩
  | 106 => ⟨S1024x1024, .f32⟩
  | 107 => ⟨S1024x1024, .f32⟩
  | 108 => ⟨S1024x1024, .f32⟩
  | 109 => ⟨S1024x1024, .f32⟩
  | 110 => ⟨S_, .f32⟩
  | 111 => ⟨S1024x1024, .f32⟩
  | 112 => ⟨S1024x1024, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S1024x1024, .f32⟩
  | 119 => ⟨S1024x1024, .f32⟩
  | 120 => ⟨S_, .f32⟩
  | 121 => ⟨S1024x1024, .f32⟩
  | 122 => ⟨S1024x1024, .f32⟩
  | 123 => ⟨S1024x1024, .f32⟩
  | 124 => ⟨S1024x1024, .f32⟩
  | 125 => ⟨S_, .f32⟩
  | 126 => ⟨S1024x1024, .f32⟩
  | 127 => ⟨S1024x1024, .f32⟩
  | _ => ⟨S8x3x1024x1024, .f32⟩

abbrev hbmTy0_1 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S1024x1024, .f32⟩
  | 6 => ⟨S1024x1024, .f32⟩
  | 7 => ⟨S_, .f32⟩
  | 8 => ⟨S1024x1024, .f32⟩
  | 9 => ⟨S1024x1024, .f32⟩
  | 10 => ⟨S1024x1024, .f32⟩
  | 11 => ⟨S1024x1024, .f32⟩
  | 12 => ⟨S_, .f32⟩
  | 13 => ⟨S1024x1024, .f32⟩
  | 14 => ⟨S1024x1024, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S_, .i32⟩
  | 22 => ⟨S1x1024, .f32⟩
  | 23 => ⟨S1x1024, .f32⟩
  | 24 => ⟨S1x1024, .f32⟩
  | 25 => ⟨S1025x1024, .f32⟩
  | 26 => ⟨S1x1024, .f32⟩
  | 27 => ⟨S1x1024, .f32⟩
  | 28 => ⟨S1x1024, .f32⟩
  | 29 => ⟨S1026x1024, .f32⟩
  | 30 => ⟨S1026x1, .f32⟩
  | 31 => ⟨S1026x1, .f32⟩
  | 32 => ⟨S1026x1, .f32⟩
  | 33 => ⟨S1026x1025, .f32⟩
  | 34 => ⟨S1026x1, .f32⟩
  | 35 => ⟨S1026x1, .f32⟩
  | 36 => ⟨S1026x1, .f32⟩
  | 37 => ⟨S1026x1026, .f32⟩
  | 38 => ⟨S_, .f32⟩
  | 39 => ⟨S1024x1024, .f32⟩
  | 40 => ⟨S1024x1024, .f32⟩
  | 41 => ⟨S_, .f32⟩
  | 42 => ⟨S1024x1024, .f32⟩
  | 43 => ⟨S1024x1024, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S1024x1024, .f32⟩
  | 51 => ⟨S_, .f32⟩
  | 52 => ⟨S1024x1024, .f32⟩
  | 53 => ⟨S1024x1024, .f32⟩
  | 54 => ⟨S1024x1024, .f32⟩
  | 55 => ⟨S1024x1024, .f32⟩
  | 56 => ⟨S_, .f32⟩
  | 57 => ⟨S1024x1024, .f32⟩
  | 58 => ⟨S1024x1024, .f32⟩
  | 59 => ⟨S1024x1024, .f32⟩
  | 60 => ⟨S1024x1024, .f32⟩
  | 61 => ⟨S_, .f32⟩
  | 62 => ⟨S1024x1024, .f32⟩
  | 63 => ⟨S1024x1024, .f32⟩
  | 64 => ⟨S1024x1024, .f32⟩
  | 65 => ⟨S1024x1024, .f32⟩
  | 66 => ⟨S_, .f32⟩
  | 67 => ⟨S1024x1024, .f32⟩
  | 68 => ⟨S1024x1024, .f32⟩
  | 69 => ⟨S1024x1024, .f32⟩
  | 70 => ⟨S1024x1024, .f32⟩
  | 71 => ⟨S_, .f32⟩
  | 72 => ⟨S1024x1024, .f32⟩
  | 73 => ⟨S1024x1024, .f32⟩
  | 74 => ⟨S1024x1024, .f32⟩
  | 75 => ⟨S1024x1024, .f32⟩
  | 76 => ⟨S_, .f32⟩
  | 77 => ⟨S1024x1024, .f32⟩
  | 78 => ⟨S1024x1024, .f32⟩
  | 79 => ⟨S1024x1024, .f32⟩
  | 80 => ⟨S1024x1024, .f32⟩
  | 81 => ⟨S_, .f32⟩
  | 82 => ⟨S1024x1024, .f32⟩
  | 83 => ⟨S1024x1024, .f32⟩
  | 84 => ⟨S1024x1024, .f32⟩
  | 85 => ⟨S_, .i32⟩
  | 86 => ⟨S1x1024, .f32⟩
  | 87 => ⟨S1x1024, .f32⟩
  | 88 => ⟨S1x1024, .f32⟩
  | 89 => ⟨S1025x1024, .f32⟩
  | 90 => ⟨S1x1024, .f32⟩
  | 91 => ⟨S1x1024, .f32⟩
  | 92 => ⟨S1x1024, .f32⟩
  | 93 => ⟨S1026x1024, .f32⟩
  | 94 => ⟨S1026x1, .f32⟩
  | 95 => ⟨S1026x1, .f32⟩
  | 96 => ⟨S1026x1, .f32⟩
  | 97 => ⟨S1026x1025, .f32⟩
  | 98 => ⟨S1026x1, .f32⟩
  | 99 => ⟨S1026x1, .f32⟩
  | 100 => ⟨S1026x1, .f32⟩
  | 101 => ⟨S1026x1026, .f32⟩
  | 102 => ⟨S_, .f32⟩
  | 103 => ⟨S1024x1024, .f32⟩
  | 104 => ⟨S1024x1024, .f32⟩
  | 105 => ⟨S_, .f32⟩
  | 106 => ⟨S1024x1024, .f32⟩
  | 107 => ⟨S1024x1024, .f32⟩
  | 108 => ⟨S1024x1024, .f32⟩
  | 109 => ⟨S1024x1024, .f32⟩
  | 110 => ⟨S_, .f32⟩
  | 111 => ⟨S1024x1024, .f32⟩
  | 112 => ⟨S1024x1024, .f32⟩
  | 113 => ⟨S1024x1024, .f32⟩
  | 114 => ⟨S1024x1024, .f32⟩
  | 115 => ⟨S_, .f32⟩
  | 116 => ⟨S1024x1024, .f32⟩
  | 117 => ⟨S1024x1024, .f32⟩
  | 118 => ⟨S1024x1024, .f32⟩
  | 119 => ⟨S1024x1024, .f32⟩
  | 120 => ⟨S_, .f32⟩
  | 121 => ⟨S1024x1024, .f32⟩
  | 122 => ⟨S1024x1024, .f32⟩
  | 123 => ⟨S1024x1024, .f32⟩
  | 124 => ⟨S1024x1024, .f32⟩
  | 125 => ⟨S_, .f32⟩
  | 126 => ⟨S1024x1024, .f32⟩
  | 127 => ⟨S1024x1024, .f32⟩
  | _ => ⟨S8x3x1024x1024, .f32⟩

abbrev hbmTy0_2 (i : Nat) : BufTy := match i % 128 with
  | 0 => ⟨S1024x1024, .f32⟩
  | 1 => ⟨S1024x1024, .f32⟩
  | 2 => ⟨S_, .f32⟩
  | 3 => ⟨S1024x1024, .f32⟩
  | 4 => ⟨S1024x1024, .f32⟩
  | 5 => ⟨S1024x1024, .f32⟩
  | 6 => ⟨S1024x1024, .f32⟩
  | 7 => ⟨S_, .f32⟩
  | 8 => ⟨S1024x1024, .f32⟩
  | 9 => ⟨S1024x1024, .f32⟩
  | 10 => ⟨S1024x1024, .f32⟩
  | 11 => ⟨S1024x1024, .f32⟩
  | 12 => ⟨S_, .f32⟩
  | 13 => ⟨S1024x1024, .f32⟩
  | 14 => ⟨S1024x1024, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S8x1x1, .f32⟩
  | 22 => ⟨S_, .f32⟩
  | 23 => ⟨S_, .f32⟩
  | 24 => ⟨S_, .f32⟩
  | 25 => ⟨S_, .f32⟩
  | 26 => ⟨S_, .i32⟩
  | 27 => ⟨S1024x1, .f32⟩
  | 28 => ⟨S1024x1, .f32⟩
  | 29 => ⟨S1024x1, .f32⟩
  | 30 => ⟨S1024x1025, .f32⟩
  | 31 => ⟨S1024x1, .f32⟩
  | 32 => ⟨S1024x1, .f32⟩
  | 33 => ⟨S1024x1, .f32⟩
  | 34 => ⟨S1024x1026, .f32⟩
  | 35 => ⟨S1024x1024, .f32⟩
  | 36 => ⟨S_, .f32⟩
  | 37 => ⟨S1024x1024, .f32⟩
  | 38 => ⟨S1024x1024, .f32⟩
  | 39 => ⟨S1024x1024, .f32⟩
  | 40 => ⟨S_, .f32⟩
  | 41 => ⟨S1024x1024, .f32⟩
  | 42 => ⟨S1024x1024, .f32⟩
  | 43 => ⟨S1024x1024, .f32⟩
  | 44 => ⟨S_, .i32⟩
  | 45 => ⟨S1024x1, .f32⟩
  | 46 => ⟨S1024x1, .f32⟩
  | 47 => ⟨S1024x1, .f32⟩
  | 48 => ⟨S1024x1025, .f32⟩
  | 49 => ⟨S1024x1, .f32⟩
  | 50 => ⟨S1024x1, .f32⟩
  | 51 => ⟨S1024x1, .f32⟩
  | 52 => ⟨S1024x1026, .f32⟩
  | 53 => ⟨S1024x1024, .f32⟩
  | 54 => ⟨S_, .f32⟩
  | 55 => ⟨S1024x1024, .f32⟩
  | 56 => ⟨S1024x1024, .f32⟩
  | 57 => ⟨S1024x1024, .f32⟩
  | 58 => ⟨S_, .f32⟩
  | 59 => ⟨S1024x1024, .f32⟩
  | 60 => ⟨S1024x1024, .f32⟩
  | 61 => ⟨S1024x1024, .f32⟩
  | 62 => ⟨S1024x1024, .f32⟩
  | 63 => ⟨S1024x1024, .f32⟩
  | 64 => ⟨S_, .f32⟩
  | 65 => ⟨S_, .f32⟩
  | 66 => ⟨S_, .f32⟩
  | 67 => ⟨S_, .f32⟩
  | 68 => ⟨S8x3, .f32⟩
  | 69 => ⟨S8x3, .f32⟩
  | 70 => ⟨S8x3, .f32⟩
  | 71 => ⟨S8x3, .f32⟩
  | 72 => ⟨S_, .f32⟩
  | 73 => ⟨S8x3, .f32⟩
  | 74 => ⟨S8x3, .f32⟩
  | 75 => ⟨S8x3, .f32⟩
  | 76 => ⟨S_, .f32⟩
  | 77 => ⟨S8x3, .f32⟩
  | 78 => ⟨S8x3, .f32⟩
  | 79 => ⟨S8x3, .f32⟩
  | 80 => ⟨S_, .f32⟩
  | 81 => ⟨S8x3, .f32⟩
  | 82 => ⟨S8x3, .f32⟩
  | 83 => ⟨S8x3, .f32⟩
  | 84 => ⟨S8x3, .f32⟩
  | 85 => ⟨S_, .f32⟩
  | 86 => ⟨S8x3, .f32⟩
  | 87 => ⟨S8x3, .f32⟩
  | 88 => ⟨S8x3, .f32⟩
  | 89 => ⟨S_, .f32⟩
  | 90 => ⟨S8x3, .f32⟩
  | 91 => ⟨S8x3, .f32⟩
  | 92 => ⟨S8x3, .f32⟩
  | 93 => ⟨S_, .f32⟩
  | 94 => ⟨S8x3, .f32⟩
  | 95 => ⟨S8x3, .f32⟩
  | 96 => ⟨S8x3, .f32⟩
  | 97 => ⟨S_, .f32⟩
  | 98 => ⟨S_, .f32⟩
  | 99 => ⟨S_, .f32⟩
  | 100 => ⟨S_, .f32⟩
  | 101 => ⟨S8x3, .f32⟩
  | 102 => ⟨S8x3, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | _ => ⟨S8x3x1024x1024, .f32⟩

abbrev hbmTy (i : Nat) : BufTy := match i / 128 with
  | 0 => hbmTy0_0 i
  | 1 => hbmTy0_1 i
  | 2 => hbmTy0_2 i
  | _ => ⟨S8x3x1024x1024, .f32⟩

abbrev bufTy : (tb : Table) → Fin (tcTables nBuf tb) → BufTy
  | .hbm, ⟨i, _⟩ => hbmTy i
  | .local _ .vmem, ⟨0, _⟩ => ⟨S1x3x256x1024, .f32⟩
  | .local _ .vmem, ⟨1, _⟩ => ⟨S1x3x256x1024, .f32⟩
  | .local _ .vmem, ⟨2, _⟩ => ⟨S1x3x256x1024, .f32⟩
  | .local _ .vmem, ⟨3, _⟩ => ⟨S1x3x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x3x1x1, .f32⟩
  | .local _ .vmem, ⟨9, _⟩ => ⟨S1x3x1x1, .f32⟩
  | .local _ .vmem, ⟨10, _⟩ => ⟨S1x3x1x1, .f32⟩
  | .local _ .vmem, ⟨11, _⟩ => ⟨S1x3x1x1, .f32⟩
  | .local _ .vmem, ⟨12, _⟩ => ⟨S1x3x1x1, .f32⟩
  | .local _ .vmem, ⟨13, _⟩ => ⟨S1x3x1x1, .f32⟩
  | .local _ .vmem, ⟨14, _⟩ => ⟨S1x3x1x1, .f32⟩
  | .local _ .vmem, ⟨15, _⟩ => ⟨S1x3x1x1, .f32⟩
  | .local _ .vmem, ⟨16, _⟩ => ⟨S1x1x1x1, .f32⟩
  | .local _ .vmem, ⟨17, _⟩ => ⟨S1x1x1x1, .f32⟩
  | .local _ .vmem, ⟨18, _⟩ => ⟨S1x1x1024x1024, .f32⟩
  | .local _ .vmem, ⟨19, _⟩ => ⟨S1x1x1024x1024, .f32⟩
  | .local _ .vmem, ⟨20, _⟩ => ⟨S1x1x1024x1024, .f32⟩
  | .local _ .vmem, ⟨21, _⟩ => ⟨S1x1x1024x1024, .f32⟩
  | .local _ .vmem, ⟨22, _⟩ => ⟨S1x1024x1024, .f32⟩
  | .local _ .vmem, ⟨23, _⟩ => ⟨S1x1024x1024, .f32⟩
  | .local _ .vmem, ⟨24, _⟩ => ⟨S1x1024x1024, .f32⟩
  | .local _ .vmem, ⟨25, _⟩ => ⟨S1x1024x1024, .f32⟩
  | .local _ .vmem, ⟨26, _⟩ => ⟨S1024x1024, .f32⟩
  | .local _ .vmem, ⟨27, _⟩ => ⟨S1024x1024, .f32⟩
  | .local _ .vmem, ⟨28, _⟩ => ⟨S1x1x1, .f32⟩
  | .local _ .vmem, ⟨29, _⟩ => ⟨S1x1x1, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v13 : Ref sig .tc := ⟨.hbm, 37, rfl⟩
abbrev main_cst : Ref sig .tc := ⟨.hbm, 38, rfl⟩
abbrev main_v14 : Ref sig .tc := ⟨.hbm, 39, rfl⟩
abbrev main_v15 : Ref sig .tc := ⟨.hbm, 40, rfl⟩
abbrev main_cst_0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_1 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_3 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_cst_4 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_5 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_8 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_c_9 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_v12 : Ref sig .tc := ⟨.hbm, 98, rfl⟩
abbrev main_call1_v13 : Ref sig .tc := ⟨.hbm, 99, rfl⟩
abbrev main_call1_v14 : Ref sig .tc := ⟨.hbm, 100, rfl⟩
abbrev main_v51 : Ref sig .tc := ⟨.hbm, 101, rfl⟩
abbrev main_cst_10 : Ref sig .tc := ⟨.hbm, 102, rfl⟩
abbrev main_v52 : Ref sig .tc := ⟨.hbm, 103, rfl⟩
abbrev main_v53 : Ref sig .tc := ⟨.hbm, 104, rfl⟩
abbrev main_cst_11 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_12 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_13 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_14 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_cst_15 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_cst_16 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_cst_17 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_18 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_cst_19 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_c_20 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_call2_v12 : Ref sig .tc := ⟨.hbm, 162, rfl⟩
abbrev main_call2_v13 : Ref sig .tc := ⟨.hbm, 163, rfl⟩
abbrev main_call2_v14 : Ref sig .tc := ⟨.hbm, 164, rfl⟩
abbrev main_v89 : Ref sig .tc := ⟨.hbm, 165, rfl⟩
abbrev main_cst_21 : Ref sig .tc := ⟨.hbm, 166, rfl⟩
abbrev main_v90 : Ref sig .tc := ⟨.hbm, 167, rfl⟩
abbrev main_v91 : Ref sig .tc := ⟨.hbm, 168, rfl⟩
abbrev main_cst_22 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_cst_23 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_cst_24 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_cst_25 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_cst_26 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_27 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_cst_28 : Ref sig .tc := ⟨.hbm, 199, rfl⟩
abbrev main_v116 : Ref sig .tc := ⟨.hbm, 200, rfl⟩
abbrev main_v117 : Ref sig .tc := ⟨.hbm, 201, rfl⟩
abbrev main_v118 : Ref sig .tc := ⟨.hbm, 202, rfl⟩
abbrev main_v119 : Ref sig .tc := ⟨.hbm, 203, rfl⟩
abbrev main_cst_29 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_cst_30 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_c_31 : Ref sig .tc := ⟨.hbm, 213, rfl⟩
abbrev main_call3_v0 : Ref sig .tc := ⟨.hbm, 214, rfl⟩
abbrev main_call3_v1 : Ref sig .tc := ⟨.hbm, 215, rfl⟩
abbrev main_call3_v2 : Ref sig .tc := ⟨.hbm, 216, rfl⟩
abbrev main_call3_v3 : Ref sig .tc := ⟨.hbm, 217, rfl⟩
abbrev main_call3_v4 : Ref sig .tc := ⟨.hbm, 218, rfl⟩
abbrev main_call3_v5 : Ref sig .tc := ⟨.hbm, 219, rfl⟩
abbrev main_call3_v6 : Ref sig .tc := ⟨.hbm, 220, rfl⟩
abbrev main_call3_v7 : Ref sig .tc := ⟨.hbm, 221, rfl⟩
abbrev main_call3_v8 : Ref sig .tc := ⟨.hbm, 222, rfl⟩
abbrev main_call3_v9 : Ref sig .tc := ⟨.hbm, 223, rfl⟩
abbrev main_call3_v10 : Ref sig .tc := ⟨.hbm, 224, rfl⟩
abbrev main_call3_v11 : Ref sig .tc := ⟨.hbm, 225, rfl⟩
abbrev main_call3_v12 : Ref sig .tc := ⟨.hbm, 226, rfl⟩
abbrev main_call3_v13 : Ref sig .tc := ⟨.hbm, 227, rfl⟩
abbrev main_call3_v14 : Ref sig .tc := ⟨.hbm, 228, rfl⟩
abbrev main_v127 : Ref sig .tc := ⟨.hbm, 229, rfl⟩
abbrev main_cst_32 : Ref sig .tc := ⟨.hbm, 230, rfl⟩
abbrev main_v128 : Ref sig .tc := ⟨.hbm, 231, rfl⟩
abbrev main_v129 : Ref sig .tc := ⟨.hbm, 232, rfl⟩
abbrev main_cst_33 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_cst_34 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_cst_35 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_v141 : Ref sig .tc := ⟨.hbm, 247, rfl⟩
abbrev main_cst_36 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_cst_37 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_cst_38 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_cst_39 : Ref sig .tc := ⟨.hbm, 263, rfl⟩
abbrev main_v154 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_cst_40 : Ref sig .tc := ⟨.hbm, 268, rfl⟩
abbrev main_v158 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_cst_41 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_cst_42 : Ref sig .tc := ⟨.hbm, 278, rfl⟩
abbrev main_v166 : Ref sig .tc := ⟨.hbm, 279, rfl⟩
abbrev main_cst_43 : Ref sig .tc := ⟨.hbm, 280, rfl⟩
abbrev main_v167 : Ref sig .tc := ⟨.hbm, 281, rfl⟩
abbrev main_c_44 : Ref sig .tc := ⟨.hbm, 282, rfl⟩
abbrev main_call4_v0 : Ref sig .tc := ⟨.hbm, 283, rfl⟩
abbrev main_call4_v1 : Ref sig .tc := ⟨.hbm, 284, rfl⟩
abbrev main_call4_v2 : Ref sig .tc := ⟨.hbm, 285, rfl⟩
abbrev main_call4_v3 : Ref sig .tc := ⟨.hbm, 286, rfl⟩
abbrev main_call4_v4 : Ref sig .tc := ⟨.hbm, 287, rfl⟩
abbrev main_call4_v5 : Ref sig .tc := ⟨.hbm, 288, rfl⟩
abbrev main_call4_v6 : Ref sig .tc := ⟨.hbm, 289, rfl⟩
abbrev main_v168 : Ref sig .tc := ⟨.hbm, 290, rfl⟩
abbrev main_v169 : Ref sig .tc := ⟨.hbm, 291, rfl⟩
abbrev main_cst_45 : Ref sig .tc := ⟨.hbm, 292, rfl⟩
abbrev main_v170 : Ref sig .tc := ⟨.hbm, 293, rfl⟩
abbrev main_v171 : Ref sig .tc := ⟨.hbm, 294, rfl⟩
abbrev main_v172 : Ref sig .tc := ⟨.hbm, 295, rfl⟩
abbrev main_cst_46 : Ref sig .tc := ⟨.hbm, 296, rfl⟩
abbrev main_v173 : Ref sig .tc := ⟨.hbm, 297, rfl⟩
abbrev main_v174 : Ref sig .tc := ⟨.hbm, 298, rfl⟩
abbrev main_v175 : Ref sig .tc := ⟨.hbm, 299, rfl⟩
abbrev main_c_47 : Ref sig .tc := ⟨.hbm, 300, rfl⟩
abbrev main_call5_v0 : Ref sig .tc := ⟨.hbm, 301, rfl⟩
abbrev main_call5_v1 : Ref sig .tc := ⟨.hbm, 302, rfl⟩
abbrev main_call5_v2 : Ref sig .tc := ⟨.hbm, 303, rfl⟩
abbrev main_call5_v3 : Ref sig .tc := ⟨.hbm, 304, rfl⟩
abbrev main_call5_v4 : Ref sig .tc := ⟨.hbm, 305, rfl⟩
abbrev main_call5_v5 : Ref sig .tc := ⟨.hbm, 306, rfl⟩
abbrev main_call5_v6 : Ref sig .tc := ⟨.hbm, 307, rfl⟩
abbrev main_v176 : Ref sig .tc := ⟨.hbm, 308, rfl⟩
abbrev main_v177 : Ref sig .tc := ⟨.hbm, 309, rfl⟩
abbrev main_cst_48 : Ref sig .tc := ⟨.hbm, 310, rfl⟩
abbrev main_v178 : Ref sig .tc := ⟨.hbm, 311, rfl⟩
abbrev main_v179 : Ref sig .tc := ⟨.hbm, 312, rfl⟩
abbrev main_v180 : Ref sig .tc := ⟨.hbm, 313, rfl⟩
abbrev main_cst_49 : Ref sig .tc := ⟨.hbm, 314, rfl⟩
abbrev main_v181 : Ref sig .tc := ⟨.hbm, 315, rfl⟩
abbrev main_v182 : Ref sig .tc := ⟨.hbm, 316, rfl⟩
abbrev main_v183 : Ref sig .tc := ⟨.hbm, 317, rfl⟩
abbrev main_v184 : Ref sig .tc := ⟨.hbm, 318, rfl⟩
abbrev main_v185 : Ref sig .tc := ⟨.hbm, 319, rfl⟩
abbrev main_cst_50 : Ref sig .tc := ⟨.hbm, 320, rfl⟩
abbrev main_v186 : Ref sig .tc := ⟨.hbm, 321, rfl⟩
abbrev main_cst_51 : Ref sig .tc := ⟨.hbm, 322, rfl⟩
abbrev main_v187 : Ref sig .tc := ⟨.hbm, 323, rfl⟩
abbrev main_v188 : Ref sig .tc := ⟨.hbm, 324, rfl⟩
abbrev main_v189 : Ref sig .tc := ⟨.hbm, 325, rfl⟩
abbrev main_v190 : Ref sig .tc := ⟨.hbm, 326, rfl⟩
abbrev main_v191 : Ref sig .tc := ⟨.hbm, 327, rfl⟩
abbrev main_cst_52 : Ref sig .tc := ⟨.hbm, 328, rfl⟩
abbrev main_v192 : Ref sig .tc := ⟨.hbm, 329, rfl⟩
abbrev main_v193 : Ref sig .tc := ⟨.hbm, 330, rfl⟩
abbrev main_v194 : Ref sig .tc := ⟨.hbm, 331, rfl⟩
abbrev main_cst_53 : Ref sig .tc := ⟨.hbm, 332, rfl⟩
abbrev main_v195 : Ref sig .tc := ⟨.hbm, 333, rfl⟩
abbrev main_v196 : Ref sig .tc := ⟨.hbm, 334, rfl⟩
abbrev main_v197 : Ref sig .tc := ⟨.hbm, 335, rfl⟩
abbrev main_cst_54 : Ref sig .tc := ⟨.hbm, 336, rfl⟩
abbrev main_v198 : Ref sig .tc := ⟨.hbm, 337, rfl⟩
abbrev main_v199 : Ref sig .tc := ⟨.hbm, 338, rfl⟩
abbrev main_v200 : Ref sig .tc := ⟨.hbm, 339, rfl⟩
abbrev main_v201 : Ref sig .tc := ⟨.hbm, 340, rfl⟩
abbrev main_cst_55 : Ref sig .tc := ⟨.hbm, 341, rfl⟩
abbrev main_v202 : Ref sig .tc := ⟨.hbm, 342, rfl⟩
abbrev main_v203 : Ref sig .tc := ⟨.hbm, 343, rfl⟩
abbrev main_v204 : Ref sig .tc := ⟨.hbm, 344, rfl⟩
abbrev main_cst_56 : Ref sig .tc := ⟨.hbm, 345, rfl⟩
abbrev main_v205 : Ref sig .tc := ⟨.hbm, 346, rfl⟩
abbrev main_v206 : Ref sig .tc := ⟨.hbm, 347, rfl⟩
abbrev main_v207 : Ref sig .tc := ⟨.hbm, 348, rfl⟩
abbrev main_cst_57 : Ref sig .tc := ⟨.hbm, 349, rfl⟩
abbrev main_v208 : Ref sig .tc := ⟨.hbm, 350, rfl⟩
abbrev main_v209 : Ref sig .tc := ⟨.hbm, 351, rfl⟩
abbrev main_v210 : Ref sig .tc := ⟨.hbm, 352, rfl⟩
abbrev main_cst_58 : Ref sig .tc := ⟨.hbm, 353, rfl⟩
abbrev main_v211 : Ref sig .tc := ⟨.hbm, 354, rfl⟩
abbrev main_cst_59 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_cst_60 : Ref sig .tc := ⟨.hbm, 359, rfl⟩
abbrev main_v215 : Ref sig .tc := ⟨.hbm, 360, rfl⟩
abbrev main_cst_61 : Ref sig .tc := ⟨.hbm, 361, rfl⟩
abbrev main_v216 : Ref sig .tc := ⟨.hbm, 362, rfl⟩
abbrev main_cst_62 : Ref sig .tc := ⟨.hbm, 363, rfl⟩
abbrev main_v217 : Ref sig .tc := ⟨.hbm, 364, rfl⟩
abbrev main_cst_63 : Ref sig .tc := ⟨.hbm, 365, rfl⟩
abbrev main_v218 : Ref sig .tc := ⟨.hbm, 366, rfl⟩
abbrev main_v219 : Ref sig .tc := ⟨.hbm, 367, rfl⟩
abbrev main_v220 : Ref sig .tc := ⟨.hbm, 368, rfl⟩
abbrev main_v221 : Ref sig .tc := ⟨.hbm, 369, rfl⟩
abbrev main_v222 : Ref sig .tc := ⟨.hbm, 370, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x3x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![2, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x1x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  inb_S1x3x1x1_S1x3x1x1_0_0_0_0 : ∀ a, (![0, 0, 0, 0] : Fin 4 → Nat) a + S1x3x1x1.size a ≤ S1x3x1x1.size a
  h_S1x3x1x1 : 0 < S1x3x1x1.numel
  inb_S1x1x1x1_S1x1x1x1_0_0_0_0 : ∀ a, (![0, 0, 0, 0] : Fin 4 → Nat) a + S1x1x1x1.size a ≤ S1x1x1x1.size a
  h_S1x1x1x1 : 0 < S1x1x1x1.numel
  inb_S1x3x256x1024_S1x3x256x1024_0_0_0_0 : ∀ a, (![0, 0, 0, 0] : Fin 4 → Nat) a + S1x3x256x1024.size a ≤ S1x3x256x1024.size a
  h_S1x3x256x1024 : 0 < S1x3x256x1024.numel
  shapeCasts_S1x3x1x1_S1x3x1x1 : S1x3x1x1.ShapeCasts S1x3x1x1
  reduces_S1x3x256x1024_S1x3 : S1x3x256x1024.Reduces [2, 3] S1x3
  shapeCasts_S1x3_S1x3x1x1 : S1x3.ShapeCasts S1x3x1x1
  shapeCasts_S1x1x1x1_S1x1x1x1 : S1x1x1x1.ShapeCasts S1x1x1x1
  reduces_S1x3x1x1_S1x1x1 : S1x3x1x1.Reduces [1] S1x1x1
  shapeCasts_S1x1x1_S1x1x1x1 : S1x1x1.ShapeCasts S1x1x1x1
  reduces_S1x3x256x1024_S1x256x1024 : S1x3x256x1024.Reduces [1] S1x256x1024
  inb_S1x256x1024_S1x256x1024_0_0_0 : ∀ a, (![0, 0, 0] : Fin 3 → Nat) a + S1x256x1024.size a ≤ S1x256x1024.size a
  h_S1x256x1024 : 0 < S1x256x1024.numel
  bcast_S8x1024x1024_S1x8x1024x1024_1_2_3 : S8x1024x1024.BroadcastsInDim S1x8x1024x1024 (![1, 2, 3] : Fin 3 → Fin S1x8x1024x1024.rank)
  concatenates_S1x8x1024x1024_S1x8x1024x1024_S2x8x1024x1024_d0 : Shape.Concatenates [S1x8x1024x1024, S1x8x1024x1024] S2x8x1024x1024 0
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  slices_S1024x1024_o1_0_S1x1024 : S1024x1024.Slices ![1, 0] S1x1024
  slices_S1024x1024_o1022_0_S1x1024 : S1024x1024.Slices ![1022, 0] S1x1024
  concatenates_S1x1024_S1024x1024_S1x1024_S1026x1024_d0 : Shape.Concatenates [S1x1024, S1024x1024, S1x1024] S1026x1024 0
  slices_S1026x1024_o0_1_S1026x1 : S1026x1024.Slices ![0, 1] S1026x1
  slices_S1026x1024_o0_1022_S1026x1 : S1026x1024.Slices ![0, 1022] S1026x1
  concatenates_S1026x1_S1026x1024_S1026x1_S1026x1026_d1 : Shape.Concatenates [S1026x1, S1026x1024, S1026x1] S1026x1026 1
  slices_S1026x1026_o0_0_S1024x1024 : S1026x1026.Slices ![0, 0] S1024x1024
  slices_S1026x1026_o0_1_S1024x1024 : S1026x1026.Slices ![0, 1] S1024x1024
  slices_S1026x1026_o0_2_S1024x1024 : S1026x1026.Slices ![0, 2] S1024x1024
  slices_S1026x1026_o1_0_S1024x1024 : S1026x1026.Slices ![1, 0] S1024x1024
  slices_S1026x1026_o1_1_S1024x1024 : S1026x1026.Slices ![1, 1] S1024x1024
  slices_S1026x1026_o1_2_S1024x1024 : S1026x1026.Slices ![1, 2] S1024x1024
  slices_S1026x1026_o2_0_S1024x1024 : S1026x1026.Slices ![2, 0] S1024x1024
  slices_S1026x1026_o2_1_S1024x1024 : S1026x1026.Slices ![2, 1] S1024x1024
  slices_S1026x1026_o2_2_S1024x1024 : S1026x1026.Slices ![2, 2] S1024x1024
  shapeCasts_S1024x1024_S1x1x1024x1024 : S1024x1024.ShapeCasts S1x1x1024x1024
  slices_S2x8x1024x1024_S1x8x1024x1024_0_0_0_0 : S2x8x1024x1024.Slices ![0, 0, 0, 0] S1x8x1024x1024
  shapeCasts_S1x8x1024x1024_S8x1024x1024 : S1x8x1024x1024.ShapeCasts S8x1024x1024
  slices_S2x8x1024x1024_S1x8x1024x1024_1_0_0_0 : S2x8x1024x1024.Slices ![1, 0, 0, 0] S1x8x1024x1024
  slices_S8x3x1024x1024_S1x1x1024x1024_0_0_0_0 : S8x3x1024x1024.Slices ![0, 0, 0, 0] S1x1x1024x1024
  slices_S1024x1024_S1x1024_0_0 : S1024x1024.Slices ![0, 0] S1x1024
  slices_S1024x1024_S1x1024_1_0 : S1024x1024.Slices ![1, 0] S1x1024
  concatenates_S1x1024_S1024x1024_S1025x1024_d0 : Shape.Concatenates [S1x1024, S1024x1024] S1025x1024 0
  slices_S1025x1024_S1x1024_1024_0 : S1025x1024.Slices ![1024, 0] S1x1024
  slices_S1025x1024_S1x1024_1023_0 : S1025x1024.Slices ![1023, 0] S1x1024
  concatenates_S1025x1024_S1x1024_S1026x1024_d0 : Shape.Concatenates [S1025x1024, S1x1024] S1026x1024 0
  slices_S1026x1024_S1026x1_0_0 : S1026x1024.Slices ![0, 0] S1026x1
  slices_S1026x1024_S1026x1_0_1 : S1026x1024.Slices ![0, 1] S1026x1
  concatenates_S1026x1_S1026x1024_S1026x1025_d1 : Shape.Concatenates [S1026x1, S1026x1024] S1026x1025 1
  slices_S1026x1025_S1026x1_0_1024 : S1026x1025.Slices ![0, 1024] S1026x1
  slices_S1026x1025_S1026x1_0_1023 : S1026x1025.Slices ![0, 1023] S1026x1
  concatenates_S1026x1025_S1026x1_S1026x1026_d1 : Shape.Concatenates [S1026x1025, S1026x1] S1026x1026 1
  bcast_S_S1024x1024 : S_.BroadcastsInDim S1024x1024 (![] : Fin 0 → Fin S1024x1024.rank)
  slices_S1026x1026_S1024x1024_0_0 : S1026x1026.Slices ![0, 0] S1024x1024
  slices_S1026x1026_S1024x1024_0_1 : S1026x1026.Slices ![0, 1] S1024x1024
  slices_S1026x1026_S1024x1024_0_2 : S1026x1026.Slices ![0, 2] S1024x1024
  slices_S1026x1026_S1024x1024_1_0 : S1026x1026.Slices ![1, 0] S1024x1024
  slices_S1026x1026_S1024x1024_1_1 : S1026x1026.Slices ![1, 1] S1024x1024
  slices_S1026x1026_S1024x1024_1_2 : S1026x1026.Slices ![1, 2] S1024x1024
  slices_S1026x1026_S1024x1024_2_0 : S1026x1026.Slices ![2, 0] S1024x1024
  slices_S1026x1026_S1024x1024_2_1 : S1026x1026.Slices ![2, 1] S1024x1024
  slices_S1026x1026_S1024x1024_2_2 : S1026x1026.Slices ![2, 2] S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  h_S_ : 0 < S_.numel
  slices_S1024x1024_S1024x1_0_0 : S1024x1024.Slices ![0, 0] S1024x1
  slices_S1024x1024_S1024x1_0_1 : S1024x1024.Slices ![0, 1] S1024x1
  concatenates_S1024x1_S1024x1024_S1024x1025_d1 : Shape.Concatenates [S1024x1, S1024x1024] S1024x1025 1
  slices_S1024x1025_S1024x1_0_1024 : S1024x1025.Slices ![0, 1024] S1024x1
  slices_S1024x1025_S1024x1_0_1023 : S1024x1025.Slices ![0, 1023] S1024x1
  concatenates_S1024x1025_S1024x1_S1024x1026_d1 : Shape.Concatenates [S1024x1025, S1024x1] S1024x1026 1
  slices_S1024x1026_S1024x1024_0_0 : S1024x1026.Slices ![0, 0] S1024x1024
  slices_S1024x1026_S1024x1024_0_2 : S1024x1026.Slices ![0, 2] S1024x1024
  reducesTo_S1024x1024_S_d0_1 : S1024x1024.ReducesTo [0, 1] S_
  shapeCasts_S8x3x1x1_S8x3 : S8x3x1x1.ShapeCasts S8x3
  bcast_S_S8x3 : S_.BroadcastsInDim S8x3 (![] : Fin 0 → Fin S8x3.rank)
  reducesTo_S8x3_S_d0_1 : S8x3.ReducesTo [0, 1] S_
  reducesTo_S8x1x1x1_S_d0_1_2_3 : S8x1x1x1.ReducesTo [0, 1, 2, 3] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x1024.size a ≤ S8x3x1024x1024.size a
  hwx0_0 : ∀ i : grid0.Coords, EltTy.bits .f32 = 32 ∨ (Rect.block (s := S8x3x1024x1024) S1x3x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x256x1024.size a ≤ S8x3x1024x1024.size a
  hwx0_1 : ∀ i : grid0.Coords, EltTy.bits .f32 = 32 ∨ (Rect.block (s := S8x3x1024x1024) S1x3x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x1024x1024.size a
  hwx0_2 : ∀ i : grid0.Coords, EltTy.bits .f32 = 32 ∨ (Rect.block (s := S8x1024x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S8x1024x1024.size a
  hwx0_3 : ∀ i : grid0.Coords, EltTy.bits .f32 = 32 ∨ (Rect.block (s := S8x1024x1024) S1x256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x1x1.size a ≤ S8x3x1x1.size a
  hwx0_4 : ∀ i : grid0.Coords, EltTy.bits .f32 = 32 ∨ (Rect.block (s := S8x3x1x1) S1x3x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3x1x1.size a ≤ S8x3x1x1.size a
  hwx0_5 : ∀ i : grid0.Coords, EltTy.bits .f32 = 32 ∨ (Rect.block (s := S8x3x1x1) S1x3x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x3x1x1.size a ≤ S8x3x1x1.size a
  hwx0_6 : ∀ i : grid0.Coords, EltTy.bits .f32 = 32 ∨ (Rect.block (s := S8x3x1x1) S1x3x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x3x1x1.size a ≤ S8x3x1x1.size a
  hwx0_7 : ∀ i : grid0.Coords, EltTy.bits .f32 = 32 ∨ (Rect.block (s := S8x3x1x1) S1x3x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1x1.size a ≤ S8x1x1x1.size a
  hwx0_8 : ∀ i : grid0.Coords, EltTy.bits .f32 = 32 ∨ (Rect.block (s := S8x1x1x1) S1x1x1x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x1024x1024.size a ≤ S2x8x1024x1024.size a
  hwx1_0 : ∀ i : grid1.Coords, EltTy.bits .f32 = 32 ∨ (Rect.block (s := S2x8x1024x1024) S1x1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1024x1024.size a ≤ S2x8x1024x1024.size a
  hwx1_1 : ∀ i : grid1.Coords, EltTy.bits .f32 = 32 ∨ (Rect.block (s := S2x8x1024x1024) S1x1x1024x1024.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S8x1024x1024.size a
  hwx2_0 : ∀ i : grid2.Coords, EltTy.bits .f32 = 32 ∨ (Rect.block (s := S8x1024x1024) S1x1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S8x1024x1024.size a
  hwx2_1 : ∀ i : grid2.Coords, EltTy.bits .f32 = 32 ∨ (Rect.block (s := S8x1024x1024) S1x1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S1024x1024.size a
  hwx2_2 : ∀ i : grid2.Coords, EltTy.bits .f32 = 32 ∨ (Rect.block (s := S1024x1024) S1024x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .f32 = 32 ∨ (Rect.block (s := S1024x1024) S1024x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1.size a ≤ S8x1x1.size a
  hwx2_4 : ∀ i : grid2.Coords, EltTy.bits .f32 = 32 ∨ (Rect.block (s := S8x1x1) S1x1x1.size (cc2_transform_4 i) (hinb2_4 i)).WholeWords (EltTy.packing .f32)

variable [Facts₀]

abbrev win0_0 : Pipeline.Window sig grid0 :=
  Pipeline.Window.ofSpec (Memref.whole main_arg1) S1x3x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x3x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x256x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x3x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x3x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1x3x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_5) S1x3x1x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_6) S1x1x1x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v3) S1x1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1x1024x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v6) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S1024x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v164) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v165) S1x1x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x3x1024x1024 : Shape := ⟨4, ![8, 3, 1024, 1024]⟩
abbrev S3x3 : Shape := ⟨2, ![3, 3]⟩
abbrev S_ : Shape := ⟨0, ![]⟩
abbrev S8x3 : Shape := ⟨2, ![8, 3]⟩
abbrev S8x3x1x1 : Shape := ⟨4, ![8, 3, 1, 1]⟩
abbrev S1x1x1024x1024 : Shape := ⟨4, ![1, 1, 1024, 1024]⟩
abbrev S1024x1024 : Shape := ⟨2, ![1024, 1024]⟩
abbrev S1024x1 : Shape := ⟨2, ![1024, 1]⟩
abbrev S1024x1025 : Shape := ⟨2, ![1024, 1025]⟩
abbrev S1024x1026 : Shape := ⟨2, ![1024, 1026]⟩
abbrev S8x1024x1024 : Shape := ⟨3, ![8, 1024, 1024]⟩
abbrev S8x1x1024 : Shape := ⟨3, ![8, 1, 1024]⟩
abbrev S8x1025x1024 : Shape := ⟨3, ![8, 1025, 1024]⟩
abbrev S8x1026x1024 : Shape := ⟨3, ![8, 1026, 1024]⟩
abbrev S8x1026x1 : Shape := ⟨3, ![8, 1026, 1]⟩
abbrev S8x1026x1025 : Shape := ⟨3, ![8, 1026, 1025]⟩
abbrev S8x1026x1026 : Shape := ⟨3, ![8, 1026, 1026]⟩
abbrev S1x1 : Shape := ⟨2, ![1, 1]⟩
abbrev S1x1024 : Shape := ⟨2, ![1, 1024]⟩
abbrev S1025x1024 : Shape := ⟨2, ![1025, 1024]⟩
abbrev S1026x1024 : Shape := ⟨2, ![1026, 1024]⟩
abbrev S1026x1 : Shape := ⟨2, ![1026, 1]⟩
abbrev S1026x1025 : Shape := ⟨2, ![1026, 1025]⟩
abbrev S1026x1026 : Shape := ⟨2, ![1026, 1026]⟩
abbrev S1x1024x1024 : Shape := ⟨3, ![1, 1024, 1024]⟩

abbrev nBuf : Space → Nat
  | .hbm => 602
  | .vmem => 0
  | .smem => 0
  | _ => 0

abbrev hbmTy0_0 (i : Nat) : BufTy := match i % 128 with
  | 0 => ⟨S8x3x1024x1024, .f32⟩
  | 1 => ⟨S8x3x1024x1024, .f32⟩
  | 2 => ⟨S3x3, .f32⟩
  | 3 => ⟨S3x3, .f32⟩
  | 4 => ⟨S8x3x1024x1024, .f32⟩
  | 5 => ⟨S_, .f32⟩
  | 6 => ⟨S8x3x1024x1024, .f32⟩
  | 7 => ⟨S8x3x1024x1024, .f32⟩
  | 8 => ⟨S_, .f32⟩
  | 9 => ⟨S8x3x1024x1024, .f32⟩
  | 10 => ⟨S8x3x1024x1024, .f32⟩
  | 11 => ⟨S_, .f32⟩
  | 12 => ⟨S8x3x1024x1024, .f32⟩
  | 13 => ⟨S8x3x1024x1024, .f32⟩
  | 14 => ⟨S8x3x1024x1024, .f32⟩
  | 15 => ⟨S8x3x1024x1024, .f32⟩
  | 16 => ⟨S_, .f32⟩
  | 17 => ⟨S_, .f32⟩
  | 18 => ⟨S_, .f32⟩
  | 19 => ⟨S_, .f32⟩
  | 20 => ⟨S_, .i32⟩
  | 21 => ⟨S_, .f32⟩
  | 22 => ⟨S8x3, .f32⟩
  | 23 => ⟨S8x3x1x1, .f32⟩
  | 24 => ⟨S_, .f32⟩
  | 25 => ⟨S8x3x1x1, .f32⟩
  | 26 => ⟨S8x3x1x1, .f32⟩
  | 27 => ⟨S8x3x1024x1024, .f32⟩
  | 28 => ⟨S8x3x1024x1024, .f32⟩
  | 29 => ⟨S8x3x1024x1024, .f32⟩
  | 30 => ⟨S_, .f32⟩
  | 31 => ⟨S_, .f32⟩
  | 32 => ⟨S_, .f32⟩
  | 33 => ⟨S_, .f32⟩
  | 34 => ⟨S8x3, .f32⟩
  | 35 => ⟨S8x3, .f32⟩
  | 36 => ⟨S8x3, .f32⟩
  | 37 => ⟨S_, .f32⟩
  | 38 => ⟨S_, .i1⟩
  | 39 => ⟨S_, .f32⟩
  | 40 => ⟨S_, .f32⟩
  | 41 => ⟨S8x3, .f32⟩
  | 42 => ⟨S8x3, .f32⟩
  | 43 => ⟨S8x3, .f32⟩
  | 44 => ⟨S_, .f32⟩
  | 45 => ⟨S8x3, .f32⟩
  | 46 => ⟨S8x3x1x1, .f32⟩
  | 47 => ⟨S_, .f32⟩
  | 48 => ⟨S8x3x1x1, .f32⟩
  | 49 => ⟨S8x3x1x1, .f32⟩
  | 50 => ⟨S_, .i32⟩
  | 51 => ⟨S_, .f32⟩
  | 52 => ⟨S8x3, .f32⟩
  | 53 => ⟨S8x3x1x1, .f32⟩
  | 54 => ⟨S_, .f32⟩
  | 55 => ⟨S8x3x1x1, .f32⟩
  | 56 => ⟨S8x3x1x1, .f32⟩
  | 57 => ⟨S8x3x1024x1024, .f32⟩
  | 58 => ⟨S8x3x1024x1024, .f32⟩
  | 59 => ⟨S8x3x1024x1024, .f32⟩
  | 60 => ⟨S_, .f32⟩
  | 61 => ⟨S_, .f32⟩
  | 62 => ⟨S_, .f32⟩
  | 63 => ⟨S_, .f32⟩
  | 64 => ⟨S8x3, .f32⟩
  | 65 => ⟨S8x3, .f32⟩
  | 66 => ⟨S8x3, .f32⟩
  | 67 => ⟨S_, .f32⟩
  | 68 => ⟨S_, .i1⟩
  | 69 => ⟨S_, .f32⟩
  | 70 => ⟨S_, .f32⟩
  | 71 => ⟨S8x3, .f32⟩
  | 72 => ⟨S8x3, .f32⟩
  | 73 => ⟨S8x3, .f32⟩
  | 74 => ⟨S_, .f32⟩
  | 75 => ⟨S8x3x1x1, .f32⟩
  | 76 => ⟨S8x3x1x1, .f32⟩
  | 77 => ⟨S8x3x1x1, .f32⟩
  | 78 => ⟨S_, .f32⟩
  | 79 => ⟨S_, .f32⟩
  | 80 => ⟨S_, .f32⟩
  | 81 => ⟨S_, .f32⟩
  | 82 => ⟨S8x3, .f32⟩
  | 83 => ⟨S8x3, .f32⟩
  | 84 => ⟨S_, .f32⟩
  | 85 => ⟨S_, .f32⟩
  | 86 => ⟨S_, .f32⟩
  | 87 => ⟨S_, .f32⟩
  | 88 => ⟨S1x1x1024x1024, .f32⟩
  | 89 => ⟨S1024x1024, .f32⟩
  | 90 => ⟨S1x1x1024x1024, .f32⟩
  | 91 => ⟨S1024x1024, .f32⟩
  | 92 => ⟨S_, .i32⟩
  | 93 => ⟨S1024x1, .f32⟩
  | 94 => ⟨S1024x1, .f32⟩
  | 95 => ⟨S1024x1, .f32⟩
  | 96 => ⟨S1024x1025, .f32⟩
  | 97 => ⟨S1024x1, .f32⟩
  | 98 => ⟨S1024x1, .f32⟩
  | 99 => ⟨S1024x1, .f32⟩
  | 100 => ⟨S1024x1026, .f32⟩
  | 101 => ⟨S1024x1024, .f32⟩
  | 102 => ⟨S_, .f32⟩
  | 103 => ⟨S1024x1024, .f32⟩
  | 104 => ⟨S1024x1024, .f32⟩
  | 105 => ⟨S1024x1024, .f32⟩
  | 106 => ⟨S_, .f32⟩
  | 107 => ⟨S1024x1024, .f32⟩
  | 108 => ⟨S1024x1024, .f32⟩
  | 109 => ⟨S1024x1024, .f32⟩
  | 110 => ⟨S_, .i32⟩
  | 111 => ⟨S1024x1, .f32⟩
  | 112 => ⟨S1024x1, .f32⟩
  | 113 => ⟨S1024x1, .f32⟩
  | 114 => ⟨S1024x1025, .f32⟩
  | 115 => ⟨S1024x1, .f32⟩
  | 116 => ⟨S1024x1, .f32⟩
  | 117 => ⟨S1024x1, .f32⟩
  | 118 => ⟨S1024x1026, .f32⟩
  | 119 => ⟨S1024x1024, .f32⟩
  | 120 => ⟨S_, .f32⟩
  | 121 => ⟨S1024x1024, .f32⟩
  | 122 => ⟨S1024x1024, .f32⟩
  | 123 => ⟨S1024x1024, .f32⟩
  | 124 => ⟨S_, .f32⟩
  | 125 => ⟨S1024x1024, .f32⟩
  | 126 => ⟨S1024x1024, .f32⟩
  | 127 => ⟨S1024x1024, .f32⟩
  | _ => ⟨S8x3x1024x1024, .f32⟩

abbrev hbmTy0_1 (i : Nat) : BufTy := match i % 128 with
  | 0 => ⟨S1024x1024, .f32⟩
  | 1 => ⟨S1024x1024, .f32⟩
  | 2 => ⟨S_, .f32⟩
  | 3 => ⟨S_, .f32⟩
  | 4 => ⟨S_, .f32⟩
  | 5 => ⟨S_, .f32⟩
  | 6 => ⟨S_, .f32⟩
  | 7 => ⟨S8x1024x1024, .f32⟩
  | 8 => ⟨S_, .f32⟩
  | 9 => ⟨S8x1024x1024, .f32⟩
  | 10 => ⟨S8x1024x1024, .f32⟩
  | 11 => ⟨S_, .f32⟩
  | 12 => ⟨S8x1024x1024, .f32⟩
  | 13 => ⟨S_, .f32⟩
  | 14 => ⟨S8x1024x1024, .f32⟩
  | 15 => ⟨S8x1024x1024, .f32⟩
  | 16 => ⟨S_, .i32⟩
  | 17 => ⟨S8x1x1024, .f32⟩
  | 18 => ⟨S8x1x1024, .f32⟩
  | 19 => ⟨S8x1x1024, .f32⟩
  | 20 => ⟨S8x1025x1024, .f32⟩
  | 21 => ⟨S8x1x1024, .f32⟩
  | 22 => ⟨S8x1x1024, .f32⟩
  | 23 => ⟨S8x1x1024, .f32⟩
  | 24 => ⟨S8x1026x1024, .f32⟩
  | 25 => ⟨S8x1026x1, .f32⟩
  | 26 => ⟨S8x1026x1, .f32⟩
  | 27 => ⟨S8x1026x1, .f32⟩
  | 28 => ⟨S8x1026x1025, .f32⟩
  | 29 => ⟨S8x1026x1, .f32⟩
  | 30 => ⟨S8x1026x1, .f32⟩
  | 31 => ⟨S8x1026x1, .f32⟩
  | 32 => ⟨S8x1026x1026, .f32⟩
  | 33 => ⟨S_, .f32⟩
  | 34 => ⟨S8x1024x1024, .f32⟩
  | 35 => ⟨S1x1, .f32⟩
  | 36 => ⟨S_, .f32⟩
  | 37 => ⟨S8x1024x1024, .f32⟩
  | 38 => ⟨S8x1024x1024, .f32⟩
  | 39 => ⟨S8x1024x1024, .f32⟩
  | 40 => ⟨S8x1024x1024, .f32⟩
  | 41 => ⟨S1x1, .f32⟩
  | 42 => ⟨S_, .f32⟩
  | 43 => ⟨S8x1024x1024, .f32⟩
  | 44 => ⟨S8x1024x1024, .f32⟩
  | 45 => ⟨S8x1024x1024, .f32⟩
  | 46 => ⟨S8x1024x1024, .f32⟩
  | 47 => ⟨S1x1, .f32⟩
  | 48 => ⟨S_, .f32⟩
  | 49 => ⟨S8x1024x1024, .f32⟩
  | 50 => ⟨S8x1024x1024, .f32⟩
  | 51 => ⟨S8x1024x1024, .f32⟩
  | 52 => ⟨S8x1024x1024, .f32⟩
  | 53 => ⟨S1x1, .f32⟩
  | 54 => ⟨S_, .f32⟩
  | 55 => ⟨S8x1024x1024, .f32⟩
  | 56 => ⟨S8x1024x1024, .f32⟩
  | 57 => ⟨S8x1024x1024, .f32⟩
  | 58 => ⟨S8x1024x1024, .f32⟩
  | 59 => ⟨S1x1, .f32⟩
  | 60 => ⟨S_, .f32⟩
  | 61 => ⟨S8x1024x1024, .f32⟩
  | 62 => ⟨S8x1024x1024, .f32⟩
  | 63 => ⟨S8x1024x1024, .f32⟩
  | 64 => ⟨S8x1024x1024, .f32⟩
  | 65 => ⟨S1x1, .f32⟩
  | 66 => ⟨S_, .f32⟩
  | 67 => ⟨S8x1024x1024, .f32⟩
  | 68 => ⟨S8x1024x1024, .f32⟩
  | 69 => ⟨S8x1024x1024, .f32⟩
  | 70 => ⟨S8x1024x1024, .f32⟩
  | 71 => ⟨S1x1, .f32⟩
  | 72 => ⟨S_, .f32⟩
  | 73 => ⟨S8x1024x1024, .f32⟩
  | 74 => ⟨S8x1024x1024, .f32⟩
  | 75 => ⟨S8x1024x1024, .f32⟩
  | 76 => ⟨S8x1024x1024, .f32⟩
  | 77 => ⟨S1x1, .f32⟩
  | 78 => ⟨S_, .f32⟩
  | 79 => ⟨S8x1024x1024, .f32⟩
  | 80 => ⟨S8x1024x1024, .f32⟩
  | 81 => ⟨S8x1024x1024, .f32⟩
  | 82 => ⟨S8x1024x1024, .f32⟩
  | 83 => ⟨S1x1, .f32⟩
  | 84 => ⟨S_, .f32⟩
  | 85 => ⟨S8x1024x1024, .f32⟩
  | 86 => ⟨S8x1024x1024, .f32⟩
  | 87 => ⟨S8x1024x1024, .f32⟩
  | 88 => ⟨S8x1024x1024, .f32⟩
  | 89 => ⟨S_, .i32⟩
  | 90 => ⟨S8x1x1024, .f32⟩
  | 91 => ⟨S8x1x1024, .f32⟩
  | 92 => ⟨S8x1x1024, .f32⟩
  | 93 => ⟨S8x1025x1024, .f32⟩
  | 94 => ⟨S8x1x1024, .f32⟩
  | 95 => ⟨S8x1x1024, .f32⟩
  | 96 => ⟨S8x1x1024, .f32⟩
  | 97 => ⟨S8x1026x1024, .f32⟩
  | 98 => ⟨S8x1026x1, .f32⟩
  | 99 => ⟨S8x1026x1, .f32⟩
  | 100 => ⟨S8x1026x1, .f32⟩
  | 101 => ⟨S8x1026x1025, .f32⟩
  | 102 => ⟨S8x1026x1, .f32⟩
  | 103 => ⟨S8x1026x1, .f32⟩
  | 104 => ⟨S8x1026x1, .f32⟩
  | 105 => ⟨S8x1026x1026, .f32⟩
  | 106 => ⟨S_, .f32⟩
  | 107 => ⟨S8x1024x1024, .f32⟩
  | 108 => ⟨S1x1, .f32⟩
  | 109 => ⟨S_, .f32⟩
  | 110 => ⟨S8x1024x1024, .f32⟩
  | 111 => ⟨S8x1024x1024, .f32⟩
  | 112 => ⟨S8x1024x1024, .f32⟩
  | 113 => ⟨S8x1024x1024, .f32⟩
  | 114 => ⟨S1x1, .f32⟩
  | 115 => ⟨S_, .f32⟩
  | 116 => ⟨S8x1024x1024, .f32⟩
  | 117 => ⟨S8x1024x1024, .f32⟩
  | 118 => ⟨S8x1024x1024, .f32⟩
  | 119 => ⟨S8x1024x1024, .f32⟩
  | 120 => ⟨S1x1, .f32⟩
  | 121 => ⟨S_, .f32⟩
  | 122 => ⟨S8x1024x1024, .f32⟩
  | 123 => ⟨S8x1024x1024, .f32⟩
  | 124 => ⟨S8x1024x1024, .f32⟩
  | 125 => ⟨S8x1024x1024, .f32⟩
  | 126 => ⟨S1x1, .f32⟩
  | 127 => ⟨S_, .f32⟩
  | _ => ⟨S8x3x1024x1024, .f32⟩

abbrev hbmTy0_2 (i : Nat) : BufTy := match i % 128 with
  | 0 => ⟨S8x1024x1024, .f32⟩
  | 1 => ⟨S8x1024x1024, .f32⟩
  | 2 => ⟨S8x1024x1024, .f32⟩
  | 3 => ⟨S8x1024x1024, .f32⟩
  | 4 => ⟨S1x1, .f32⟩
  | 5 => ⟨S_, .f32⟩
  | 6 => ⟨S8x1024x1024, .f32⟩
  | 7 => ⟨S8x1024x1024, .f32⟩
  | 8 => ⟨S8x1024x1024, .f32⟩
  | 9 => ⟨S8x1024x1024, .f32⟩
  | 10 => ⟨S1x1, .f32⟩
  | 11 => ⟨S_, .f32⟩
  | 12 => ⟨S8x1024x1024, .f32⟩
  | 13 => ⟨S8x1024x1024, .f32⟩
  | 14 => ⟨S8x1024x1024, .f32⟩
  | 15 => ⟨S8x1024x1024, .f32⟩
  | 16 => ⟨S1x1, .f32⟩
  | 17 => ⟨S_, .f32⟩
  | 18 => ⟨S8x1024x1024, .f32⟩
  | 19 => ⟨S8x1024x1024, .f32⟩
  | 20 => ⟨S8x1024x1024, .f32⟩
  | 21 => ⟨S8x1024x1024, .f32⟩
  | 22 => ⟨S1x1, .f32⟩
  | 23 => ⟨S_, .f32⟩
  | 24 => ⟨S8x1024x1024, .f32⟩
  | 25 => ⟨S8x1024x1024, .f32⟩
  | 26 => ⟨S8x1024x1024, .f32⟩
  | 27 => ⟨S8x1024x1024, .f32⟩
  | 28 => ⟨S1x1, .f32⟩
  | 29 => ⟨S_, .f32⟩
  | 30 => ⟨S8x1024x1024, .f32⟩
  | 31 => ⟨S8x1024x1024, .f32⟩
  | 32 => ⟨S8x1024x1024, .f32⟩
  | 33 => ⟨S8x1024x1024, .f32⟩
  | 34 => ⟨S1x1x1024x1024, .f32⟩
  | 35 => ⟨S1024x1024, .f32⟩
  | 36 => ⟨S_, .i32⟩
  | 37 => ⟨S1x1024, .f32⟩
  | 38 => ⟨S1x1024, .f32⟩
  | 39 => ⟨S1x1024, .f32⟩
  | 40 => ⟨S1025x1024, .f32⟩
  | 41 => ⟨S1x1024, .f32⟩
  | 42 => ⟨S1x1024, .f32⟩
  | 43 => ⟨S1x1024, .f32⟩
  | 44 => ⟨S1026x1024, .f32⟩
  | 45 => ⟨S1026x1, .f32⟩
  | 46 => ⟨S1026x1, .f32⟩
  | 47 => ⟨S1026x1, .f32⟩
  | 48 => ⟨S1026x1025, .f32⟩
  | 49 => ⟨S1026x1, .f32⟩
  | 50 => ⟨S1026x1, .f32⟩
  | 51 => ⟨S1026x1, .f32⟩
  | 52 => ⟨S1026x1026, .f32⟩
  | 53 => ⟨S_, .f32⟩
  | 54 => ⟨S1024x1024, .f32⟩
  | 55 => ⟨S1x1, .f32⟩
  | 56 => ⟨S_, .f32⟩
  | 57 => ⟨S1024x1024, .f32⟩
  | 58 => ⟨S1024x1024, .f32⟩
  | 59 => ⟨S1024x1024, .f32⟩
  | 60 => ⟨S1024x1024, .f32⟩
  | 61 => ⟨S1x1, .f32⟩
  | 62 => ⟨S_, .f32⟩
  | 63 => ⟨S1024x1024, .f32⟩
  | 64 => ⟨S1024x1024, .f32⟩
  | 65 => ⟨S1024x1024, .f32⟩
  | 66 => ⟨S1024x1024, .f32⟩
  | 67 => ⟨S1x1, .f32⟩
  | 68 => ⟨S_, .f32⟩
  | 69 => ⟨S1024x1024, .f32⟩
  | 70 => ⟨S1024x1024, .f32⟩
  | 71 => ⟨S1024x1024, .f32⟩
  | 72 => ⟨S1024x1024, .f32⟩
  | 73 => ⟨S1x1, .f32⟩
  | 74 => ⟨S_, .f32⟩
  | 75 => ⟨S1024x1024, .f32⟩
  | 76 => ⟨S1024x1024, .f32⟩
  | 77 => ⟨S1024x1024, .f32⟩
  | 78 => ⟨S1024x1024, .f32⟩
  | 79 => ⟨S1x1, .f32⟩
  | 80 => ⟨S_, .f32⟩
  | 81 => ⟨S1024x1024, .f32⟩
  | 82 => ⟨S1024x1024, .f32⟩
  | 83 => ⟨S1024x1024, .f32⟩
  | 84 => ⟨S1024x1024, .f32⟩
  | 85 => ⟨S1x1, .f32⟩
  | 86 => ⟨S_, .f32⟩
  | 87 => ⟨S1024x1024, .f32⟩
  | 88 => ⟨S1024x1024, .f32⟩
  | 89 => ⟨S1024x1024, .f32⟩
  | 90 => ⟨S1024x1024, .f32⟩
  | 91 => ⟨S1x1, .f32⟩
  | 92 => ⟨S_, .f32⟩
  | 93 => ⟨S1024x1024, .f32⟩
  | 94 => ⟨S1024x1024, .f32⟩
  | 95 => ⟨S1024x1024, .f32⟩
  | 96 => ⟨S1024x1024, .f32⟩
  | 97 => ⟨S1x1, .f32⟩
  | 98 => ⟨S_, .f32⟩
  | 99 => ⟨S1024x1024, .f32⟩
  | 100 => ⟨S1024x1024, .f32⟩
  | 101 => ⟨S1024x1024, .f32⟩
  | 102 => ⟨S1024x1024, .f32⟩
  | 103 => ⟨S1x1, .f32⟩
  | 104 => ⟨S_, .f32⟩
  | 105 => ⟨S1024x1024, .f32⟩
  | 106 => ⟨S1024x1024, .f32⟩
  | 107 => ⟨S1024x1024, .f32⟩
  | 108 => ⟨S1024x1024, .f32⟩
  | 109 => ⟨S_, .i32⟩
  | 110 => ⟨S1x1024, .f32⟩
  | 111 => ⟨S1x1024, .f32⟩
  | 112 => ⟨S1x1024, .f32⟩
  | 113 => ⟨S1025x1024, .f32⟩
  | 114 => ⟨S1x1024, .f32⟩
  | 115 => ⟨S1x1024, .f32⟩
  | 116 => ⟨S1x1024, .f32⟩
  | 117 => ⟨S1026x1024, .f32⟩
  | 118 => ⟨S1026x1, .f32⟩
  | 119 => ⟨S1026x1, .f32⟩
  | 120 => ⟨S1026x1, .f32⟩
  | 121 => ⟨S1026x1025, .f32⟩
  | 122 => ⟨S1026x1, .f32⟩
  | 123 => ⟨S1026x1, .f32⟩
  | 124 => ⟨S1026x1, .f32⟩
  | 125 => ⟨S1026x1026, .f32⟩
  | 126 => ⟨S_, .f32⟩
  | 127 => ⟨S1024x1024, .f32⟩
  | _ => ⟨S8x3x1024x1024, .f32⟩

abbrev hbmTy0_3 (i : Nat) : BufTy := match i % 128 with
  | 0 => ⟨S1x1, .f32⟩
  | 1 => ⟨S_, .f32⟩
  | 2 => ⟨S1024x1024, .f32⟩
  | 3 => ⟨S1024x1024, .f32⟩
  | 4 => ⟨S1024x1024, .f32⟩
  | 5 => ⟨S1024x1024, .f32⟩
  | 6 => ⟨S1x1, .f32⟩
  | 7 => ⟨S_, .f32⟩
  | 8 => ⟨S1024x1024, .f32⟩
  | 9 => ⟨S1024x1024, .f32⟩
  | 10 => ⟨S1024x1024, .f32⟩
  | 11 => ⟨S1024x1024, .f32⟩
  | 12 => ⟨S1x1, .f32⟩
  | 13 => ⟨S_, .f32⟩
  | 14 => ⟨S1024x1024, .f32⟩
  | 15 => ⟨S1024x1024, .f32⟩
  | 16 => ⟨S1024x1024, .f32⟩
  | 17 => ⟨S1024x1024, .f32⟩
  | 18 => ⟨S1x1, .f32⟩
  | 19 => ⟨S_, .f32⟩
  | 20 => ⟨S1024x1024, .f32⟩
  | 21 => ⟨S1024x1024, .f32⟩
  | 22 => ⟨S1024x1024, .f32⟩
  | 23 => ⟨S1024x1024, .f32⟩
  | 24 => ⟨S1x1, .f32⟩
  | 25 => ⟨S_, .f32⟩
  | 26 => ⟨S1024x1024, .f32⟩
  | 27 => ⟨S1024x1024, .f32⟩
  | 28 => ⟨S1024x1024, .f32⟩
  | 29 => ⟨S1024x1024, .f32⟩
  | 30 => ⟨S1x1, .f32⟩
  | 31 => ⟨S_, .f32⟩
  | 32 => ⟨S1024x1024, .f32⟩
  | 33 => ⟨S1024x1024, .f32⟩
  | 34 => ⟨S1024x1024, .f32⟩
  | 35 => ⟨S1024x1024, .f32⟩
  | 36 => ⟨S1x1, .f32⟩
  | 37 => ⟨S_, .f32⟩
  | 38 => ⟨S1024x1024, .f32⟩
  | 39 => ⟨S1024x1024, .f32⟩
  | 40 => ⟨S1024x1024, .f32⟩
  | 41 => ⟨S1024x1024, .f32⟩
  | 42 => ⟨S1x1, .f32⟩
  | 43 => ⟨S_, .f32⟩
  | 44 => ⟨S1024x1024, .f32⟩
  | 45 => ⟨S1024x1024, .f32⟩
  | 46 => ⟨S1024x1024, .f32⟩
  | 47 => ⟨S1024x1024, .f32⟩
  | 48 => ⟨S1x1, .f32⟩
  | 49 => ⟨S_, .f32⟩
  | 50 => ⟨S1024x1024, .f32⟩
  | 51 => ⟨S1024x1024, .f32⟩
  | 52 => ⟨S1024x1024, .f32⟩
  | 53 => ⟨S1024x1024, .f32⟩
  | 54 => ⟨S1x1x1024x1024, .f32⟩
  | 55 => ⟨S1024x1024, .f32⟩
  | 56 => ⟨S_, .i32⟩
  | 57 => ⟨S1x1024, .f32⟩
  | 58 => ⟨S1x1024, .f32⟩
  | 59 => ⟨S1x1024, .f32⟩
  | 60 => ⟨S1025x1024, .f32⟩
  | 61 => ⟨S1x1024, .f32⟩
  | 62 => ⟨S1x1024, .f32⟩
  | 63 => ⟨S1x1024, .f32⟩
  | 64 => ⟨S1026x1024, .f32⟩
  | 65 => ⟨S1026x1, .f32⟩
  | 66 => ⟨S1026x1, .f32⟩
  | 67 => ⟨S1026x1, .f32⟩
  | 68 => ⟨S1026x1025, .f32⟩
  | 69 => ⟨S1026x1, .f32⟩
  | 70 => ⟨S1026x1, .f32⟩
  | 71 => ⟨S1026x1, .f32⟩
  | 72 => ⟨S1026x1026, .f32⟩
  | 73 => ⟨S_, .f32⟩
  | 74 => ⟨S1024x1024, .f32⟩
  | 75 => ⟨S1x1, .f32⟩
  | 76 => ⟨S_, .f32⟩
  | 77 => ⟨S1024x1024, .f32⟩
  | 78 => ⟨S1024x1024, .f32⟩
  | 79 => ⟨S1024x1024, .f32⟩
  | 80 => ⟨S1024x1024, .f32⟩
  | 81 => ⟨S1x1, .f32⟩
  | 82 => ⟨S_, .f32⟩
  | 83 => ⟨S1024x1024, .f32⟩
  | 84 => ⟨S1024x1024, .f32⟩
  | 85 => ⟨S1024x1024, .f32⟩
  | 86 => ⟨S1024x1024, .f32⟩
  | 87 => ⟨S1x1, .f32⟩
  | 88 => ⟨S_, .f32⟩
  | 89 => ⟨S1024x1024, .f32⟩
  | 90 => ⟨S1024x1024, .f32⟩
  | 91 => ⟨S1024x1024, .f32⟩
  | 92 => ⟨S1024x1024, .f32⟩
  | 93 => ⟨S1x1, .f32⟩
  | 94 => ⟨S_, .f32⟩
  | 95 => ⟨S1024x1024, .f32⟩
  | 96 => ⟨S1024x1024, .f32⟩
  | 97 => ⟨S1024x1024, .f32⟩
  | 98 => ⟨S1024x1024, .f32⟩
  | 99 => ⟨S1x1, .f32⟩
  | 100 => ⟨S_, .f32⟩
  | 101 => ⟨S1024x1024, .f32⟩
  | 102 => ⟨S1024x1024, .f32⟩
  | 103 => ⟨S1024x1024, .f32⟩
  | 104 => ⟨S1024x1024, .f32⟩
  | 105 => ⟨S1x1, .f32⟩
  | 106 => ⟨S_, .f32⟩
  | 107 => ⟨S1024x1024, .f32⟩
  | 108 => ⟨S1024x1024, .f32⟩
  | 109 => ⟨S1024x1024, .f32⟩
  | 110 => ⟨S1024x1024, .f32⟩
  | 111 => ⟨S1x1, .f32⟩
  | 112 => ⟨S_, .f32⟩
  | 113 => ⟨S1024x1024, .f32⟩
  | 114 => ⟨S1024x1024, .f32⟩
  | 115 => ⟨S1024x1024, .f32⟩
  | 116 => ⟨S1024x1024, .f32⟩
  | 117 => ⟨S1x1, .f32⟩
  | 118 => ⟨S_, .f32⟩
  | 119 => ⟨S1024x1024, .f32⟩
  | 120 => ⟨S1024x1024, .f32⟩
  | 121 => ⟨S1024x1024, .f32⟩
  | 122 => ⟨S1024x1024, .f32⟩
  | 123 => ⟨S1x1, .f32⟩
  | 124 => ⟨S_, .f32⟩
  | 125 => ⟨S1024x1024, .f32⟩
  | 126 => ⟨S1024x1024, .f32⟩
  | 127 => ⟨S1024x1024, .f32⟩
  | _ => ⟨S8x3x1024x1024, .f32⟩

abbrev hbmTy0_4 (i : Nat) : BufTy := match i % 128 with
  | 0 => ⟨S1024x1024, .f32⟩
  | 1 => ⟨S_, .i32⟩
  | 2 => ⟨S1x1024, .f32⟩
  | 3 => ⟨S1x1024, .f32⟩
  | 4 => ⟨S1x1024, .f32⟩
  | 5 => ⟨S1025x1024, .f32⟩
  | 6 => ⟨S1x1024, .f32⟩
  | 7 => ⟨S1x1024, .f32⟩
  | 8 => ⟨S1x1024, .f32⟩
  | 9 => ⟨S1026x1024, .f32⟩
  | 10 => ⟨S1026x1, .f32⟩
  | 11 => ⟨S1026x1, .f32⟩
  | 12 => ⟨S1026x1, .f32⟩
  | 13 => ⟨S1026x1025, .f32⟩
  | 14 => ⟨S1026x1, .f32⟩
  | 15 => ⟨S1026x1, .f32⟩
  | 16 => ⟨S1026x1, .f32⟩
  | 17 => ⟨S1026x1026, .f32⟩
  | 18 => ⟨S_, .f32⟩
  | 19 => ⟨S1024x1024, .f32⟩
  | 20 => ⟨S1x1, .f32⟩
  | 21 => ⟨S_, .f32⟩
  | 22 => ⟨S1024x1024, .f32⟩
  | 23 => ⟨S1024x1024, .f32⟩
  | 24 => ⟨S1024x1024, .f32⟩
  | 25 => ⟨S1024x1024, .f32⟩
  | 26 => ⟨S1x1, .f32⟩
  | 27 => ⟨S_, .f32⟩
  | 28 => ⟨S1024x1024, .f32⟩
  | 29 => ⟨S1024x1024, .f32⟩
  | 30 => ⟨S1024x1024, .f32⟩
  | 31 => ⟨S1024x1024, .f32⟩
  | 32 => ⟨S1x1, .f32⟩
  | 33 => ⟨S_, .f32⟩
  | 34 => ⟨S1024x1024, .f32⟩
  | 35 => ⟨S1024x1024, .f32⟩
  | 36 => ⟨S1024x1024, .f32⟩
  | 37 => ⟨S1024x1024, .f32⟩
  | 38 => ⟨S1x1, .f32⟩
  | 39 => ⟨S_, .f32⟩
  | 40 => ⟨S1024x1024, .f32⟩
  | 41 => ⟨S1024x1024, .f32⟩
  | 42 => ⟨S1024x1024, .f32⟩
  | 43 => ⟨S1024x1024, .f32⟩
  | 44 => ⟨S1x1, .f32⟩
  | 45 => ⟨S_, .f32⟩
  | 46 => ⟨S1024x1024, .f32⟩
  | 47 => ⟨S1024x1024, .f32⟩
  | 48 => ⟨S1024x1024, .f32⟩
  | 49 => ⟨S1024x1024, .f32⟩
  | 50 => ⟨S1x1, .f32⟩
  | 51 => ⟨S_, .f32⟩
  | 52 => ⟨S1024x1024, .f32⟩
  | 53 => ⟨S1024x1024, .f32⟩
  | 54 => ⟨S1024x1024, .f32⟩
  | 55 => ⟨S1024x1024, .f32⟩
  | 56 => ⟨S1x1, .f32⟩
  | 57 => ⟨S_, .f32⟩
  | 58 => ⟨S1024x1024, .f32⟩
  | 59 => ⟨S1024x1024, .f32⟩
  | 60 => ⟨S1024x1024, .f32⟩
  | 61 => ⟨S1024x1024, .f32⟩
  | 62 => ⟨S1x1, .f32⟩
  | 63 => ⟨S_, .f32⟩
  | 64 => ⟨S1024x1024, .f32⟩
  | 65 => ⟨S1024x1024, .f32⟩
  | 66 => ⟨S1024x1024, .f32⟩
  | 67 => ⟨S1024x1024, .f32⟩
  | 68 => ⟨S1x1, .f32⟩
  | 69 => ⟨S_, .f32⟩
  | 70 => ⟨S1024x1024, .f32⟩
  | 71 => ⟨S1024x1024, .f32⟩
  | 72 => ⟨S1024x1024, .f32⟩
  | 73 => ⟨S1024x1024, .f32⟩
  | 74 => ⟨S1x1024x1024, .f32⟩
  | 75 => ⟨S8x1024x1024, .f32⟩
  | 76 => ⟨S8x1024x1024, .f32⟩
  | 77 => ⟨S1x1024x1024, .f32⟩
  | 78 => ⟨S8x1024x1024, .f32⟩
  | 79 => ⟨S8x1024x1024, .f32⟩
  | 80 => ⟨S8x1024x1024, .f32⟩
  | 81 => ⟨S8x1024x1024, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | _ => ⟨S8x3x1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x3x1024x1024, .f32⟩

abbrev bufTy : (tb : Table) → Fin (tcTables nBuf tb) → BufTy
  | .hbm, ⟨i, _⟩ => hbmTy i
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_call1_cst : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_c : Ref sig .tc := ⟨.hbm, 20, rfl⟩
abbrev main_call2_call0_cst : Ref sig .tc := ⟨.hbm, 21, rfl⟩
abbrev main_call2_call0_v0 : Ref sig .tc := ⟨.hbm, 22, rfl⟩
abbrev main_call2_call0_v1 : Ref sig .tc := ⟨.hbm, 23, rfl⟩
abbrev main_call2_call0_cst_0 : Ref sig .tc := ⟨.hbm, 24, rfl⟩
abbrev main_call2_call0_v2 : Ref sig .tc := ⟨.hbm, 25, rfl⟩
abbrev main_call2_call0_v3 : Ref sig .tc := ⟨.hbm, 26, rfl⟩
abbrev main_call2_call0_v4 : Ref sig .tc := ⟨.hbm, 27, rfl⟩
abbrev main_call2_call0_v5 : Ref sig .tc := ⟨.hbm, 28, rfl⟩
abbrev main_call2_call0_v6 : Ref sig .tc := ⟨.hbm, 29, rfl⟩
abbrev main_call2_call0_v7 : Ref sig .tc := ⟨.hbm, 30, rfl⟩
abbrev main_call2_call0_cst_1 : Ref sig .tc := ⟨.hbm, 31, rfl⟩
abbrev main_call2_call0_v8 : Ref sig .tc := ⟨.hbm, 32, rfl⟩
abbrev main_call2_call0_cst_2 : Ref sig .tc := ⟨.hbm, 33, rfl⟩
abbrev main_call2_call0_v9 : Ref sig .tc := ⟨.hbm, 34, rfl⟩
abbrev main_call2_call0_v10 : Ref sig .tc := ⟨.hbm, 35, rfl⟩
abbrev main_call2_call0_v11 : Ref sig .tc := ⟨.hbm, 36, rfl⟩
abbrev main_call2_call0_cst_3 : Ref sig .tc := ⟨.hbm, 37, rfl⟩
abbrev main_call2_call0_v12 : Ref sig .tc := ⟨.hbm, 38, rfl⟩
abbrev main_call2_call0_cst_4 : Ref sig .tc := ⟨.hbm, 39, rfl⟩
abbrev main_call2_call0_call0_v0 : Ref sig .tc := ⟨.hbm, 40, rfl⟩
abbrev main_call2_call0_call0_v1 : Ref sig .tc := ⟨.hbm, 41, rfl⟩
abbrev main_call2_v0 : Ref sig .tc := ⟨.hbm, 42, rfl⟩
abbrev main_v9 : Ref sig .tc := ⟨.hbm, 43, rfl⟩
abbrev main_cst_4 : Ref sig .tc := ⟨.hbm, 44, rfl⟩
abbrev main_v10 : Ref sig .tc := ⟨.hbm, 45, rfl⟩
abbrev main_v11 : Ref sig .tc := ⟨.hbm, 46, rfl⟩
abbrev main_cst_5 : Ref sig .tc := ⟨.hbm, 47, rfl⟩
abbrev main_v12 : Ref sig .tc := ⟨.hbm, 48, rfl⟩
abbrev main_v13 : Ref sig .tc := ⟨.hbm, 49, rfl⟩
abbrev main_c_6 : Ref sig .tc := ⟨.hbm, 50, rfl⟩
abbrev main_call3_call0_cst : Ref sig .tc := ⟨.hbm, 51, rfl⟩
abbrev main_call3_call0_v0 : Ref sig .tc := ⟨.hbm, 52, rfl⟩
abbrev main_call3_call0_v1 : Ref sig .tc := ⟨.hbm, 53, rfl⟩
abbrev main_call3_call0_cst_0 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_cst_1 : Ref sig .tc := ⟨.hbm, 61, rfl⟩
abbrev main_call3_call0_v8 : Ref sig .tc := ⟨.hbm, 62, rfl⟩
abbrev main_call3_call0_cst_2 : Ref sig .tc := ⟨.hbm, 63, rfl⟩
abbrev main_call3_call0_v9 : Ref sig .tc := ⟨.hbm, 64, rfl⟩
abbrev main_call3_call0_v10 : Ref sig .tc := ⟨.hbm, 65, rfl⟩
abbrev main_call3_call0_v11 : Ref sig .tc := ⟨.hbm, 66, rfl⟩
abbrev main_call3_call0_cst_3 : Ref sig .tc := ⟨.hbm, 67, rfl⟩
abbrev main_call3_call0_v12 : Ref sig .tc := ⟨.hbm, 68, rfl⟩
abbrev main_call3_call0_cst_4 : Ref sig .tc := ⟨.hbm, 69, rfl⟩
abbrev main_call3_call0_call0_v0 : Ref sig .tc := ⟨.hbm, 70, rfl⟩
abbrev main_call3_call0_call0_v1 : Ref sig .tc := ⟨.hbm, 71, rfl⟩
abbrev main_call3_v0 : Ref sig .tc := ⟨.hbm, 72, rfl⟩
abbrev main_v14 : Ref sig .tc := ⟨.hbm, 73, rfl⟩
abbrev main_cst_7 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_cst_8 : Ref sig .tc := ⟨.hbm, 78, rfl⟩
abbrev main_v18 : Ref sig .tc := ⟨.hbm, 79, rfl⟩
abbrev main_cst_9 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_cst_10 : Ref sig .tc := ⟨.hbm, 84, rfl⟩
abbrev main_v22 : Ref sig .tc := ⟨.hbm, 85, rfl⟩
abbrev main_cst_11 : Ref sig .tc := ⟨.hbm, 86, rfl⟩
abbrev main_v23 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_c_12 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_v28 : Ref sig .tc := ⟨.hbm, 100, rfl⟩
abbrev main_v29 : Ref sig .tc := ⟨.hbm, 101, rfl⟩
abbrev main_cst_13 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_cst_14 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_c_15 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_v6 : Ref sig .tc := ⟨.hbm, 117, rfl⟩
abbrev main_v36 : Ref sig .tc := ⟨.hbm, 118, rfl⟩
abbrev main_v37 : Ref sig .tc := ⟨.hbm, 119, rfl⟩
abbrev main_cst_16 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_cst_17 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_cst_18 : Ref sig .tc := ⟨.hbm, 130, rfl⟩
abbrev main_v46 : Ref sig .tc := ⟨.hbm, 131, rfl⟩
abbrev main_cst_19 : Ref sig .tc := ⟨.hbm, 132, rfl⟩
abbrev main_v47 : Ref sig .tc := ⟨.hbm, 133, rfl⟩
abbrev main_cst_20 : Ref sig .tc := ⟨.hbm, 134, rfl⟩
abbrev main_v48 : Ref sig .tc := ⟨.hbm, 135, rfl⟩
abbrev main_cst_21 : Ref sig .tc := ⟨.hbm, 136, rfl⟩
abbrev main_v49 : Ref sig .tc := ⟨.hbm, 137, rfl⟩
abbrev main_v50 : Ref sig .tc := ⟨.hbm, 138, rfl⟩
abbrev main_cst_22 : Ref sig .tc := ⟨.hbm, 139, rfl⟩
abbrev main_v51 : Ref sig .tc := ⟨.hbm, 140, rfl⟩
abbrev main_cst_23 : Ref sig .tc := ⟨.hbm, 141, rfl⟩
abbrev main_v52 : Ref sig .tc := ⟨.hbm, 142, rfl⟩
abbrev main_v53 : Ref sig .tc := ⟨.hbm, 143, rfl⟩
abbrev main_c_24 : Ref sig .tc := ⟨.hbm, 144, rfl⟩
abbrev main_call6_v0 : Ref sig .tc := ⟨.hbm, 145, rfl⟩
abbrev main_call6_v1 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_call6_v5 : Ref sig .tc := ⟨.hbm, 150, rfl⟩
abbrev main_call6_v6 : Ref sig .tc := ⟨.hbm, 151, rfl⟩
abbrev main_call6_v7 : Ref sig .tc := ⟨.hbm, 152, rfl⟩
abbrev main_call6_v8 : Ref sig .tc := ⟨.hbm, 153, rfl⟩
abbrev main_call6_v9 : Ref sig .tc := ⟨.hbm, 154, rfl⟩
abbrev main_call6_v10 : Ref sig .tc := ⟨.hbm, 155, rfl⟩
abbrev main_call6_v11 : Ref sig .tc := ⟨.hbm, 156, rfl⟩
abbrev main_call6_v12 : Ref sig .tc := ⟨.hbm, 157, rfl⟩
abbrev main_call6_v13 : Ref sig .tc := ⟨.hbm, 158, rfl⟩
abbrev main_call6_v14 : Ref sig .tc := ⟨.hbm, 159, rfl⟩
abbrev main_v54 : Ref sig .tc := ⟨.hbm, 160, rfl⟩
abbrev main_cst_25 : Ref sig .tc := ⟨.hbm, 161, rfl⟩
abbrev main_v55 : Ref sig .tc := ⟨.hbm, 162, rfl⟩
abbrev main_v56 : Ref sig .tc := ⟨.hbm, 163, rfl⟩
abbrev main_v57 : Ref sig .tc := ⟨.hbm, 164, rfl⟩
abbrev main_v58 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_v62 : Ref sig .tc := ⟨.hbm, 169, rfl⟩
abbrev main_v63 : Ref sig .tc := ⟨.hbm, 170, rfl⟩
abbrev main_v64 : Ref sig .tc := ⟨.hbm, 171, rfl⟩
abbrev main_v65 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_v69 : Ref sig .tc := ⟨.hbm, 176, rfl⟩
abbrev main_v70 : Ref sig .tc := ⟨.hbm, 177, rfl⟩
abbrev main_v71 : Ref sig .tc := ⟨.hbm, 178, rfl⟩
abbrev main_v72 : Ref sig .tc := ⟨.hbm, 179, rfl⟩
abbrev main_v73 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_v78 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_v96 : Ref sig .tc := ⟨.hbm, 203, rfl⟩
abbrev main_v97 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_c_26 : Ref sig .tc := ⟨.hbm, 217, rfl⟩
abbrev main_call7_v0 : Ref sig .tc := ⟨.hbm, 218, rfl⟩
abbrev main_call7_v1 : Ref sig .tc := ⟨.hbm, 219, rfl⟩
abbrev main_call7_v2 : Ref sig .tc := ⟨.hbm, 220, rfl⟩
abbrev main_call7_v3 : Ref sig .tc := ⟨.hbm, 221, rfl⟩
abbrev main_call7_v4 : Ref sig .tc := ⟨.hbm, 222, rfl⟩
abbrev main_call7_v5 : Ref sig .tc := ⟨.hbm, 223, rfl⟩
abbrev main_call7_v6 : Ref sig .tc := ⟨.hbm, 224, rfl⟩
abbrev main_call7_v7 : Ref sig .tc := ⟨.hbm, 225, rfl⟩
abbrev main_call7_v8 : Ref sig .tc := ⟨.hbm, 226, rfl⟩
abbrev main_call7_v9 : Ref sig .tc := ⟨.hbm, 227, rfl⟩
abbrev main_call7_v10 : Ref sig .tc := ⟨.hbm, 228, rfl⟩
abbrev main_call7_v11 : Ref sig .tc := ⟨.hbm, 229, rfl⟩
abbrev main_call7_v12 : Ref sig .tc := ⟨.hbm, 230, rfl⟩
abbrev main_call7_v13 : Ref sig .tc := ⟨.hbm, 231, rfl⟩
abbrev main_call7_v14 : Ref sig .tc := ⟨.hbm, 232, rfl⟩
abbrev main_v110 : Ref sig .tc := ⟨.hbm, 233, rfl⟩
abbrev main_cst_27 : Ref sig .tc := ⟨.hbm, 234, rfl⟩
abbrev main_v111 : Ref sig .tc := ⟨.hbm, 235, rfl⟩
abbrev main_v112 : Ref sig .tc := ⟨.hbm, 236, rfl⟩
abbrev main_v113 : Ref sig .tc := ⟨.hbm, 237, rfl⟩
abbrev main_v114 : Ref sig .tc := ⟨.hbm, 238, rfl⟩
abbrev main_v115 : Ref sig .tc := ⟨.hbm, 239, rfl⟩
abbrev main_v116 : Ref sig .tc := ⟨.hbm, 240, rfl⟩
abbrev main_v117 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_v144 : Ref sig .tc := ⟨.hbm, 268, rfl⟩
abbrev main_v145 : Ref sig .tc := ⟨.hbm, 269, rfl⟩
abbrev main_v146 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_v163 : Ref sig .tc := ⟨.hbm, 287, rfl⟩
abbrev main_v164 : Ref sig .tc := ⟨.hbm, 288, rfl⟩
abbrev main_v165 : Ref sig .tc := ⟨.hbm, 289, rfl⟩
abbrev main_v166 : Ref sig .tc := ⟨.hbm, 290, rfl⟩
abbrev main_v167 : Ref sig .tc := ⟨.hbm, 291, rfl⟩
abbrev main_c_28 : Ref sig .tc := ⟨.hbm, 292, rfl⟩
abbrev main_call8_v0 : Ref sig .tc := ⟨.hbm, 293, rfl⟩
abbrev main_call8_v1 : Ref sig .tc := ⟨.hbm, 294, rfl⟩
abbrev main_call8_v2 : Ref sig .tc := ⟨.hbm, 295, rfl⟩
abbrev main_call8_v3 : Ref sig .tc := ⟨.hbm, 296, rfl⟩
abbrev main_call8_v4 : Ref sig .tc := ⟨.hbm, 297, rfl⟩
abbrev main_call8_v5 : Ref sig .tc := ⟨.hbm, 298, rfl⟩
abbrev main_call8_v6 : Ref sig .tc := ⟨.hbm, 299, rfl⟩
abbrev main_call8_v7 : Ref sig .tc := ⟨.hbm, 300, rfl⟩
abbrev main_call8_v8 : Ref sig .tc := ⟨.hbm, 301, rfl⟩
abbrev main_call8_v9 : Ref sig .tc := ⟨.hbm, 302, rfl⟩
abbrev main_call8_v10 : Ref sig .tc := ⟨.hbm, 303, rfl⟩
abbrev main_call8_v11 : Ref sig .tc := ⟨.hbm, 304, rfl⟩
abbrev main_call8_v12 : Ref sig .tc := ⟨.hbm, 305, rfl⟩
abbrev main_call8_v13 : Ref sig .tc := ⟨.hbm, 306, rfl⟩
abbrev main_call8_v14 : Ref sig .tc := ⟨.hbm, 307, rfl⟩
abbrev main_v168 : Ref sig .tc := ⟨.hbm, 308, rfl⟩
abbrev main_cst_29 : Ref sig .tc := ⟨.hbm, 309, rfl⟩
abbrev main_v169 : Ref sig .tc := ⟨.hbm, 310, rfl⟩
abbrev main_v170 : Ref sig .tc := ⟨.hbm, 311, rfl⟩
abbrev main_v171 : Ref sig .tc := ⟨.hbm, 312, rfl⟩
abbrev main_v172 : Ref sig .tc := ⟨.hbm, 313, rfl⟩
abbrev main_v173 : Ref sig .tc := ⟨.hbm, 314, rfl⟩
abbrev main_v174 : Ref sig .tc := ⟨.hbm, 315, rfl⟩
abbrev main_v175 : Ref sig .tc := ⟨.hbm, 316, rfl⟩
abbrev main_v176 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩
abbrev main_v180 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_v184 : Ref sig .tc := ⟨.hbm, 325, rfl⟩
abbrev main_v185 : Ref sig .tc := ⟨.hbm, 326, rfl⟩
abbrev main_v186 : Ref sig .tc := ⟨.hbm, 327, rfl⟩
abbrev main_v187 : Ref sig .tc := ⟨.hbm, 328, rfl⟩
abbrev main_v188 : Ref sig .tc := ⟨.hbm, 329, rfl⟩
abbrev main_v189 : Ref sig .tc := ⟨.hbm, 330, rfl⟩
abbrev main_v190 : Ref sig .tc := ⟨.hbm, 331, rfl⟩
abbrev main_v191 : Ref sig .tc := ⟨.hbm, 332, rfl⟩
abbrev main_v192 : Ref sig .tc := ⟨.hbm, 333, rfl⟩
abbrev main_v193 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_v197 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_v201 : Ref sig .tc := ⟨.hbm, 342, rfl⟩
abbrev main_v202 : Ref sig .tc := ⟨.hbm, 343, rfl⟩
abbrev main_v203 : Ref sig .tc := ⟨.hbm, 344, rfl⟩
abbrev main_v204 : Ref sig .tc := ⟨.hbm, 345, rfl⟩
abbrev main_v205 : Ref sig .tc := ⟨.hbm, 346, rfl⟩
abbrev main_v206 : Ref sig .tc := ⟨.hbm, 347, rfl⟩
abbrev main_v207 : Ref sig .tc := ⟨.hbm, 348, rfl⟩
abbrev main_v208 : Ref sig .tc := ⟨.hbm, 349, rfl⟩
abbrev main_v209 : Ref sig .tc := ⟨.hbm, 350, rfl⟩
abbrev main_v210 : Ref sig .tc := ⟨.hbm, 351, rfl⟩
abbrev main_v211 : Ref sig .tc := ⟨.hbm, 352, rfl⟩
abbrev main_v212 : Ref sig .tc := ⟨.hbm, 353, rfl⟩
abbrev main_v213 : Ref sig .tc := ⟨.hbm, 354, rfl⟩
abbrev main_v214 : Ref sig .tc := ⟨.hbm, 355, rfl⟩
abbrev main_v215 : Ref sig .tc := ⟨.hbm, 356, rfl⟩
abbrev main_v216 : Ref sig .tc := ⟨.hbm, 357, rfl⟩
abbrev main_v217 : Ref sig .tc := ⟨.hbm, 358, rfl⟩
abbrev main_v218 : Ref sig .tc := ⟨.hbm, 359, rfl⟩
abbrev main_v219 : Ref sig .tc := ⟨.hbm, 360, rfl⟩
abbrev main_v220 : Ref sig .tc := ⟨.hbm, 361, rfl⟩
abbrev main_v221 : Ref sig .tc := ⟨.hbm, 362, rfl⟩
abbrev main_v222 : Ref sig .tc := ⟨.hbm, 363, rfl⟩
abbrev main_v223 : Ref sig .tc := ⟨.hbm, 364, rfl⟩
abbrev main_c_30 : Ref sig .tc := ⟨.hbm, 365, rfl⟩
abbrev main_call9_v0 : Ref sig .tc := ⟨.hbm, 366, rfl⟩
abbrev main_call9_v1 : Ref sig .tc := ⟨.hbm, 367, rfl⟩
abbrev main_call9_v2 : Ref sig .tc := ⟨.hbm, 368, rfl⟩
abbrev main_call9_v3 : Ref sig .tc := ⟨.hbm, 369, rfl⟩
abbrev main_call9_v4 : Ref sig .tc := ⟨.hbm, 370, rfl⟩
abbrev main_call9_v5 : Ref sig .tc := ⟨.hbm, 371, rfl⟩
abbrev main_call9_v6 : Ref sig .tc := ⟨.hbm, 372, rfl⟩
abbrev main_call9_v7 : Ref sig .tc := ⟨.hbm, 373, rfl⟩
abbrev main_call9_v8 : Ref sig .tc := ⟨.hbm, 374, rfl⟩
abbrev main_call9_v9 : Ref sig .tc := ⟨.hbm, 375, rfl⟩
abbrev main_call9_v10 : Ref sig .tc := ⟨.hbm, 376, rfl⟩
abbrev main_call9_v11 : Ref sig .tc := ⟨.hbm, 377, rfl⟩
abbrev main_call9_v12 : Ref sig .tc := ⟨.hbm, 378, rfl⟩
abbrev main_call9_v13 : Ref sig .tc := ⟨.hbm, 379, rfl⟩
abbrev main_call9_v14 : Ref sig .tc := ⟨.hbm, 380, rfl⟩
abbrev main_v224 : Ref sig .tc := ⟨.hbm, 381, rfl⟩
abbrev main_cst_31 : Ref sig .tc := ⟨.hbm, 382, rfl⟩
abbrev main_v225 : Ref sig .tc := ⟨.hbm, 383, rfl⟩
abbrev main_v226 : Ref sig .tc := ⟨.hbm, 384, rfl⟩
abbrev main_v227 : Ref sig .tc := ⟨.hbm, 385, rfl⟩
abbrev main_v228 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_v232 : Ref sig .tc := ⟨.hbm, 390, rfl⟩
abbrev main_v233 : Ref sig .tc := ⟨.hbm, 391, rfl⟩
abbrev main_v234 : Ref sig .tc := ⟨.hbm, 392, rfl⟩
abbrev main_v235 : Ref sig .tc := ⟨.hbm, 393, rfl⟩
abbrev main_v236 : Ref sig .tc := ⟨.hbm, 394, rfl⟩
abbrev main_v237 : Ref sig .tc := ⟨.hbm, 395, rfl⟩
abbrev main_v238 : Ref sig .tc := ⟨.hbm, 396, rfl⟩
abbrev main_v239 : Ref sig .tc := ⟨.hbm, 397, rfl⟩
abbrev main_v240 : Ref sig .tc := ⟨.hbm, 398, rfl⟩
abbrev main_v241 : Ref sig .tc := ⟨.hbm, 399, rfl⟩
abbrev main_v242 : Ref sig .tc := ⟨.hbm, 400, rfl⟩
abbrev main_v243 : Ref sig .tc := ⟨.hbm, 401, rfl⟩
abbrev main_v244 : Ref sig .tc := ⟨.hbm, 402, rfl⟩
abbrev main_v245 : Ref sig .tc := ⟨.hbm, 403, rfl⟩
abbrev main_v246 : Ref sig .tc := ⟨.hbm, 404, rfl⟩
abbrev main_v247 : Ref sig .tc := ⟨.hbm, 405, rfl⟩
abbrev main_v248 : Ref sig .tc := ⟨.hbm, 406, rfl⟩
abbrev main_v249 : Ref sig .tc := ⟨.hbm, 407, rfl⟩
abbrev main_v250 : Ref sig .tc := ⟨.hbm, 408, rfl⟩
abbrev main_v251 : Ref sig .tc := ⟨.hbm, 409, rfl⟩
abbrev main_v252 : Ref sig .tc := ⟨.hbm, 410, rfl⟩
abbrev main_v253 : Ref sig .tc := ⟨.hbm, 411, rfl⟩
abbrev main_v254 : Ref sig .tc := ⟨.hbm, 412, rfl⟩
abbrev main_v255 : Ref sig .tc := ⟨.hbm, 413, rfl⟩
abbrev main_v256 : Ref sig .tc := ⟨.hbm, 414, rfl⟩
abbrev main_v257 : Ref sig .tc := ⟨.hbm, 415, rfl⟩
abbrev main_v258 : Ref sig .tc := ⟨.hbm, 416, rfl⟩
abbrev main_v259 : Ref sig .tc := ⟨.hbm, 417, rfl⟩
abbrev main_v260 : Ref sig .tc := ⟨.hbm, 418, rfl⟩
abbrev main_v261 : Ref sig .tc := ⟨.hbm, 419, rfl⟩
abbrev main_v262 : Ref sig .tc := ⟨.hbm, 420, rfl⟩
abbrev main_v263 : Ref sig .tc := ⟨.hbm, 421, rfl⟩
abbrev main_v264 : Ref sig .tc := ⟨.hbm, 422, rfl⟩
abbrev main_v265 : Ref sig .tc := ⟨.hbm, 423, rfl⟩
abbrev main_v266 : Ref sig .tc := ⟨.hbm, 424, rfl⟩
abbrev main_v267 : Ref sig .tc := ⟨.hbm, 425, rfl⟩
abbrev main_v268 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_v272 : Ref sig .tc := ⟨.hbm, 430, rfl⟩
abbrev main_v273 : Ref sig .tc := ⟨.hbm, 431, rfl⟩
abbrev main_v274 : Ref sig .tc := ⟨.hbm, 432, rfl⟩
abbrev main_v275 : Ref sig .tc := ⟨.hbm, 433, rfl⟩
abbrev main_v276 : Ref sig .tc := ⟨.hbm, 434, rfl⟩
abbrev main_v277 : Ref sig .tc := ⟨.hbm, 435, rfl⟩
abbrev main_v278 : Ref sig .tc := ⟨.hbm, 436, rfl⟩
abbrev main_v279 : Ref sig .tc := ⟨.hbm, 437, rfl⟩
abbrev main_v280 : Ref sig .tc := ⟨.hbm, 438, rfl⟩
abbrev main_v281 : Ref sig .tc := ⟨.hbm, 439, rfl⟩
abbrev main_c_32 : Ref sig .tc := ⟨.hbm, 440, rfl⟩
abbrev main_call10_v0 : Ref sig .tc := ⟨.hbm, 441, rfl⟩
abbrev main_call10_v1 : Ref sig .tc := ⟨.hbm, 442, rfl⟩
abbrev main_call10_v2 : Ref sig .tc := ⟨.hbm, 443, rfl⟩
abbrev main_call10_v3 : Ref sig .tc := ⟨.hbm, 444, rfl⟩
abbrev main_call10_v4 : Ref sig .tc := ⟨.hbm, 445, rfl⟩
abbrev main_call10_v5 : Ref sig .tc := ⟨.hbm, 446, rfl⟩
abbrev main_call10_v6 : Ref sig .tc := ⟨.hbm, 447, rfl⟩
abbrev main_call10_v7 : Ref sig .tc := ⟨.hbm, 448, rfl⟩
abbrev main_call10_v8 : Ref sig .tc := ⟨.hbm, 449, rfl⟩
abbrev main_call10_v9 : Ref sig .tc := ⟨.hbm, 450, rfl⟩
abbrev main_call10_v10 : Ref sig .tc := ⟨.hbm, 451, rfl⟩
abbrev main_call10_v11 : Ref sig .tc := ⟨.hbm, 452, rfl⟩
abbrev main_call10_v12 : Ref sig .tc := ⟨.hbm, 453, rfl⟩
abbrev main_call10_v13 : Ref sig .tc := ⟨.hbm, 454, rfl⟩
abbrev main_call10_v14 : Ref sig .tc := ⟨.hbm, 455, rfl⟩
abbrev main_v282 : Ref sig .tc := ⟨.hbm, 456, rfl⟩
abbrev main_cst_33 : Ref sig .tc := ⟨.hbm, 457, rfl⟩
abbrev main_v283 : Ref sig .tc := ⟨.hbm, 458, rfl⟩
abbrev main_v284 : Ref sig .tc := ⟨.hbm, 459, rfl⟩
abbrev main_v285 : Ref sig .tc := ⟨.hbm, 460, rfl⟩
abbrev main_v286 : Ref sig .tc := ⟨.hbm, 461, rfl⟩
abbrev main_v287 : Ref sig .tc := ⟨.hbm, 462, rfl⟩
abbrev main_v288 : Ref sig .tc := ⟨.hbm, 463, rfl⟩
abbrev main_v289 : Ref sig .tc := ⟨.hbm, 464, rfl⟩
abbrev main_v290 : Ref sig .tc := ⟨.hbm, 465, rfl⟩
abbrev main_v291 : Ref sig .tc := ⟨.hbm, 466, rfl⟩
abbrev main_v292 : Ref sig .tc := ⟨.hbm, 467, rfl⟩
abbrev main_v293 : Ref sig .tc := ⟨.hbm, 468, rfl⟩
abbrev main_v294 : Ref sig .tc := ⟨.hbm, 469, rfl⟩
abbrev main_v295 : Ref sig .tc := ⟨.hbm, 470, rfl⟩
abbrev main_v296 : Ref sig .tc := ⟨.hbm, 471, rfl⟩
abbrev main_v297 : Ref sig .tc := ⟨.hbm, 472, rfl⟩
abbrev main_v298 : Ref sig .tc := ⟨.hbm, 473, rfl⟩
abbrev main_v299 : Ref sig .tc := ⟨.hbm, 474, rfl⟩
abbrev main_v300 : Ref sig .tc := ⟨.hbm, 475, rfl⟩
abbrev main_v301 : Ref sig .tc := ⟨.hbm, 476, rfl⟩
abbrev main_v302 : Ref sig .tc := ⟨.hbm, 477, rfl⟩
abbrev main_v303 : Ref sig .tc := ⟨.hbm, 478, rfl⟩
abbrev main_v304 : Ref sig .tc := ⟨.hbm, 479, rfl⟩
abbrev main_v305 : Ref sig .tc := ⟨.hbm, 480, rfl⟩
abbrev main_v306 : Ref sig .tc := ⟨.hbm, 481, rfl⟩
abbrev main_v307 : Ref sig .tc := ⟨.hbm, 482, rfl⟩
abbrev main_v308 : Ref sig .tc := ⟨.hbm, 483, rfl⟩
abbrev main_v309 : Ref sig .tc := ⟨.hbm, 484, rfl⟩
abbrev main_v310 : Ref sig .tc := ⟨.hbm, 485, rfl⟩
abbrev main_v311 : Ref sig .tc := ⟨.hbm, 486, rfl⟩
abbrev main_v312 : Ref sig .tc := ⟨.hbm, 487, rfl⟩
abbrev main_v313 : Ref sig .tc := ⟨.hbm, 488, rfl⟩
abbrev main_v314 : Ref sig .tc := ⟨.hbm, 489, rfl⟩
abbrev main_v315 : Ref sig .tc := ⟨.hbm, 490, rfl⟩
abbrev main_v316 : Ref sig .tc := ⟨.hbm, 491, rfl⟩
abbrev main_v317 : Ref sig .tc := ⟨.hbm, 492, rfl⟩
abbrev main_v318 : Ref sig .tc := ⟨.hbm, 493, rfl⟩
abbrev main_v319 : Ref sig .tc := ⟨.hbm, 494, rfl⟩
abbrev main_v320 : Ref sig .tc := ⟨.hbm, 495, rfl⟩
abbrev main_v321 : Ref sig .tc := ⟨.hbm, 496, rfl⟩
abbrev main_v322 : Ref sig .tc := ⟨.hbm, 497, rfl⟩
abbrev main_v323 : Ref sig .tc := ⟨.hbm, 498, rfl⟩
abbrev main_v324 : Ref sig .tc := ⟨.hbm, 499, rfl⟩
abbrev main_v325 : Ref sig .tc := ⟨.hbm, 500, rfl⟩
abbrev main_v326 : Ref sig .tc := ⟨.hbm, 501, rfl⟩
abbrev main_v327 : Ref sig .tc := ⟨.hbm, 502, rfl⟩
abbrev main_v328 : Ref sig .tc := ⟨.hbm, 503, rfl⟩
abbrev main_v329 : Ref sig .tc := ⟨.hbm, 504, rfl⟩
abbrev main_v330 : Ref sig .tc := ⟨.hbm, 505, rfl⟩
abbrev main_v331 : Ref sig .tc := ⟨.hbm, 506, rfl⟩
abbrev main_v332 : Ref sig .tc := ⟨.hbm, 507, rfl⟩
abbrev main_v333 : Ref sig .tc := ⟨.hbm, 508, rfl⟩
abbrev main_v334 : Ref sig .tc := ⟨.hbm, 509, rfl⟩
abbrev main_v335 : Ref sig .tc := ⟨.hbm, 510, rfl⟩
abbrev main_v336 : Ref sig .tc := ⟨.hbm, 511, rfl⟩
abbrev main_v337 : Ref sig .tc := ⟨.hbm, 512, rfl⟩
abbrev main_c_34 : Ref sig .tc := ⟨.hbm, 513, rfl⟩
abbrev main_call11_v0 : Ref sig .tc := ⟨.hbm, 514, rfl⟩
abbrev main_call11_v1 : Ref sig .tc := ⟨.hbm, 515, rfl⟩
abbrev main_call11_v2 : Ref sig .tc := ⟨.hbm, 516, rfl⟩
abbrev main_call11_v3 : Ref sig .tc := ⟨.hbm, 517, rfl⟩
abbrev main_call11_v4 : Ref sig .tc := ⟨.hbm, 518, rfl⟩
abbrev main_call11_v5 : Ref sig .tc := ⟨.hbm, 519, rfl⟩
abbrev main_call11_v6 : Ref sig .tc := ⟨.hbm, 520, rfl⟩
abbrev main_call11_v7 : Ref sig .tc := ⟨.hbm, 521, rfl⟩
abbrev main_call11_v8 : Ref sig .tc := ⟨.hbm, 522, rfl⟩
abbrev main_call11_v9 : Ref sig .tc := ⟨.hbm, 523, rfl⟩
abbrev main_call11_v10 : Ref sig .tc := ⟨.hbm, 524, rfl⟩
abbrev main_call11_v11 : Ref sig .tc := ⟨.hbm, 525, rfl⟩
abbrev main_call11_v12 : Ref sig .tc := ⟨.hbm, 526, rfl⟩
abbrev main_call11_v13 : Ref sig .tc := ⟨.hbm, 527, rfl⟩
abbrev main_call11_v14 : Ref sig .tc := ⟨.hbm, 528, rfl⟩
abbrev main_v338 : Ref sig .tc := ⟨.hbm, 529, rfl⟩
abbrev main_cst_35 : Ref sig .tc := ⟨.hbm, 530, rfl⟩
abbrev main_v339 : Ref sig .tc := ⟨.hbm, 531, rfl⟩
abbrev main_v340 : Ref sig .tc := ⟨.hbm, 532, rfl⟩
abbrev main_v341 : Ref sig .tc := ⟨.hbm, 533, rfl⟩
abbrev main_v342 : Ref sig .tc := ⟨.hbm, 534, rfl⟩
abbrev main_v343 : Ref sig .tc := ⟨.hbm, 535, rfl⟩
abbrev main_v344 : Ref sig .tc := ⟨.hbm, 536, rfl⟩
abbrev main_v345 : Ref sig .tc := ⟨.hbm, 537, rfl⟩
abbrev main_v346 : Ref sig .tc := ⟨.hbm, 538, rfl⟩
abbrev main_v347 : Ref sig .tc := ⟨.hbm, 539, rfl⟩
abbrev main_v348 : Ref sig .tc := ⟨.hbm, 540, rfl⟩
abbrev main_v349 : Ref sig .tc := ⟨.hbm, 541, rfl⟩
abbrev main_v350 : Ref sig .tc := ⟨.hbm, 542, rfl⟩
abbrev main_v351 : Ref sig .tc := ⟨.hbm, 543, rfl⟩
abbrev main_v352 : Ref sig .tc := ⟨.hbm, 544, rfl⟩
abbrev main_v353 : Ref sig .tc := ⟨.hbm, 545, rfl⟩
abbrev main_v354 : Ref sig .tc := ⟨.hbm, 546, rfl⟩
abbrev main_v355 : Ref sig .tc := ⟨.hbm, 547, rfl⟩
abbrev main_v356 : Ref sig .tc := ⟨.hbm, 548, rfl⟩
abbrev main_v357 : Ref sig .tc := ⟨.hbm, 549, rfl⟩
abbrev main_v358 : Ref sig .tc := ⟨.hbm, 550, rfl⟩
abbrev main_v359 : Ref sig .tc := ⟨.hbm, 551, rfl⟩
abbrev main_v360 : Ref sig .tc := ⟨.hbm, 552, rfl⟩
abbrev main_v361 : Ref sig .tc := ⟨.hbm, 553, rfl⟩
abbrev main_v362 : Ref sig .tc := ⟨.hbm, 554, rfl⟩
abbrev main_v363 : Ref sig .tc := ⟨.hbm, 555, rfl⟩
abbrev main_v364 : Ref sig .tc := ⟨.hbm, 556, rfl⟩
abbrev main_v365 : Ref sig .tc := ⟨.hbm, 557, rfl⟩
abbrev main_v366 : Ref sig .tc := ⟨.hbm, 558, rfl⟩
abbrev main_v367 : Ref sig .tc := ⟨.hbm, 559, rfl⟩
abbrev main_v368 : Ref sig .tc := ⟨.hbm, 560, rfl⟩
abbrev main_v369 : Ref sig .tc := ⟨.hbm, 561, rfl⟩
abbrev main_v370 : Ref sig .tc := ⟨.hbm, 562, rfl⟩
abbrev main_v371 : Ref sig .tc := ⟨.hbm, 563, rfl⟩
abbrev main_v372 : Ref sig .tc := ⟨.hbm, 564, rfl⟩
abbrev main_v373 : Ref sig .tc := ⟨.hbm, 565, rfl⟩
abbrev main_v374 : Ref sig .tc := ⟨.hbm, 566, rfl⟩
abbrev main_v375 : Ref sig .tc := ⟨.hbm, 567, rfl⟩
abbrev main_v376 : Ref sig .tc := ⟨.hbm, 568, rfl⟩
abbrev main_v377 : Ref sig .tc := ⟨.hbm, 569, rfl⟩
abbrev main_v378 : Ref sig .tc := ⟨.hbm, 570, rfl⟩
abbrev main_v379 : Ref sig .tc := ⟨.hbm, 571, rfl⟩
abbrev main_v380 : Ref sig .tc := ⟨.hbm, 572, rfl⟩
abbrev main_v381 : Ref sig .tc := ⟨.hbm, 573, rfl⟩
abbrev main_v382 : Ref sig .tc := ⟨.hbm, 574, rfl⟩
abbrev main_v383 : Ref sig .tc := ⟨.hbm, 575, rfl⟩
abbrev main_v384 : Ref sig .tc := ⟨.hbm, 576, rfl⟩
abbrev main_v385 : Ref sig .tc := ⟨.hbm, 577, rfl⟩
abbrev main_v386 : Ref sig .tc := ⟨.hbm, 578, rfl⟩
abbrev main_v387 : Ref sig .tc := ⟨.hbm, 579, rfl⟩
abbrev main_v388 : Ref sig .tc := ⟨.hbm, 580, rfl⟩
abbrev main_v389 : Ref sig .tc := ⟨.hbm, 581, rfl⟩
abbrev main_v390 : Ref sig .tc := ⟨.hbm, 582, rfl⟩
abbrev main_v391 : Ref sig .tc := ⟨.hbm, 583, rfl⟩
abbrev main_v392 : Ref sig .tc := ⟨.hbm, 584, rfl⟩
abbrev main_v393 : Ref sig .tc := ⟨.hbm, 585, rfl⟩
abbrev main_v394 : Ref sig .tc := ⟨.hbm, 586, rfl⟩
abbrev main_v395 : Ref sig .tc := ⟨.hbm, 587, rfl⟩
abbrev main_v396 : Ref sig .tc := ⟨.hbm, 588, rfl⟩
abbrev main_v397 : Ref sig .tc := ⟨.hbm, 589, rfl⟩
abbrev main_v398 : Ref sig .tc := ⟨.hbm, 590, rfl⟩
abbrev main_v399 : Ref sig .tc := ⟨.hbm, 591, rfl⟩
abbrev main_v400 : Ref sig .tc := ⟨.hbm, 592, rfl⟩
abbrev main_v401 : Ref sig .tc := ⟨.hbm, 593, rfl⟩
abbrev main_cst_36 : Ref sig .tc := ⟨.hbm, 594, rfl⟩
abbrev main_v402 : Ref sig .tc := ⟨.hbm, 595, rfl⟩
abbrev main_cst_37 : Ref sig .tc := ⟨.hbm, 596, rfl⟩
abbrev main_v403 : Ref sig .tc := ⟨.hbm, 597, rfl⟩
abbrev main_v404 : Ref sig .tc := ⟨.hbm, 598, rfl⟩
abbrev main_v405 : Ref sig .tc := ⟨.hbm, 599, rfl⟩
abbrev main_v406 : Ref sig .tc := ⟨.hbm, 600, rfl⟩
abbrev main_v407 : Ref sig .tc := ⟨.hbm, 601, rfl⟩

abbrev nD : Nat := 1
abbrev τ : Topo := Topo.v7x

variable {F : FTy → Type} [FloatOps F]

class Facts₀ : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel
  reducesTo_S8x3x1024x1024_S8x3_d2_3 : S8x3x1024x1024.ReducesTo [2, 3] S8x3
  bcast_S8x3_S8x3x1x1_0_1 : S8x3.BroadcastsInDim S8x3x1x1 (![0, 1] : Fin 2 → Fin S8x3x1x1.rank)
  bcast_S_S8x3x1x1 : S_.BroadcastsInDim S8x3x1x1 (![] : Fin 0 → Fin S8x3x1x1.rank)
  bcast_S8x3x1x1_S8x3x1024x1024_0_1_2_3 : S8x3x1x1.BroadcastsInDim S8x3x1024x1024 (![0, 1, 2, 3] : Fin 4 → Fin S8x3x1024x1024.rank)
  bcast_S_S8x3 : S_.BroadcastsInDim S8x3 (![] : Fin 0 → Fin S8x3.rank)
  reducesTo_S8x3x1x1_S_d0_1_2_3 : S8x3x1x1.ReducesTo [0, 1, 2, 3] S_
  reducesTo_S8x3_S_d0_1 : S8x3.ReducesTo [0, 1] S_
  slices_S8x3x1024x1024_S1x1x1024x1024_0_0_0_0 : S8x3x1024x1024.Slices ![0, 0, 0, 0] S1x1x1024x1024
  shapeCasts_S1x1x1024x1024_S1024x1024 : S1x1x1024x1024.ShapeCasts S1024x1024
  slices_S1024x1024_S1024x1_0_0 : S1024x1024.Slices ![0, 0] S1024x1
  slices_S1024x1024_S1024x1_0_1 : S1024x1024.Slices ![0, 1] S1024x1
  concatenates_S1024x1_S1024x1024_S1024x1025_d1 : Shape.Concatenates [S1024x1, S1024x1024] S1024x1025 1
  slices_S1024x1025_S1024x1_0_1024 : S1024x1025.Slices ![0, 1024] S1024x1
  slices_S1024x1025_S1024x1_0_1023 : S1024x1025.Slices ![0, 1023] S1024x1
  concatenates_S1024x1025_S1024x1_S1024x1026_d1 : Shape.Concatenates [S1024x1025, S1024x1] S1024x1026 1
  slices_S1024x1026_S1024x1024_0_0 : S1024x1026.Slices ![0, 0] S1024x1024
  bcast_S_S1024x1024 : S_.BroadcastsInDim S1024x1024 (![] : Fin 0 → Fin S1024x1024.rank)
  slices_S1024x1026_S1024x1024_0_2 : S1024x1026.Slices ![0, 2] S1024x1024
  reducesTo_S1024x1024_S_d0_1 : S1024x1024.ReducesTo [0, 1] S_
  reducesTo_S8x3x1024x1024_S8x1024x1024_d1 : S8x3x1024x1024.ReducesTo [1] S8x1024x1024
  bcast_S_S8x1024x1024 : S_.BroadcastsInDim S8x1024x1024 (![] : Fin 0 → Fin S8x1024x1024.rank)
  slices_S8x1024x1024_S8x1x1024_0_0_0 : S8x1024x1024.Slices ![0, 0, 0] S8x1x1024
  slices_S8x1024x1024_S8x1x1024_0_1_0 : S8x1024x1024.Slices ![0, 1, 0] S8x1x1024
  concatenates_S8x1x1024_S8x1024x1024_S8x1025x1024_d1 : Shape.Concatenates [S8x1x1024, S8x1024x1024] S8x1025x1024 1
  slices_S8x1025x1024_S8x1x1024_0_1024_0 : S8x1025x1024.Slices ![0, 1024, 0] S8x1x1024
  slices_S8x1025x1024_S8x1x1024_0_1023_0 : S8x1025x1024.Slices ![0, 1023, 0] S8x1x1024
  concatenates_S8x1025x1024_S8x1x1024_S8x1026x1024_d1 : Shape.Concatenates [S8x1025x1024, S8x1x1024] S8x1026x1024 1
  slices_S8x1026x1024_S8x1026x1_0_0_0 : S8x1026x1024.Slices ![0, 0, 0] S8x1026x1
  slices_S8x1026x1024_S8x1026x1_0_0_1 : S8x1026x1024.Slices ![0, 0, 1] S8x1026x1
  concatenates_S8x1026x1_S8x1026x1024_S8x1026x1025_d2 : Shape.Concatenates [S8x1026x1, S8x1026x1024] S8x1026x1025 2
  slices_S8x1026x1025_S8x1026x1_0_0_1024 : S8x1026x1025.Slices ![0, 0, 1024] S8x1026x1
  slices_S8x1026x1025_S8x1026x1_0_0_1023 : S8x1026x1025.Slices ![0, 0, 1023] S8x1026x1
  concatenates_S8x1026x1025_S8x1026x1_S8x1026x1026_d2 : Shape.Concatenates [S8x1026x1025, S8x1026x1] S8x1026x1026 2
  slices_S3x3_S1x1_0_0 : S3x3.Slices ![0, 0] S1x1
  shapeCasts_S1x1_S_ : S1x1.ShapeCasts S_
  slices_S8x1026x1026_S8x1024x1024_0_0_0 : S8x1026x1026.Slices ![0, 0, 0] S8x1024x1024
  slices_S3x3_S1x1_0_1 : S3x3.Slices ![0, 1] S1x1
  slices_S8x1026x1026_S8x1024x1024_0_0_1 : S8x1026x1026.Slices ![0, 0, 1] S8x1024x1024
  slices_S3x3_S1x1_0_2 : S3x3.Slices ![0, 2] S1x1
  slices_S8x1026x1026_S8x1024x1024_0_0_2 : S8x1026x1026.Slices ![0, 0, 2] S8x1024x1024
  slices_S3x3_S1x1_1_0 : S3x3.Slices ![1, 0] S1x1
  slices_S8x1026x1026_S8x1024x1024_0_1_0 : S8x1026x1026.Slices ![0, 1, 0] S8x1024x1024
  slices_S3x3_S1x1_1_1 : S3x3.Slices ![1, 1] S1x1
  slices_S8x1026x1026_S8x1024x1024_0_1_1 : S8x1026x1026.Slices ![0, 1, 1] S8x1024x1024
  slices_S3x3_S1x1_1_2 : S3x3.Slices ![1, 2] S1x1
  slices_S8x1026x1026_S8x1024x1024_0_1_2 : S8x1026x1026.Slices ![0, 1, 2] S8x1024x1024
  slices_S3x3_S1x1_2_0 : S3x3.Slices ![2, 0] S1x1
  slices_S8x1026x1026_S8x1024x1024_0_2_0 : S8x1026x1026.Slices ![0, 2, 0] S8x1024x1024
  slices_S3x3_S1x1_2_1 : S3x3.Slices ![2, 1] S1x1
  slices_S8x1026x1026_S8x1024x1024_0_2_1 : S8x1026x1026.Slices ![0, 2, 1] S8x1024x1024
  slices_S3x3_S1x1_2_2 : S3x3.Slices ![2, 2] S1x1
  slices_S8x1026x1026_S8x1024x1024_0_2_2 : S8x1026x1026.Slices ![0, 2, 2] S8x1024x1024
  slices_S1024x1024_S1x1024_0_0 : S1024x1024.Slices ![0, 0] S1x1024
  slices_S1024x1024_S1x1024_1_0 : S1024x1024.Slices ![1, 0] S1x1024
  concatenates_S1x1024_S1024x1024_S1025x1024_d0 : Shape.Concatenates [S1x1024, S1024x1024] S1025x1024 0
  slices_S1025x1024_S1x1024_1024_0 : S1025x1024.Slices ![1024, 0] S1x1024
  slices_S1025x1024_S1x1024_1023_0 : S1025x1024.Slices ![1023, 0] S1x1024
  concatenates_S1025x1024_S1x1024_S1026x1024_d0 : Shape.Concatenates [S1025x1024, S1x1024] S1026x1024 0
  slices_S1026x1024_S1026x1_0_0 : S1026x1024.Slices ![0, 0] S1026x1
  slices_S1026x1024_S1026x1_0_1 : S1026x1024.Slices ![0, 1] S1026x1
  concatenates_S1026x1_S1026x1024_S1026x1025_d1 : Shape.Concatenates [S1026x1, S1026x1024] S1026x1025 1
  slices_S1026x1025_S1026x1_0_1024 : S1026x1025.Slices ![0, 1024] S1026x1
  slices_S1026x1025_S1026x1_0_1023 : S1026x1025.Slices ![0, 1023] S1026x1
  concatenates_S1026x1025_S1026x1_S1026x1026_d1 : Shape.Concatenates [S1026x1025, S1026x1] S1026x1026 1
  slices_S1026x1026_S1024x1024_0_0 : S1026x1026.Slices ![0, 0] S1024x1024
  slices_S1026x1026_S1024x1024_0_1 : S1026x1026.Slices ![0, 1] S1024x1024
  slices_S1026x1026_S1024x1024_0_2 : S1026x1026.Slices ![0, 2] S1024x1024
  slices_S1026x1026_S1024x1024_1_0 : S1026x1026.Slices ![1, 0] S1024x1024
  slices_S1026x1026_S1024x1024_1_1 : S1026x1026.Slices ![1, 1] S1024x1024
  slices_S1026x1026_S1024x1024_1_2 : S1026x1026.Slices ![1, 2] S1024x1024
  slices_S1026x1026_S1024x1024_2_0 : S1026x1026.Slices ![2, 0] S1024x1024
  slices_S1026x1026_S1024x1024_2_1 : S1026x1026.Slices ![2, 1] S1024x1024
  slices_S1026x1026_S1024x1024_2_2 : S1026x1026.Slices ![2, 2] S1024x1024
  bcast_S1024x1024_S1x1024x1024_1_2 : S1024x1024.BroadcastsInDim S1x1024x1024 (![1, 2] : Fin 2 → Fin S1x1024x1024.rank)
  bcast_S1x1024x1024_S8x1024x1024_0_1_2 : S1x1024x1024.BroadcastsInDim S8x1024x1024 (![0, 1, 2] : Fin 3 → Fin S8x1024x1024.rank)
  reducesTo_S8x1024x1024_S_d0_1_2 : S8x1024x1024.ReducesTo [0, 1, 2] S_

variable [Facts₀]

class Facts : Prop extends Facts₀ where

variable [Facts]
-- ==== Proof.Spec.lean ====
import Idealize.ShloMosaic.PureOps.Ideal

noncomputable section

namespace Cert.Spec

open Idealize.ShloMosaic

abbrev lit (w : BitVec 32) : EReal := Ideal.ofBits .f32 w

abbrev A4 := Fin 8 → Fin 3 → Fin 1024 → Fin 1024 → EReal
abbrev A3 := Fin 8 → Fin 1024 → Fin 1024 → EReal
abbrev Img := Fin 1024 → Fin 1024 → EReal
abbrev BC := Fin 8 → Fin 3 → EReal

def gray (x : A4) : A3 := fun b r c => Ideal.div (∑ ch : Fin 3, x b ch r c) (lit 0x40400000#32)

def getN (y : Img) (r c : ℕ) : EReal := if h : r < 1024 ∧ c < 1024 then y ⟨r, h.1⟩ ⟨c, h.2⟩ else 0

def refl (k : ℕ) : ℕ := if k = 0 then 1 else if 1025 ≤ k then 1022 else k - 1

def pad (y : Img) (r c : ℕ) : EReal := getN y (refl r) (refl c)

def gauss (y : Img) : Img := fun r c =>
  lit 0x3D800000#32 * pad y (r.val + 0) (c.val + 0) + lit 0x3E000000#32 * pad y (r.val + 0) (c.val + 1)
    + lit 0x3D800000#32 * pad y (r.val + 0) (c.val + 2)
    + lit 0x3E000000#32 * pad y (r.val + 1) (c.val + 0) + lit 0x3E800000#32 * pad y (r.val + 1) (c.val + 1)
    + lit 0x3E000000#32 * pad y (r.val + 1) (c.val + 2)
    + lit 0x3D800000#32 * pad y (r.val + 2) (c.val + 0) + lit 0x3E000000#32 * pad y (r.val + 2) (c.val + 1)
    + lit 0x3D800000#32 * pad y (r.val + 2) (c.val + 2)

def gaussGray (x : A4) : A3 := fun b => gauss (gray x b)

def absE (v : EReal) : EReal := max v (-v)

def logAll (gp gt : A3) (lp lt : Img) : EReal :=
  ∑ b : Fin 8, ∑ r : Fin 1024, ∑ c : Fin 1024, absE (gp b r c * lp r c - gt b r c * lt r c)

def logB (gp gt : A3) (lp lt : Img) (b : Fin 8) : EReal :=
  ∑ r : Fin 1024, ∑ c : Fin 1024, absE (gp b r c * lp r c - gt b r c * lt r c)

def sum1 (x : A4) : BC := fun b ch => ∑ r : Fin 1024, ∑ c : Fin 1024, x b ch r c
def sum2 (x : A4) : BC := fun b ch => ∑ r : Fin 1024, ∑ c : Fin 1024, x b ch r c * x b ch r c

def satf (v : EReal) : EReal :=
  (max (-v) 0 + max (v - lit 0x3F800000#32) 0) * (max (-v) 0 + max (v - lit 0x3F800000#32) 0)

def satAll (x : A4) : EReal := ∑ b : Fin 8, ∑ ch : Fin 3, ∑ r : Fin 1024, ∑ c : Fin 1024, satf (x b ch r c)

def satB (x : A4) (b : Fin 8) : EReal := ∑ ch : Fin 3, ∑ r : Fin 1024, ∑ c : Fin 1024, satf (x b ch r c)

abbrev nPix : EReal := lit 0x49800000#32
abbrev nPixM1 : EReal := lit 0x497FFFF0#32

def mean (x : A4) : BC := fun b ch => Ideal.div (sum1 x b ch) nPix

def varK (x : A4) : BC := fun b ch =>
  Ideal.div (sum2 x b ch - Ideal.div (sum1 x b ch * sum1 x b ch) nPix) nPixM1

def varR (x : A4) : BC := fun b ch =>
  Ideal.div (∑ r : Fin 1024, ∑ c : Fin 1024, (x b ch r c - mean x b ch) * (x b ch r c - mean x b ch))
    (nPix - ((1 : ℝ) : EReal))

def lSat (x : A4) : EReal := Ideal.div (satAll x) (lit 0x4BC00000#32)
def lInt (x : A4) : EReal :=
  Ideal.div (∑ b : Fin 8, ∑ ch : Fin 3, (mean x b ch - lit 0x3F000000#32) * (mean x b ch - lit 0x3F000000#32)) (lit 0x41C00000#32)

def lSv (v : A4 → BC) (x xd : A4) : EReal :=
  Ideal.div (∑ b : Fin 8, ∑ ch : Fin 3,
    (Ideal.sqrt (v x b ch) - Ideal.sqrt (v xd b ch)) * (Ideal.sqrt (v x b ch) - Ideal.sqrt (v xd b ch))) (lit 0x41C00000#32)
def lLog (gp gt : A3) (lp lt : Img) : EReal := Ideal.div (logAll gp gt lp lt) (lit 0x4B000000#32)

def final (v : A4 → BC) (x xd : A4) (sobel : EReal) (lp lt : Img) : EReal :=
  lSat x + lSv v x xd + sobel + lInt x + lLog (gaussGray x) (gaussGray xd) lp lt

def finalK := final varK
def finalR := final varR

def varOf (s1 s2 : EReal) : EReal := Ideal.div (s2 - Ideal.div (s1 * s1) nPix) nPixM1

def tailK (s1 s2 s1d s2d : BC) (satb : Fin 8 → EReal) (sobel : EReal) (logb : Fin 8 → EReal) : EReal :=
  Ideal.div (∑ b : Fin 8, satb b) (lit 0x4BC00000#32)
    + Ideal.div (∑ b : Fin 8, ∑ ch : Fin 3,
        (Ideal.sqrt (varOf (s1 b ch) (s2 b ch)) - Ideal.sqrt (varOf (s1d b ch) (s2d b ch)))
          * (Ideal.sqrt (varOf (s1 b ch) (s2 b ch)) - Ideal.sqrt (varOf (s1d b ch) (s2d b ch)))) (lit 0x41C00000#32)
    + sobel
    + Ideal.div (∑ b : Fin 8, ∑ ch : Fin 3,
        (Ideal.div (s1 b ch) nPix - lit 0x3F000000#32) * (Ideal.div (s1 b ch) nPix - lit 0x3F000000#32)) (lit 0x41C00000#32)
    + Ideal.div (∑ b : Fin 8, logb b) (lit 0x4B000000#32)

theorem finalK_eq_tailK (x xd : A4) (sobel : EReal) (lp lt : Img) :
    finalK x xd sobel lp lt
      = tailK (sum1 x) (sum2 x) (sum1 xd) (sum2 xd) (satB x) sobel (logB (gaussGray x) (gaussGray xd) lp lt) := rfl

end Cert.Spec

end
-- ==== Proof.KR0Gray.lean ====
import proofs.«147778_j69123203661888_1_alg».proof.Proof.Gen.KernelIdeal.Frame
import proofs.«147778_j69123203661888_1_alg».proof.Proof.Spec
import Idealize.ShloMosaic.Lib.ValueIdx
import Idealize.ShloMosaic.Lib.Pipeline.Value
import Idealize.ShloMosaic.PureOps.Ideal.Laws

noncomputable section

namespace Cert.KernelIdeal.KR0Gray

open Cert.KernelIdeal Cert.KernelIdeal.Gen Idealize.ShloMosaic Idealize.ShloMosaic.TcCoe Idealize.SL.Sem Idealize.ShloMosaic.ValueIdx
open Idealize.ShloMosaic.Pipeline (Dat)

open Idealize.ShloMosaic.Tactic

section Pieces

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

theorem outA2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : cond0_0 i) (x0 x1 : Vec F S1x3x256x1024 .f32) :
    out0_A_2 c i arg2 harg2 arg3 harg3 arg4 harg4 arg5 harg5 arg6 harg6 arg7 harg7 arg8 harg8 arg9 harg9 arg10 harg10 hc0 x0 x1 = k0_pay1 (k0_pay15 x0) (Scalar.ofBits .f32 0x40400000#32) := by
  unfold out0_A_2
  rw [View.read_writes_eq_canon _ _ _ (cover0_A_2 c i arg2 harg2 arg3 harg3 arg4 harg4 arg5 harg5 arg6 harg6 arg7 harg7 arg8 harg8 arg9 harg9 arg10 harg10 hc0 x0 x1)]
  unfold kernelRun0_A
  dsimp only
  sl_unfold_words
  rw [View.canon_unit_zero hz3]
  simp only [View.readAt_eq_ld, harg2.read_unread, harg3.read_unread, View.ld_unit_zero (S := S1x3x256x1024) hz4]

theorem outA3 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : cond0_0 i) (x0 x1 : Vec F S1x3x256x1024 .f32) :
    out0_A_3 c i arg2 harg2 arg3 harg3 arg4 harg4 arg5 harg5 arg6 harg6 arg7 harg7 arg8 harg8 arg9 harg9 arg10 harg10 hc0 x0 x1 = k0_pay2 x1 := by
  unfold out0_A_3
  rw [View.read_writes_eq_canon _ _ _ (cover0_A_3 c i arg2 harg2 arg3 harg3 arg4 harg4 arg5 harg5 arg6 harg6 arg7 harg7 arg8 harg8 arg9 harg9 arg10 harg10 hc0 x0 x1)]
  unfold kernelRun0_A
  dsimp only
  sl_unfold_words
  rw [View.canon_unit_zero hz3]
  simp only [View.readAt_eq_ld, harg2.read_unread, harg3.read_unread, View.ld_unit_zero (S := S1x3x256x1024) hz4]

theorem outB2 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : ¬cond0_0 i) (x0 x1 : Vec F S1x3x256x1024 .f32) (xo4 : Vec F S1x3x1x1 .f32) (xo5 : Vec F S1x3x1x1 .f32) (xo6 : Vec F S1x3x1x1 .f32) (xo7 : Vec F S1x3x1x1 .f32) (xo8 : Vec F S1x1x1x1 .f32) :
    out0_B_2 c i arg2 harg2 arg3 harg3 arg4 harg4 arg5 harg5 arg6 harg6 arg7 harg7 arg8 harg8 arg9 harg9 arg10 harg10 hc0 x0 x1 xo4 xo5 xo6 xo7 xo8 = k0_pay1 (k0_pay15 x0) (Scalar.ofBits .f32 0x40400000#32) := by
  unfold out0_B_2
  rw [View.read_writes_eq_canon _ _ _ (cover0_B_2 c i arg2 harg2 arg3 harg3 arg4 harg4 arg5 harg5 arg6 harg6 arg7 harg7 arg8 harg8 arg9 harg9 arg10 harg10 hc0 x0 x1 xo4 xo5 xo6 xo7 xo8)]
  unfold kernelRun0_B
  dsimp only
  sl_unfold_words
  rw [View.canon_unit_zero hz3]
  simp only [View.readAt_eq_ld, harg2.read_unread, harg3.read_unread, View.ld_unit_zero (S := S1x3x256x1024) hz4]

theorem outB3 (c : Dev nD) (i : grid0.Coords) (arg2 : Memref sig .tc .vmem S1x3x256x1024 .f32) (harg2 : arg2.IsWhole) (arg3 : Memref sig .tc .vmem S1x3x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x3x1x1 .f32) (harg6 : arg6.IsWhole) (arg7 : Memref sig .tc .vmem S1x3x1x1 .f32) (harg7 : arg7.IsWhole) (arg8 : Memref sig .tc .vmem S1x3x1x1 .f32) (harg8 : arg8.IsWhole) (arg9 : Memref sig .tc .vmem S1x3x1x1 .f32) (harg9 : arg9.IsWhole) (arg10 : Memref sig .tc .vmem S1x1x1x1 .f32) (harg10 : arg10.IsWhole) (hc0 : ¬cond0_0 i) (x0 x1 : Vec F S1x3x256x1024 .f32) (xo4 : Vec F S1x3x1x1 .f32) (xo5 : Vec F S1x3x1x1 .f32) (xo6 : Vec F S1x3x1x1 .f32) (xo7 : Vec F S1x3x1x1 .f32) (xo8 : Vec F S1x1x1x1 .f32) :
    out0_B_3 c i arg2 harg2 arg3 harg3 arg4 harg4 arg5 harg5 arg6 harg6 arg7 harg7 arg8 harg8 arg9 harg9 arg10 harg10 hc0 x0 x1 xo4 xo5 xo6 xo7 xo8 = k0_pay2 x1 := by
  unfold out0_B_3
  rw [View.read_writes_eq_canon _ _ _ (cover0_B_3 c i arg2 harg2 arg3 harg3 arg4 harg4 arg5 harg5 arg6 harg6 arg7 harg7 arg8 harg8 arg9 harg9 arg10 harg10 hc0 x0 x1 xo4 xo5 xo6 xo7 xo8)]
  unfold kernelRun0_B
  dsimp only
  sl_unfold_words
  rw [View.canon_unit_zero hz3]
  simp only [View.readAt_eq_ld, harg2.read_unread, harg3.read_unread, View.ld_unit_zero (S := S1x3x256x1024) hz4]

end Pieces

section Payload

theorem chanSum_apply (x : Vec Ideal S1x3x256x1024 .f32) (h : S1x3x256x1024.Reduces [1] S1x256x1024) (hφ : FKind.Formats .f32)
    (hacc : (0x00000000#32 : BitVec 32) = FKind.add.neutral .f32 hφ) (b : Fin 1) (r : Fin 256) (cc : Fin 1024) :
    multiReduction (F := Ideal) .add [1] S1x256x1024 x 0x00000000#32 h hφ hacc (ix3 b r cc) = ∑ ch : Fin 3, x (ix4 b ch r cc) := by
  refine (Ideal.multiReduction_add_single x 0x00000000#32 h hφ hacc (ix3 b r cc)).trans ?_
  refine Finset.sum_congr rfl fun ch _ => congrArg x ?_
  funext a
  apply Fin.ext
  match a with
  | ⟨0, _⟩ => rfl
  | ⟨1, _⟩ => rfl
  | ⟨2, _⟩ => rfl
  | ⟨3, _⟩ => rfl

theorem pay1_apply (x : Vec Ideal S1x3x256x1024 .f32) (b : Fin 1) (r : Fin 256) (cc : Fin 1024) :
    k0_pay1 (F := Ideal) (k0_pay15 x) (Scalar.ofBits .f32 0x40400000#32) (ix3 b r cc)
      = Ideal.div (∑ ch : Fin 3, x (ix4 b ch r cc)) (Cert.Spec.lit 0x40400000#32) := by
  unfold k0_pay1 k0_pay15
  exact congrArg (fun s => Ideal.div s (Cert.Spec.lit 0x40400000#32)) (chanSum_apply x _ _ _ b r cc)

theorem pay2_apply (x : Vec Ideal S1x3x256x1024 .f32) (b : Fin 1) (r : Fin 256) (cc : Fin 1024) :
    k0_pay2 (F := Ideal) x (ix3 b r cc)
      = Ideal.div (∑ ch : Fin 3, x (ix4 b ch r cc)) (Cert.Spec.lit 0x40400000#32) := by
  unfold k0_pay2
  exact congrArg (fun s => Ideal.div s (Cert.Spec.lit 0x40400000#32)) (chanSum_apply x _ _ _ b r cc)

end Payload

section Arrays

variable (V : (c : Dev nD) → (b : Ref sig .tc) → Buf (Elt Ideal) ((c : Thread nD τ).loc b))

abbrev xblk (c : Dev nD) (t : Fin cfg0.N) : Vec Ideal S1x3x256x1024 .f32 := iblk0 V c 0 t
abbrev tblk (c : Dev nD) (t : Fin cfg0.N) : Vec Ideal S1x3x256x1024 .f32 := iblk0 V c 1 t

def grayArr (x : S8x3x1024x1024.Idx → EReal) : S8x1024x1024.Idx → EReal :=
  fun i => Cert.Spec.gray (fun b ch r cc => x (ix4 b ch r cc)) (i 0) (i 1) (i 2)

theorem after2_eq (c : Dev nD) (t : Fin cfg0.N) :
    (outsAt0 V c t.val t.isLt).1 = k0_pay1 (k0_pay15 (xblk V c t)) (Scalar.ofBits .f32 0x40400000#32) := by
  by_cases h : t.val % 4 = 0
  · rw [outsAt0_A V c t h]
    dsimp only
    exact outA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h) (xblk V c t) (tblk V c t)
  · rw [outsAt0_B V c t h]
    dsimp only
    exact outB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((hcond0_0 t).mp h')) (xblk V c t) (tblk V c t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2

theorem after3_eq (c : Dev nD) (t : Fin cfg0.N) :
    (outsAt0 V c t.val t.isLt).2.1 = k0_pay2 (tblk V c t) := by
  by_cases h : t.val % 4 = 0
  · rw [outsAt0_A V c t h]
    dsimp only
    exact outA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h) (xblk V c t) (tblk V c t)
  · rw [outsAt0_B V c t h]
    dsimp only
    exact outB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((hcond0_0 t).mp h')) (xblk V c t) (tblk V c t) (outsAt0 V c (t.val - 1) (Nat.lt_of_le_of_lt (Nat.sub_le _ _) t.isLt)).2.2.1 (outsAt0 V c (t.val - 1) (Nat.lt_of_le_of_lt (Nat.sub_le _ _) t.isLt)).2.2.2.1 (outsAt0 V c (t.val - 1) (Nat.lt_of_le_of_lt (Nat.sub_le _ _) t.isLt)).2.2.2.2.1 (outsAt0 V c (t.val - 1) (Nat.lt_of_le_of_lt (Nat.sub_le _ _) t.isLt)).2.2.2.2.2.1 (outsAt0 V c (t.val - 1) (Nat.lt_of_le_of_lt (Nat.sub_le _ _) t.isLt)).2.2.2.2.2.2

theorem idx_facts : ∀ t : Fin cfg0.N,
    win0_0.index t (0 : Fin 4) = win0_2.index t (0 : Fin 3) ∧ win0_0.index t (1 : Fin 4) = 0
    ∧ win0_0.index t (2 : Fin 4) = win0_2.index t (1 : Fin 3) ∧ win0_0.index t (3 : Fin 4) = 0
    ∧ win0_1.index t (0 : Fin 4) = win0_3.index t (0 : Fin 3) ∧ win0_1.index t (1 : Fin 4) = 0
    ∧ win0_1.index t (2 : Fin 4) = win0_3.index t (1 : Fin 3) ∧ win0_1.index t (3 : Fin 4) = 0
    ∧ win0_2.index t (2 : Fin 3) = 0 ∧ win0_3.index t (2 : Fin 3) = 0 :=
  (by decide +kernel : ∀ t : Fin grid0.N, _)

theorem idx_onto2 : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])
theorem idx_onto3 : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

theorem flushed2_eq (c : Dev nD) (t : Fin cfg0.N) :
    (dat0 V c).flushed 2 t = ((cfg0.win 2).blk t).view.read (Elt Ideal) (grayArr (V c (Pipeline.arrRef spec0 0))) := by
  show (cfg0.win 2).cut (grid0.coords t) ((dat0 V c).after 2 t) = _
  rw [after0_2, after2_eq]
  obtain ⟨e0, e1, e2, e3, -, -, -, -, e8, -⟩ := idx_facts t
  funext j
  obtain ⟨p, q, s, rfl⟩ : ∃ (p : Fin 1) (q : Fin 256) (s : Fin 1024), j = ix3 p q s := ⟨j 0, j 1, j 2, eq_ix3 j⟩
  refine (pay1_apply (xblk V c t) p q s).trans ?_
  show Ideal.div _ _ = grayArr (V c (Pipeline.arrRef spec0 0)) (((cfg0.win 2).blk t).view.emb (ix3 p q s))
  unfold grayArr Cert.Spec.gray
  refine congrArg (fun z => Ideal.div z (Cert.Spec.lit 0x40400000#32)) (Finset.sum_congr rfl fun ch _ => ?_)
  show V c (Pipeline.arrRef spec0 0) (((cfg0.win 0).blk t).view.emb (ix4 p ch q s)) = _
  refine congrArg (V c (Pipeline.arrRef spec0 0)) ?_
  funext a
  apply Fin.ext
  match a with
  | ⟨0, _⟩ => show win0_0.index t (0 : Fin 4) * 1 + 1 * p.val = win0_2.index t (0 : Fin 3) * 1 + 1 * p.val; omega
  | ⟨1, _⟩ => show win0_0.index t (1 : Fin 4) * 3 + 1 * ch.val = ch.val; omega
  | ⟨2, _⟩ => show win0_0.index t (2 : Fin 4) * 256 + 1 * q.val = win0_2.index t (1 : Fin 3) * 256 + 1 * q.val; omega
  | ⟨3, _⟩ => show win0_0.index t (3 : Fin 4) * 1024 + 1 * s.val = win0_2.index t (2 : Fin 3) * 1024 + 1 * s.val; omega

end Arrays

section Arrays2

variable (V : (c : Dev nD) → (b : Ref sig .tc) → Buf (Elt Ideal) ((c : Thread nD τ).loc b))

theorem flushed3_eq (c : Dev nD) (t : Fin cfg0.N) :
    (dat0 V c).flushed 3 t = ((cfg0.win 3).blk t).view.read (Elt Ideal) (grayArr (V c (Pipeline.arrRef spec0 1))) := by
  show (cfg0.win 3).cut (grid0.coords t) ((dat0 V c).after 3 t) = _
  rw [after0_3, after3_eq]
  obtain ⟨-, -, -, -, e0, e1, e2, e3, -, e8⟩ := idx_facts t
  funext j
  obtain ⟨p, q, s, rfl⟩ : ∃ (p : Fin 1) (q : Fin 256) (s : Fin 1024), j = ix3 p q s := ⟨j 0, j 1, j 2, eq_ix3 j⟩
  refine (pay2_apply (tblk V c t) p q s).trans ?_
  show Ideal.div _ _ = grayArr (V c (Pipeline.arrRef spec0 1)) (((cfg0.win 3).blk t).view.emb (ix3 p q s))
  unfold grayArr Cert.Spec.gray
  refine congrArg (fun z => Ideal.div z (Cert.Spec.lit 0x40400000#32)) (Finset.sum_congr rfl fun ch _ => ?_)
  show V c (Pipeline.arrRef spec0 1) (((cfg0.win 1).blk t).view.emb (ix4 p ch q s)) = _
  refine congrArg (V c (Pipeline.arrRef spec0 1)) ?_
  funext a
  apply Fin.ext
  match a with
  | ⟨0, _⟩ => show win0_1.index t (0 : Fin 4) * 1 + 1 * p.val = win0_3.index t (0 : Fin 3) * 1 + 1 * p.val; omega
  | ⟨1, _⟩ => show win0_1.index t (1 : Fin 4) * 3 + 1 * ch.val = ch.val; omega
  | ⟨2, _⟩ => show win0_1.index t (2 : Fin 4) * 256 + 1 * q.val = win0_3.index t (1 : Fin 3) * 256 + 1 * q.val; omega
  | ⟨3, _⟩ => show win0_1.index t (3 : Fin 4) * 1024 + 1 * s.val = win0_3.index t (2 : Fin 3) * 1024 + 1 * s.val; omega

theorem mem_blk2 (t : Fin cfg0.N) (i : S8x1024x1024.Idx) :
    i ∈ ((cfg0.win 2).blk t).view.set ↔ ∀ a : Fin 3, win0_2.index t a * S1x256x1024.size a ≤ (i a).val ∧ (i a).val < win0_2.index t a * S1x256x1024.size a + S1x256x1024.size a := by
  show i ∈ ((View.whole main_v0_0).slice (win0_2.rect t)).set ↔ _
  rw [View.set_slice_whole, Rect.mem_set_unit]
  exact Iff.rfl

theorem mem_blk3 (t : Fin cfg0.N) (i : S8x1024x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v0_1).slice (win0_3.rect t)).set ↔ _
  rw [View.set_slice_whole, Rect.mem_set_unit]
  exact Iff.rfl

theorem cover2 (i : S8x1024x1024.Idx) : ∃ t : Fin cfg0.N, (cfg0.win 2).flush t = true ∧ i ∈ ((cfg0.win 2).blk t).view.set := by
  have hi0 : (i 0).val < 8 := (i 0).isLt
  have hi1 : (i 1).val < 1024 := (i 1).isLt
  have hi2 : (i 2).val < 1024 := (i 2).isLt
  obtain ⟨t, ht⟩ := idx_onto2 ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

theorem cover3 (i : S8x1024x1024.Idx) : ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 1024 := (i 2).isLt
  obtain ⟨t, ht⟩ := idx_onto3 ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

theorem final2 (c : Dev nD) : (dat0 V c).arrAt 2 cfg0.N = grayArr (V c (Pipeline.arrRef spec0 0)) :=
  (dat0 V c).arrAt_eq_of_cover 2 _ (fun t _ => flushed2_eq V c t) cover2

theorem final3 (c : Dev nD) : (dat0 V c).arrAt 3 cfg0.N = grayArr (V c (Pipeline.arrRef spec0 1)) :=
  (dat0 V c).arrAt_eq_of_cover 3 _ (fun t _ => flushed3_eq V c t) cover3

end Arrays2

theorem gray_p (V : (c : Dev nD) → (b : Ref sig .tc) → Buf (Elt Ideal) ((c : Thread nD τ).loc b)) (c : Dev nD) (b : Fin 8) (r cc : Fin 1024) :
    (Gen.dat0 (F := Ideal) V c).arrAt 2 cfg0.N (ix3 b r cc)
      = Cert.Spec.gray (fun b ch r cc => V c (Pipeline.arrRef spec0 0) (ix4 b ch r cc)) b r cc :=
  congrFun (final2 V c) (ix3 b r cc)

theorem gray_t (V : (c : Dev nD) → (b : Ref sig .tc) → Buf (Elt Ideal) ((c : Thread nD τ).loc b)) (c : Dev nD) (b : Fin 8) (r cc : Fin 1024) :
    (Gen.dat0 (F := Ideal) V c).arrAt 3 cfg0.N (ix3 b r cc)
      = Cert.Spec.gray (fun b ch r cc => V c (Pipeline.arrRef spec0 1) (ix4 b ch r cc)) b r cc :=
  congrFun (final3 V c) (ix3 b r cc)

end Cert.KernelIdeal.KR0Gray

end
-- ==== Proof.KR0Acc.lean ====
import proofs.«147778_j69123203661888_1_alg».proof.Proof.Gen.KernelIdeal.Frame
import proofs.«147778_j69123203661888_1_alg».proof.Proof.Spec
import Idealize.ShloMosaic.Lib.ValueIdx
import Idealize.ShloMosaic.Lib.Pipeline.Value
import Idealize.ShloMosaic.PureOps.Ideal.Laws

noncomputable section

namespace Cert.KernelIdeal.KR0Acc

open Cert.KernelIdeal Cert.KernelIdeal.Gen Idealize.ShloMosaic Idealize.ShloMosaic.TcCoe Idealize.SL.Sem Idealize.ShloMosaic.ValueIdx
open Idealize.ShloMosaic.Pipeline (Dat)

theorem drop23_ix4 (u : Fin 1) (ch : Fin 3) (r : Fin 256) (c : Fin 1024) :
    reduces_S1x3x256x1024_S1x3.drop (ix4 u ch r c) = ix2 u ch := by
  funext b
  apply Fin.ext
  match b with
  | ⟨0, _⟩ => rfl
  | ⟨1, _⟩ => rfl

theorem red23 (x : FVec Ideal S1x3x256x1024 .f32) (ch : Fin 3) :
    multiReduction .add [2, 3] S1x3 x 0x00000000#32 reduces_S1x3x256x1024_S1x3 (.inl rfl) rfl (ix2 (0 : Fin 1) ch)
      = ∑ r : Fin 256, ∑ c : Fin 1024, x (ix4 (0 : Fin 1) ch r c) := by
  show Ideal.reduceAdd reduces_S1x3x256x1024_S1x3 x (ix2 (0 : Fin 1) ch) = _
  unfold Ideal.reduceAdd
  rw [← Finset.sum_product']
  refine Finset.sum_bij' (fun i _ => ((i 2 : Fin 256), (i 3 : Fin 1024))) (fun p _ => ix4 (0 : Fin 1) ch p.1 p.2) ?_ ?_ ?_ ?_ ?_
  · intro i _; exact Finset.mem_product.mpr ⟨Finset.mem_univ _, Finset.mem_univ _⟩
  · intro p _; exact Finset.mem_filter.mpr ⟨Finset.mem_univ _, drop23_ix4 0 ch p.1 p.2⟩
  · intro i hi
    have hd := (Finset.mem_filter.mp hi).2
    have h1 : (i 1 : Fin 3) = ch := by
      have := congrFun hd 1
      exact Fin.ext (congrArg Fin.val this)
    funext a
    match a with
    | ⟨0, _⟩ => exact Subsingleton.elim (α := Fin 1) _ _
    | ⟨1, _⟩ => exact h1.symm
    | ⟨2, _⟩ => rfl
    | ⟨3, _⟩ => rfl
  · intro p _; rfl
  · intro i hi
    have hd := (Finset.mem_filter.mp hi).2
    have h1 : (i 1 : Fin 3) = ch := by
      have := congrFun hd 1
      exact Fin.ext (congrArg Fin.val this)
    congr 1
    funext a
    match a with
    | ⟨0, _⟩ => exact Subsingleton.elim (α := Fin 1) _ _
    | ⟨1, _⟩ => exact h1
    | ⟨2, _⟩ => rfl
    | ⟨3, _⟩ => rfl

theorem cast_1x3 {α : Type} (v : S1x3.Idx → α) (ch : Fin 3) :
    shapeCast S1x3x1x1 v shapeCasts_S1x3_S1x3x1x1 (ix4 (0 : Fin 1) ch (0 : Fin 1) (0 : Fin 1)) = v (ix2 (0 : Fin 1) ch) :=
  shapeCast_apply v _ _ _ (by
    rw [Shape.rowMajor_val_two, Shape.rowMajor_val_four]
    show (0 * 3 + ch.val) = ((0 * 3 + ch.val) * 1 + 0) * 1 + 0
    omega)

theorem pay8_apply (x : Vec Ideal S1x3x256x1024 .f32) (acc : Vec Ideal S1x3x1x1 .f32) (ch : Fin 3) :
    k0_pay8 (F := Ideal) x acc (ix4 (0 : Fin 1) ch (0 : Fin 1) (0 : Fin 1))
      = acc (ix4 (0 : Fin 1) ch (0 : Fin 1) (0 : Fin 1)) + ∑ r : Fin 256, ∑ c : Fin 1024, x (ix4 (0 : Fin 1) ch r c) := by
  unfold k0_pay8
  dsimp only
  rw [addf_apply, shapeCast_self, cast_1x3, red23]

theorem pay9_apply (x : Vec Ideal S1x3x256x1024 .f32) (acc : Vec Ideal S1x3x1x1 .f32) (ch : Fin 3) :
    k0_pay9 (F := Ideal) x acc (ix4 (0 : Fin 1) ch (0 : Fin 1) (0 : Fin 1))
      = acc (ix4 (0 : Fin 1) ch (0 : Fin 1) (0 : Fin 1))
        + ∑ r : Fin 256, ∑ c : Fin 1024, x (ix4 (0 : Fin 1) ch r c) * x (ix4 (0 : Fin 1) ch r c) := by
  unfold k0_pay9
  dsimp only
  rw [addf_apply, shapeCast_self, cast_1x3, red23]
  rfl

theorem pay12_apply (x : Vec Ideal S1x3x256x1024 .f32) (acc : Vec Ideal S1x3x1x1 .f32) (ch : Fin 3) :
    k0_pay12 (F := Ideal) (k0_pay10 acc) (k0_pay11 x) (ix4 (0 : Fin 1) ch (0 : Fin 1) (0 : Fin 1))
      = acc (ix4 (0 : Fin 1) ch (0 : Fin 1) (0 : Fin 1)) + ∑ r : Fin 256, ∑ c : Fin 1024, x (ix4 (0 : Fin 1) ch r c) := by
  unfold k0_pay12 k0_pay10 k0_pay11
  dsimp only
  rw [addf_apply, shapeCast_self, cast_1x3, red23]

theorem pay13_apply (x : Vec Ideal S1x3x256x1024 .f32) (acc : Vec Ideal S1x3x1x1 .f32) (ch : Fin 3) :
    k0_pay13 (F := Ideal) x acc (ix4 (0 : Fin 1) ch (0 : Fin 1) (0 : Fin 1))
      = acc (ix4 (0 : Fin 1) ch (0 : Fin 1) (0 : Fin 1))
        + ∑ r : Fin 256, ∑ c : Fin 1024, x (ix4 (0 : Fin 1) ch r c) * x (ix4 (0 : Fin 1) ch r c) := by
  unfold k0_pay13
  dsimp only
  rw [addf_apply, shapeCast_self, cast_1x3, red23]
  rfl

theorem lift1 (k : Fin 3) :
    reduces_S1x3x1x1_S1x1x1.lift (ix3 (0 : Fin 1) (0 : Fin 1) (0 : Fin 1)) k = ix4 (0 : Fin 1) k (0 : Fin 1) (0 : Fin 1) := by
  funext a
  apply Fin.ext
  match a with
  | ⟨0, _⟩ => rfl
  | ⟨1, _⟩ => rfl
  | ⟨2, _⟩ => rfl
  | ⟨3, _⟩ => rfl

theorem red1 (v : FVec Ideal S1x3x1x1 .f32) :
    multiReduction .add [1] S1x1x1 v 0x00000000#32 reduces_S1x3x1x1_S1x1x1 (.inl rfl) rfl (ix3 (0 : Fin 1) (0 : Fin 1) (0 : Fin 1))
      = ∑ k : Fin 3, v (ix4 (0 : Fin 1) k (0 : Fin 1) (0 : Fin 1)) := by
  refine (Ideal.multiReduction_add_single v _ reduces_S1x3x1x1_S1x1x1 _ _ _).trans ?_
  show ∑ k : Fin 3, v (reduces_S1x3x1x1_S1x1x1.lift (ix3 (0 : Fin 1) (0 : Fin 1) (0 : Fin 1)) k) = _
  exact Finset.sum_congr rfl fun k _ => congrArg v (lift1 k)

theorem cast_1x1x1 {α : Type} (v : S1x1x1.Idx → α) :
    shapeCast S1x1x1x1 v shapeCasts_S1x1x1_S1x1x1x1 (ix4 (0 : Fin 1) (0 : Fin 1) (0 : Fin 1) (0 : Fin 1))
      = v (ix3 (0 : Fin 1) (0 : Fin 1) (0 : Fin 1)) :=
  shapeCast_apply v _ _ _ (by rw [Shape.rowMajor_val_three, Shape.rowMajor_val_four]; rfl)

theorem sat_elem (v : EReal) :
    (max (Ideal.ofBits .f32 0x00000000#32 - v) (Ideal.ofBits .f32 0x00000000#32)
        + max (v - Ideal.ofBits .f32 0x3F800000#32) (Ideal.ofBits .f32 0x00000000#32))
      * (max (Ideal.ofBits .f32 0x00000000#32 - v) (Ideal.ofBits .f32 0x00000000#32)
        + max (v - Ideal.ofBits .f32 0x3F800000#32) (Ideal.ofBits .f32 0x00000000#32))
      = Cert.Spec.satf v := by
  unfold Cert.Spec.satf
  rw [Ideal.ofBits_zero_f32, zero_sub]

theorem pay14_apply (x : Vec Ideal S1x3x256x1024 .f32) (acc : Vec Ideal S1x1x1x1 .f32) :
    k0_pay14 (F := Ideal) x acc (ix4 (0 : Fin 1) (0 : Fin 1) (0 : Fin 1) (0 : Fin 1))
      = acc (ix4 (0 : Fin 1) (0 : Fin 1) (0 : Fin 1) (0 : Fin 1))
        + ∑ ch : Fin 3, ∑ r : Fin 256, ∑ c : Fin 1024, Cert.Spec.satf (x (ix4 (0 : Fin 1) ch r c)) := by
  unfold k0_pay14
  dsimp only
  rw [addf_apply, shapeCast_self, cast_1x1x1, red1]
  congr 1
  refine Finset.sum_congr rfl fun k _ => ?_
  rw [cast_1x3, red23]
  refine Finset.sum_congr rfl fun r _ => Finset.sum_congr rfl fun c _ => ?_
  exact sat_elem (x (ix4 (0 : Fin 1) k r c))

theorem pay3_apply (j : S1x3x1x1.Idx) : k0_pay3 (F := Ideal) j = 0 := Ideal.ofBits_zero_f32
theorem pay4_apply (j : S1x3x1x1.Idx) : k0_pay4 (F := Ideal) j = 0 := Ideal.ofBits_zero_f32
theorem pay5_apply (j : S1x3x1x1.Idx) : k0_pay5 (F := Ideal) j = 0 := Ideal.ofBits_zero_f32
theorem pay6_apply (j : S1x3x1x1.Idx) : k0_pay6 (F := Ideal) j = 0 := Ideal.ofBits_zero_f32
theorem pay7_apply (j : S1x1x1x1.Idx) : k0_pay7 (F := Ideal) j = 0 := Ideal.ofBits_zero_f32

variable {F : FTy → Type} [FloatOps F]

theorem hz4 : (![0, 0, 0, 0] : Fin 4 → Nat) = fun _ => 0 := funext fun a => by fin_cases a <;> rfl

section Pieces

variable (c : Dev nD) (i : grid0.Coords) (a2 : Memref sig .tc .vmem S1x3x256x1024 .f32) (h2 : a2.IsWhole) (a3 : Memref sig .tc .vmem S1x3x256x1024 .f32) (h3 : a3.IsWhole) (a4 : Memref sig .tc .vmem S1x256x1024 .f32) (h4 : a4.IsWhole) (a5 : Memref sig .tc .vmem S1x256x1024 .f32) (h5 : a5.IsWhole) (a6 : Memref sig .tc .vmem S1x3x1x1 .f32) (h6 : a6.IsWhole) (a7 : Memref sig .tc .vmem S1x3x1x1 .f32) (h7 : a7.IsWhole) (a8 : Memref sig .tc .vmem S1x3x1x1 .f32) (h8 : a8.IsWhole) (a9 : Memref sig .tc .vmem S1x3x1x1 .f32) (h9 : a9.IsWhole) (a10 : Memref sig .tc .vmem S1x1x1x1 .f32) (h10 : a10.IsWhole)

theorem out_B_4 (hc0 : ¬cond0_0 i)
    (x0 x1 : Vec F S1x3x256x1024 .f32) (xo4 xo5 xo6 xo7 : Vec F S1x3x1x1 .f32) (xo8 : Vec F S1x1x1x1 .f32) :
    out0_B_4 c i a2 h2 a3 h3 a4 h4 a5 h5 a6 h6 a7 h7 a8 h8 a9 h9 a10 h10 hc0 x0 x1 xo4 xo5 xo6 xo7 xo8 = k0_pay8 x0 xo4 := by
  unfold out0_B_4
  rw [View.read_writes_eq_canon _ _ _ (cover0_B_4 c i a2 h2 a3 h3 a4 h4 a5 h5 a6 h6 a7 h7 a8 h8 a9 h9 a10 h10 hc0 x0 x1 xo4 xo5 xo6 xo7 xo8)]
  unfold kernelRun0_B
  dsimp only
  sl_unfold_words
  rw [View.canon_unit_zero hz4]
  simp only [View.readAt_eq_ld, h2.read_unread, h3.read_unread, h6.read_unread, h7.read_unread, h8.read_unread, h9.read_unread, h10.read_unread,
    View.ld_unit_zero (S := S1x3x256x1024) hz4, View.ld_unit_zero (S := S1x3x1x1) hz4, View.ld_unit_zero (S := S1x1x1x1) hz4]

theorem out_A_4 (hc0 : cond0_0 i)
    (x0 x1 : Vec F S1x3x256x1024 .f32) :
    out0_A_4 c i a2 h2 a3 h3 a4 h4 a5 h5 a6 h6 a7 h7 a8 h8 a9 h9 a10 h10 hc0 x0 x1 = k0_pay8 x0 k0_pay3 := by
  unfold out0_A_4
  rw [View.read_writes_eq_canon _ _ _ (cover0_A_4 c i a2 h2 a3 h3 a4 h4 a5 h5 a6 h6 a7 h7 a8 h8 a9 h9 a10 h10 hc0 x0 x1)]
  unfold kernelRun0_A
  dsimp only
  sl_unfold_words
  rw [View.canon_cons_unit_zero (S := S1x3x1x1) hz4]
  simp only [View.readAt_eq_ld, h2.read_unread, h3.read_unread, h6.read_unread, h7.read_unread, h8.read_unread, h9.read_unread, h10.read_unread,
    View.ld_unit_zero (S := S1x3x256x1024) hz4, View.ld_unit_zero (S := S1x3x1x1) hz4, View.ld_unit_zero (S := S1x1x1x1) hz4,
    View.readCov_unit_zero (S := S1x3x1x1) _ hz4]

theorem out_B_5 (hc0 : ¬cond0_0 i)
    (x0 x1 : Vec F S1x3x256x1024 .f32) (xo4 xo5 xo6 xo7 : Vec F S1x3x1x1 .f32) (xo8 : Vec F S1x1x1x1 .f32) :
    out0_B_5 c i a2 h2 a3 h3 a4 h4 a5 h5 a6 h6 a7 h7 a8 h8 a9 h9 a10 h10 hc0 x0 x1 xo4 xo5 xo6 xo7 xo8 = k0_pay9 x0 xo5 := by
  unfold out0_B_5
  rw [View.read_writes_eq_canon _ _ _ (cover0_B_5 c i a2 h2 a3 h3 a4 h4 a5 h5 a6 h6 a7 h7 a8 h8 a9 h9 a10 h10 hc0 x0 x1 xo4 xo5 xo6 xo7 xo8)]
  unfold kernelRun0_B
  dsimp only
  sl_unfold_words
  rw [View.canon_unit_zero hz4]
  simp only [View.readAt_eq_ld, h2.read_unread, h3.read_unread, h6.read_unread, h7.read_unread, h8.read_unread, h9.read_unread, h10.read_unread,
    View.ld_unit_zero (S := S1x3x256x1024) hz4, View.ld_unit_zero (S := S1x3x1x1) hz4, View.ld_unit_zero (S := S1x1x1x1) hz4]

theorem out_A_5 (hc0 : cond0_0 i)
    (x0 x1 : Vec F S1x3x256x1024 .f32) :
    out0_A_5 c i a2 h2 a3 h3 a4 h4 a5 h5 a6 h6 a7 h7 a8 h8 a9 h9 a10 h10 hc0 x0 x1 = k0_pay9 x0 k0_pay4 := by
  unfold out0_A_5
  rw [View.read_writes_eq_canon _ _ _ (cover0_A_5 c i a2 h2 a3 h3 a4 h4 a5 h5 a6 h6 a7 h7 a8 h8 a9 h9 a10 h10 hc0 x0 x1)]
  unfold kernelRun0_A
  dsimp only
  sl_unfold_words
  rw [View.canon_cons_unit_zero (S := S1x3x1x1) hz4]
  simp only [View.readAt_eq_ld, h2.read_unread, h3.read_unread, h6.read_unread, h7.read_unread, h8.read_unread, h9.read_unread, h10.read_unread,
    View.ld_unit_zero (S := S1x3x256x1024) hz4, View.ld_unit_zero (S := S1x3x1x1) hz4, View.ld_unit_zero (S := S1x1x1x1) hz4,
    View.readCov_unit_zero (S := S1x3x1x1) _ hz4]

theorem out_B_6 (hc0 : ¬cond0_0 i)
    (x0 x1 : Vec F S1x3x256x1024 .f32) (xo4 xo5 xo6 xo7 : Vec F S1x3x1x1 .f32) (xo8 : Vec F S1x1x1x1 .f32) :
    out0_B_6 c i a2 h2 a3 h3 a4 h4 a5 h5 a6 h6 a7 h7 a8 h8 a9 h9 a10 h10 hc0 x0 x1 xo4 xo5 xo6 xo7 xo8 = k0_pay12 (k0_pay10 xo6) (k0_pay11 x1) := by
  unfold out0_B_6
  rw [View.read_writes_eq_canon _ _ _ (cover0_B_6 c i a2 h2 a3 h3 a4 h4 a5 h5 a6 h6 a7 h7 a8 h8 a9 h9 a10 h10 hc0 x0 x1 xo4 xo5 xo6 xo7 xo8)]
  unfold kernelRun0_B
  dsimp only
  sl_unfold_words
  rw [View.canon_unit_zero hz4]
  simp only [View.readAt_eq_ld, h2.read_unread, h3.read_unread, h6.read_unread, h7.read_unread, h8.read_unread, h9.read_unread, h10.read_unread,
    View.ld_unit_zero (S := S1x3x256x1024) hz4, View.ld_unit_zero (S := S1x3x1x1) hz4, View.ld_unit_zero (S := S1x1x1x1) hz4]

theorem out_A_6 (hc0 : cond0_0 i)
    (x0 x1 : Vec F S1x3x256x1024 .f32) :
    out0_A_6 c i a2 h2 a3 h3 a4 h4 a5 h5 a6 h6 a7 h7 a8 h8 a9 h9 a10 h10 hc0 x0 x1 = k0_pay12 (k0_pay10 k0_pay5) (k0_pay11 x1) := by
  unfold out0_A_6
  rw [View.read_writes_eq_canon _ _ _ (cover0_A_6 c i a2 h2 a3 h3 a4 h4 a5 h5 a6 h6 a7 h7 a8 h8 a9 h9 a10 h10 hc0 x0 x1)]
  unfold kernelRun0_A
  dsimp only
  sl_unfold_words
  rw [View.canon_cons_unit_zero (S := S1x3x1x1) hz4]
  simp only [View.readAt_eq_ld, h2.read_unread, h3.read_unread, h6.read_unread, h7.read_unread, h8.read_unread, h9.read_unread, h10.read_unread,
    View.ld_unit_zero (S := S1x3x256x1024) hz4, View.ld_unit_zero (S := S1x3x1x1) hz4, View.ld_unit_zero (S := S1x1x1x1) hz4,
    View.readCov_unit_zero (S := S1x3x1x1) _ hz4]

theorem out_B_7 (hc0 : ¬cond0_0 i)
    (x0 x1 : Vec F S1x3x256x1024 .f32) (xo4 xo5 xo6 xo7 : Vec F S1x3x1x1 .f32) (xo8 : Vec F S1x1x1x1 .f32) :
    out0_B_7 c i a2 h2 a3 h3 a4 h4 a5 h5 a6 h6 a7 h7 a8 h8 a9 h9 a10 h10 hc0 x0 x1 xo4 xo5 xo6 xo7 xo8 = k0_pay13 x1 xo7 := by
  unfold out0_B_7
  rw [View.read_writes_eq_canon _ _ _ (cover0_B_7 c i a2 h2 a3 h3 a4 h4 a5 h5 a6 h6 a7 h7 a8 h8 a9 h9 a10 h10 hc0 x0 x1 xo4 xo5 xo6 xo7 xo8)]
  unfold kernelRun0_B
  dsimp only
  sl_unfold_words
  rw [View.canon_unit_zero hz4]
  simp only [View.readAt_eq_ld, h2.read_unread, h3.read_unread, h6.read_unread, h7.read_unread, h8.read_unread, h9.read_unread, h10.read_unread,
    View.ld_unit_zero (S := S1x3x256x1024) hz4, View.ld_unit_zero (S := S1x3x1x1) hz4, View.ld_unit_zero (S := S1x1x1x1) hz4]

theorem out_A_7 (hc0 : cond0_0 i)
    (x0 x1 : Vec F S1x3x256x1024 .f32) :
    out0_A_7 c i a2 h2 a3 h3 a4 h4 a5 h5 a6 h6 a7 h7 a8 h8 a9 h9 a10 h10 hc0 x0 x1 = k0_pay13 x1 k0_pay6 := by
  unfold out0_A_7
  rw [View.read_writes_eq_canon _ _ _ (cover0_A_7 c i a2 h2 a3 h3 a4 h4 a5 h5 a6 h6 a7 h7 a8 h8 a9 h9 a10 h10 hc0 x0 x1)]
  unfold kernelRun0_A
  dsimp only
  sl_unfold_words
  rw [View.canon_cons_unit_zero (S := S1x3x1x1) hz4]
  simp only [View.readAt_eq_ld, h2.read_unread, h3.read_unread, h6.read_unread, h7.read_unread, h8.read_unread, h9.read_unread, h10.read_unread,
    View.ld_unit_zero (S := S1x3x256x1024) hz4, View.ld_unit_zero (S := S1x3x1x1) hz4, View.ld_unit_zero (S := S1x1x1x1) hz4,
    View.readCov_unit_zero (S := S1x3x1x1) _ hz4]

theorem out_B_8 (hc0 : ¬cond0_0 i)
    (x0 x1 : Vec F S1x3x256x1024 .f32) (xo4 xo5 xo6 xo7 : Vec F S1x3x1x1 .f32) (xo8 : Vec F S1x1x1x1 .f32) :
    out0_B_8 c i a2 h2 a3 h3 a4 h4 a5 h5 a6 h6 a7 h7 a8 h8 a9 h9 a10 h10 hc0 x0 x1 xo4 xo5 xo6 xo7 xo8 = k0_pay14 x0 xo8 := by
  unfold out0_B_8
  rw [View.read_writes_eq_canon _ _ _ (cover0_B_8 c i a2 h2 a3 h3 a4 h4 a5 h5 a6 h6 a7 h7 a8 h8 a9 h9 a10 h10 hc0 x0 x1 xo4 xo5 xo6 xo7 xo8)]
  unfold kernelRun0_B
  dsimp only
  sl_unfold_words
  rw [View.canon_unit_zero hz4]
  simp only [View.readAt_eq_ld, h2.read_unread, h3.read_unread, h6.read_unread, h7.read_unread, h8.read_unread, h9.read_unread, h10.read_unread,
    View.ld_unit_zero (S := S1x3x256x1024) hz4, View.ld_unit_zero (S := S1x3x1x1) hz4, View.ld_unit_zero (S := S1x1x1x1) hz4]

theorem out_A_8 (hc0 : cond0_0 i)
    (x0 x1 : Vec F S1x3x256x1024 .f32) :
    out0_A_8 c i a2 h2 a3 h3 a4 h4 a5 h5 a6 h6 a7 h7 a8 h8 a9 h9 a10 h10 hc0 x0 x1 = k0_pay14 x0 k0_pay7 := by
  unfold out0_A_8
  rw [View.read_writes_eq_canon _ _ _ (cover0_A_8 c i a2 h2 a3 h3 a4 h4 a5 h5 a6 h6 a7 h7 a8 h8 a9 h9 a10 h10 hc0 x0 x1)]
  unfold kernelRun0_A
  dsimp only
  sl_unfold_words
  rw [View.canon_cons_unit_zero (S := S1x1x1x1) hz4]
  simp only [View.readAt_eq_ld, h2.read_unread, h3.read_unread, h6.read_unread, h7.read_unread, h8.read_unread, h9.read_unread, h10.read_unread,
    View.ld_unit_zero (S := S1x3x256x1024) hz4, View.ld_unit_zero (S := S1x3x1x1) hz4, View.ld_unit_zero (S := S1x1x1x1) hz4,
    View.readCov_unit_zero (S := S1x1x1x1) _ hz4]

end Pieces

theorem run_sum {N : ℕ} (f : (n : ℕ) → n < N → EReal) (M : ℕ → EReal)
    (h0 : ∀ (n : ℕ) (h : n < N), n % 4 = 0 → f n h = 0 + M n)
    (hs : ∀ (n : ℕ) (h : n + 1 < N), ¬(n + 1) % 4 = 0 → f (n + 1) h = f n (Nat.lt_of_succ_lt h) + M (n + 1))
    (q : ℕ) : ∀ (j : ℕ) (_ : j < 4) (h : 4 * q + j < N), f (4 * q + j) h = ∑ s ∈ Finset.range (j + 1), M (4 * q + s)
  | 0, _, h => by
    rw [h0 _ h (by omega), Finset.sum_range_one, zero_add]
  | j + 1, hj, h => by
    have e := hs (4 * q + j) h (by omega)
    rw [Finset.sum_range_succ, ← run_sum f M h0 hs q j (by omega) (Nat.lt_of_succ_lt h)]
    exact e

theorem sum_rows (g : Fin 1024 → EReal) :
    ∑ R : Fin 1024, g R = ∑ s : Fin 4, ∑ r : Fin 256, g ⟨256 * s.val + r.val, by have := s.isLt; have := r.isLt; omega⟩ := by
  rw [← Fintype.sum_prod_type', ← (finProdFinEquiv (m := 4) (n := 256)).sum_comp]
  refine Finset.sum_congr rfl fun p _ => ?_
  congr 1
  apply Fin.ext
  show p.2.val + 256 * p.1.val = 256 * p.1.val + p.2.val
  omega

def Mt (blk : Fin cfg0.N → Vec Ideal S1x3x256x1024 .f32) (φ : EReal → EReal) (ch : Fin 3) (n : ℕ) : EReal :=
  if h : n < cfg0.N then ∑ r : Fin 256, ∑ cc : Fin 1024, φ (blk ⟨n, h⟩ (ix4 (0 : Fin 1) ch r cc)) else 0

theorem tiles_sum (blk : Fin cfg0.N → Vec Ideal S1x3x256x1024 .f32) (arr : Vec Ideal S8x3x1024x1024 .f32)
    (hblk : ∀ (t : Fin cfg0.N) (ch : Fin 3) (r : Fin 256) (cc : Fin 1024) (hb : t.val / 4 < 8) (hr : 256 * (t.val % 4) + r.val < 1024),
      blk t (ix4 (0 : Fin 1) ch r cc) = arr (ix4 (⟨t.val / 4, hb⟩ : Fin 8) ch (⟨256 * (t.val % 4) + r.val, hr⟩ : Fin 1024) cc))
    (φ : EReal → EReal) (ch : Fin 3) (q : ℕ) (hq : q < 8) :
    ∑ s ∈ Finset.range 4, Mt blk φ ch (4 * q + s)
      = ∑ R : Fin 1024, ∑ cc : Fin 1024, φ (arr (ix4 (⟨q, hq⟩ : Fin 8) ch R cc)) := by
  rw [Finset.sum_range, sum_rows]
  refine Finset.sum_congr rfl fun s _ => ?_
  have hs := s.isLt
  have hlt : 4 * q + s.val < cfg0.N := by rw [show cfg0.N = 32 from N_0]; omega
  rw [Mt, dif_pos hlt]
  refine Finset.sum_congr rfl fun r _ => Finset.sum_congr rfl fun cc _ => ?_
  have hr := r.isLt
  rw [hblk ⟨4 * q + s.val, hlt⟩ ch r cc (by show (4 * q + s.val) / 4 < 8; omega) (by show 256 * ((4 * q + s.val) % 4) + r.val < 1024; omega)]
  have hix : ∀ (b b' : Fin 8) (R R' : Fin 1024), b = b' → R = R' → arr (ix4 b ch R cc) = arr (ix4 b' ch R' cc) :=
    fun _ _ _ _ e1 e2 => by rw [e1, e2]
  exact congrArg φ (hix _ _ _ _ (Fin.ext (by show (4 * q + s.val) / 4 = q; omega))
    (Fin.ext (by show 256 * ((4 * q + s.val) % 4) + r.val = 256 * s.val + r.val; omega)))

section Inv

variable (V : (c : Dev nD) → (b : Ref sig .tc) → Buf (Elt Ideal) ((c : Thread nD τ).loc b))

abbrev xblk (c : Dev nD) (t : Fin cfg0.N) : Vec Ideal S1x3x256x1024 .f32 := iblk0 V c 0 t
abbrev dblk (c : Dev nD) (t : Fin cfg0.N) : Vec Ideal S1x3x256x1024 .f32 := iblk0 V c 1 t

abbrev xarr (c : Dev nD) : Vec Ideal S8x3x1024x1024 .f32 := V c (Pipeline.arrRef spec0 0)
abbrev darr (c : Dev nD) : Vec Ideal S8x3x1024x1024 .f32 := V c (Pipeline.arrRef spec0 1)

theorem idx0 : ∀ t : Fin cfg0.N, win0_0.index t 0 = t.val / 4 ∧ win0_0.index t 1 = 0 ∧ win0_0.index t 2 = t.val % 4 ∧ win0_0.index t 3 = 0 :=
  (by decide +kernel : ∀ t : Fin grid0.N, win0_0.index t 0 = t.val / 4 ∧ win0_0.index t 1 = 0 ∧ win0_0.index t 2 = t.val % 4 ∧ win0_0.index t 3 = 0)
theorem idx1 : ∀ t : Fin cfg0.N, win0_1.index t 0 = t.val / 4 ∧ win0_1.index t 1 = 0 ∧ win0_1.index t 2 = t.val % 4 ∧ win0_1.index t 3 = 0 :=
  (by decide +kernel : ∀ t : Fin grid0.N, win0_1.index t 0 = t.val / 4 ∧ win0_1.index t 1 = 0 ∧ win0_1.index t 2 = t.val % 4 ∧ win0_1.index t 3 = 0)

theorem xblk_apply (c : Dev nD) (t : Fin cfg0.N) (ch : Fin 3) (r : Fin 256) (cc : Fin 1024)
    (hb : t.val / 4 < 8) (hr : 256 * (t.val % 4) + r.val < 1024) :
    xblk V c t (ix4 (0 : Fin 1) ch r cc)
      = xarr V c (ix4 (⟨t.val / 4, hb⟩ : Fin 8) ch (⟨256 * (t.val % 4) + r.val, hr⟩ : Fin 1024) cc) := by
  obtain ⟨i0, i1, i2, i3⟩ := idx0 t
  unfold xblk xarr iblk0
  rw [View.read_apply]
  show V c (Pipeline.arrRef spec0 0) _ = V c (Pipeline.arrRef spec0 0) _
  congr 1
  funext a
  apply Fin.ext
  match a with
  | ⟨0, _⟩ => show win0_0.index t 0 * 1 + 1 * 0 = t.val / 4; rw [i0]; omega
  | ⟨1, _⟩ => show win0_0.index t 1 * 3 + 1 * ch.val = ch.val; rw [i1]; omega
  | ⟨2, _⟩ => show win0_0.index t 2 * 256 + 1 * r.val = 256 * (t.val % 4) + r.val; rw [i2]; omega
  | ⟨3, _⟩ => show win0_0.index t 3 * 1024 + 1 * cc.val = cc.val; rw [i3]; omega

theorem dblk_apply (c : Dev nD) (t : Fin cfg0.N) (ch : Fin 3) (r : Fin 256) (cc : Fin 1024)
    (hb : t.val / 4 < 8) (hr : 256 * (t.val % 4) + r.val < 1024) :
    dblk V c t (ix4 (0 : Fin 1) ch r cc)
      = darr V c (ix4 (⟨t.val / 4, hb⟩ : Fin 8) ch (⟨256 * (t.val % 4) + r.val, hr⟩ : Fin 1024) cc) := by
  obtain ⟨i0, i1, i2, i3⟩ := idx1 t
  unfold dblk darr iblk0
  rw [View.read_apply]
  show V c (Pipeline.arrRef spec0 1) _ = V c (Pipeline.arrRef spec0 1) _
  congr 1
  funext a
  apply Fin.ext
  match a with
  | ⟨0, _⟩ => show win0_1.index t 0 * 1 + 1 * 0 = t.val / 4; rw [i0]; omega
  | ⟨1, _⟩ => show win0_1.index t 1 * 3 + 1 * ch.val = ch.val; rw [i1]; omega
  | ⟨2, _⟩ => show win0_1.index t 2 * 256 + 1 * r.val = 256 * (t.val % 4) + r.val; rw [i2]; omega
  | ⟨3, _⟩ => show win0_1.index t 3 * 1024 + 1 * cc.val = cc.val; rw [i3]; omega

theorem inv4 (c : Dev nD) (ch : Fin 3) (q j : ℕ) (hj : j < 4) (h : 4 * q + j < cfg0.N) :
    (outsAt0 V c (4 * q + j) h).2.2.1 (ix4 (0 : Fin 1) ch (0 : Fin 1) (0 : Fin 1))
      = ∑ s ∈ Finset.range (j + 1), Mt (xblk V c) (fun v => v) ch (4 * q + s) := by
  refine run_sum (fun n hn => (outsAt0 V c n hn).2.2.1 (ix4 (0 : Fin 1) ch (0 : Fin 1) (0 : Fin 1))) (Mt (xblk V c) (fun v => v) ch) ?_ ?_ q j hj h
  · intro n hn h0
    rw [outsAt0_A V c ⟨n, hn⟩ h0]
    dsimp only
    rw [out_A_4, pay8_apply, pay3_apply, Mt, dif_pos hn]
  · intro n hn h0
    rw [outsAt0_B V c ⟨n + 1, hn⟩ h0]
    dsimp only
    rw [out_B_4, pay8_apply, Mt, dif_pos hn]
    rfl

theorem inv5 (c : Dev nD) (ch : Fin 3) (q j : ℕ) (hj : j < 4) (h : 4 * q + j < cfg0.N) :
    (outsAt0 V c (4 * q + j) h).2.2.2.1 (ix4 (0 : Fin 1) ch (0 : Fin 1) (0 : Fin 1))
      = ∑ s ∈ Finset.range (j + 1), Mt (xblk V c) (fun v => v * v) ch (4 * q + s) := by
  refine run_sum (fun n hn => (outsAt0 V c n hn).2.2.2.1 (ix4 (0 : Fin 1) ch (0 : Fin 1) (0 : Fin 1))) (Mt (xblk V c) (fun v => v * v) ch) ?_ ?_ q j hj h
  · intro n hn h0
    rw [outsAt0_A V c ⟨n, hn⟩ h0]
    dsimp only
    rw [out_A_5, pay9_apply, pay4_apply, Mt, dif_pos hn]
  · intro n hn h0
    rw [outsAt0_B V c ⟨n + 1, hn⟩ h0]
    dsimp only
    rw [out_B_5, pay9_apply, Mt, dif_pos hn]
    rfl

theorem inv6 (c : Dev nD) (ch : Fin 3) (q j : ℕ) (hj : j < 4) (h : 4 * q + j < cfg0.N) :
    (outsAt0 V c (4 * q + j) h).2.2.2.2.1 (ix4 (0 : Fin 1) ch (0 : Fin 1) (0 : Fin 1))
      = ∑ s ∈ Finset.range (j + 1), Mt (dblk V c) (fun v => v) ch (4 * q + s) := by
  refine run_sum (fun n hn => (outsAt0 V c n hn).2.2.2.2.1 (ix4 (0 : Fin 1) ch (0 : Fin 1) (0 : Fin 1))) (Mt (dblk V c) (fun v => v) ch) ?_ ?_ q j hj h
  · intro n hn h0
    rw [outsAt0_A V c ⟨n, hn⟩ h0]
    dsimp only
    rw [out_A_6, pay12_apply, pay5_apply, Mt, dif_pos hn]
  · intro n hn h0
    rw [outsAt0_B V c ⟨n + 1, hn⟩ h0]
    dsimp only
    rw [out_B_6, pay12_apply, Mt, dif_pos hn]
    rfl

theorem inv7 (c : Dev nD) (ch : Fin 3) (q j : ℕ) (hj : j < 4) (h : 4 * q + j < cfg0.N) :
    (outsAt0 V c (4 * q + j) h).2.2.2.2.2.1 (ix4 (0 : Fin 1) ch (0 : Fin 1) (0 : Fin 1))
      = ∑ s ∈ Finset.range (j + 1), Mt (dblk V c) (fun v => v * v) ch (4 * q + s) := by
  refine run_sum (fun n hn => (outsAt0 V c n hn).2.2.2.2.2.1 (ix4 (0 : Fin 1) ch (0 : Fin 1) (0 : Fin 1))) (Mt (dblk V c) (fun v => v * v) ch) ?_ ?_ q j hj h
  · intro n hn h0
    rw [outsAt0_A V c ⟨n, hn⟩ h0]
    dsimp only
    rw [out_A_7, pay13_apply, pay6_apply, Mt, dif_pos hn]
  · intro n hn h0
    rw [outsAt0_B V c ⟨n + 1, hn⟩ h0]
    dsimp only
    rw [out_B_7, pay13_apply, Mt, dif_pos hn]
    rfl

theorem inv8 (c : Dev nD) (q j : ℕ) (hj : j < 4) (h : 4 * q + j < cfg0.N) :
    (outsAt0 V c (4 * q + j) h).2.2.2.2.2.2 (ix4 (0 : Fin 1) (0 : Fin 1) (0 : Fin 1) (0 : Fin 1))
      = ∑ s ∈ Finset.range (j + 1), ∑ ch : Fin 3, Mt (xblk V c) Cert.Spec.satf ch (4 * q + s) := by
  refine run_sum (fun n hn => (outsAt0 V c n hn).2.2.2.2.2.2 (ix4 (0 : Fin 1) (0 : Fin 1) (0 : Fin 1) (0 : Fin 1)))
    (fun n => ∑ ch : Fin 3, Mt (xblk V c) Cert.Spec.satf ch n) ?_ ?_ q j hj h
  · intro n hn h0
    rw [outsAt0_A V c ⟨n, hn⟩ h0]
    dsimp only
    rw [out_A_8, pay14_apply, pay7_apply]
    simp only [Mt, dif_pos hn]
  · intro n hn h0
    rw [outsAt0_B V c ⟨n + 1, hn⟩ h0]
    dsimp only
    rw [out_B_8, pay14_apply]
    simp only [Mt, dif_pos hn]
    rfl

end Inv

section Final

variable (V : (c : Dev nD) → (b : Ref sig .tc) → Buf (Elt Ideal) ((c : Thread nD τ).loc b))

theorem idxAcc : ∀ t : Fin cfg0.N,
    (win0_4.index t (0 : Fin 4) = t.val / 4 ∧ win0_4.index t (1 : Fin 4) = 0 ∧ win0_4.index t (2 : Fin 4) = 0 ∧ win0_4.index t (3 : Fin 4) = 0)
    ∧ (win0_5.index t (0 : Fin 4) = t.val / 4 ∧ win0_5.index t (1 : Fin 4) = 0 ∧ win0_5.index t (2 : Fin 4) = 0 ∧ win0_5.index t (3 : Fin 4) = 0)
    ∧ (win0_6.index t (0 : Fin 4) = t.val / 4 ∧ win0_6.index t (1 : Fin 4) = 0 ∧ win0_6.index t (2 : Fin 4) = 0 ∧ win0_6.index t (3 : Fin 4) = 0)
    ∧ (win0_7.index t (0 : Fin 4) = t.val / 4 ∧ win0_7.index t (1 : Fin 4) = 0 ∧ win0_7.index t (2 : Fin 4) = 0 ∧ win0_7.index t (3 : Fin 4) = 0)
    ∧ (win0_8.index t (0 : Fin 4) = t.val / 4 ∧ win0_8.index t (1 : Fin 4) = 0 ∧ win0_8.index t (2 : Fin 4) = 0 ∧ win0_8.index t (3 : Fin 4) = 0) :=
  (by decide +kernel : ∀ t : Fin grid0.N, _)

theorem idx_onto : ∀ q0 : Fin 8, ∃ t : Fin cfg0.N, t.val % 4 = 3 ∧ t.val / 4 = q0.val :=
  (by decide +kernel : ∀ q0 : Fin 8, ∃ t : Fin grid0.N, t.val % 4 = 3 ∧ t.val / 4 = q0.val)

theorem vec3_congr (X : Vec Ideal S1x3x1x1 .f32) (j : S1x3x1x1.Idx) (ch : Fin 3) (h : (j 1).val = ch.val) :
    X j = X (ix4 (0 : Fin 1) ch (0 : Fin 1) (0 : Fin 1)) := by
  congr 1
  funext a
  match a with
  | ⟨0, _⟩ => exact Subsingleton.elim (α := Fin 1) _ _
  | ⟨1, _⟩ => exact Fin.ext h
  | ⟨2, _⟩ => exact Subsingleton.elim (α := Fin 1) _ _
  | ⟨3, _⟩ => exact Subsingleton.elim (α := Fin 1) _ _

theorem vec1_congr (X : Vec Ideal S1x1x1x1 .f32) (j : S1x1x1x1.Idx) :
    X j = X (ix4 (0 : Fin 1) (0 : Fin 1) (0 : Fin 1) (0 : Fin 1)) := by
  congr 1
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => exact Subsingleton.elim (α := Fin 1) _ _

theorem outsAt0_congr (c : Dev nD) (t : Fin cfg0.N) (u : ℕ) (hu : u < cfg0.N) (e : u = t.val) :
    outsAt0 V c u hu = outsAt0 V c t.val t.isLt := by subst e; rfl

theorem mem_blk4 (t : Fin cfg0.N) (i : S8x3x1x1.Idx) :
    i ∈ ((cfg0.win 4).blk t).view.set ↔ ∀ a : Fin 4, win0_4.index t a * S1x3x1x1.size a ≤ (i a).val ∧ (i a).val < win0_4.index t a * S1x3x1x1.size a + S1x3x1x1.size a := by
  show i ∈ ((View.whole main_v0_2).slice (win0_4.rect t)).set ↔ _
  rw [View.set_slice_whole, Rect.mem_set_unit]
  exact Iff.rfl

theorem cover4 (i : S8x3x1x1.Idx) : ∃ t : Fin cfg0.N, (cfg0.win 4).flush t = true ∧ i ∈ ((cfg0.win 4).blk t).view.set := by
  have hi0 : (i 0).val < 8 := (i 0).isLt
  have hi1 : (i 1).val < 3 := (i 1).isLt
  have hi2 : (i 2).val < 1 := (i 2).isLt
  have hi3 : (i 3).val < 1 := (i 3).isLt
  obtain ⟨t, ht3, htq⟩ := idx_onto ⟨(i 0).val, hi0⟩
  obtain ⟨⟨e0, e1, e2, e3⟩, -, -, -, -⟩ := idxAcc t
  refine ⟨t, (flush0_4 t).mpr ht3, ?_⟩
  rw [mem_blk4]
  intro a
  match a with
  | ⟨0, _⟩ => show win0_4.index t (0 : Fin 4) * 1 ≤ (i 0).val ∧ (i 0).val < win0_4.index t (0 : Fin 4) * 1 + 1; dsimp only at htq; omega
  | ⟨1, _⟩ => show win0_4.index t (1 : Fin 4) * 3 ≤ (i 1).val ∧ (i 1).val < win0_4.index t (1 : Fin 4) * 3 + 3; omega
  | ⟨2, _⟩ => show win0_4.index t (2 : Fin 4) * 1 ≤ (i 2).val ∧ (i 2).val < win0_4.index t (2 : Fin 4) * 1 + 1; omega
  | ⟨3, _⟩ => show win0_4.index t (3 : Fin 4) * 1 ≤ (i 3).val ∧ (i 3).val < win0_4.index t (3 : Fin 4) * 1 + 1; omega

theorem emb4_val (t : Fin cfg0.N) (y : S1x3x1x1.Idx) :
    (((cfg0.win 4).blk t).view.emb y 0).val = t.val / 4 ∧ (((cfg0.win 4).blk t).view.emb y 1).val = (y 1).val := by
  obtain ⟨⟨e0, e1, e2, e3⟩, -, -, -, -⟩ := idxAcc t
  have h0 : (y 0).val < 1 := (y 0).isLt
  refine ⟨?_, ?_⟩
  · show win0_4.index t (0 : Fin 4) * 1 + 1 * (y 0).val = t.val / 4; omega
  · show win0_4.index t (1 : Fin 4) * 3 + 1 * (y 1).val = (y 1).val; omega

abbrev G4 (c : Dev nD) : Vec Ideal S8x3x1x1 .f32 :=
  fun i => Cert.Spec.sum1 (fun b ch r cc => xarr V c (ix4 b ch r cc)) (i 0) (i 1)

theorem last4 (c : Dev nD) (ch : Fin 3) (q : ℕ) (hq : q < 8) (h : 4 * q + 3 < cfg0.N) :
    (outsAt0 V c (4 * q + 3) h).2.2.1 (ix4 (0 : Fin 1) ch (0 : Fin 1) (0 : Fin 1))
      = Cert.Spec.sum1 (fun b ch r cc => xarr V c (ix4 b ch r cc)) ⟨q, hq⟩ ch := by
  rw [inv4 V c ch q 3 (by omega) h]
  exact tiles_sum (xblk V c) (xarr V c) (xblk_apply V c) (fun v => v) ch q hq

theorem flushed_eq4 (c : Dev nD) (t : Fin cfg0.N) (hf : (cfg0.win 4).flush t = true) :
    (dat0 V c).flushed 4 t = ((cfg0.win 4).blk t).view.read (Elt Ideal) (G4 V c) := by
  have h3 : t.val % 4 = 3 := (flush0_4 t).mp hf
  have hN : t.val < 32 := lt_of_lt_of_eq t.isLt N_0
  have hq : t.val / 4 < 8 := by omega
  have ht : 4 * (t.val / 4) + 3 = t.val := by omega
  have hlt : 4 * (t.val / 4) + 3 < cfg0.N := by rw [ht]; exact t.isLt
  funext y
  rw [View.read_apply]
  show (cfg0.win 4).cut (grid0.coords t) ((dat0 V c).after 4 t) y = G4 V c _
  rw [after0_4]
  have hy1 : (y 1).val < 3 := (y 1).isLt
  obtain ⟨e0, e1⟩ := emb4_val t y
  show (outsAt0 V c t.val t.isLt).2.2.1 _ = G4 V c _
  refine (vec3_congr _ _ ⟨(y 1).val, hy1⟩ rfl).trans ?_
  rw [← outsAt0_congr V c t _ hlt ht, last4 V c _ (t.val / 4) hq hlt]
  have hb : (⟨t.val / 4, hq⟩ : Fin 8) = ((cfg0.win 4).blk t).view.emb y 0 := Fin.ext e0.symm
  have hc : (⟨(y 1).val, hy1⟩ : Fin 3) = ((cfg0.win 4).blk t).view.emb y 1 := Fin.ext e1.symm
  exact congrArg₂ (Cert.Spec.sum1 (fun b ch r cc => xarr V c (ix4 b ch r cc))) hb hc

theorem final4 (c : Dev nD) : (dat0 V c).arrAt 4 cfg0.N = G4 V c :=
  (dat0 V c).arrAt_eq_of_cover 4 (G4 V c) (flushed_eq4 V c) cover4

theorem mem_blk5 (t : Fin cfg0.N) (i : S8x3x1x1.Idx) :
    i ∈ ((cfg0.win 5).blk t).view.set ↔ ∀ a : Fin 4, win0_5.index t a * S1x3x1x1.size a ≤ (i a).val ∧ (i a).val < win0_5.index t a * S1x3x1x1.size a + S1x3x1x1.size a := by
  show i ∈ ((View.whole main_v0_3).slice (win0_5.rect t)).set ↔ _
  rw [View.set_slice_whole, Rect.mem_set_unit]
  exact Iff.rfl

theorem cover5 (i : S8x3x1x1.Idx) : ∃ t : Fin cfg0.N, (cfg0.win 5).flush t = true ∧ i ∈ ((cfg0.win 5).blk t).view.set := by
  have hi0 : (i 0).val < 8 := (i 0).isLt
  have hi1 : (i 1).val < 3 := (i 1).isLt
  have hi2 : (i 2).val < 1 := (i 2).isLt
  have hi3 : (i 3).val < 1 := (i 3).isLt
  obtain ⟨t, ht3, htq⟩ := idx_onto ⟨(i 0).val, hi0⟩
  obtain ⟨-, ⟨e0, e1, e2, e3⟩, -, -, -⟩ := idxAcc t
  refine ⟨t, (flush0_5 t).mpr ht3, ?_⟩
  rw [mem_blk5]
  intro a
  match a with
  | ⟨0, _⟩ => show win0_5.index t (0 : Fin 4) * 1 ≤ (i 0).val ∧ (i 0).val < win0_5.index t (0 : Fin 4) * 1 + 1; dsimp only at htq; omega
  | ⟨1, _⟩ => show win0_5.index t (1 : Fin 4) * 3 ≤ (i 1).val ∧ (i 1).val < win0_5.index t (1 : Fin 4) * 3 + 3; omega
  | ⟨2, _⟩ => show win0_5.index t (2 : Fin 4) * 1 ≤ (i 2).val ∧ (i 2).val < win0_5.index t (2 : Fin 4) * 1 + 1; omega
  | ⟨3, _⟩ => show win0_5.index t (3 : Fin 4) * 1 ≤ (i 3).val ∧ (i 3).val < win0_5.index t (3 : Fin 4) * 1 + 1; omega

theorem emb5_val (t : Fin cfg0.N) (y : S1x3x1x1.Idx) :
    (((cfg0.win 5).blk t).view.emb y 0).val = t.val / 4 ∧ (((cfg0.win 5).blk t).view.emb y 1).val = (y 1).val := by
  obtain ⟨-, ⟨e0, e1, e2, e3⟩, -, -, -⟩ := idxAcc t
  have h0 : (y 0).val < 1 := (y 0).isLt
  refine ⟨?_, ?_⟩
  · show win0_5.index t (0 : Fin 4) * 1 + 1 * (y 0).val = t.val / 4; omega
  · show win0_5.index t (1 : Fin 4) * 3 + 1 * (y 1).val = (y 1).val; omega

abbrev G5 (c : Dev nD) : Vec Ideal S8x3x1x1 .f32 :=
  fun i => Cert.Spec.sum2 (fun b ch r cc => xarr V c (ix4 b ch r cc)) (i 0) (i 1)

theorem last5 (c : Dev nD) (ch : Fin 3) (q : ℕ) (hq : q < 8) (h : 4 * q + 3 < cfg0.N) :
    (outsAt0 V c (4 * q + 3) h).2.2.2.1 (ix4 (0 : Fin 1) ch (0 : Fin 1) (0 : Fin 1))
      = Cert.Spec.sum2 (fun b ch r cc => xarr V c (ix4 b ch r cc)) ⟨q, hq⟩ ch := by
  rw [inv5 V c ch q 3 (by omega) h]
  exact tiles_sum (xblk V c) (xarr V c) (xblk_apply V c) (fun v => v * v) ch q hq

theorem flushed_eq5 (c : Dev nD) (t : Fin cfg0.N) (hf : (cfg0.win 5).flush t = true) :
    (dat0 V c).flushed 5 t = ((cfg0.win 5).blk t).view.read (Elt Ideal) (G5 V c) := by
  have h3 : t.val % 4 = 3 := (flush0_5 t).mp hf
  have hN : t.val < 32 := lt_of_lt_of_eq t.isLt N_0
  have hq : t.val / 4 < 8 := by omega
  have ht : 4 * (t.val / 4) + 3 = t.val := by omega
  have hlt : 4 * (t.val / 4) + 3 < cfg0.N := by rw [ht]; exact t.isLt
  funext y
  rw [View.read_apply]
  show (cfg0.win 5).cut (grid0.coords t) ((dat0 V c).after 5 t) y = G5 V c _
  rw [after0_5]
  have hy1 : (y 1).val < 3 := (y 1).isLt
  obtain ⟨e0, e1⟩ := emb5_val t y
  show (outsAt0 V c t.val t.isLt).2.2.2.1 _ = G5 V c _
  refine (vec3_congr _ _ ⟨(y 1).val, hy1⟩ rfl).trans ?_
  rw [← outsAt0_congr V c t _ hlt ht, last5 V c _ (t.val / 4) hq hlt]
  have hb : (⟨t.val / 4, hq⟩ : Fin 8) = ((cfg0.win 5).blk t).view.emb y 0 := Fin.ext e0.symm
  have hc : (⟨(y 1).val, hy1⟩ : Fin 3) = ((cfg0.win 5).blk t).view.emb y 1 := Fin.ext e1.symm
  exact congrArg₂ (Cert.Spec.sum2 (fun b ch r cc => xarr V c (ix4 b ch r cc))) hb hc

theorem final5 (c : Dev nD) : (dat0 V c).arrAt 5 cfg0.N = G5 V c :=
  (dat0 V c).arrAt_eq_of_cover 5 (G5 V c) (flushed_eq5 V c) cover5

theorem mem_blk6 (t : Fin cfg0.N) (i : S8x3x1x1.Idx) :
    i ∈ ((cfg0.win 6).blk t).view.set ↔ ∀ a : Fin 4, win0_6.index t a * S1x3x1x1.size a ≤ (i a).val ∧ (i a).val < win0_6.index t a * S1x3x1x1.size a + S1x3x1x1.size a := by
  show i ∈ ((View.whole main_v0_4).slice (win0_6.rect t)).set ↔ _
  rw [View.set_slice_whole, Rect.mem_set_unit]
  exact Iff.rfl

theorem cover6 (i : S8x3x1x1.Idx) : ∃ t : Fin cfg0.N, (cfg0.win 6).flush t = true ∧ i ∈ ((cfg0.win 6).blk t).view.set := by
  have hi0 : (i 0).val < 8 := (i 0).isLt
  have hi1 : (i 1).val < 3 := (i 1).isLt
  have hi2 : (i 2).val < 1 := (i 2).isLt
  have hi3 : (i 3).val < 1 := (i 3).isLt
  obtain ⟨t, ht3, htq⟩ := idx_onto ⟨(i 0).val, hi0⟩
  obtain ⟨-, -, ⟨e0, e1, e2, e3⟩, -, -⟩ := idxAcc t
  refine ⟨t, (flush0_6 t).mpr ht3, ?_⟩
  rw [mem_blk6]
  intro a
  match a with
  | ⟨0, _⟩ => show win0_6.index t (0 : Fin 4) * 1 ≤ (i 0).val ∧ (i 0).val < win0_6.index t (0 : Fin 4) * 1 + 1; dsimp only at htq; omega
  | ⟨1, _⟩ => show win0_6.index t (1 : Fin 4) * 3 ≤ (i 1).val ∧ (i 1).val < win0_6.index t (1 : Fin 4) * 3 + 3; omega
  | ⟨2, _⟩ => show win0_6.index t (2 : Fin 4) * 1 ≤ (i 2).val ∧ (i 2).val < win0_6.index t (2 : Fin 4) * 1 + 1; omega
  | ⟨3, _⟩ => show win0_6.index t (3 : Fin 4) * 1 ≤ (i 3).val ∧ (i 3).val < win0_6.index t (3 : Fin 4) * 1 + 1; omega

theorem emb6_val (t : Fin cfg0.N) (y : S1x3x1x1.Idx) :
    (((cfg0.win 6).blk t).view.emb y 0).val = t.val / 4 ∧ (((cfg0.win 6).blk t).view.emb y 1).val = (y 1).val := by
  obtain ⟨-, -, ⟨e0, e1, e2, e3⟩, -, -⟩ := idxAcc t
  have h0 : (y 0).val < 1 := (y 0).isLt
  refine ⟨?_, ?_⟩
  · show win0_6.index t (0 : Fin 4) * 1 + 1 * (y 0).val = t.val / 4; omega
  · show win0_6.index t (1 : Fin 4) * 3 + 1 * (y 1).val = (y 1).val; omega

abbrev G6 (c : Dev nD) : Vec Ideal S8x3x1x1 .f32 :=
  fun i => Cert.Spec.sum1 (fun b ch r cc => darr V c (ix4 b ch r cc)) (i 0) (i 1)

theorem last6 (c : Dev nD) (ch : Fin 3) (q : ℕ) (hq : q < 8) (h : 4 * q + 3 < cfg0.N) :
    (outsAt0 V c (4 * q + 3) h).2.2.2.2.1 (ix4 (0 : Fin 1) ch (0 : Fin 1) (0 : Fin 1))
      = Cert.Spec.sum1 (fun b ch r cc => darr V c (ix4 b ch r cc)) ⟨q, hq⟩ ch := by
  rw [inv6 V c ch q 3 (by omega) h]
  exact tiles_sum (dblk V c) (darr V c) (dblk_apply V c) (fun v => v) ch q hq

theorem flushed_eq6 (c : Dev nD) (t : Fin cfg0.N) (hf : (cfg0.win 6).flush t = true) :
    (dat0 V c).flushed 6 t = ((cfg0.win 6).blk t).view.read (Elt Ideal) (G6 V c) := by
  have h3 : t.val % 4 = 3 := (flush0_6 t).mp hf
  have hN : t.val < 32 := lt_of_lt_of_eq t.isLt N_0
  have hq : t.val / 4 < 8 := by omega
  have ht : 4 * (t.val / 4) + 3 = t.val := by omega
  have hlt : 4 * (t.val / 4) + 3 < cfg0.N := by rw [ht]; exact t.isLt
  funext y
  rw [View.read_apply]
  show (cfg0.win 6).cut (grid0.coords t) ((dat0 V c).after 6 t) y = G6 V c _
  rw [after0_6]
  have hy1 : (y 1).val < 3 := (y 1).isLt
  obtain ⟨e0, e1⟩ := emb6_val t y
  show (outsAt0 V c t.val t.isLt).2.2.2.2.1 _ = G6 V c _
  refine (vec3_congr _ _ ⟨(y 1).val, hy1⟩ rfl).trans ?_
  rw [← outsAt0_congr V c t _ hlt ht, last6 V c _ (t.val / 4) hq hlt]
  have hb : (⟨t.val / 4, hq⟩ : Fin 8) = ((cfg0.win 6).blk t).view.emb y 0 := Fin.ext e0.symm
  have hc : (⟨(y 1).val, hy1⟩ : Fin 3) = ((cfg0.win 6).blk t).view.emb y 1 := Fin.ext e1.symm
  exact congrArg₂ (Cert.Spec.sum1 (fun b ch r cc => darr V c (ix4 b ch r cc))) hb hc

theorem final6 (c : Dev nD) : (dat0 V c).arrAt 6 cfg0.N = G6 V c :=
  (dat0 V c).arrAt_eq_of_cover 6 (G6 V c) (flushed_eq6 V c) cover6

theorem mem_blk7 (t : Fin cfg0.N) (i : S8x3x1x1.Idx) :
    i ∈ ((cfg0.win 7).blk t).view.set ↔ ∀ a : Fin 4, win0_7.index t a * S1x3x1x1.size a ≤ (i a).val ∧ (i a).val < win0_7.index t a * S1x3x1x1.size a + S1x3x1x1.size a := by
  show i ∈ ((View.whole main_v0_5).slice (win0_7.rect t)).set ↔ _
  rw [View.set_slice_whole, Rect.mem_set_unit]
  exact Iff.rfl

theorem cover7 (i : S8x3x1x1.Idx) : ∃ t : Fin cfg0.N, (cfg0.win 7).flush t = true ∧ i ∈ ((cfg0.win 7).blk t).view.set := by
  have hi0 : (i 0).val < 8 := (i 0).isLt
  have hi1 : (i 1).val < 3 := (i 1).isLt
  have hi2 : (i 2).val < 1 := (i 2).isLt
  have hi3 : (i 3).val < 1 := (i 3).isLt
  obtain ⟨t, ht3, htq⟩ := idx_onto ⟨(i 0).val, hi0⟩
  obtain ⟨-, -, -, ⟨e0, e1, e2, e3⟩, -⟩ := idxAcc t
  refine ⟨t, (flush0_7 t).mpr ht3, ?_⟩
  rw [mem_blk7]
  intro a
  match a with
  | ⟨0, _⟩ => show win0_7.index t (0 : Fin 4) * 1 ≤ (i 0).val ∧ (i 0).val < win0_7.index t (0 : Fin 4) * 1 + 1; dsimp only at htq; omega
  | ⟨1, _⟩ => show win0_7.index t (1 : Fin 4) * 3 ≤ (i 1).val ∧ (i 1).val < win0_7.index t (1 : Fin 4) * 3 + 3; omega
  | ⟨2, _⟩ => show win0_7.index t (2 : Fin 4) * 1 ≤ (i 2).val ∧ (i 2).val < win0_7.index t (2 : Fin 4) * 1 + 1; omega
  | ⟨3, _⟩ => show win0_7.index t (3 : Fin 4) * 1 ≤ (i 3).val ∧ (i 3).val < win0_7.index t (3 : Fin 4) * 1 + 1; omega

theorem emb7_val (t : Fin cfg0.N) (y : S1x3x1x1.Idx) :
    (((cfg0.win 7).blk t).view.emb y 0).val = t.val / 4 ∧ (((cfg0.win 7).blk t).view.emb y 1).val = (y 1).val := by
  obtain ⟨-, -, -, ⟨e0, e1, e2, e3⟩, -⟩ := idxAcc t
  have h0 : (y 0).val < 1 := (y 0).isLt
  refine ⟨?_, ?_⟩
  · show win0_7.index t (0 : Fin 4) * 1 + 1 * (y 0).val = t.val / 4; omega
  · show win0_7.index t (1 : Fin 4) * 3 + 1 * (y 1).val = (y 1).val; omega

abbrev G7 (c : Dev nD) : Vec Ideal S8x3x1x1 .f32 :=
  fun i => Cert.Spec.sum2 (fun b ch r cc => darr V c (ix4 b ch r cc)) (i 0) (i 1)

theorem last7 (c : Dev nD) (ch : Fin 3) (q : ℕ) (hq : q < 8) (h : 4 * q + 3 < cfg0.N) :
    (outsAt0 V c (4 * q + 3) h).2.2.2.2.2.1 (ix4 (0 : Fin 1) ch (0 : Fin 1) (0 : Fin 1))
      = Cert.Spec.sum2 (fun b ch r cc => darr V c (ix4 b ch r cc)) ⟨q, hq⟩ ch := by
  rw [inv7 V c ch q 3 (by omega) h]
  exact tiles_sum (dblk V c) (darr V c) (dblk_apply V c) (fun v => v * v) ch q hq

theorem flushed_eq7 (c : Dev nD) (t : Fin cfg0.N) (hf : (cfg0.win 7).flush t = true) :
    (dat0 V c).flushed 7 t = ((cfg0.win 7).blk t).view.read (Elt Ideal) (G7 V c) := by
  have h3 : t.val % 4 = 3 := (flush0_7 t).mp hf
  have hN : t.val < 32 := lt_of_lt_of_eq t.isLt N_0
  have hq : t.val / 4 < 8 := by omega
  have ht : 4 * (t.val / 4) + 3 = t.val := by omega
  have hlt : 4 * (t.val / 4) + 3 < cfg0.N := by rw [ht]; exact t.isLt
  funext y
  rw [View.read_apply]
  show (cfg0.win 7).cut (grid0.coords t) ((dat0 V c).after 7 t) y = G7 V c _
  rw [after0_7]
  have hy1 : (y 1).val < 3 := (y 1).isLt
  obtain ⟨e0, e1⟩ := emb7_val t y
  show (outsAt0 V c t.val t.isLt).2.2.2.2.2.1 _ = G7 V c _
  refine (vec3_congr _ _ ⟨(y 1).val, hy1⟩ rfl).trans ?_
  rw [← outsAt0_congr V c t _ hlt ht, last7 V c _ (t.val / 4) hq hlt]
  have hb : (⟨t.val / 4, hq⟩ : Fin 8) = ((cfg0.win 7).blk t).view.emb y 0 := Fin.ext e0.symm
  have hc : (⟨(y 1).val, hy1⟩ : Fin 3) = ((cfg0.win 7).blk t).view.emb y 1 := Fin.ext e1.symm
  exact congrArg₂ (Cert.Spec.sum2 (fun b ch r cc => darr V c (ix4 b ch r cc))) hb hc

theorem final7 (c : Dev nD) : (dat0 V c).arrAt 7 cfg0.N = G7 V c :=
  (dat0 V c).arrAt_eq_of_cover 7 (G7 V c) (flushed_eq7 V c) cover7

theorem mem_blk8 (t : Fin cfg0.N) (i : S8x1x1x1.Idx) :
    i ∈ ((cfg0.win 8).blk t).view.set ↔ ∀ a : Fin 4, win0_8.index t a * S1x1x1x1.size a ≤ (i a).val ∧ (i a).val < win0_8.index t a * S1x1x1x1.size a + S1x1x1x1.size a := by
  show i ∈ ((View.whole main_v0_6).slice (win0_8.rect t)).set ↔ _
  rw [View.set_slice_whole, Rect.mem_set_unit]
  exact Iff.rfl

theorem cover8 (i : S8x1x1x1.Idx) : ∃ t : Fin cfg0.N, (cfg0.win 8).flush t = true ∧ i ∈ ((cfg0.win 8).blk t).view.set := by
  have hi0 : (i 0).val < 8 := (i 0).isLt
  have hi1 : (i 1).val < 1 := (i 1).isLt
  have hi2 : (i 2).val < 1 := (i 2).isLt
  have hi3 : (i 3).val < 1 := (i 3).isLt
  obtain ⟨t, ht3, htq⟩ := idx_onto ⟨(i 0).val, hi0⟩
  obtain ⟨-, -, -, -, ⟨e0, e1, e2, e3⟩⟩ := idxAcc t
  refine ⟨t, (flush0_8 t).mpr ht3, ?_⟩
  rw [mem_blk8]
  intro a
  match a with
  | ⟨0, _⟩ => show win0_8.index t (0 : Fin 4) * 1 ≤ (i 0).val ∧ (i 0).val < win0_8.index t (0 : Fin 4) * 1 + 1; dsimp only at htq; omega
  | ⟨1, _⟩ => show win0_8.index t (1 : Fin 4) * 1 ≤ (i 1).val ∧ (i 1).val < win0_8.index t (1 : Fin 4) * 1 + 1; omega
  | ⟨2, _⟩ => show win0_8.index t (2 : Fin 4) * 1 ≤ (i 2).val ∧ (i 2).val < win0_8.index t (2 : Fin 4) * 1 + 1; omega
  | ⟨3, _⟩ => show win0_8.index t (3 : Fin 4) * 1 ≤ (i 3).val ∧ (i 3).val < win0_8.index t (3 : Fin 4) * 1 + 1; omega

theorem emb8_val (t : Fin cfg0.N) (y : S1x1x1x1.Idx) :
    (((cfg0.win 8).blk t).view.emb y 0).val = t.val / 4 := by
  obtain ⟨-, -, -, -, ⟨e0, e1, e2, e3⟩⟩ := idxAcc t
  have h0 : (y 0).val < 1 := (y 0).isLt
  show win0_8.index t (0 : Fin 4) * 1 + 1 * (y 0).val = t.val / 4; omega

abbrev G8 (c : Dev nD) : Vec Ideal S8x1x1x1 .f32 :=
  fun i => Cert.Spec.satB (fun b ch r cc => xarr V c (ix4 b ch r cc)) (i 0)

theorem last8 (c : Dev nD) (q : ℕ) (hq : q < 8) (h : 4 * q + 3 < cfg0.N) :
    (outsAt0 V c (4 * q + 3) h).2.2.2.2.2.2 (ix4 (0 : Fin 1) (0 : Fin 1) (0 : Fin 1) (0 : Fin 1))
      = Cert.Spec.satB (fun b ch r cc => xarr V c (ix4 b ch r cc)) ⟨q, hq⟩ := by
  rw [inv8 V c q 3 (by omega) h]
  exact Finset.sum_comm.trans (Finset.sum_congr rfl fun ch _ =>
    tiles_sum (xblk V c) (xarr V c) (xblk_apply V c) Cert.Spec.satf ch q hq)

theorem flushed_eq8 (c : Dev nD) (t : Fin cfg0.N) (hf : (cfg0.win 8).flush t = true) :
    (dat0 V c).flushed 8 t = ((cfg0.win 8).blk t).view.read (Elt Ideal) (G8 V c) := by
  have h3 : t.val % 4 = 3 := (flush0_8 t).mp hf
  have hN : t.val < 32 := lt_of_lt_of_eq t.isLt N_0
  have hq : t.val / 4 < 8 := by omega
  have ht : 4 * (t.val / 4) + 3 = t.val := by omega
  have hlt : 4 * (t.val / 4) + 3 < cfg0.N := by rw [ht]; exact t.isLt
  funext y
  rw [View.read_apply]
  show (cfg0.win 8).cut (grid0.coords t) ((dat0 V c).after 8 t) y = G8 V c _
  rw [after0_8]
  have e0 := emb8_val t y
  show (outsAt0 V c t.val t.isLt).2.2.2.2.2.2 _ = G8 V c _
  refine (vec1_congr _ _).trans ?_
  rw [← outsAt0_congr V c t _ hlt ht, last8 V c (t.val / 4) hq hlt]
  have hb : (⟨t.val / 4, hq⟩ : Fin 8) = ((cfg0.win 8).blk t).view.emb y 0 := Fin.ext e0.symm
  exact congrArg (Cert.Spec.satB (fun b ch r cc => xarr V c (ix4 b ch r cc))) hb

theorem final8 (c : Dev nD) : (dat0 V c).arrAt 8 cfg0.N = G8 V c :=
  (dat0 V c).arrAt_eq_of_cover 8 (G8 V c) (flushed_eq8 V c) cover8

end Final

theorem sum_i (V : (c : Dev nD) → (b : Ref sig .tc) → Buf (Elt Ideal) ((c : Thread nD τ).loc b)) (c : Dev nD) (b : Fin 8) (ch : Fin 3) :
    (Gen.dat0 (F := Ideal) V c).arrAt 4 cfg0.N (ix4 b ch (0 : Fin 1) (0 : Fin 1))
      = Cert.Spec.sum1 (fun b ch r cc => V c (Pipeline.arrRef spec0 0) (ix4 b ch r cc)) b ch :=
  congrFun (final4 V c) (ix4 b ch (0 : Fin 1) (0 : Fin 1))

theorem sumsq_i (V : (c : Dev nD) → (b : Ref sig .tc) → Buf (Elt Ideal) ((c : Thread nD τ).loc b)) (c : Dev nD) (b : Fin 8) (ch : Fin 3) :
    (Gen.dat0 (F := Ideal) V c).arrAt 5 cfg0.N (ix4 b ch (0 : Fin 1) (0 : Fin 1))
      = Cert.Spec.sum2 (fun b ch r cc => V c (Pipeline.arrRef spec0 0) (ix4 b ch r cc)) b ch :=
  congrFun (final5 V c) (ix4 b ch (0 : Fin 1) (0 : Fin 1))

theorem sum_id (V : (c : Dev nD) → (b : Ref sig .tc) → Buf (Elt Ideal) ((c : Thread nD τ).loc b)) (c : Dev nD) (b : Fin 8) (ch : Fin 3) :
    (Gen.dat0 (F := Ideal) V c).arrAt 6 cfg0.N (ix4 b ch (0 : Fin 1) (0 : Fin 1))
      = Cert.Spec.sum1 (fun b ch r cc => V c (Pipeline.arrRef spec0 1) (ix4 b ch r cc)) b ch :=
  congrFun (final6 V c) (ix4 b ch (0 : Fin 1) (0 : Fin 1))

theorem sumsq_id (V : (c : Dev nD) → (b : Ref sig .tc) → Buf (Elt Ideal) ((c : Thread nD τ).loc b)) (c : Dev nD) (b : Fin 8) (ch : Fin 3) :
    (Gen.dat0 (F := Ideal) V c).arrAt 7 cfg0.N (ix4 b ch (0 : Fin 1) (0 : Fin 1))
      = Cert.Spec.sum2 (fun b ch r cc => V c (Pipeline.arrRef spec0 1) (ix4 b ch r cc)) b ch :=
  congrFun (final7 V c) (ix4 b ch (0 : Fin 1) (0 : Fin 1))

theorem sat (V : (c : Dev nD) → (b : Ref sig .tc) → Buf (Elt Ideal) ((c : Thread nD τ).loc b)) (c : Dev nD) (b : Fin 8) :
    (Gen.dat0 (F := Ideal) V c).arrAt 8 cfg0.N (ix4 b (0 : Fin 1) (0 : Fin 1) (0 : Fin 1))
      = Cert.Spec.satB (fun b ch r cc => V c (Pipeline.arrRef spec0 0) (ix4 b ch r cc)) b :=
  congrFun (final8 V c) (ix4 b (0 : Fin 1) (0 : Fin 1) (0 : Fin 1))

end Cert.KernelIdeal.KR0Acc

end
-- ==== Proof.KR1.lean ====
import proofs.«147778_j69123203661888_1_alg».proof.Proof.Gen.KernelIdeal.Frame
import proofs.«147778_j69123203661888_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KR1

open Cert.KernelIdeal Cert.KernelIdeal.Gen Idealize.ShloMosaic Idealize.ShloMosaic.TcCoe Idealize.SL.Sem Idealize.ShloMosaic.ValueIdx
open Idealize.ShloMosaic.Pipeline (Dat)

theorem refl_lt (k : ℕ) (h : k < 1026) : Cert.Spec.refl k < 1024 := by
  unfold Cert.Spec.refl; split_ifs <;> omega

section Pad
variable {α : Type}

theorem padRows_at (v1 : S1024x1024.Idx → α)
    (h1 : S1024x1024.Slices ![1, 0] S1x1024) (h2 : S1024x1024.Slices ![1022, 0] S1x1024)
    (hc : Shape.Concatenates [S1x1024, S1024x1024, S1x1024] S1026x1024 0)
    (p : Fin 1026) (c : Fin 1024) :
    concatenate S1026x1024 0 [⟨S1x1024, extractStridedSlice S1x1024 ![1, 0] v1 h1⟩, ⟨S1024x1024, v1⟩,
        ⟨S1x1024, extractStridedSlice S1x1024 ![1022, 0] v1 h2⟩] hc (ix2 p c)
      = v1 (ix2 ⟨Cert.Spec.refl p.val, refl_lt p.val p.isLt⟩ c) := by
  have hp := p.isLt
  by_cases h0 : p.val = 0
  · have e : Cert.Spec.refl p.val = 1 := by unfold Cert.Spec.refl; rw [if_pos h0]
    refine (concatenate_apply_piece (0 : Fin S1026x1024.rank)
      [⟨S1x1024, extractStridedSlice S1x1024 ![1, 0] v1 h1⟩, ⟨S1024x1024, v1⟩,
        ⟨S1x1024, extractStridedSlice S1x1024 ![1022, 0] v1 h2⟩] hc (ix2 p c) 0 (Nat.succ_pos _) S1x1024 _ rfl rfl 0 rfl
      (ix2 (0 : Fin 1) c) (fun b hb => ?_) ?_).trans ?_
    · match b with
      | ⟨0, _⟩ => exact absurd rfl hb
      | ⟨1, _⟩ => rfl
    · show 0 + 0 = p.val; omega
    · refine extractStridedSlice_apply _ v1 h1 _ _ (fun a => ?_)
      match a with
      | ⟨0, _⟩ => show Cert.Spec.refl p.val = 1 + 0; omega
      | ⟨1, _⟩ => show c.val = 0 + c.val; omega
  · by_cases h1025 : p.val = 1025
    · have e : Cert.Spec.refl p.val = 1022 := by unfold Cert.Spec.refl; rw [if_neg h0, if_pos (by omega)]
      refine (concatenate_apply_piece (0 : Fin S1026x1024.rank)
        [⟨S1x1024, extractStridedSlice S1x1024 ![1, 0] v1 h1⟩, ⟨S1024x1024, v1⟩,
          ⟨S1x1024, extractStridedSlice S1x1024 ![1022, 0] v1 h2⟩] hc (ix2 p c) 2 (by simp) S1x1024 _ rfl rfl 1025 rfl
        (ix2 (0 : Fin 1) c) (fun b hb => ?_) ?_).trans ?_
      · match b with
        | ⟨0, _⟩ => exact absurd rfl hb
        | ⟨1, _⟩ => rfl
      · show 1025 + 0 = p.val; omega
      · refine extractStridedSlice_apply _ v1 h2 _ _ (fun a => ?_)
        match a with
        | ⟨0, _⟩ => show Cert.Spec.refl p.val = 1022 + 0; omega
        | ⟨1, _⟩ => show c.val = 0 + c.val; omega
    · have e : Cert.Spec.refl p.val = p.val - 1 := by unfold Cert.Spec.refl; rw [if_neg h0, if_neg (by omega)]
      refine concatenate_apply_piece (0 : Fin S1026x1024.rank)
        [⟨S1x1024, extractStridedSlice S1x1024 ![1, 0] v1 h1⟩, ⟨S1024x1024, v1⟩,
          ⟨S1x1024, extractStridedSlice S1x1024 ![1022, 0] v1 h2⟩] hc (ix2 p c) 1 (by simp) S1024x1024 _ rfl rfl 1 rfl
        (ix2 ⟨Cert.Spec.refl p.val, refl_lt p.val p.isLt⟩ c) (fun b hb => ?_) ?_
      · match b with
        | ⟨0, _⟩ => exact absurd rfl hb
        | ⟨1, _⟩ => rfl
      · show 1 + Cert.Spec.refl p.val = p.val; omega

end Pad

section Pad2
variable {α : Type}

theorem padCols_at (v4 : S1026x1024.Idx → α)
    (h1 : S1026x1024.Slices ![0, 1] S1026x1) (h2 : S1026x1024.Slices ![0, 1022] S1026x1)
    (hc : Shape.Concatenates [S1026x1, S1026x1024, S1026x1] S1026x1026 1)
    (p q : Fin 1026) :
    concatenate S1026x1026 1 [⟨S1026x1, extractStridedSlice S1026x1 ![0, 1] v4 h1⟩, ⟨S1026x1024, v4⟩,
        ⟨S1026x1, extractStridedSlice S1026x1 ![0, 1022] v4 h2⟩] hc (ix2 p q)
      = v4 (ix2 p ⟨Cert.Spec.refl q.val, refl_lt q.val q.isLt⟩) := by
  have hq := q.isLt
  by_cases h0 : q.val = 0
  · have e : Cert.Spec.refl q.val = 1 := by unfold Cert.Spec.refl; rw [if_pos h0]
    refine (concatenate_apply_piece (1 : Fin S1026x1026.rank)
      [⟨S1026x1, extractStridedSlice S1026x1 ![0, 1] v4 h1⟩, ⟨S1026x1024, v4⟩,
        ⟨S1026x1, extractStridedSlice S1026x1 ![0, 1022] v4 h2⟩] hc (ix2 p q) 0 (Nat.succ_pos _) S1026x1 _ rfl rfl 0 rfl
      (ix2 p (0 : Fin 1)) (fun b hb => ?_) ?_).trans ?_
    · match b with
      | ⟨0, _⟩ => rfl
      | ⟨1, _⟩ => exact absurd rfl hb
    · show 0 + 0 = q.val; omega
    · refine extractStridedSlice_apply _ v4 h1 _ _ (fun a => ?_)
      match a with
      | ⟨0, _⟩ => show p.val = 0 + p.val; omega
      | ⟨1, _⟩ => show Cert.Spec.refl q.val = 1 + 0; omega
  · by_cases h1025 : q.val = 1025
    · have e : Cert.Spec.refl q.val = 1022 := by unfold Cert.Spec.refl; rw [if_neg h0, if_pos (by omega)]
      refine (concatenate_apply_piece (1 : Fin S1026x1026.rank)
        [⟨S1026x1, extractStridedSlice S1026x1 ![0, 1] v4 h1⟩, ⟨S1026x1024, v4⟩,
          ⟨S1026x1, extractStridedSlice S1026x1 ![0, 1022] v4 h2⟩] hc (ix2 p q) 2 (by simp) S1026x1 _ rfl rfl 1025 rfl
        (ix2 p (0 : Fin 1)) (fun b hb => ?_) ?_).trans ?_
      · match b with
        | ⟨0, _⟩ => rfl
        | ⟨1, _⟩ => exact absurd rfl hb
      · show 1025 + 0 = q.val; omega
      · refine extractStridedSlice_apply _ v4 h2 _ _ (fun a => ?_)
        match a with
        | ⟨0, _⟩ => show p.val = 0 + p.val; omega
        | ⟨1, _⟩ => show Cert.Spec.refl q.val = 1022 + 0; omega
    · have e : Cert.Spec.refl q.val = q.val - 1 := by unfold Cert.Spec.refl; rw [if_neg h0, if_neg (by omega)]
      refine concatenate_apply_piece (1 : Fin S1026x1026.rank)
        [⟨S1026x1, extractStridedSlice S1026x1 ![0, 1] v4 h1⟩, ⟨S1026x1024, v4⟩,
          ⟨S1026x1, extractStridedSlice S1026x1 ![0, 1022] v4 h2⟩] hc (ix2 p q) 1 (by simp) S1026x1024 _ rfl rfl 1 rfl
        (ix2 p ⟨Cert.Spec.refl q.val, refl_lt q.val q.isLt⟩) (fun b hb => ?_) ?_
      · match b with
        | ⟨0, _⟩ => rfl
        | ⟨1, _⟩ => exact absurd rfl hb
      · show 1 + Cert.Spec.refl q.val = q.val; omega

theorem cast_11ab_ab_at (x0 : S1x1x1024x1024.Idx → α) (h : S1x1x1024x1024.ShapeCasts S1024x1024) (a b : Fin 1024) :
    shapeCast S1024x1024 x0 h (ix2 a b) = x0 (ix4 0 0 a b) :=
  shapeCast_apply x0 h (ix2 a b) (ix4 0 0 a b) (by
    rw [Shape.rowMajor_val_four, Shape.rowMajor_val_two]
    show (((0 * 1 + 0) * 1024 + a.val) * 1024 + b.val) = a.val * 1024 + b.val
    simp only [Nat.zero_mul, Nat.zero_add])

theorem cast_ab_11ab_at (x : S1024x1024.Idx → α) (h : S1024x1024.ShapeCasts S1x1x1024x1024) (a b : Fin 1024) :
    shapeCast S1x1x1024x1024 x h (ix4 0 0 a b) = x (ix2 a b) :=
  shapeCast_apply x h (ix4 0 0 a b) (ix2 a b) (by
    rw [Shape.rowMajor_val_four, Shape.rowMajor_val_two]
    show a.val * 1024 + b.val = (((0 * 1 + 0) * 1024 + a.val) * 1024 + b.val)
    simp only [Nat.zero_mul, Nat.zero_add])

end Pad2

theorem pad_at (x0 : Vec Ideal S1x1x1024x1024 .f32) (p q : Fin 1026) :
    Gen.k1_pay2 (F := Ideal) x0 (ix2 p q) = Cert.Spec.pad (fun r' c' => x0 (ix4 0 0 r' c')) p.val q.val := by
  unfold Gen.k1_pay2
  refine (padCols_at _ _ _ _ p q).trans ?_
  refine (padRows_at _ _ _ _ p _).trans ?_
  refine (cast_11ab_ab_at x0 _ _ _).trans ?_
  unfold Cert.Spec.pad Cert.Spec.getN
  rw [dif_pos ⟨refl_lt p.val p.isLt, refl_lt q.val q.isLt⟩]

theorem tap_at (x0 : Vec Ideal S1x1x1024x1024 .f32) (i j : ℕ) (hi : i ≤ 2) (hj : j ≤ 2)
    (h : S1026x1026.Slices ![i, j] S1024x1024) (r cc : Fin 1024) :
    extractStridedSlice S1024x1024 ![i, j] (Gen.k1_pay2 (F := Ideal) x0) h (ix2 r cc)
      = Cert.Spec.pad (fun r' c' => x0 (ix4 0 0 r' c')) (r.val + i) (cc.val + j) := by
  have hr := r.isLt
  have hc := cc.isLt
  refine (extractStridedSlice_apply _ _ h (ix2 r cc) (ix2 (⟨r.val + i, by omega⟩ : Fin 1026) (⟨cc.val + j, by omega⟩ : Fin 1026))
    (fun a => ?_)).trans (pad_at x0 _ _)
  match a with
  | ⟨0, _⟩ => show r.val + i = i + r.val; omega
  | ⟨1, _⟩ => show cc.val + j = j + cc.val; omega

theorem hz4 : (![0, 0, 0, 0] : Fin 4 → Nat) = fun _ => 0 := funext fun a => by fin_cases a <;> rfl

theorem out_eq (x0 : Vec Ideal S1x1x1024x1024 .f32) :
    Gen.out1_1 (F := Ideal) x0 = Gen.k1_pay1 (Gen.k1_pay3 x0) (Gen.k1_pay4 x0) := by
  unfold Gen.out1_1
  rw [View.canon_unit_zero hz4]
  simp only [View.ld_unit_zero (S := S1x1x1024x1024) hz4]

theorem body_at (x0 : Vec Ideal S1x1x1024x1024 .f32) (r cc : Fin 1024) :
    Gen.out1_1 (F := Ideal) x0 (ix4 0 0 r cc) = Cert.Spec.gauss (fun r' c' => x0 (ix4 0 0 r' c')) r cc := by
  rw [out_eq]
  unfold Gen.k1_pay1
  refine (cast_ab_11ab_at _ _ r cc).trans ?_
  unfold Gen.k1_pay3 Gen.k1_pay4
  simp only [addf_apply, mulf_apply, broadcast_apply]
  rw [tap_at x0 0 0 (by omega) (by omega), tap_at x0 0 1 (by omega) (by omega), tap_at x0 0 2 (by omega) (by omega),
    tap_at x0 1 0 (by omega) (by omega), tap_at x0 1 1 (by omega) (by omega), tap_at x0 1 2 (by omega) (by omega),
    tap_at x0 2 0 (by omega) (by omega), tap_at x0 2 1 (by omega) (by omega), tap_at x0 2 2 (by omega) (by omega)]
  simp only [Ideal.ofBits_def, Ideal.ofBits_zero_f32, zero_add]
  rfl

theorem body_at' (x0 : Vec Ideal S1x1x1024x1024 .f32) (y : S1x1x1024x1024.Idx) (r cc : Fin 1024)
    (hr : (y 2).val = r.val) (hc : (y 3).val = cc.val) :
    Gen.out1_1 (F := Ideal) x0 y = Cert.Spec.gauss (fun r' c' => x0 (ix4 0 0 r' c')) r cc := by
  have e : y = ix4 0 0 r cc := by
    funext a
    apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => exact hr
    | ⟨3, _⟩ => exact hc
  rw [e]
  exact body_at x0 r cc

section Array
variable (V : (c : Dev nD) → (b : Ref sig .tc) → Buf (Elt Ideal) ((c : Thread nD τ).loc b))

abbrev xarr (c : Dev nD) : S2x8x1024x1024.Idx → EReal := V c (Pipeline.arrRef spec1 0)

def G (c : Dev nD) : S2x8x1024x1024.Idx → EReal := fun i =>
  Cert.Spec.gauss (fun r' c' => xarr V c (ix4 (⟨(i 0).val, (i 0).isLt⟩ : Fin 2) (⟨(i 1).val, (i 1).isLt⟩ : Fin 8) r' c'))
    ⟨(i 2).val, (i 2).isLt⟩ ⟨(i 3).val, (i 3).isLt⟩

theorem G_at (c : Dev nD) (i : S2x8x1024x1024.Idx) (s : Fin 2) (b : Fin 8) (r cc : Fin 1024)
    (h0 : (i 0).val = s.val) (h1 : (i 1).val = b.val) (h2 : (i 2).val = r.val) (h3 : (i 3).val = cc.val) :
    G V c i = Cert.Spec.gauss (fun r' c' => xarr V c (ix4 s b r' c')) r cc := by
  have e0 : (⟨(i 0).val, (i 0).isLt⟩ : Fin 2) = s := Fin.ext h0
  have e1 : (⟨(i 1).val, (i 1).isLt⟩ : Fin 8) = b := Fin.ext h1
  have e2 : (⟨(i 2).val, (i 2).isLt⟩ : Fin 1024) = r := Fin.ext h2
  have e3 : (⟨(i 3).val, (i 3).isLt⟩ : Fin 1024) = cc := Fin.ext h3
  unfold G
  rw [e0, e1, e2, e3]

theorem idx_facts : ∀ t : Fin cfg1.N, win1_0.index t (0 : Fin 4) = win1_1.index t (0 : Fin 4)
    ∧ win1_0.index t (1 : Fin 4) = win1_1.index t (1 : Fin 4)
    ∧ win1_0.index t (2 : Fin 4) = 0 ∧ win1_0.index t (3 : Fin 4) = 0
    ∧ win1_1.index t (2 : Fin 4) = 0 ∧ win1_1.index t (3 : Fin 4) = 0
    ∧ win1_1.index t (0 : Fin 4) < 2 ∧ win1_1.index t (1 : Fin 4) < 8 :=
  (by decide +kernel : ∀ t : Fin grid1.N, _)

theorem idx_onto : ∀ (q0 : Fin 2) (q1 : Fin 8), ∃ t : Fin cfg1.N, win1_1.index t = ![q0.val, q1.val, 0, 0] :=
  (by decide +kernel : ∀ (q0 : Fin 2) (q1 : Fin 8), ∃ t : Fin grid1.N, win1_1.index t = ![q0.val, q1.val, 0, 0])

theorem flushed_eq (c : Dev nD) (t : Fin cfg1.N) :
    (Gen.dat1 (F := Ideal) V c).flushed 1 t = ((cfg1.win 1).blk t).view.read (Elt Ideal) (G V c) := by
  show (cfg1.win 1).cut (grid1.coords t) ((Gen.dat1 (F := Ideal) V c).after 1 t) = _
  rw [Gen.after1_1]
  obtain ⟨e0, e1, e2, e3, e4, e5, e6, e7⟩ := idx_facts t
  funext j
  have hj0 : (j 0).val < 1 := (j 0).isLt
  have hj1 : (j 1).val < 1 := (j 1).isLt
  have hr : (j 2).val < 1024 := (j 2).isLt
  have hc : (j 3).val < 1024 := (j 3).isLt
  show Gen.out1_1 (F := Ideal) (Gen.iblk1 V c 0 t) ((cfg1.win 1).xinj (grid1.coords t) j) = G V c (((cfg1.win 1).blk t).view.emb j)
  rw [body_at' (Gen.iblk1 V c 0 t) ((cfg1.win 1).xinj (grid1.coords t) j) ⟨(j 2).val, hr⟩ ⟨(j 3).val, hc⟩ rfl rfl]
  refine Eq.trans ?_ (G_at V c (((cfg1.win 1).blk t).view.emb j) ⟨win1_1.index t (0 : Fin 4), e6⟩ ⟨win1_1.index t (1 : Fin 4), e7⟩
    ⟨(j 2).val, hr⟩ ⟨(j 3).val, hc⟩ ?_ ?_ ?_ ?_).symm
  · refine congrArg (fun f => Cert.Spec.gauss f (⟨(j 2).val, hr⟩ : Fin 1024) (⟨(j 3).val, hc⟩ : Fin 1024)) (funext fun r' => funext fun c' => ?_)
    show xarr V c (((cfg1.win 0).blk t).view.emb (ix4 0 0 r' c')) = _
    refine congrArg (xarr V c) (funext fun a => Fin.ext ?_)
    match a with
    | ⟨0, _⟩ => show win1_0.index t (0 : Fin 4) * 1 + 1 * 0 = win1_1.index t (0 : Fin 4); omega
    | ⟨1, _⟩ => show win1_0.index t (1 : Fin 4) * 1 + 1 * 0 = win1_1.index t (1 : Fin 4); omega
    | ⟨2, _⟩ => show win1_0.index t (2 : Fin 4) * 1024 + 1 * r'.val = r'.val; omega
    | ⟨3, _⟩ => show win1_0.index t (3 : Fin 4) * 1024 + 1 * c'.val = c'.val; omega
  · show win1_1.index t (0 : Fin 4) * 1 + 1 * (j 0).val = win1_1.index t (0 : Fin 4); omega
  · show win1_1.index t (1 : Fin 4) * 1 + 1 * (j 1).val = win1_1.index t (1 : Fin 4); omega
  · show win1_1.index t (2 : Fin 4) * 1024 + 1 * (j 2).val = (j 2).val; omega
  · show win1_1.index t (3 : Fin 4) * 1024 + 1 * (j 3).val = (j 3).val; omega

end Array

section Array2
variable (V : (c : Dev nD) → (b : Ref sig .tc) → Buf (Elt Ideal) ((c : Thread nD τ).loc b))

theorem mem_blk (t : Fin cfg1.N) (i : S2x8x1024x1024.Idx) :
    i ∈ ((cfg1.win 1).blk t).view.set ↔ ∀ a : Fin 4, win1_1.index t a * S1x1x1024x1024.size a ≤ (i a).val
      ∧ (i a).val < win1_1.index t a * S1x1x1024x1024.size a + S1x1x1024x1024.size a := by
  show i ∈ ((View.whole main_v4).slice (win1_1.rect t)).set ↔ _
  rw [View.set_slice_whole, Rect.mem_set_unit]
  exact Iff.rfl

theorem cover (i : S2x8x1024x1024.Idx) :
    ∃ t : Fin cfg1.N, (cfg1.win 1).flush t = true ∧ i ∈ ((cfg1.win 1).blk t).view.set := by
  have h0 : (i 0).val < 2 := (i 0).isLt
  have h1 : (i 1).val < 8 := (i 1).isLt
  have h2 : (i 2).val < 1024 := (i 2).isLt
  have h3 : (i 3).val < 1024 := (i 3).isLt
  obtain ⟨t, ht⟩ := idx_onto ⟨(i 0).val, h0⟩ ⟨(i 1).val, h1⟩
  have q0 : win1_1.index t (0 : Fin 4) = (i 0).val := congrFun ht 0
  have q1 : win1_1.index t (1 : Fin 4) = (i 1).val := congrFun ht 1
  have q2 : win1_1.index t (2 : Fin 4) = 0 := congrFun ht 2
  have q3 : win1_1.index t (3 : Fin 4) = 0 := congrFun ht 3
  refine ⟨t, flush1_1 t, ?_⟩
  rw [mem_blk]
  intro a
  match a with
  | ⟨0, _⟩ => show win1_1.index t (0 : Fin 4) * 1 ≤ (i 0).val ∧ (i 0).val < win1_1.index t (0 : Fin 4) * 1 + 1; omega
  | ⟨1, _⟩ => show win1_1.index t (1 : Fin 4) * 1 ≤ (i 1).val ∧ (i 1).val < win1_1.index t (1 : Fin 4) * 1 + 1; omega
  | ⟨2, _⟩ => show win1_1.index t (2 : Fin 4) * 1024 ≤ (i 2).val ∧ (i 2).val < win1_1.index t (2 : Fin 4) * 1024 + 1024; omega
  | ⟨3, _⟩ => show win1_1.index t (3 : Fin 4) * 1024 ≤ (i 3).val ∧ (i 3).val < win1_1.index t (3 : Fin 4) * 1024 + 1024; omega

theorem final (c : Dev nD) : (Gen.dat1 (F := Ideal) V c).arrAt 1 cfg1.N = G V c :=
  (Gen.dat1 (F := Ideal) V c).arrAt_eq_of_cover 1 (G V c) (fun t _ => flushed_eq V c t) cover

theorem gauss_out (c : Dev nD) (s : Fin 2) (b : Fin 8) (r cc : Fin 1024) :
    (Gen.dat1 (F := Ideal) V c).arrAt 1 cfg1.N (ix4 s b r cc)
      = Cert.Spec.gauss (fun r' c' => V c (Pipeline.arrRef spec1 0) (ix4 s b r' c')) r cc :=
  (congrFun (final V c) (ix4 s b r cc)).trans (G_at V c (ix4 s b r cc) s b r cc rfl rfl rfl rfl)

end Array2

end Cert.KernelIdeal.KR1

end
-- ==== Proof.KR2.lean ====
import proofs.«147778_j69123203661888_1_alg».proof.Proof.Gen.KernelIdeal.Frame
import proofs.«147778_j69123203661888_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KR2

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

theorem out_eq_pay (x0 x1 : Vec Ideal S1x1024x1024 .f32) (x2 x3 : Vec Ideal S1024x1024 .f32) :
    Gen.out2_4 (F := Ideal) x0 x1 x2 x3 = Gen.k2_pay1 (F := Ideal) x0 x1 x2 x3 := by
  unfold Gen.out2_4
  rw [View.canon_unit_zero hz3]
  simp only [View.ld_unit_zero (S := S1x1024x1024) hz3, View.ld_unit_zero (S := S1024x1024) hz2]

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem lift_row (h : S1024x1.Reduces [0] S1) (u : Fin 1) (k : Fin (S1024x1.size 0)) :
    h.lift (ix1 u) k = ix2 (⟨k.val, k.isLt⟩ : Fin 1024) u := by
  funext c; apply Fin.ext; fin_cases c <;> rfl

theorem lift_col (h : S1024x1024.Reduces [1] S1024) (r : Fin 1024) (k : Fin (S1024x1024.size 1)) :
    h.lift (ix1 r) k = ix2 r (⟨k.val, k.isLt⟩ : Fin 1024) := by
  funext c; apply Fin.ext; fin_cases c <;> rfl

theorem elem (x0 x1 : FVec Ideal S1x1024x1024 .f32) (x2 x3 : FVec Ideal S1024x1024 .f32)
    (h0 : S1x1024x1024.ShapeCasts S1024x1024) (h2 : S1024x1024.ShapeCasts S1024x1024) (r cc : Fin 1024) :
    (absf (subf (mulf (shapeCast S1024x1024 x0 h0 : FVec Ideal S1024x1024 .f32) (shapeCast S1024x1024 x2 h2 : FVec Ideal S1024x1024 .f32))
        (mulf (shapeCast S1024x1024 x1 h0 : FVec Ideal S1024x1024 .f32) (shapeCast S1024x1024 x3 h2 : FVec Ideal S1024x1024 .f32))) : FVec Ideal S1024x1024 .f32) (ix2 r cc)
      = Cert.Spec.absE (x0 (ix3 (0 : Fin 1) r cc) * x2 (ix2 r cc) - x1 (ix3 (0 : Fin 1) r cc) * x3 (ix2 r cc)) := by
  have e0 : shapeCast S1024x1024 x0 h0 (ix2 r cc) = x0 (ix3 (0 : Fin 1) r cc) := shapeCast_1ab_ab_apply x0 h0 r cc
  have e1 : shapeCast S1024x1024 x1 h0 (ix2 r cc) = x1 (ix3 (0 : Fin 1) r cc) := shapeCast_1ab_ab_apply x1 h0 r cc
  have e2 : shapeCast S1024x1024 x2 h2 = x2 := shapeCast_self x2 h2
  have e3 : shapeCast S1024x1024 x3 h2 = x3 := shapeCast_self x3 h2
  show Cert.Spec.absE (shapeCast S1024x1024 x0 h0 (ix2 r cc) * shapeCast S1024x1024 x2 h2 (ix2 r cc)
      - shapeCast S1024x1024 x1 h0 (ix2 r cc) * shapeCast S1024x1024 x3 h2 (ix2 r cc)) = _
  rw [e0, e1, e2, e3]

theorem pay_eq (x0 x1 : Vec Ideal S1x1024x1024 .f32) (x2 x3 : Vec Ideal S1024x1024 .f32) :
    Gen.k2_pay1 (F := Ideal) x0 x1 x2 x3 (ix3 (0 : Fin 1) (0 : Fin 1) (0 : Fin 1))
      = ∑ r : Fin 1024, ∑ cc : Fin 1024,
          Cert.Spec.absE (x0 (ix3 (0 : Fin 1) r cc) * x2 (ix2 r cc) - x1 (ix3 (0 : Fin 1) r cc) * x3 (ix2 r cc)) := by
  unfold Gen.k2_pay1
  dsimp only
  refine (shapeCast_ab_1ab_apply _ _ (0 : Fin 1) (0 : Fin 1) (0 : Fin 1)).trans ?_
  refine (shapeCast_a_1a_apply _ _ (0 : Fin 1) (0 : Fin 1)).trans ?_
  refine (Ideal.multiReduction_add_single _ _ reduces_S1024x1_S1 _ _ (ix1 (0 : Fin 1))).trans ?_
  refine Finset.sum_congr rfl fun r _ => ?_
  refine (congrArg _ (lift_row reduces_S1024x1_S1 (0 : Fin 1) r)).trans ?_
  refine (shapeCast_a_a1_apply _ _ _ _).trans ?_
  refine (Ideal.multiReduction_add_single _ _ reduces_S1024x1024_S1024 _ _ (ix1 _)).trans ?_
  refine Finset.sum_congr rfl fun cc _ => ?_
  refine (congrArg _ (lift_col reduces_S1024x1024_S1024 _ cc)).trans ?_
  exact elem x0 x1 x2 x3 _ _ _ _

theorem out_body (x0 x1 : Vec Ideal S1x1024x1024 .f32) (x2 x3 : Vec Ideal S1024x1024 .f32) :
    Gen.out2_4 (F := Ideal) x0 x1 x2 x3 (ix3 (0 : Fin 1) (0 : Fin 1) (0 : Fin 1))
      = ∑ r : Fin 1024, ∑ cc : Fin 1024,
          Cert.Spec.absE (x0 (ix3 (0 : Fin 1) r cc) * x2 (ix2 r cc) - x1 (ix3 (0 : Fin 1) r cc) * x3 (ix2 r cc)) :=
  (congrFun (out_eq_pay x0 x1 x2 x3) _).trans (pay_eq x0 x1 x2 x3)

abbrev gp (c : Dev nD) : Cert.Spec.A3 := fun b r cc => V c (Pipeline.arrRef spec2 0) (ix3 b r cc)
abbrev gt (c : Dev nD) : Cert.Spec.A3 := fun b r cc => V c (Pipeline.arrRef spec2 1) (ix3 b r cc)
abbrev lp (c : Dev nD) : Cert.Spec.Img := fun r cc => V c (Pipeline.arrRef spec2 2) (ix2 r cc)
abbrev lt (c : Dev nD) : Cert.Spec.Img := fun r cc => V c (Pipeline.arrRef spec2 3) (ix2 r cc)

def G (c : Dev nD) : S8x1x1.Idx → EReal := fun i => Cert.Spec.logB (gp V c) (gt V c) (lp V c) (lt V c) (i 0)

abbrev blk0 (c : Dev nD) (t : Fin cfg2.N) : Vec Ideal S1x1024x1024 .f32 := Gen.iblk2 (F := Ideal) V c 0 t
abbrev blk1 (c : Dev nD) (t : Fin cfg2.N) : Vec Ideal S1x1024x1024 .f32 := Gen.iblk2 (F := Ideal) V c 1 t
abbrev blk2 (c : Dev nD) (t : Fin cfg2.N) : Vec Ideal S1024x1024 .f32 := Gen.iblk2 (F := Ideal) V c 2 t
abbrev blk3 (c : Dev nD) (t : Fin cfg2.N) : Vec Ideal S1024x1024 .f32 := Gen.iblk2 (F := Ideal) V c 3 t

theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = t.val ∧ win2_4.index t (1 : Fin 3) = 0 ∧ win2_4.index t (2 : Fin 3) = 0 :=
  (by decide +kernel : ∀ t : Fin grid2.N, _)

theorem blk0_apply (c : Dev nD) (t : Fin cfg2.N) (b : Fin 8) (hb : b.val = t.val) (r cc : Fin 1024) :
    blk0 V c t (ix3 (0 : Fin 1) r cc) = gp V c b r cc := by
  obtain ⟨e0, e1, e2, -⟩ := idx_facts t
  unfold blk0 Gen.iblk2
  rw [View.read_apply]
  show V c (Pipeline.arrRef spec2 0) _ = V c (Pipeline.arrRef spec2 0) _
  congr 1
  funext a
  apply Fin.ext
  match a with
  | ⟨0, _⟩ => show win2_0.index t (0 : Fin 3) * 1 + 1 * 0 = b.val; omega
  | ⟨1, _⟩ => show win2_0.index t (1 : Fin 3) * 1024 + 1 * r.val = r.val; omega
  | ⟨2, _⟩ => show win2_0.index t (2 : Fin 3) * 1024 + 1 * cc.val = cc.val; omega

theorem blk1_apply (c : Dev nD) (t : Fin cfg2.N) (b : Fin 8) (hb : b.val = t.val) (r cc : Fin 1024) :
    blk1 V c t (ix3 (0 : Fin 1) r cc) = gt V c b r cc := by
  obtain ⟨-, -, -, e0, e1, e2, -⟩ := idx_facts t
  unfold blk1 Gen.iblk2
  rw [View.read_apply]
  show V c (Pipeline.arrRef spec2 1) _ = V c (Pipeline.arrRef spec2 1) _
  congr 1
  funext a
  apply Fin.ext
  match a with
  | ⟨0, _⟩ => show win2_1.index t (0 : Fin 3) * 1 + 1 * 0 = b.val; omega
  | ⟨1, _⟩ => show win2_1.index t (1 : Fin 3) * 1024 + 1 * r.val = r.val; omega
  | ⟨2, _⟩ => show win2_1.index t (2 : Fin 3) * 1024 + 1 * cc.val = cc.val; omega

theorem blk2_apply (c : Dev nD) (t : Fin cfg2.N) (r cc : Fin 1024) :
    blk2 V c t (ix2 r cc) = lp V c r cc := by
  obtain ⟨-, -, -, -, -, -, e0, e1, -⟩ := idx_facts t
  unfold blk2 Gen.iblk2
  rw [View.read_apply]
  show V c (Pipeline.arrRef spec2 2) _ = V c (Pipeline.arrRef spec2 2) _
  congr 1
  funext a
  apply Fin.ext
  match a with
  | ⟨0, _⟩ => show win2_2.index t (0 : Fin 2) * 1024 + 1 * r.val = r.val; omega
  | ⟨1, _⟩ => show win2_2.index t (1 : Fin 2) * 1024 + 1 * cc.val = cc.val; omega

theorem blk3_apply (c : Dev nD) (t : Fin cfg2.N) (r cc : Fin 1024) :
    blk3 V c t (ix2 r cc) = lt V c r cc := by
  obtain ⟨-, -, -, -, -, -, -, -, e0, e1, -⟩ := idx_facts t
  unfold blk3 Gen.iblk2
  rw [View.read_apply]
  show V c (Pipeline.arrRef spec2 3) _ = V c (Pipeline.arrRef spec2 3) _
  congr 1
  funext a
  apply Fin.ext
  match a with
  | ⟨0, _⟩ => show win2_3.index t (0 : Fin 2) * 1024 + 1 * r.val = r.val; omega
  | ⟨1, _⟩ => show win2_3.index t (1 : Fin 2) * 1024 + 1 * cc.val = cc.val; omega

theorem after_val (c : Dev nD) (t : Fin cfg2.N) (b : Fin 8) (hb : b.val = t.val) (j : S1x1x1.Idx) :
    Gen.out2_4 (F := Ideal) (blk0 V c t) (blk1 V c t) (blk2 V c t) (blk3 V c t) j
      = Cert.Spec.logB (gp V c) (gt V c) (lp V c) (lt V c) b := by
  obtain rfl : j = ix3 (0 : Fin 1) (0 : Fin 1) (0 : Fin 1) := by
    funext a; apply Fin.ext
    match a with
    | ⟨0, _⟩ => have h : (j 0).val < 1 := (j 0).isLt; show (j 0).val = 0; omega
    | ⟨1, _⟩ => have h : (j 1).val < 1 := (j 1).isLt; show (j 1).val = 0; omega
    | ⟨2, _⟩ => have h : (j 2).val < 1 := (j 2).isLt; show (j 2).val = 0; omega
  refine (out_body (blk0 V c t) (blk1 V c t) (blk2 V c t) (blk3 V c t)).trans ?_
  unfold Cert.Spec.logB
  refine Finset.sum_congr rfl fun r _ => Finset.sum_congr rfl fun cc _ => ?_
  rw [blk0_apply V c t b hb r cc, blk1_apply V c t b hb r cc, blk2_apply V c t r cc, blk3_apply V c t r cc]

theorem flushed_eq (c : Dev nD) (t : Fin cfg2.N) :
    (Gen.dat2 (F := Ideal) V c).flushed 4 t = ((cfg2.win 4).blk t).view.read (Elt Ideal) (G V c) := by
  show (cfg2.win 4).cut (grid2.coords t) ((Gen.dat2 (F := Ideal) V c).after 4 t) = _
  rw [Gen.after2_4]
  obtain ⟨-, -, -, -, -, -, -, -, -, -, e0, e1, e2⟩ := idx_facts t
  have hN : cfg2.N = 8 := N_2
  funext j
  show Gen.out2_4 (F := Ideal) (blk0 V c t) (blk1 V c t) (blk2 V c t) (blk3 V c t) j = G V c (((cfg2.win 4).blk t).view.emb j)
  refine (after_val V c t ⟨t.val, by omega⟩ rfl j).trans ?_
  refine congrArg (Cert.Spec.logB (gp V c) (gt V c) (lp V c) (lt V c)) (Fin.ext ?_)
  show t.val = win2_4.index t (0 : Fin 3) * 1 + 1 * (j 0).val
  have hj : (j 0).val < 1 := (j 0).isLt
  omega

theorem mem_blk (t : Fin cfg2.N) (i : S8x1x1.Idx) :
    i ∈ ((cfg2.win 4).blk t).view.set ↔ ∀ a : Fin 3, win2_4.index t a * S1x1x1.size a ≤ (i a).val ∧ (i a).val < win2_4.index t a * S1x1x1.size a + S1x1x1.size a := by
  show i ∈ ((View.whole main_v165).slice (win2_4.rect t)).set ↔ _
  rw [View.set_slice_whole, Rect.mem_set_unit]
  exact Iff.rfl

theorem cover (i : S8x1x1.Idx) : ∃ t : Fin cfg2.N, (cfg2.win 4).flush t = true ∧ i ∈ ((cfg2.win 4).blk t).view.set := by
  have hN : cfg2.N = 8 := N_2
  have h0 : (i 0).val < 8 := (i 0).isLt
  have h1 : (i 1).val < 1 := (i 1).isLt
  have h2 : (i 2).val < 1 := (i 2).isLt
  refine ⟨⟨(i 0).val, by omega⟩, flush2_4 _, ?_⟩
  obtain ⟨-, -, -, -, -, -, -, -, -, -, e0, e1, e2⟩ := idx_facts ⟨(i 0).val, by omega⟩
  rw [mem_blk]
  intro a
  match a with
  | ⟨0, _⟩ => show win2_4.index _ (0 : Fin 3) * 1 ≤ (i 0).val ∧ (i 0).val < win2_4.index _ (0 : Fin 3) * 1 + 1; rw [show win2_4.index _ (0 : Fin 3) = (i 0).val from e0]; omega
  | ⟨1, _⟩ => show win2_4.index _ (1 : Fin 3) * 1 ≤ (i 1).val ∧ (i 1).val < win2_4.index _ (1 : Fin 3) * 1 + 1; rw [e1]; omega
  | ⟨2, _⟩ => show win2_4.index _ (2 : Fin 3) * 1 ≤ (i 2).val ∧ (i 2).val < win2_4.index _ (2 : Fin 3) * 1 + 1; rw [e2]; omega

theorem final (c : Dev nD) : (Gen.dat2 (F := Ideal) V c).arrAt 4 cfg2.N = G V c :=
  (Gen.dat2 (F := Ideal) V c).arrAt_eq_of_cover 4 (G V c) (fun t _ => flushed_eq V c t) cover

theorem log_out (c : Dev nD) (b : Fin 8) :
    (Gen.dat2 (F := Ideal) V c).arrAt 4 cfg2.N (ix3 b (0 : Fin 1) (0 : Fin 1))
      = Cert.Spec.logB (fun b r cc => V c (Pipeline.arrRef spec2 0) (ix3 b r cc)) (fun b r cc => V c (Pipeline.arrRef spec2 1) (ix3 b r cc))
          (fun r cc => V c (Pipeline.arrRef spec2 2) (ix2 r cc)) (fun r cc => V c (Pipeline.arrRef spec2 3) (ix2 r cc)) b :=
  congrFun (final V c) (ix3 b (0 : Fin 1) (0 : Fin 1))

end Cert.KernelIdeal.KR2

end
-- ==== Proof.KHostA.lean ====
import proofs.«147778_j69123203661888_1_alg».proof.Proof.Gen.KernelIdeal.Frame
import proofs.«147778_j69123203661888_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.KernelIdeal.KHostA
open Cert.KernelIdeal Cert.KernelIdeal.Gen Idealize.ShloMosaic Idealize.ShloMosaic.TcCoe Idealize.SL.Sem Idealize.ShloMosaic.ValueIdx

section Layout
variable {α : Type}

theorem bcast_lead_apply (A : (⟨3, ![8, 1024, 1024]⟩ : Shape).Idx → α)
    (h : (⟨3, ![8, 1024, 1024]⟩ : Shape).BroadcastsInDim ⟨4, ![1, 8, 1024, 1024]⟩ ![1, 2, 3])
    (u : Fin 1) (b : Fin 8) (r cc : Fin 1024) :
    broadcastInDim ⟨4, ![1, 8, 1024, 1024]⟩ ![1, 2, 3] h A (ix4 u b r cc) = A (ix3 b r cc) :=
  broadcastInDim_apply _ h A _ _ (fun a => by
    match a with
    | ⟨0, _⟩ => rfl
    | ⟨1, _⟩ => rfl
    | ⟨2, _⟩ => rfl)

theorem stack2_apply (X Y : (⟨4, ![1, 8, 1024, 1024]⟩ : Shape).Idx → α)
    (h : Shape.Concatenates [(⟨4, ![1, 8, 1024, 1024]⟩ : Shape), ⟨4, ![1, 8, 1024, 1024]⟩] ⟨4, ![2, 8, 1024, 1024]⟩ 0)
    (s : Fin 2) (b : Fin 8) (r cc : Fin 1024) :
    concatenate ⟨4, ![2, 8, 1024, 1024]⟩ 0 [⟨⟨4, ![1, 8, 1024, 1024]⟩, X⟩, ⟨⟨4, ![1, 8, 1024, 1024]⟩, Y⟩] h (ix4 s b r cc)
      = if s = 0 then X (ix4 (0 : Fin 1) b r cc) else Y (ix4 (0 : Fin 1) b r cc) := by
  by_cases hs : s = 0
  · subst hs
    rw [if_pos rfl]
    exact concatenate_pair_apply_left 0 X Y h _ rfl _ (fun a => by
      match a with
      | ⟨0, _⟩ => rfl
      | ⟨1, _⟩ => rfl
      | ⟨2, _⟩ => rfl
      | ⟨3, _⟩ => rfl)
  · have h1 : s = 1 := by
      match s, hs with
      | ⟨0, _⟩, hs => exact absurd rfl hs
      | ⟨1, _⟩, _ => rfl
    subst h1
    rw [if_neg (by decide)]
    exact concatenate_pair_apply_right 0 X Y h _ rfl rfl _ (fun a ha => by
      match a with
      | ⟨0, _⟩ => exact absurd rfl ha
      | ⟨1, _⟩ => rfl
      | ⟨2, _⟩ => rfl
      | ⟨3, _⟩ => rfl) rfl

theorem slice_lead_apply (o : Nat) (Z : (⟨4, ![2, 8, 1024, 1024]⟩ : Shape).Idx → α)
    (h : (⟨4, ![2, 8, 1024, 1024]⟩ : Shape).Slices ![o, 0, 0, 0] ⟨4, ![1, 8, 1024, 1024]⟩)
    (s : Fin 2) (hs : s.val = o) (u : Fin 1) (b : Fin 8) (r cc : Fin 1024) :
    extractStridedSlice ⟨4, ![1, 8, 1024, 1024]⟩ ![o, 0, 0, 0] Z h (ix4 u b r cc) = Z (ix4 s b r cc) :=
  extractStridedSlice_apply _ Z h _ _ (fun a => by
    have hu : u.val = 0 := by omega
    match a with
    | ⟨0, _⟩ => show s.val = o + u.val; omega
    | ⟨1, _⟩ => show b.val = 0 + b.val; omega
    | ⟨2, _⟩ => show r.val = 0 + r.val; omega
    | ⟨3, _⟩ => show cc.val = 0 + cc.val; omega)

end Layout

variable (m : (ℓ : Loc nD τ sig) → Buf (Elt Ideal) ℓ) (ρ : Dev nD → PrngReg) (c : Dev nD)

theorem V0_x : Gen.V0 m ρ c (Pipeline.arrRef spec0 0) = m ((c : Thread nD τ).loc main_arg1) := rfl

theorem V0_xd : Gen.V0 m ρ c (Pipeline.arrRef spec0 1) = m ((c : Thread nD τ).loc main_arg0) := rfl

example : Pipeline.arrRef spec1 0 = main_v3 := rfl
example : Pipeline.arrRef spec2 0 = main_v6 := rfl
example : Pipeline.arrRef spec2 1 = main_v8 := rfl
example : Pipeline.arrRef spec0 2 = main_v0_0 := rfl
example : Pipeline.arrRef spec0 3 = main_v0_1 := rfl
example : Pipeline.arrRef spec1 1 = main_v4 := rfl

theorem W2_main_v3 : Gen.W2 m ρ c (Proc.devRef .tc main_v3)
    = concatenate S2x8x1024x1024 0
        [⟨S1x8x1024x1024, broadcastInDim S1x8x1024x1024 ![1, 2, 3] bcast_S8x1024x1024_S1x8x1024x1024_1_2_3 (Gen.W1 m ρ c (Proc.devRef .tc main_v0_0))⟩,
         ⟨S1x8x1024x1024, broadcastInDim S1x8x1024x1024 ![1, 2, 3] bcast_S8x1024x1024_S1x8x1024x1024_1_2_3 (Gen.W1 m ρ c (Proc.devRef .tc main_v0_1))⟩]
        concatenates_S1x8x1024x1024_S1x8x1024x1024_S2x8x1024x1024_d0 := by
  show StableHlo.after hostOps1 _ (Proc.devRef .tc main_v3) = _
  after_results

theorem V2_stack (s : Fin 2) (b : Fin 8) (r cc : Fin 1024) : Gen.V2 m ρ c (Pipeline.arrRef spec1 0) (ix4 s b r cc)
    = if s = 0 then (Gen.dat0 (Gen.V0 m ρ) c).arrAt 2 cfg0.N (ix3 b r cc) else (Gen.dat0 (Gen.V0 m ρ) c).arrAt 3 cfg0.N (ix3 b r cc) := by
  show Gen.W2 m ρ c (Proc.devRef .tc main_v3) (ix4 s b r cc) = _
  rw [W2_main_v3, stack2_apply, bcast_lead_apply, bcast_lead_apply]
  rw [show Gen.W1 m ρ c (Proc.devRef .tc main_v0_0) = _ from Gen.W1_arr m ρ c 2,
    show Gen.W1 m ρ c (Proc.devRef .tc main_v0_1) = _ from Gen.W1_arr m ρ c 3]

theorem W4_main_v6 : Gen.W4 m ρ c (Proc.devRef .tc main_v6)
    = shapeCast S8x1024x1024 (extractStridedSlice S1x8x1024x1024 ![0, 0, 0, 0] (Gen.W3 m ρ c (Proc.devRef .tc main_v4)) slices_S2x8x1024x1024_S1x8x1024x1024_0_0_0_0) shapeCasts_S1x8x1024x1024_S8x1024x1024 := by
  show StableHlo.after hostOps2 _ (Proc.devRef .tc main_v6) = _
  after_results
  rfl

theorem W4_main_v8 : Gen.W4 m ρ c (Proc.devRef .tc main_v8)
    = shapeCast S8x1024x1024 (extractStridedSlice S1x8x1024x1024 ![1, 0, 0, 0] (Gen.W3 m ρ c (Proc.devRef .tc main_v4)) slices_S2x8x1024x1024_S1x8x1024x1024_1_0_0_0) shapeCasts_S1x8x1024x1024_S8x1024x1024 := by
  show StableHlo.after hostOps2 _ (Proc.devRef .tc main_v8) = _
  after_results
  rfl

local macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W12_main_v6 : Gen.W12 m ρ c (Proc.devRef .tc main_v6) = Gen.W4 m ρ c (Proc.devRef .tc main_v6) :=
  calc Gen.W12 m ρ c (Proc.devRef .tc main_v6)
    _ = Gen.W11 m ρ c (Proc.devRef .tc main_v6) := by unwritten hostOps2_8
    _ = Gen.W10 m ρ c (Proc.devRef .tc main_v6) := by unwritten hostOps2_7
    _ = Gen.W9 m ρ c (Proc.devRef .tc main_v6) := by unwritten hostOps2_6
    _ = Gen.W8 m ρ c (Proc.devRef .tc main_v6) := by unwritten hostOps2_5
    _ = Gen.W7 m ρ c (Proc.devRef .tc main_v6) := by unwritten hostOps2_4
    _ = Gen.W6 m ρ c (Proc.devRef .tc main_v6) := by unwritten hostOps2_3
    _ = Gen.W5 m ρ c (Proc.devRef .tc main_v6) := by unwritten hostOps2_2
    _ = Gen.W4 m ρ c (Proc.devRef .tc main_v6) := by unwritten hostOps2_1

theorem W12_main_v8 : Gen.W12 m ρ c (Proc.devRef .tc main_v8) = Gen.W4 m ρ c (Proc.devRef .tc main_v8) :=
  calc Gen.W12 m ρ c (Proc.devRef .tc main_v8)
    _ = Gen.W11 m ρ c (Proc.devRef .tc main_v8) := by unwritten hostOps2_8
    _ = Gen.W10 m ρ c (Proc.devRef .tc main_v8) := by unwritten hostOps2_7
    _ = Gen.W9 m ρ c (Proc.devRef .tc main_v8) := by unwritten hostOps2_6
    _ = Gen.W8 m ρ c (Proc.devRef .tc main_v8) := by unwritten hostOps2_5
    _ = Gen.W7 m ρ c (Proc.devRef .tc main_v8) := by unwritten hostOps2_4
    _ = Gen.W6 m ρ c (Proc.devRef .tc main_v8) := by unwritten hostOps2_3
    _ = Gen.W5 m ρ c (Proc.devRef .tc main_v8) := by unwritten hostOps2_2
    _ = Gen.W4 m ρ c (Proc.devRef .tc main_v8) := by unwritten hostOps2_1

theorem V12_gp (b : Fin 8) (r cc : Fin 1024) : Gen.V12 m ρ c (Pipeline.arrRef spec2 0) (ix3 b r cc) = (Gen.dat1 (Gen.V2 m ρ) c).arrAt 1 cfg1.N (ix4 0 b r cc) := by
  show Gen.W12 m ρ c (Proc.devRef .tc main_v6) (ix3 b r cc) = _
  rw [W12_main_v6, W4_main_v6, shapeCast_1abc_abc_apply]
  rw [slice_lead_apply 0 _ _ 0 rfl, show Gen.W3 m ρ c (Proc.devRef .tc main_v4) = _ from Gen.W3_arr m ρ c 1]

theorem V12_gt (b : Fin 8) (r cc : Fin 1024) : Gen.V12 m ρ c (Pipeline.arrRef spec2 1) (ix3 b r cc) = (Gen.dat1 (Gen.V2 m ρ) c).arrAt 1 cfg1.N (ix4 1 b r cc) := by
  show Gen.W12 m ρ c (Proc.devRef .tc main_v8) (ix3 b r cc) = _
  rw [W12_main_v8, W4_main_v8, shapeCast_1abc_abc_apply]
  rw [slice_lead_apply 1 _ _ 1 rfl, show Gen.W3 m ρ c (Proc.devRef .tc main_v4) = _ from Gen.W3_arr m ρ c 1]

end Cert.KernelIdeal.KHostA

end
-- ==== Proof.KHostLap.lean ====
import proofs.«147778_j69123203661888_1_alg».proof.Proof.Gen.KernelIdeal.Frame
import proofs.«147778_j69123203661888_1_alg».proof.Proof.Spec
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.KHostLap

open Cert.KernelIdeal Cert.KernelIdeal.Gen Idealize.ShloMosaic Idealize.ShloMosaic.TcCoe Idealize.SL.Sem Idealize.ShloMosaic.ValueIdx

section Defs

variable {F : FTy → Type} [FloatOps F]

def sel00 (x : Vec F S8x3x1024x1024 .f32) : Vec F S1024x1024 .f32 :=
  shapeCast S1024x1024 (extractStridedSlice S1x1x1024x1024 ![0, 0, 0, 0] x slices_S8x3x1024x1024_S1x1x1024x1024_0_0_0_0)
    shapeCasts_S1x1x1024x1024_S1024x1024

def pad2 (y : Vec F S1024x1024 .f32) : Vec F S1026x1026 .f32 :=
  have v1 : Vec F S1x1024 .f32 := extractStridedSlice S1x1024 ![1, 0] y slices_S1024x1024_S1x1024_1_0
  have v2 : Vec F S1x1024 .f32 := Host.reverse [0] v1
  have v3 : Vec F S1025x1024 .f32 := concatenate S1025x1024 0 [⟨S1x1024, v2⟩, ⟨S1024x1024, y⟩] concatenates_S1x1024_S1024x1024_S1025x1024_d0
  have v5 : Vec F S1x1024 .f32 := extractStridedSlice S1x1024 ![1023, 0] v3 slices_S1025x1024_S1x1024_1023_0
  have v6 : Vec F S1x1024 .f32 := Host.reverse [0] v5
  have v7 : Vec F S1026x1024 .f32 := concatenate S1026x1024 0 [⟨S1025x1024, v3⟩, ⟨S1x1024, v6⟩] concatenates_S1025x1024_S1x1024_S1026x1024_d0
  have v9 : Vec F S1026x1 .f32 := extractStridedSlice S1026x1 ![0, 1] v7 slices_S1026x1024_S1026x1_0_1
  have v10 : Vec F S1026x1 .f32 := Host.reverse [1] v9
  have v11 : Vec F S1026x1025 .f32 := concatenate S1026x1025 1 [⟨S1026x1, v10⟩, ⟨S1026x1024, v7⟩] concatenates_S1026x1_S1026x1024_S1026x1025_d1
  have v13 : Vec F S1026x1 .f32 := extractStridedSlice S1026x1 ![0, 1023] v11 slices_S1026x1025_S1026x1_0_1023
  have v14 : Vec F S1026x1 .f32 := Host.reverse [1] v13
  concatenate S1026x1026 1 [⟨S1026x1025, v11⟩, ⟨S1026x1, v14⟩] concatenates_S1026x1025_S1026x1_S1026x1026_d1

def filt2 (w0 w1 w2 w3 w4 w5 w6 w7 w8 : Vec F S_ .f32) (p : Vec F S1026x1026 .f32) : Vec F S1024x1024 .f32 :=
  addf (addf (addf (addf (addf (addf (addf (addf (addf
    (broadcastInDim S1024x1024 ![] bcast_S_S1024x1024 (constant S_ .f32 0x00000000#32 : Vec F S_ .f32))
    (mulf (broadcastInDim S1024x1024 ![] bcast_S_S1024x1024 w0) (extractStridedSlice S1024x1024 ![0, 0] p slices_S1026x1026_S1024x1024_0_0)))
    (mulf (broadcastInDim S1024x1024 ![] bcast_S_S1024x1024 w1) (extractStridedSlice S1024x1024 ![0, 1] p slices_S1026x1026_S1024x1024_0_1)))
    (mulf (broadcastInDim S1024x1024 ![] bcast_S_S1024x1024 w2) (extractStridedSlice S1024x1024 ![0, 2] p slices_S1026x1026_S1024x1024_0_2)))
    (mulf (broadcastInDim S1024x1024 ![] bcast_S_S1024x1024 w3) (extractStridedSlice S1024x1024 ![1, 0] p slices_S1026x1026_S1024x1024_1_0)))
    (mulf (broadcastInDim S1024x1024 ![] bcast_S_S1024x1024 w4) (extractStridedSlice S1024x1024 ![1, 1] p slices_S1026x1026_S1024x1024_1_1)))
    (mulf (broadcastInDim S1024x1024 ![] bcast_S_S1024x1024 w5) (extractStridedSlice S1024x1024 ![1, 2] p slices_S1026x1026_S1024x1024_1_2)))
    (mulf (broadcastInDim S1024x1024 ![] bcast_S_S1024x1024 w6) (extractStridedSlice S1024x1024 ![2, 0] p slices_S1026x1026_S1024x1024_2_0)))
    (mulf (broadcastInDim S1024x1024 ![] bcast_S_S1024x1024 w7) (extractStridedSlice S1024x1024 ![2, 1] p slices_S1026x1026_S1024x1024_2_1)))
    (mulf (broadcastInDim S1024x1024 ![] bcast_S_S1024x1024 w8) (extractStridedSlice S1024x1024 ![2, 2] p slices_S1026x1026_S1024x1024_2_2))

def gaussW : Fin 9 → Vec F S_ .f32 :=
  ![constant S_ .f32 0x3D800000#32, constant S_ .f32 0x3E000000#32, constant S_ .f32 0x3D800000#32,
    constant S_ .f32 0x3E000000#32, constant S_ .f32 0x3E800000#32, constant S_ .f32 0x3E000000#32,
    constant S_ .f32 0x3D800000#32, constant S_ .f32 0x3E000000#32, constant S_ .f32 0x3D800000#32]

def laplW : Fin 9 → Vec F S_ .f32 :=
  ![constant S_ .f32 0x00000000#32, constant S_ .f32 0xBF800000#32, constant S_ .f32 0x00000000#32,
    constant S_ .f32 0xBF800000#32, constant S_ .f32 0x40800000#32, constant S_ .f32 0xBF800000#32,
    constant S_ .f32 0x00000000#32, constant S_ .f32 0xBF800000#32, constant S_ .f32 0x00000000#32]

def gaussP (p : Vec F S1026x1026 .f32) : Vec F S1024x1024 .f32 :=
  filt2 (gaussW 0) (gaussW 1) (gaussW 2) (gaussW 3) (gaussW 4) (gaussW 5) (gaussW 6) (gaussW 7) (gaussW 8) p

def laplP (p : Vec F S1026x1026 .f32) : Vec F S1024x1024 .f32 :=
  filt2 (laplW 0) (laplW 1) (laplW 2) (laplW 3) (laplW 4) (laplW 5) (laplW 6) (laplW 7) (laplW 8) p

def gaussF (y : Vec F S1024x1024 .f32) : Vec F S1024x1024 .f32 := gaussP (pad2 y)

def laplF (y : Vec F S1024x1024 .f32) : Vec F S1024x1024 .f32 := laplP (pad2 y)

def lapK (x : Vec F S8x3x1024x1024 .f32) : Vec F S1024x1024 .f32 :=
  filt2 (laplW 0) (laplW 1) (laplW 2) (laplW 3) (laplW 4) (laplW 5) (laplW 6) (laplW 7) (laplW 8)
    (pad2 (filt2 (gaussW 0) (gaussW 1) (gaussW 2) (gaussW 3) (gaussW 4) (gaussW 5) (gaussW 6) (gaussW 7) (gaussW 8)
      (pad2 (sel00 x))))

end Defs

section Stretches

variable {F : FTy → Type} [FloatOps F] (W : Valuation τ sig (Elt F))

local macro "not_written" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

theorem sel_a : StableHlo.after hostOps2 W (Proc.devRef .tc main_v10) = sel00 (W (Proc.devRef .tc main_arg1)) := by
  after_results
  rfl

theorem sel_b : StableHlo.after hostOps2 W (Proc.devRef .tc main_v12) = sel00 (W (Proc.devRef .tc main_arg0)) := by
  after_results
  rfl

theorem pad_a : StableHlo.after hostOps2_1 W (Proc.devRef .tc main_v13) = pad2 (W (Proc.devRef .tc main_v10)) := by
  after_results
  simp only [StableHlo.TRef.ofBuf, StableHlo.TRef.toBuf, cast_eq]
  rfl

theorem filt_a : StableHlo.after hostOps2_2 W (Proc.devRef .tc main_v50) = gaussP (W (Proc.devRef .tc main_v13)) := by
  after_results_simp
  rfl

theorem pad_b : StableHlo.after hostOps2_3 W (Proc.devRef .tc main_v51) = pad2 (W (Proc.devRef .tc main_v50)) := by
  after_results
  simp only [StableHlo.TRef.ofBuf, StableHlo.TRef.toBuf, cast_eq]
  rfl

theorem filt_b : StableHlo.after hostOps2_4 W (Proc.devRef .tc main_v88) = laplP (W (Proc.devRef .tc main_v51)) := by
  after_results_simp
  rfl

theorem pad_c : StableHlo.after hostOps2_5 W (Proc.devRef .tc main_v89) = pad2 (W (Proc.devRef .tc main_v12)) := by
  after_results
  simp only [StableHlo.TRef.ofBuf, StableHlo.TRef.toBuf, cast_eq]
  rfl

theorem filt_c : StableHlo.after hostOps2_6 W (Proc.devRef .tc main_v126) = gaussP (W (Proc.devRef .tc main_v89)) := by
  after_results_simp
  rfl

theorem pad_d : StableHlo.after hostOps2_7 W (Proc.devRef .tc main_v127) = pad2 (W (Proc.devRef .tc main_v126)) := by
  after_results
  simp only [StableHlo.TRef.ofBuf, StableHlo.TRef.toBuf, cast_eq]
  rfl

theorem filt_d : StableHlo.after hostOps2_8 W (Proc.devRef .tc main_v164) = laplP (W (Proc.devRef .tc main_v127)) := by
  after_results_simp
  rfl

theorem keep12_1 : StableHlo.after hostOps2_1 W (Proc.devRef .tc main_v12) = W (Proc.devRef .tc main_v12) := by
  not_written hostOps2_1
theorem keep12_2 : StableHlo.after hostOps2_2 W (Proc.devRef .tc main_v12) = W (Proc.devRef .tc main_v12) := by
  not_written hostOps2_2
theorem keep12_3 : StableHlo.after hostOps2_3 W (Proc.devRef .tc main_v12) = W (Proc.devRef .tc main_v12) := by
  not_written hostOps2_3
theorem keep12_4 : StableHlo.after hostOps2_4 W (Proc.devRef .tc main_v12) = W (Proc.devRef .tc main_v12) := by
  not_written hostOps2_4
theorem keep88_5 : StableHlo.after hostOps2_5 W (Proc.devRef .tc main_v88) = W (Proc.devRef .tc main_v88) := by
  not_written hostOps2_5
theorem keep88_6 : StableHlo.after hostOps2_6 W (Proc.devRef .tc main_v88) = W (Proc.devRef .tc main_v88) := by
  not_written hostOps2_6
theorem keep88_7 : StableHlo.after hostOps2_7 W (Proc.devRef .tc main_v88) = W (Proc.devRef .tc main_v88) := by
  not_written hostOps2_7
theorem keep88_8 : StableHlo.after hostOps2_8 W (Proc.devRef .tc main_v88) = W (Proc.devRef .tc main_v88) := by
  not_written hostOps2_8
theorem keepArg0_1 : StableHlo.after hostOps1 W (Proc.devRef .tc main_arg0) = W (Proc.devRef .tc main_arg0) := by
  not_written hostOps1
theorem keepArg1_1 : StableHlo.after hostOps1 W (Proc.devRef .tc main_arg1) = W (Proc.devRef .tc main_arg1) := by
  not_written hostOps1

end Stretches

section Run

variable (m : (ℓ : Loc nD τ sig) → Buf (Elt Ideal) ℓ) (ρ : Dev nD → PrngReg) (c : Dev nD)

theorem W3_arg1 : Gen.W3 m ρ c (Proc.devRef .tc main_arg1) = m ((c : Thread nD τ).loc main_arg1) :=
  calc Gen.W3 m ρ c (Proc.devRef .tc main_arg1)
    _ = Gen.W2 m ρ c (Proc.devRef .tc main_arg1) := Gen.W3_of_ne m ρ c main_arg1 (by decide)
    _ = Gen.W1 m ρ c (Proc.devRef .tc main_arg1) := keepArg1_1 _
    _ = Gen.W0 m ρ c (Proc.devRef .tc main_arg1) :=
          (Gen.W1_arr m ρ c 0).trans (((Gen.dat0 (Gen.V0 m ρ) c).arrAt_in 0 rfl _).trans (Gen.A_eq0 (Gen.V0 m ρ) c 0))
    _ = m ((c : Thread nD τ).loc main_arg1) := rfl

theorem W3_arg0 : Gen.W3 m ρ c (Proc.devRef .tc main_arg0) = m ((c : Thread nD τ).loc main_arg0) :=
  calc Gen.W3 m ρ c (Proc.devRef .tc main_arg0)
    _ = Gen.W2 m ρ c (Proc.devRef .tc main_arg0) := Gen.W3_of_ne m ρ c main_arg0 (by decide)
    _ = Gen.W1 m ρ c (Proc.devRef .tc main_arg0) := keepArg0_1 _
    _ = Gen.W0 m ρ c (Proc.devRef .tc main_arg0) :=
          (Gen.W1_arr m ρ c 1).trans (((Gen.dat0 (Gen.V0 m ρ) c).arrAt_in 1 rfl _).trans (Gen.A_eq0 (Gen.V0 m ρ) c 1))
    _ = m ((c : Thread nD τ).loc main_arg0) := rfl

theorem V12_lp : Gen.V12 m ρ c (Pipeline.arrRef spec2 2) = lapK (F := Ideal) (m ((c : Thread nD τ).loc main_arg1)) :=
  calc Gen.W12 m ρ c (Proc.devRef .tc main_v88)
    _ = Gen.W11 m ρ c (Proc.devRef .tc main_v88) := keep88_8 _
    _ = Gen.W10 m ρ c (Proc.devRef .tc main_v88) := keep88_7 _
    _ = Gen.W9 m ρ c (Proc.devRef .tc main_v88) := keep88_6 _
    _ = Gen.W8 m ρ c (Proc.devRef .tc main_v88) := keep88_5 _
    _ = laplP (Gen.W7 m ρ c (Proc.devRef .tc main_v51)) := filt_b _
    _ = laplP (pad2 (Gen.W6 m ρ c (Proc.devRef .tc main_v50))) := congrArg laplP (pad_b _)
    _ = laplP (pad2 (gaussP (Gen.W5 m ρ c (Proc.devRef .tc main_v13)))) := congrArg (fun y => laplP (pad2 y)) (filt_a _)
    _ = laplP (pad2 (gaussP (pad2 (Gen.W4 m ρ c (Proc.devRef .tc main_v10))))) :=
          congrArg (fun y => laplP (pad2 (gaussP y))) (pad_a _)
    _ = laplP (pad2 (gaussP (pad2 (sel00 (Gen.W3 m ρ c (Proc.devRef .tc main_arg1)))))) :=
          congrArg (fun y => laplP (pad2 (gaussP (pad2 y)))) (sel_a _)
    _ = laplP (pad2 (gaussP (pad2 (sel00 (m ((c : Thread nD τ).loc main_arg1)))))) :=
          congrArg (fun y => laplP (pad2 (gaussP (pad2 (sel00 y))))) (W3_arg1 m ρ c)
    _ = lapK (F := Ideal) (m ((c : Thread nD τ).loc main_arg1)) := rfl

theorem V12_lt : Gen.V12 m ρ c (Pipeline.arrRef spec2 3) = lapK (F := Ideal) (m ((c : Thread nD τ).loc main_arg0)) :=
  calc Gen.W12 m ρ c (Proc.devRef .tc main_v164)
    _ = laplP (Gen.W11 m ρ c (Proc.devRef .tc main_v127)) := filt_d _
    _ = laplP (pad2 (Gen.W10 m ρ c (Proc.devRef .tc main_v126))) := congrArg laplP (pad_d _)
    _ = laplP (pad2 (gaussP (Gen.W9 m ρ c (Proc.devRef .tc main_v89)))) := congrArg (fun y => laplP (pad2 y)) (filt_c _)
    _ = laplP (pad2 (gaussP (pad2 (Gen.W8 m ρ c (Proc.devRef .tc main_v12))))) :=
          congrArg (fun y => laplP (pad2 (gaussP y))) (pad_c _)
    _ = laplP (pad2 (gaussP (pad2 (Gen.W7 m ρ c (Proc.devRef .tc main_v12))))) :=
          congrArg (fun y => laplP (pad2 (gaussP (pad2 y)))) (keep12_4 _)
    _ = laplP (pad2 (gaussP (pad2 (Gen.W6 m ρ c (Proc.devRef .tc main_v12))))) :=
          congrArg (fun y => laplP (pad2 (gaussP (pad2 y)))) (keep12_3 _)
    _ = laplP (pad2 (gaussP (pad2 (Gen.W5 m ρ c (Proc.devRef .tc main_v12))))) :=
          congrArg (fun y => laplP (pad2 (gaussP (pad2 y)))) (keep12_2 _)
    _ = laplP (pad2 (gaussP (pad2 (Gen.W4 m ρ c (Proc.devRef .tc main_v12))))) :=
          congrArg (fun y => laplP (pad2 (gaussP (pad2 y)))) (keep12_1 _)
    _ = laplP (pad2 (gaussP (pad2 (sel00 (Gen.W3 m ρ c (Proc.devRef .tc main_arg0)))))) :=
          congrArg (fun y => laplP (pad2 (gaussP (pad2 y)))) (sel_b _)
    _ = laplP (pad2 (gaussP (pad2 (sel00 (m ((c : Thread nD τ).loc main_arg0)))))) :=
          congrArg (fun y => laplP (pad2 (gaussP (pad2 (sel00 y))))) (W3_arg0 m ρ c)
    _ = lapK (F := Ideal) (m ((c : Thread nD τ).loc main_arg0)) := rfl

end Run

end Cert.KernelIdeal.KHostLap

end
-- ==== Proof.KCarry.lean ====
import proofs.«147778_j69123203661888_1_alg».proof.Proof.Gen.KernelIdeal.Frame
import proofs.«147778_j69123203661888_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.KernelIdeal.KCarry
open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

local macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W1_main_arg0 : Gen.W1 m ρ c (Proc.devRef .tc main_arg0) = m ((c : Thread nD τ).loc main_arg0) :=
  (Gen.W1_arr m ρ c 1).trans (((Gen.dat0 (Gen.V0 m ρ) c).arrAt_in 1 rfl _).trans (Gen.A_eq0 (Gen.V0 m ρ) c 1))
theorem W2_main_arg0 : Gen.W2 m ρ c (Proc.devRef .tc main_arg0) = m ((c : Thread nD τ).loc main_arg0) :=
  (show Gen.W2 m ρ c (Proc.devRef .tc main_arg0) = Gen.W1 m ρ c (Proc.devRef .tc main_arg0) from by unwritten hostOps1).trans (W1_main_arg0 m ρ c)
theorem W3_main_arg0 : Gen.W3 m ρ c (Proc.devRef .tc main_arg0) = m ((c : Thread nD τ).loc main_arg0) :=
  (show Gen.W3 m ρ c (Proc.devRef .tc main_arg0) = Gen.W2 m ρ c (Proc.devRef .tc main_arg0) from Gen.W3_of_ne m ρ c main_arg0 (by decide)).trans (W2_main_arg0 m ρ c)

theorem W1_main_arg1 : Gen.W1 m ρ c (Proc.devRef .tc main_arg1) = m ((c : Thread nD τ).loc main_arg1) :=
  (Gen.W1_arr m ρ c 0).trans (((Gen.dat0 (Gen.V0 m ρ) c).arrAt_in 0 rfl _).trans (Gen.A_eq0 (Gen.V0 m ρ) c 0))
theorem W2_main_arg1 : Gen.W2 m ρ c (Proc.devRef .tc main_arg1) = m ((c : Thread nD τ).loc main_arg1) :=
  (show Gen.W2 m ρ c (Proc.devRef .tc main_arg1) = Gen.W1 m ρ c (Proc.devRef .tc main_arg1) from by unwritten hostOps1).trans (W1_main_arg1 m ρ c)
theorem W3_main_arg1 : Gen.W3 m ρ c (Proc.devRef .tc main_arg1) = m ((c : Thread nD τ).loc main_arg1) :=
  (show Gen.W3 m ρ c (Proc.devRef .tc main_arg1) = Gen.W2 m ρ c (Proc.devRef .tc main_arg1) from Gen.W3_of_ne m ρ c main_arg1 (by decide)).trans (W2_main_arg1 m ρ c)

theorem W17_main_v0_2 : Gen.W17 m ρ c (Proc.devRef .tc main_v0_2) = (Gen.dat0 (Gen.V0 m ρ) c).arrAt 4 cfg0.N :=
  calc Gen.W17 m ρ c (Proc.devRef .tc main_v0_2)
    _ = Gen.W16 m ρ c (Proc.devRef .tc main_v0_2) := by unwritten hostOps3_3
    _ = Gen.W15 m ρ c (Proc.devRef .tc main_v0_2) := by unwritten hostOps3_2
    _ = Gen.W14 m ρ c (Proc.devRef .tc main_v0_2) := by unwritten hostOps3_1
    _ = Gen.W13 m ρ c (Proc.devRef .tc main_v0_2) := by unwritten hostOps3
    _ = Gen.W12 m ρ c (Proc.devRef .tc main_v0_2) := Gen.W13_of_ne m ρ c main_v0_2 (by decide)
    _ = Gen.W11 m ρ c (Proc.devRef .tc main_v0_2) := by unwritten hostOps2_8
    _ = Gen.W10 m ρ c (Proc.devRef .tc main_v0_2) := by unwritten hostOps2_7
    _ = Gen.W9 m ρ c (Proc.devRef .tc main_v0_2) := by unwritten hostOps2_6
    _ = Gen.W8 m ρ c (Proc.devRef .tc main_v0_2) := by unwritten hostOps2_5
    _ = Gen.W7 m ρ c (Proc.devRef .tc main_v0_2) := by unwritten hostOps2_4
    _ = Gen.W6 m ρ c (Proc.devRef .tc main_v0_2) := by unwritten hostOps2_3
    _ = Gen.W5 m ρ c (Proc.devRef .tc main_v0_2) := by unwritten hostOps2_2
    _ = Gen.W4 m ρ c (Proc.devRef .tc main_v0_2) := by unwritten hostOps2_1
    _ = Gen.W3 m ρ c (Proc.devRef .tc main_v0_2) := by unwritten hostOps2
    _ = Gen.W2 m ρ c (Proc.devRef .tc main_v0_2) := Gen.W3_of_ne m ρ c main_v0_2 (by decide)
    _ = Gen.W1 m ρ c (Proc.devRef .tc main_v0_2) := by unwritten hostOps1
    _ = (Gen.dat0 (Gen.V0 m ρ) c).arrAt 4 cfg0.N := Gen.W1_arr m ρ c 4

theorem W17_main_v0_3 : Gen.W17 m ρ c (Proc.devRef .tc main_v0_3) = (Gen.dat0 (Gen.V0 m ρ) c).arrAt 5 cfg0.N :=
  calc Gen.W17 m ρ c (Proc.devRef .tc main_v0_3)
    _ = Gen.W16 m ρ c (Proc.devRef .tc main_v0_3) := by unwritten hostOps3_3
    _ = Gen.W15 m ρ c (Proc.devRef .tc main_v0_3) := by unwritten hostOps3_2
    _ = Gen.W14 m ρ c (Proc.devRef .tc main_v0_3) := by unwritten hostOps3_1
    _ = Gen.W13 m ρ c (Proc.devRef .tc main_v0_3) := by unwritten hostOps3
    _ = Gen.W12 m ρ c (Proc.devRef .tc main_v0_3) := Gen.W13_of_ne m ρ c main_v0_3 (by decide)
    _ = Gen.W11 m ρ c (Proc.devRef .tc main_v0_3) := by unwritten hostOps2_8
    _ = Gen.W10 m ρ c (Proc.devRef .tc main_v0_3) := by unwritten hostOps2_7
    _ = Gen.W9 m ρ c (Proc.devRef .tc main_v0_3) := by unwritten hostOps2_6
    _ = Gen.W8 m ρ c (Proc.devRef .tc main_v0_3) := by unwritten hostOps2_5
    _ = Gen.W7 m ρ c (Proc.devRef .tc main_v0_3) := by unwritten hostOps2_4
    _ = Gen.W6 m ρ c (Proc.devRef .tc main_v0_3) := by unwritten hostOps2_3
    _ = Gen.W5 m ρ c (Proc.devRef .tc main_v0_3) := by unwritten hostOps2_2
    _ = Gen.W4 m ρ c (Proc.devRef .tc main_v0_3) := by unwritten hostOps2_1
    _ = Gen.W3 m ρ c (Proc.devRef .tc main_v0_3) := by unwritten hostOps2
    _ = Gen.W2 m ρ c (Proc.devRef .tc main_v0_3) := Gen.W3_of_ne m ρ c main_v0_3 (by decide)
    _ = Gen.W1 m ρ c (Proc.devRef .tc main_v0_3) := by unwritten hostOps1
    _ = (Gen.dat0 (Gen.V0 m ρ) c).arrAt 5 cfg0.N := Gen.W1_arr m ρ c 5

theorem W17_main_v0_4 : Gen.W17 m ρ c (Proc.devRef .tc main_v0_4) = (Gen.dat0 (Gen.V0 m ρ) c).arrAt 6 cfg0.N :=
  calc Gen.W17 m ρ c (Proc.devRef .tc main_v0_4)
    _ = Gen.W16 m ρ c (Proc.devRef .tc main_v0_4) := by unwritten hostOps3_3
    _ = Gen.W15 m ρ c (Proc.devRef .tc main_v0_4) := by unwritten hostOps3_2
    _ = Gen.W14 m ρ c (Proc.devRef .tc main_v0_4) := by unwritten hostOps3_1
    _ = Gen.W13 m ρ c (Proc.devRef .tc main_v0_4) := by unwritten hostOps3
    _ = Gen.W12 m ρ c (Proc.devRef .tc main_v0_4) := Gen.W13_of_ne m ρ c main_v0_4 (by decide)
    _ = Gen.W11 m ρ c (Proc.devRef .tc main_v0_4) := by unwritten hostOps2_8
    _ = Gen.W10 m ρ c (Proc.devRef .tc main_v0_4) := by unwritten hostOps2_7
    _ = Gen.W9 m ρ c (Proc.devRef .tc main_v0_4) := by unwritten hostOps2_6
    _ = Gen.W8 m ρ c (Proc.devRef .tc main_v0_4) := by unwritten hostOps2_5
    _ = Gen.W7 m ρ c (Proc.devRef .tc main_v0_4) := by unwritten hostOps2_4
    _ = Gen.W6 m ρ c (Proc.devRef .tc main_v0_4) := by unwritten hostOps2_3
    _ = Gen.W5 m ρ c (Proc.devRef .tc main_v0_4) := by unwritten hostOps2_2
    _ = Gen.W4 m ρ c (Proc.devRef .tc main_v0_4) := by unwritten hostOps2_1
    _ = Gen.W3 m ρ c (Proc.devRef .tc main_v0_4) := by unwritten hostOps2
    _ = Gen.W2 m ρ c (Proc.devRef .tc main_v0_4) := Gen.W3_of_ne m ρ c main_v0_4 (by decide)
    _ = Gen.W1 m ρ c (Proc.devRef .tc main_v0_4) := by unwritten hostOps1
    _ = (Gen.dat0 (Gen.V0 m ρ) c).arrAt 6 cfg0.N := Gen.W1_arr m ρ c 6

theorem W17_main_v0_5 : Gen.W17 m ρ c (Proc.devRef .tc main_v0_5) = (Gen.dat0 (Gen.V0 m ρ) c).arrAt 7 cfg0.N :=
  calc Gen.W17 m ρ c (Proc.devRef .tc main_v0_5)
    _ = Gen.W16 m ρ c (Proc.devRef .tc main_v0_5) := by unwritten hostOps3_3
    _ = Gen.W15 m ρ c (Proc.devRef .tc main_v0_5) := by unwritten hostOps3_2
    _ = Gen.W14 m ρ c (Proc.devRef .tc main_v0_5) := by unwritten hostOps3_1
    _ = Gen.W13 m ρ c (Proc.devRef .tc main_v0_5) := by unwritten hostOps3
    _ = Gen.W12 m ρ c (Proc.devRef .tc main_v0_5) := Gen.W13_of_ne m ρ c main_v0_5 (by decide)
    _ = Gen.W11 m ρ c (Proc.devRef .tc main_v0_5) := by unwritten hostOps2_8
    _ = Gen.W10 m ρ c (Proc.devRef .tc main_v0_5) := by unwritten hostOps2_7
    _ = Gen.W9 m ρ c (Proc.devRef .tc main_v0_5) := by unwritten hostOps2_6
    _ = Gen.W8 m ρ c (Proc.devRef .tc main_v0_5) := by unwritten hostOps2_5
    _ = Gen.W7 m ρ c (Proc.devRef .tc main_v0_5) := by unwritten hostOps2_4
    _ = Gen.W6 m ρ c (Proc.devRef .tc main_v0_5) := by unwritten hostOps2_3
    _ = Gen.W5 m ρ c (Proc.devRef .tc main_v0_5) := by unwritten hostOps2_2
    _ = Gen.W4 m ρ c (Proc.devRef .tc main_v0_5) := by unwritten hostOps2_1
    _ = Gen.W3 m ρ c (Proc.devRef .tc main_v0_5) := by unwritten hostOps2
    _ = Gen.W2 m ρ c (Proc.devRef .tc main_v0_5) := Gen.W3_of_ne m ρ c main_v0_5 (by decide)
    _ = Gen.W1 m ρ c (Proc.devRef .tc main_v0_5) := by unwritten hostOps1
    _ = (Gen.dat0 (Gen.V0 m ρ) c).arrAt 7 cfg0.N := Gen.W1_arr m ρ c 7

theorem W17_main_v0_6 : Gen.W17 m ρ c (Proc.devRef .tc main_v0_6) = (Gen.dat0 (Gen.V0 m ρ) c).arrAt 8 cfg0.N :=
  calc Gen.W17 m ρ c (Proc.devRef .tc main_v0_6)
    _ = Gen.W16 m ρ c (Proc.devRef .tc main_v0_6) := by unwritten hostOps3_3
    _ = Gen.W15 m ρ c (Proc.devRef .tc main_v0_6) := by unwritten hostOps3_2
    _ = Gen.W14 m ρ c (Proc.devRef .tc main_v0_6) := by unwritten hostOps3_1
    _ = Gen.W13 m ρ c (Proc.devRef .tc main_v0_6) := by unwritten hostOps3
    _ = Gen.W12 m ρ c (Proc.devRef .tc main_v0_6) := Gen.W13_of_ne m ρ c main_v0_6 (by decide)
    _ = Gen.W11 m ρ c (Proc.devRef .tc main_v0_6) := by unwritten hostOps2_8
    _ = Gen.W10 m ρ c (Proc.devRef .tc main_v0_6) := by unwritten hostOps2_7
    _ = Gen.W9 m ρ c (Proc.devRef .tc main_v0_6) := by unwritten hostOps2_6
    _ = Gen.W8 m ρ c (Proc.devRef .tc main_v0_6) := by unwritten hostOps2_5
    _ = Gen.W7 m ρ c (Proc.devRef .tc main_v0_6) := by unwritten hostOps2_4
    _ = Gen.W6 m ρ c (Proc.devRef .tc main_v0_6) := by unwritten hostOps2_3
    _ = Gen.W5 m ρ c (Proc.devRef .tc main_v0_6) := by unwritten hostOps2_2
    _ = Gen.W4 m ρ c (Proc.devRef .tc main_v0_6) := by unwritten hostOps2_1
    _ = Gen.W3 m ρ c (Proc.devRef .tc main_v0_6) := by unwritten hostOps2
    _ = Gen.W2 m ρ c (Proc.devRef .tc main_v0_6) := Gen.W3_of_ne m ρ c main_v0_6 (by decide)
    _ = Gen.W1 m ρ c (Proc.devRef .tc main_v0_6) := by unwritten hostOps1
    _ = (Gen.dat0 (Gen.V0 m ρ) c).arrAt 8 cfg0.N := Gen.W1_arr m ρ c 8

theorem W13_main_v165 : Gen.W13 m ρ c (Proc.devRef .tc main_v165) = (Gen.dat2 (Gen.V12 m ρ) c).arrAt 4 cfg2.N :=
  Gen.W13_arr m ρ c 4

theorem W14_main_v10 : Gen.W14 m ρ c (Proc.devRef .tc main_v10) = Gen.W4 m ρ c (Proc.devRef .tc main_v10) :=
  calc Gen.W14 m ρ c (Proc.devRef .tc main_v10)
    _ = Gen.W13 m ρ c (Proc.devRef .tc main_v10) := by unwritten hostOps3
    _ = Gen.W12 m ρ c (Proc.devRef .tc main_v10) := Gen.W13_of_ne m ρ c main_v10 (by decide)
    _ = Gen.W11 m ρ c (Proc.devRef .tc main_v10) := by unwritten hostOps2_8
    _ = Gen.W10 m ρ c (Proc.devRef .tc main_v10) := by unwritten hostOps2_7
    _ = Gen.W9 m ρ c (Proc.devRef .tc main_v10) := by unwritten hostOps2_6
    _ = Gen.W8 m ρ c (Proc.devRef .tc main_v10) := by unwritten hostOps2_5
    _ = Gen.W7 m ρ c (Proc.devRef .tc main_v10) := by unwritten hostOps2_4
    _ = Gen.W6 m ρ c (Proc.devRef .tc main_v10) := by unwritten hostOps2_3
    _ = Gen.W5 m ρ c (Proc.devRef .tc main_v10) := by unwritten hostOps2_2
    _ = Gen.W4 m ρ c (Proc.devRef .tc main_v10) := by unwritten hostOps2_1

theorem W16_main_v12 : Gen.W16 m ρ c (Proc.devRef .tc main_v12) = Gen.W4 m ρ c (Proc.devRef .tc main_v12) :=
  calc Gen.W16 m ρ c (Proc.devRef .tc main_v12)
    _ = Gen.W15 m ρ c (Proc.devRef .tc main_v12) := by unwritten hostOps3_2
    _ = Gen.W14 m ρ c (Proc.devRef .tc main_v12) := by unwritten hostOps3_1
    _ = Gen.W13 m ρ c (Proc.devRef .tc main_v12) := by unwritten hostOps3
    _ = Gen.W12 m ρ c (Proc.devRef .tc main_v12) := Gen.W13_of_ne m ρ c main_v12 (by decide)
    _ = Gen.W11 m ρ c (Proc.devRef .tc main_v12) := by unwritten hostOps2_8
    _ = Gen.W10 m ρ c (Proc.devRef .tc main_v12) := by unwritten hostOps2_7
    _ = Gen.W9 m ρ c (Proc.devRef .tc main_v12) := by unwritten hostOps2_6
    _ = Gen.W8 m ρ c (Proc.devRef .tc main_v12) := by unwritten hostOps2_5
    _ = Gen.W7 m ρ c (Proc.devRef .tc main_v12) := by unwritten hostOps2_4
    _ = Gen.W6 m ρ c (Proc.devRef .tc main_v12) := by unwritten hostOps2_3
    _ = Gen.W5 m ρ c (Proc.devRef .tc main_v12) := by unwritten hostOps2_2
    _ = Gen.W4 m ρ c (Proc.devRef .tc main_v12) := by unwritten hostOps2_1

theorem W17_main_v167 : Gen.W17 m ρ c (Proc.devRef .tc main_v167) = Gen.W14 m ρ c (Proc.devRef .tc main_v167) :=
  calc Gen.W17 m ρ c (Proc.devRef .tc main_v167)
    _ = Gen.W16 m ρ c (Proc.devRef .tc main_v167) := by unwritten hostOps3_3
    _ = Gen.W15 m ρ c (Proc.devRef .tc main_v167) := by unwritten hostOps3_2
    _ = Gen.W14 m ρ c (Proc.devRef .tc main_v167) := by unwritten hostOps3_1

theorem W17_main_v175 : Gen.W17 m ρ c (Proc.devRef .tc main_v175) = Gen.W16 m ρ c (Proc.devRef .tc main_v175) :=
  calc Gen.W17 m ρ c (Proc.devRef .tc main_v175)
    _ = Gen.W16 m ρ c (Proc.devRef .tc main_v175) := by unwritten hostOps3_3

end Cert.KernelIdeal.KCarry

end
-- ==== Proof.KHostTail.lean ====
import proofs.«147778_j69123203661888_1_alg».proof.Proof.Gen.KernelIdeal.Frame
import proofs.«147778_j69123203661888_1_alg».proof.Proof.Spec
import proofs.«147778_j69123203661888_1_alg».proof.Proof.KCarry
import Idealize.ShloMosaic.Lib.ValueIdx
import Idealize.ShloMosaic.Lib.Pipeline.Value
import Idealize.ShloMosaic.PureOps.Ideal.Laws
import Idealize.ShloMosaic.Lib.StableHlo.Run
import Idealize.ShloMosaic.Lib.IdealHost

set_option maxRecDepth 16384

noncomputable section

namespace Cert.KernelIdeal.KHostTail

open Cert.KernelIdeal Cert.KernelIdeal.Gen Idealize.ShloMosaic Idealize.ShloMosaic.TcCoe Idealize.SL.Sem Idealize.ShloMosaic.ValueIdx

section Defs
variable {F : FTy → Type} [FloatOps F]

def sel00 (x : Vec F S8x3x1024x1024 .f32) : Vec F S1024x1024 .f32 :=
  shapeCast S1024x1024
    (extractStridedSlice S1x1x1024x1024 ![0, 0, 0, 0] x slices_S8x3x1024x1024_S1x1x1024x1024_0_0_0_0)
    shapeCasts_S1x1x1024x1024_S1024x1024

def padc (y : Vec F S1024x1024 .f32) : Vec F S1024x1026 .f32 :=
  concatenate S1024x1026 1
    [⟨S1024x1025,
        concatenate S1024x1025 1
          [⟨S1024x1, Host.reverse [1] (extractStridedSlice S1024x1 ![0, 1] y slices_S1024x1024_S1024x1_0_1)⟩,
           ⟨S1024x1024, y⟩] concatenates_S1024x1_S1024x1024_S1024x1025_d1⟩,
     ⟨S1024x1,
        Host.reverse [1]
          (extractStridedSlice S1024x1 ![0, 1023]
            (concatenate S1024x1025 1
              [⟨S1024x1, Host.reverse [1] (extractStridedSlice S1024x1 ![0, 1] y slices_S1024x1024_S1024x1_0_1)⟩,
               ⟨S1024x1024, y⟩] concatenates_S1024x1_S1024x1024_S1024x1025_d1)
            slices_S1024x1025_S1024x1_0_1023)⟩]
    concatenates_S1024x1025_S1024x1_S1024x1026_d1

def sx (y : Vec F S1024x1024 .f32) : Vec F S1024x1024 .f32 :=
  subf
    (mulf (broadcastInDim S1024x1024 ![] bcast_S_S1024x1024 (constant S_ .f32 0x40800000#32))
      (extractStridedSlice S1024x1024 ![0, 0] (padc y) slices_S1024x1026_S1024x1024_0_0))
    (mulf (broadcastInDim S1024x1024 ![] bcast_S_S1024x1024 (constant S_ .f32 0x40800000#32))
      (extractStridedSlice S1024x1024 ![0, 2] (padc y) slices_S1024x1026_S1024x1024_0_2))

def sobelK (x xd : Vec F S8x3x1024x1024 .f32) : Vec F S_ .f32 :=
  Host.divf
    (Host.reduceAdd (Host.absf (subf (sx (sel00 x)) (sx (sel00 xd)))) (constant S_ .f32 0x00000000#32)
      reducesTo_S1024x1024_S_d0_1 h_S_)
    (constant S_ .f32 0x49800000#32)

end Defs

section Pieces
variable {F : FTy → Type} [FloatOps F]

def satT (a : Vec F S8x1x1x1 .f32) : Vec F S_ .f32 :=
  Host.divf (Host.reduceAdd a (constant S_ .f32 0x00000000#32) reducesTo_S8x1x1x1_S_d0_1_2_3 h_S_)
    (constant S_ .f32 0x4BC00000#32)

def r83 (a : Vec F S8x3x1x1 .f32) : Vec F S8x3 .f32 := shapeCast S8x3 a shapeCasts_S8x3x1x1_S8x3

def stdT (s1 s2 : Vec F S8x3 .f32) : Vec F S8x3 .f32 :=
  Host.sqrt (Host.divf
    (subf s2 (Host.divf (mulf s1 s1) (broadcastInDim S8x3 ![] bcast_S_S8x3 (constant S_ .f32 0x49800000#32))))
    (broadcastInDim S8x3 ![] bcast_S_S8x3 (constant S_ .f32 0x497FFFF0#32)))

def svT (a2 a3 a4 a5 : Vec F S8x3x1x1 .f32) : Vec F S_ .f32 :=
  Host.divf
    (Host.reduceAdd
      (mulf (subf (stdT (r83 a2) (r83 a3)) (stdT (r83 a4) (r83 a5)))
        (subf (stdT (r83 a2) (r83 a3)) (stdT (r83 a4) (r83 a5))))
      (constant S_ .f32 0x00000000#32) reducesTo_S8x3_S_d0_1 h_S_)
    (constant S_ .f32 0x41C00000#32)

def lintT (a2 : Vec F S8x3x1x1 .f32) : Vec F S_ .f32 :=
  Host.divf
    (Host.reduceAdd
      (mulf
        (subf (Host.divf (r83 a2) (broadcastInDim S8x3 ![] bcast_S_S8x3 (constant S_ .f32 0x49800000#32)))
          (broadcastInDim S8x3 ![] bcast_S_S8x3 (constant S_ .f32 0x3F000000#32)))
        (subf (Host.divf (r83 a2) (broadcastInDim S8x3 ![] bcast_S_S8x3 (constant S_ .f32 0x49800000#32)))
          (broadcastInDim S8x3 ![] bcast_S_S8x3 (constant S_ .f32 0x3F000000#32))))
      (constant S_ .f32 0x00000000#32) reducesTo_S8x3_S_d0_1 h_S_)
    (constant S_ .f32 0x41C00000#32)

def sxT (z : Vec F S1024x1026 .f32) : Vec F S1024x1024 .f32 :=
  subf
    (mulf (broadcastInDim S1024x1024 ![] bcast_S_S1024x1024 (constant S_ .f32 0x40800000#32))
      (extractStridedSlice S1024x1024 ![0, 0] z slices_S1024x1026_S1024x1024_0_0))
    (mulf (broadcastInDim S1024x1024 ![] bcast_S_S1024x1024 (constant S_ .f32 0x40800000#32))
      (extractStridedSlice S1024x1024 ![0, 2] z slices_S1024x1026_S1024x1024_0_2))

theorem sx_eq (y : Vec F S1024x1024 .f32) : sx y = sxT (padc y) := rfl

def sobT (u : Vec F S1024x1024 .f32) (z : Vec F S1024x1026 .f32) : Vec F S_ .f32 :=
  Host.divf
    (Host.reduceAdd (Host.absf (subf u (sxT z))) (constant S_ .f32 0x00000000#32) reducesTo_S1024x1024_S_d0_1 h_S_)
    (constant S_ .f32 0x49800000#32)

theorem sobT_eq (x xd : Vec F S8x3x1024x1024 .f32) : sobT (sx (sel00 x)) (padc (sel00 xd)) = sobelK x xd := rfl

def llogT (a : Vec F S8x1x1 .f32) : Vec F S_ .f32 :=
  Host.divf (Host.reduceAdd a (constant S_ .f32 0x00000000#32) reducesTo_S8x1x1_S_d0_1_2 h_S_)
    (constant S_ .f32 0x4B000000#32)

set_option maxHeartbeats 4000000 in
theorem v222_raw (W : Valuation τ sig (Elt F)) :
    StableHlo.after (hostOps3_4 (F := F)) W (Proc.devRef .tc main_v222)
      = addf (addf (addf (addf (satT (W (Proc.devRef .tc main_v0_6)))
            (svT (W (Proc.devRef .tc main_v0_2)) (W (Proc.devRef .tc main_v0_3)) (W (Proc.devRef .tc main_v0_4))
              (W (Proc.devRef .tc main_v0_5))))
          (sobT (W (Proc.devRef .tc main_v175)) (W (Proc.devRef .tc main_v176))))
          (lintT (W (Proc.devRef .tc main_v0_2))))
        (W (Proc.devRef .tc main_v167) : Vec F S_ .f32) := by
  after_results_simp
  rfl

theorem v176_raw (W : Valuation τ sig (Elt F)) :
    StableHlo.after (hostOps3_3 (F := F)) W (Proc.devRef .tc main_v176) = padc (W (Proc.devRef .tc main_v12)) := by
  after_results_simp <;> (try simp only [StableHlo.TRef.ofBuf, StableHlo.TRef.toBuf, cast_eq]) <;> rfl

theorem v175_raw (W : Valuation τ sig (Elt F)) :
    StableHlo.after (hostOps3_2 (F := F)) W (Proc.devRef .tc main_v175) = sxT (W (Proc.devRef .tc main_v168)) := by
  after_results_simp
  rfl

theorem v168_raw (W : Valuation τ sig (Elt F)) :
    StableHlo.after (hostOps3_1 (F := F)) W (Proc.devRef .tc main_v168) = padc (W (Proc.devRef .tc main_v10)) := by
  after_results_simp <;> (try simp only [StableHlo.TRef.ofBuf, StableHlo.TRef.toBuf, cast_eq]) <;> rfl

theorem v167_raw (W : Valuation τ sig (Elt F)) :
    StableHlo.after (hostOps3 (F := F)) W (Proc.devRef .tc main_v167) = llogT (W (Proc.devRef .tc main_v165)) := by
  after_results_simp
  rfl

theorem v10_raw (W : Valuation τ sig (Elt F)) :
    StableHlo.after (hostOps2 (F := F)) W (Proc.devRef .tc main_v10) = sel00 (W (Proc.devRef .tc main_arg1)) := by
  after_results_simp
  rfl

theorem v12_raw (W : Valuation τ sig (Elt F)) :
    StableHlo.after (hostOps2 (F := F)) W (Proc.devRef .tc main_v12) = sel00 (W (Proc.devRef .tc main_arg0)) := by
  after_results_simp
  rfl

end Pieces

section Read
open Cert.Spec

theorem sum_8111 {M : Type*} [AddCommMonoid M] (f : S8x1x1x1.Idx → M) :
    ∑ i, f i = ∑ b : Fin 8, f (ix4 b (0 : Fin 1) (0 : Fin 1) (0 : Fin 1)) := by
  let e : Fin 8 ≃ S8x1x1x1.Idx :=
    { toFun := fun b => ix4 b (0 : Fin 1) (0 : Fin 1) (0 : Fin 1)
      invFun := fun i => i 0
      left_inv := fun b => rfl
      right_inv := fun i => by
        funext a
        match a with
        | ⟨0, _⟩ => rfl
        | ⟨1, _⟩ => exact Subsingleton.elim (α := Fin 1) _ _
        | ⟨2, _⟩ => exact Subsingleton.elim (α := Fin 1) _ _
        | ⟨3, _⟩ => exact Subsingleton.elim (α := Fin 1) _ _ }
  exact (Equiv.sum_comp e f).symm

theorem sum_811 {M : Type*} [AddCommMonoid M] (f : S8x1x1.Idx → M) :
    ∑ i, f i = ∑ b : Fin 8, f (ix3 b (0 : Fin 1) (0 : Fin 1)) := by
  let e : Fin 8 ≃ S8x1x1.Idx :=
    { toFun := fun b => ix3 b (0 : Fin 1) (0 : Fin 1)
      invFun := fun i => i 0
      left_inv := fun b => rfl
      right_inv := fun i => by
        funext a
        match a with
        | ⟨0, _⟩ => rfl
        | ⟨1, _⟩ => exact Subsingleton.elim (α := Fin 1) _ _
        | ⟨2, _⟩ => exact Subsingleton.elim (α := Fin 1) _ _ }
  exact (Equiv.sum_comp e f).symm

theorem hostSqrt_apply {s : Shape} (a : FVec Ideal s .f32) (i : s.Idx) : Host.sqrt a i = Ideal.sqrt (a i) := rfl

theorem bc_apply {T : Shape} (h : S_.BroadcastsInDim T ![]) (w : BitVec 32) (j : T.Idx) :
    broadcastInDim T ![] h (constant (F := Ideal) S_ .f32 w) j = lit w := by
  rw [broadcastInDim_scalar_apply]; rfl

theorem r83_apply (a : Vec Ideal S8x3x1x1 .f32) (b : Fin 8) (ch : Fin 3) :
    r83 a (ix2 b ch) = a (ix4 b ch (0 : Fin 1) (0 : Fin 1)) :=
  shapeCast_apply a _ _ _ (by
    rw [Shape.rowMajor_val_four, Shape.rowMajor_val_two]
    show ((b.val * 3 + ch.val) * 1 + 0) * 1 + 0 = b.val * 3 + ch.val
    omega)

theorem stdT_apply (s1 s2 : Vec Ideal S8x3 .f32) (j : S8x3.Idx) :
    stdT s1 s2 j = Ideal.sqrt (varOf (s1 j) (s2 j)) := by
  unfold stdT varOf
  rw [hostSqrt_apply, hostDivf_apply, subf_apply, hostDivf_apply, mulf_apply, bc_apply, bc_apply]

theorem satT_apply (a : Vec Ideal S8x1x1x1 .f32) :
    satT a ix0 = Ideal.div (∑ b : Fin 8, a (ix4 b (0 : Fin 1) (0 : Fin 1) (0 : Fin 1))) (lit 0x4BC00000#32) := by
  unfold satT
  rw [hostDivf_apply, hostReduceAdd_apply, Ideal.hostReduceAdd_total _ (fun b => b.elim0), constant_apply,
    constant_apply, Ideal.ofBits_zero_f32, zero_add, sum_8111]

theorem llogT_apply (a : Vec Ideal S8x1x1 .f32) :
    llogT a ix0 = Ideal.div (∑ b : Fin 8, a (ix3 b (0 : Fin 1) (0 : Fin 1))) (lit 0x4B000000#32) := by
  unfold llogT
  rw [hostDivf_apply, hostReduceAdd_apply, Ideal.hostReduceAdd_total _ (fun b => b.elim0), constant_apply,
    constant_apply, Ideal.ofBits_zero_f32, zero_add, sum_811]

theorem svT_apply (a2 a3 a4 a5 : Vec Ideal S8x3x1x1 .f32) :
    svT a2 a3 a4 a5 ix0
      = Ideal.div (∑ b : Fin 8, ∑ ch : Fin 3,
          (Ideal.sqrt (varOf (a2 (ix4 b ch (0 : Fin 1) (0 : Fin 1))) (a3 (ix4 b ch (0 : Fin 1) (0 : Fin 1))))
              - Ideal.sqrt (varOf (a4 (ix4 b ch (0 : Fin 1) (0 : Fin 1))) (a5 (ix4 b ch (0 : Fin 1) (0 : Fin 1)))))
            * (Ideal.sqrt (varOf (a2 (ix4 b ch (0 : Fin 1) (0 : Fin 1))) (a3 (ix4 b ch (0 : Fin 1) (0 : Fin 1))))
              - Ideal.sqrt (varOf (a4 (ix4 b ch (0 : Fin 1) (0 : Fin 1))) (a5 (ix4 b ch (0 : Fin 1) (0 : Fin 1))))))
          (lit 0x41C00000#32) := by
  unfold svT
  rw [hostDivf_apply, hostReduceAdd_apply, Ideal.hostReduceAdd_total _ (fun b => b.elim0), constant_apply,
    constant_apply, Ideal.ofBits_zero_f32, zero_add, sum_idx2]
  refine congrArg (fun s => Ideal.div s _) (Finset.sum_congr rfl fun b _ => Finset.sum_congr rfl fun ch _ => ?_)
  rw [mulf_apply, subf_apply, stdT_apply, stdT_apply, r83_apply, r83_apply, r83_apply, r83_apply]

theorem lintT_apply (a2 : Vec Ideal S8x3x1x1 .f32) :
    lintT a2 ix0
      = Ideal.div (∑ b : Fin 8, ∑ ch : Fin 3,
          (Ideal.div (a2 (ix4 b ch (0 : Fin 1) (0 : Fin 1))) nPix - lit 0x3F000000#32)
            * (Ideal.div (a2 (ix4 b ch (0 : Fin 1) (0 : Fin 1))) nPix - lit 0x3F000000#32))
          (lit 0x41C00000#32) := by
  unfold lintT
  rw [hostDivf_apply, hostReduceAdd_apply, Ideal.hostReduceAdd_total _ (fun b => b.elim0), constant_apply,
    constant_apply, Ideal.ofBits_zero_f32, zero_add, sum_idx2]
  refine congrArg (fun s => Ideal.div s _) (Finset.sum_congr rfl fun b _ => Finset.sum_congr rfl fun ch _ => ?_)
  rw [mulf_apply, subf_apply, hostDivf_apply, bc_apply, bc_apply, r83_apply]

theorem tail_scalar (A4 A5 A6 A7 : Vec Ideal S8x3x1x1 .f32) (A8 : Vec Ideal S8x1x1x1 .f32) (sob : Vec Ideal S_ .f32)
    (L : Vec Ideal S8x1x1 .f32) :
    addf (addf (addf (addf (satT A8) (svT A4 A5 A6 A7)) sob) (lintT A4)) (llogT L) ix0
      = tailK (fun b ch => A4 (ix4 b ch (0 : Fin 1) (0 : Fin 1))) (fun b ch => A5 (ix4 b ch (0 : Fin 1) (0 : Fin 1)))
          (fun b ch => A6 (ix4 b ch (0 : Fin 1) (0 : Fin 1))) (fun b ch => A7 (ix4 b ch (0 : Fin 1) (0 : Fin 1)))
          (fun b => A8 (ix4 b (0 : Fin 1) (0 : Fin 1) (0 : Fin 1))) (sob ix0)
          (fun b => L (ix3 b (0 : Fin 1) (0 : Fin 1))) := by
  rw [addf_apply, addf_apply, addf_apply, addf_apply, satT_apply, svT_apply, lintT_apply, llogT_apply]
  rfl

end Read

variable (m : (ℓ : Loc nD τ sig) → Buf (Elt Ideal) ℓ) (ρ : Dev nD → PrngReg) (c : Dev nD)

theorem v175_eq :
    Gen.W17 m ρ c (Proc.devRef .tc main_v175) = sx (F := Ideal) (sel00 (m ((c : Thread nD τ).loc main_arg1))) := by
  rw [Cert.KernelIdeal.KCarry.W17_main_v175 m ρ c]
  show StableHlo.after (hostOps3_2 (F := Ideal)) (Gen.W15 m ρ c) (Proc.devRef .tc main_v175) = _
  rw [v175_raw]
  show sxT (StableHlo.after (hostOps3_1 (F := Ideal)) (Gen.W14 m ρ c) (Proc.devRef .tc main_v168)) = _
  rw [v168_raw, Cert.KernelIdeal.KCarry.W14_main_v10 m ρ c]
  show sxT (padc (StableHlo.after (hostOps2 (F := Ideal)) (Gen.W3 m ρ c) (Proc.devRef .tc main_v10))) = _
  rw [v10_raw, Cert.KernelIdeal.KCarry.W3_main_arg1 m ρ c]
  rfl

theorem v176_eq :
    Gen.W17 m ρ c (Proc.devRef .tc main_v176) = padc (F := Ideal) (sel00 (m ((c : Thread nD τ).loc main_arg0))) := by
  show StableHlo.after (hostOps3_3 (F := Ideal)) (Gen.W16 m ρ c) (Proc.devRef .tc main_v176) = _
  rw [v176_raw, Cert.KernelIdeal.KCarry.W16_main_v12 m ρ c]
  show padc (StableHlo.after (hostOps2 (F := Ideal)) (Gen.W3 m ρ c) (Proc.devRef .tc main_v12)) = _
  rw [v12_raw, Cert.KernelIdeal.KCarry.W3_main_arg0 m ρ c]

theorem v167_eq :
    Gen.W17 m ρ c (Proc.devRef .tc main_v167) = llogT (F := Ideal) ((Gen.dat2 (Gen.V12 m ρ) c).arrAt 4 cfg2.N) := by
  rw [Cert.KernelIdeal.KCarry.W17_main_v167 m ρ c]
  show StableHlo.after (hostOps3 (F := Ideal)) (Gen.W13 m ρ c) (Proc.devRef .tc main_v167) = _
  rw [v167_raw, Cert.KernelIdeal.KCarry.W13_main_v165 m ρ c]

theorem v222_eq :
    Gen.W18 m ρ c (Proc.devRef .tc main_v222)
      = addf (addf (addf (addf (satT (F := Ideal) ((Gen.dat0 (Gen.V0 m ρ) c).arrAt 8 cfg0.N))
            (svT ((Gen.dat0 (Gen.V0 m ρ) c).arrAt 4 cfg0.N) ((Gen.dat0 (Gen.V0 m ρ) c).arrAt 5 cfg0.N)
              ((Gen.dat0 (Gen.V0 m ρ) c).arrAt 6 cfg0.N) ((Gen.dat0 (Gen.V0 m ρ) c).arrAt 7 cfg0.N)))
          (sobelK (m ((c : Thread nD τ).loc main_arg1)) (m ((c : Thread nD τ).loc main_arg0))))
          (lintT ((Gen.dat0 (Gen.V0 m ρ) c).arrAt 4 cfg0.N)))
        (llogT ((Gen.dat2 (Gen.V12 m ρ) c).arrAt 4 cfg2.N)) := by
  show StableHlo.after (hostOps3_4 (F := Ideal)) (Gen.W17 m ρ c) (Proc.devRef .tc main_v222) = _
  rw [v222_raw, Cert.KernelIdeal.KCarry.W17_main_v0_6 m ρ c, Cert.KernelIdeal.KCarry.W17_main_v0_2 m ρ c, Cert.KernelIdeal.KCarry.W17_main_v0_3 m ρ c,
    Cert.KernelIdeal.KCarry.W17_main_v0_4 m ρ c, Cert.KernelIdeal.KCarry.W17_main_v0_5 m ρ c, v175_eq m ρ c, v176_eq m ρ c, v167_eq m ρ c, sobT_eq]

theorem tail_value :
    Gen.W18 m ρ c (Proc.devRef .tc main_v222) ix0
      = Cert.Spec.tailK
          (fun b ch => (Gen.dat0 (Gen.V0 m ρ) c).arrAt 4 cfg0.N (ix4 b ch (0 : Fin 1) (0 : Fin 1)))
          (fun b ch => (Gen.dat0 (Gen.V0 m ρ) c).arrAt 5 cfg0.N (ix4 b ch (0 : Fin 1) (0 : Fin 1)))
          (fun b ch => (Gen.dat0 (Gen.V0 m ρ) c).arrAt 6 cfg0.N (ix4 b ch (0 : Fin 1) (0 : Fin 1)))
          (fun b ch => (Gen.dat0 (Gen.V0 m ρ) c).arrAt 7 cfg0.N (ix4 b ch (0 : Fin 1) (0 : Fin 1)))
          (fun b => (Gen.dat0 (Gen.V0 m ρ) c).arrAt 8 cfg0.N (ix4 b (0 : Fin 1) (0 : Fin 1) (0 : Fin 1)))
          (sobelK (F := Ideal) (m ((c : Thread nD τ).loc main_arg1)) (m ((c : Thread nD τ).loc main_arg0)) ix0)
          (fun b => (Gen.dat2 (Gen.V12 m ρ) c).arrAt 4 cfg2.N (ix3 b (0 : Fin 1) (0 : Fin 1))) := by
  refine (congrFun (v222_eq m ρ c) ix0).trans ?_
  exact tail_scalar ((Gen.dat0 (Gen.V0 m ρ) c).arrAt 4 cfg0.N) ((Gen.dat0 (Gen.V0 m ρ) c).arrAt 5 cfg0.N)
    ((Gen.dat0 (Gen.V0 m ρ) c).arrAt 6 cfg0.N) ((Gen.dat0 (Gen.V0 m ρ) c).arrAt 7 cfg0.N)
    ((Gen.dat0 (Gen.V0 m ρ) c).arrAt 8 cfg0.N)
    (sobelK (m ((c : Thread nD τ).loc main_arg1)) (m ((c : Thread nD τ).loc main_arg0)))
    ((Gen.dat2 (Gen.V12 m ρ) c).arrAt 4 cfg2.N)

end Cert.KernelIdeal.KHostTail

end
-- ==== Proof.KValue.lean ====
import proofs.«147778_j69123203661888_1_alg».proof.Proof.Spec
import proofs.«147778_j69123203661888_1_alg».proof.Proof.KR0Gray
import proofs.«147778_j69123203661888_1_alg».proof.Proof.KR0Acc
import proofs.«147778_j69123203661888_1_alg».proof.Proof.KR1
import proofs.«147778_j69123203661888_1_alg».proof.Proof.KR2
import proofs.«147778_j69123203661888_1_alg».proof.Proof.KHostA
import proofs.«147778_j69123203661888_1_alg».proof.Proof.KHostLap
import proofs.«147778_j69123203661888_1_alg».proof.Proof.KHostTail

noncomputable section

namespace Cert.KernelIdeal.KValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

abbrev A (x : Vec Ideal S8x3x1024x1024 .f32) : Cert.Spec.A4 := fun b ch r cc => x (ix4 b ch r cc)

abbrev xI : Vec Ideal S8x3x1024x1024 .f32 := m ((c : Thread nD τ).loc main_arg1)

abbrev xD : Vec Ideal S8x3x1024x1024 .f32 := m ((c : Thread nD τ).loc main_arg0)

theorem stack_at (s : Fin 2) (b : Fin 8) (r cc : Fin 1024) :
    Gen.V2 m ρ c (Pipeline.arrRef spec1 0) (ix4 s b r cc)
      = if s = 0 then Cert.Spec.gray (A (xI m c)) b r cc else Cert.Spec.gray (A (xD m c)) b r cc := by
  rw [KHostA.V2_stack m ρ c s b r cc, KR0Gray.gray_p (Gen.V0 m ρ) c b r cc, KR0Gray.gray_t (Gen.V0 m ρ) c b r cc,
    KHostA.V0_x m ρ c, KHostA.V0_xd m ρ c]

theorem gp_at (b : Fin 8) (r cc : Fin 1024) :
    Gen.V12 m ρ c (Pipeline.arrRef spec2 0) (ix3 b r cc) = Cert.Spec.gaussGray (A (xI m c)) b r cc := by
  rw [KHostA.V12_gp m ρ c b r cc, KR1.gauss_out (Gen.V2 m ρ) c 0 b r cc]
  unfold Cert.Spec.gaussGray
  congr 1
  funext r' c'
  rw [stack_at m ρ c 0 b r' c', if_pos rfl]

theorem gt_at (b : Fin 8) (r cc : Fin 1024) :
    Gen.V12 m ρ c (Pipeline.arrRef spec2 1) (ix3 b r cc) = Cert.Spec.gaussGray (A (xD m c)) b r cc := by
  rw [KHostA.V12_gt m ρ c b r cc, KR1.gauss_out (Gen.V2 m ρ) c 1 b r cc]
  unfold Cert.Spec.gaussGray
  congr 1
  funext r' c'
  rw [stack_at m ρ c 1 b r' c', if_neg (by decide)]

theorem result_value :
    Gen.W18 m ρ c (Proc.devRef .tc main_v222) ix0
      = Cert.Spec.finalK (A (xI m c)) (A (xD m c)) (KHostTail.sobelK (F := Ideal) (xI m c) (xD m c) ix0)
          (fun r cc => KHostLap.lapK (F := Ideal) (xI m c) (ix2 r cc)) (fun r cc => KHostLap.lapK (F := Ideal) (xD m c) (ix2 r cc)) := by
  rw [KHostTail.tail_value m ρ c, Cert.Spec.finalK_eq_tailK]
  have h4 : (fun b ch => (Gen.dat0 (Gen.V0 m ρ) c).arrAt 4 cfg0.N (ix4 b ch (0 : Fin 1) (0 : Fin 1))) = Cert.Spec.sum1 (A (xI m c)) := by
    funext b ch; rw [KR0Acc.sum_i (Gen.V0 m ρ) c b ch, KHostA.V0_x m ρ c]
  have h5 : (fun b ch => (Gen.dat0 (Gen.V0 m ρ) c).arrAt 5 cfg0.N (ix4 b ch (0 : Fin 1) (0 : Fin 1))) = Cert.Spec.sum2 (A (xI m c)) := by
    funext b ch; rw [KR0Acc.sumsq_i (Gen.V0 m ρ) c b ch, KHostA.V0_x m ρ c]
  have h6 : (fun b ch => (Gen.dat0 (Gen.V0 m ρ) c).arrAt 6 cfg0.N (ix4 b ch (0 : Fin 1) (0 : Fin 1))) = Cert.Spec.sum1 (A (xD m c)) := by
    funext b ch; rw [KR0Acc.sum_id (Gen.V0 m ρ) c b ch, KHostA.V0_xd m ρ c]
  have h7 : (fun b ch => (Gen.dat0 (Gen.V0 m ρ) c).arrAt 7 cfg0.N (ix4 b ch (0 : Fin 1) (0 : Fin 1))) = Cert.Spec.sum2 (A (xD m c)) := by
    funext b ch; rw [KR0Acc.sumsq_id (Gen.V0 m ρ) c b ch, KHostA.V0_xd m ρ c]
  have h8 : (fun b => (Gen.dat0 (Gen.V0 m ρ) c).arrAt 8 cfg0.N (ix4 b (0 : Fin 1) (0 : Fin 1) (0 : Fin 1))) = Cert.Spec.satB (A (xI m c)) := by
    funext b; rw [KR0Acc.sat (Gen.V0 m ρ) c b, KHostA.V0_x m ρ c]
  have hl : (fun b => (Gen.dat2 (Gen.V12 m ρ) c).arrAt 4 cfg2.N (ix3 b (0 : Fin 1) (0 : Fin 1)))
      = Cert.Spec.logB (Cert.Spec.gaussGray (A (xI m c))) (Cert.Spec.gaussGray (A (xD m c)))
          (fun r cc => KHostLap.lapK (F := Ideal) (xI m c) (ix2 r cc)) (fun r cc => KHostLap.lapK (F := Ideal) (xD m c) (ix2 r cc)) := by
    funext b
    rw [KR2.log_out (Gen.V12 m ρ) c b]
    have e0 : (fun b r cc => Gen.V12 m ρ c (Pipeline.arrRef spec2 0) (ix3 b r cc)) = Cert.Spec.gaussGray (A (xI m c)) := by
      funext b r cc; exact gp_at m ρ c b r cc
    have e1 : (fun b r cc => Gen.V12 m ρ c (Pipeline.arrRef spec2 1) (ix3 b r cc)) = Cert.Spec.gaussGray (A (xD m c)) := by
      funext b r cc; exact gt_at m ρ c b r cc
    rw [e0, e1, KHostLap.V12_lp m ρ c, KHostLap.V12_lt m ρ c]
  rw [h4, h5, h6, h7, h8, hl]

end Cert.KernelIdeal.KValue

end
-- ==== Proof.ROps.lean ====
import proofs.«147778_j69123203661888_1_alg».proof.Proof.Gen.ReferenceIdeal
import Idealize.ShloMosaic.Lib.StableHlo.Run

/-! The reference's main function as the list of its operations in order, in 32 stretches (a call's body is one
    stretch). `R k` is the memory after the first `k` stretches; a buffer that stretch `k` does not write is the same in
    `R (k+1)` as in `R k`. -/

set_option maxRecDepth 4096

noncomputable section

namespace Cert.ReferenceIdeal.ROps

open Cert.ReferenceIdeal Cert.ReferenceIdeal.Gen Idealize.ShloMosaic Idealize.ShloMosaic.TcCoe Idealize.SL.Sem Idealize.ShloMosaic.StableHlo

/-- The contents of an f32 buffer of shape `S`. -/
abbrev Buf32 (F : FTy → Type) (S : Shape) : Type := (⟨S, .f32⟩ : BufTy).Contents (Elt F)
/-- A typed reference to an f32 buffer of shape `S`. -/
abbrev Ref32 (S : Shape) : Type := TRef sig ⟨S, .f32⟩

variable {F : FTy → Type} [FloatOps F]

/-- An operation whose one written buffer is in a list writes inside that list. -/
theorem sub_W {W : List (Ref sig .tc)} {y : Ref sig .tc} {op : HloOp τ sig (Elt F)} (hw : op.writes = {Proc.devRef .tc y}) (hy : y ∈ W) :
    op.writes ⊆ (W.map (Proc.devRef (τ := τ) .tc)).toFinset :=
  hw ▸ Finset.singleton_subset_iff.mpr (List.mem_toFinset.mpr (List.mem_map_of_mem hy))

abbrev seg0 : List (HloOp τ sig (Elt F)) :=
  ( nullary main_cst (fun i => FloatOps.ofBits .f32 (lit0 (S3x3.rowMajor i)))
  :: nullary main_cst_0 (fun i => FloatOps.ofBits .f32 (lit1 (S3x3.rowMajor i)))
  :: unary main_arg1 main_v0 (Host.negf : Buf32 F S8x3x1024x1024 → Buf32 F S8x3x1024x1024)
  :: [] )
theorem seg0_sub : (seg0 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg0_W : List (Ref sig .tc) := [main_cst, main_cst_0, main_v0]
theorem seg0_writes : (seg0 : List (HloOp τ sig (Elt F))).Forall fun op => op.writes ⊆ (seg0_W.map (Proc.devRef (τ := τ) .tc)).toFinset := by
  simp only [List.Forall]; and_intros <;> exact sub_W rfl (by decide)

abbrev seg1 : List (HloOp τ sig (Elt F)) :=
  ( TRef.nullary (.of main_call0_cst : Ref32 S_) (constant S_ .f32 0x00000000#32)
  :: TRef.unary (.of main_call0_cst : Ref32 S_) (.of main_call0_v0 : Ref32 S8x3x1024x1024) (broadcastInDim S8x3x1024x1024 ![] bcast_S_S8x3x1024x1024)
  :: TRef.binary (.of main_v0 : Ref32 S8x3x1024x1024) (.of main_call0_v0 : Ref32 S8x3x1024x1024) (.of main_v1 : Ref32 S8x3x1024x1024) maximumf
  :: [] )
theorem seg1_sub : (seg1 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg1_W : List (Ref sig .tc) := [main_call0_cst, main_call0_v0, main_v1]
theorem seg1_writes : (seg1 : List (HloOp τ sig (Elt F))).Forall fun op => op.writes ⊆ (seg1_W.map (Proc.devRef (τ := τ) .tc)).toFinset := by
  simp only [List.Forall]; and_intros <;> exact sub_W rfl (by decide)

abbrev seg2 : List (HloOp τ sig (Elt F)) :=
  ( nullary main_cst_1 (constant S_ .f32 0x3F800000#32)
  :: unary main_cst_1 main_v2 (broadcastInDim S8x3x1024x1024 ![] bcast_S_S8x3x1024x1024 : Buf32 F S_ → Buf32 F S8x3x1024x1024)
  :: binary main_arg1 main_v2 main_v3 (subf : Buf32 F S8x3x1024x1024 → Buf32 F S8x3x1024x1024 → Buf32 F S8x3x1024x1024)
  :: [] )
theorem seg2_sub : (seg2 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg2_W : List (Ref sig .tc) := [main_cst_1, main_v2, main_v3]
theorem seg2_writes : (seg2 : List (HloOp τ sig (Elt F))).Forall fun op => op.writes ⊆ (seg2_W.map (Proc.devRef (τ := τ) .tc)).toFinset := by
  simp only [List.Forall]; and_intros <;> exact sub_W rfl (by decide)

abbrev seg3 : List (HloOp τ sig (Elt F)) :=
  ( TRef.nullary (.of main_call1_cst : Ref32 S_) (constant S_ .f32 0x00000000#32)
  :: TRef.unary (.of main_call1_cst : Ref32 S_) (.of main_call1_v0 : Ref32 S8x3x1024x1024) (broadcastInDim S8x3x1024x1024 ![] bcast_S_S8x3x1024x1024)
  :: TRef.binary (.of main_v3 : Ref32 S8x3x1024x1024) (.of main_call1_v0 : Ref32 S8x3x1024x1024) (.of main_v4 : Ref32 S8x3x1024x1024) maximumf
  :: [] )
theorem seg3_sub : (seg3 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg3_W : List (Ref sig .tc) := [main_call1_cst, main_call1_v0, main_v4]
theorem seg3_writes : (seg3 : List (HloOp τ sig (Elt F))).Forall fun op => op.writes ⊆ (seg3_W.map (Proc.devRef (τ := τ) .tc)).toFinset := by
  simp only [List.Forall]; and_intros <;> exact sub_W rfl (by decide)

abbrev seg4 : List (HloOp τ sig (Elt F)) :=
  ( binary main_v1 main_v4 main_v5 (addf : Buf32 F S8x3x1024x1024 → Buf32 F S8x3x1024x1024 → Buf32 F S8x3x1024x1024)
  :: binary main_v5 main_v5 main_v6 (mulf : Buf32 F S8x3x1024x1024 → Buf32 F S8x3x1024x1024 → Buf32 F S8x3x1024x1024)
  :: nullary main_cst_2 (constant S_ .f32 0x00000000#32)
  :: binary main_v6 main_cst_2 main_v7 ((fun x v => Host.reduceAdd x v reducesTo_S8x3x1024x1024_S_d0_1_2_3 h_S_) : Buf32 F S8x3x1024x1024 → Buf32 F S_ → Buf32 F S_)
  :: nullary main_cst_3 (constant S_ .f32 0x4BC00000#32)
  :: binary main_v7 main_cst_3 main_v8 (Host.divf : Buf32 F S_ → Buf32 F S_ → Buf32 F S_)
  :: nullary main_c (constantI S_ 32 1#32)
  :: [] )
theorem seg4_sub : (seg4 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg4_W : List (Ref sig .tc) := [main_v5, main_v6, main_cst_2, main_v7, main_cst_3, main_v8, main_c]
theorem seg4_writes : (seg4 : List (HloOp τ sig (Elt F))).Forall fun op => op.writes ⊆ (seg4_W.map (Proc.devRef (τ := τ) .tc)).toFinset := by
  simp only [List.Forall]; and_intros <;> exact sub_W rfl (by decide)

abbrev seg5 : List (HloOp τ sig (Elt F)) :=
  ( TRef.nullary (.of main_call2_call0_cst : Ref32 S_) (constant S_ .f32 0x00000000#32)
  :: TRef.binary (.of main_arg0 : Ref32 S8x3x1024x1024) (.of main_call2_call0_cst : Ref32 S_) (.of main_call2_call0_v0 : Ref32 S8x3) (fun x v => Host.reduceAdd x v reducesTo_S8x3x1024x1024_S8x3_d2_3 h_S_)
  :: TRef.unary (.of main_call2_call0_v0 : Ref32 S8x3) (.of main_call2_call0_v1 : Ref32 S8x3x1x1) (broadcastInDim S8x3x1x1 ![0, 1] bcast_S8x3_S8x3x1x1_0_1)
  :: TRef.nullary (.of main_call2_call0_cst_0 : Ref32 S_) (constant S_ .f32 0x49800000#32)
  :: TRef.unary (.of main_call2_call0_cst_0 : Ref32 S_) (.of main_call2_call0_v2 : Ref32 S8x3x1x1) (broadcastInDim S8x3x1x1 ![] bcast_S_S8x3x1x1)
  :: TRef.binary (.of main_call2_call0_v1 : Ref32 S8x3x1x1) (.of main_call2_call0_v2 : Ref32 S8x3x1x1) (.of main_call2_call0_v3 : Ref32 S8x3x1x1) Host.divf
  :: TRef.unary (.of main_call2_call0_v3 : Ref32 S8x3x1x1) (.of main_call2_call0_v4 : Ref32 S8x3x1024x1024) (broadcastInDim S8x3x1024x1024 ![0, 1, 2, 3] bcast_S8x3x1x1_S8x3x1024x1024_0_1_2_3)
  :: TRef.binary (.of main_arg0 : Ref32 S8x3x1024x1024) (.of main_call2_call0_v4 : Ref32 S8x3x1024x1024) (.of main_call2_call0_v5 : Ref32 S8x3x1024x1024) subf
  :: TRef.binary (.of main_call2_call0_v5 : Ref32 S8x3x1024x1024) (.of main_call2_call0_v5 : Ref32 S8x3x1024x1024) (.of main_call2_call0_v6 : Ref32 S8x3x1024x1024) mulf
  :: TRef.unary (.of main_c : TRef sig ⟨S_, .i32⟩) (.of main_call2_call0_v7 : Ref32 S_) (sitofp .f32)
  :: TRef.nullary (.of main_call2_call0_cst_1 : Ref32 S_) (constant S_ .f32 0x49800000#32)
  :: TRef.binary (.of main_call2_call0_cst_1 : Ref32 S_) (.of main_call2_call0_v7 : Ref32 S_) (.of main_call2_call0_v8 : Ref32 S_) subf
  :: TRef.nullary (.of main_call2_call0_cst_2 : Ref32 S_) (constant S_ .f32 0x00000000#32)
  :: TRef.binary (.of main_call2_call0_v6 : Ref32 S8x3x1024x1024) (.of main_call2_call0_cst_2 : Ref32 S_) (.of main_call2_call0_v9 : Ref32 S8x3) (fun x v => Host.reduceAdd x v reducesTo_S8x3x1024x1024_S8x3_d2_3 h_S_)
  :: TRef.unary (.of main_call2_call0_v8 : Ref32 S_) (.of main_call2_call0_v10 : Ref32 S8x3) (broadcastInDim S8x3 ![] bcast_S_S8x3)
  :: TRef.binary (.of main_call2_call0_v9 : Ref32 S8x3) (.of main_call2_call0_v10 : Ref32 S8x3) (.of main_call2_call0_v11 : Ref32 S8x3) Host.divf
  :: TRef.nullary (.of main_call2_call0_cst_3 : Ref32 S_) (constant S_ .f32 0x00000000#32)
  :: TRef.binary (.of main_call2_call0_v8 : Ref32 S_) (.of main_call2_call0_cst_3 : Ref32 S_) (.of main_call2_call0_v12 : TRef sig ⟨S_, .i1⟩) (cmpf .ogt)
  :: TRef.nullary (.of main_call2_call0_cst_4 : Ref32 S_) (constant S_ .f32 0x7FC00000#32)
  :: TRef.unary (.of main_call2_call0_cst_4 : Ref32 S_) (.of main_call2_call0_call0_v0 : Ref32 S_) id
  :: TRef.unary (.of main_call2_call0_call0_v0 : Ref32 S_) (.of main_call2_call0_call0_v1 : Ref32 S8x3) (broadcastInDim S8x3 ![] bcast_S_S8x3)
  :: TRef.ternary (.of main_call2_call0_v12 : TRef sig ⟨S_, .i1⟩) (.of main_call2_call0_v11 : Ref32 S8x3) (.of main_call2_call0_call0_v1 : Ref32 S8x3) (.of main_call2_v0 : Ref32 S8x3) (fun p a b => select (broadcastInDim S8x3 ![] bcast_S_S8x3 p) a b)
  :: TRef.unary (.of main_call2_v0 : Ref32 S8x3) (.of main_v9 : Ref32 S8x3) Host.sqrt
  :: [] )
theorem seg5_sub : (seg5 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg5_W : List (Ref sig .tc) := [main_call2_call0_cst, main_call2_call0_v0, main_call2_call0_v1, main_call2_call0_cst_0, main_call2_call0_v2, main_call2_call0_v3, main_call2_call0_v4, main_call2_call0_v5, main_call2_call0_v6, main_call2_call0_v7, main_call2_call0_cst_1, main_call2_call0_v8, main_call2_call0_cst_2, main_call2_call0_v9, main_call2_call0_v10, main_call2_call0_v11, main_call2_call0_cst_3, main_call2_call0_v12, main_call2_call0_cst_4, main_call2_call0_call0_v0, main_call2_call0_call0_v1, main_call2_v0, main_v9]
theorem seg5_writes : (seg5 : List (HloOp τ sig (Elt F))).Forall fun op => op.writes ⊆ (seg5_W.map (Proc.devRef (τ := τ) .tc)).toFinset := by
  simp only [List.Forall]; and_intros <;> exact sub_W rfl (by decide)

abbrev seg6 : List (HloOp τ sig (Elt F)) :=
  ( nullary main_cst_4 (constant S_ .f32 0x00000000#32)
  :: binary main_arg1 main_cst_4 main_v10 ((fun x v => Host.reduceAdd x v reducesTo_S8x3x1024x1024_S8x3_d2_3 h_S_) : Buf32 F S8x3x1024x1024 → Buf32 F S_ → Buf32 F S8x3)
  :: unary main_v10 main_v11 (broadcastInDim S8x3x1x1 ![0, 1] bcast_S8x3_S8x3x1x1_0_1 : Buf32 F S8x3 → Buf32 F S8x3x1x1)
  :: nullary main_cst_5 (constant S_ .f32 0x49800000#32)
  :: unary main_cst_5 main_v12 (broadcastInDim S8x3x1x1 ![] bcast_S_S8x3x1x1 : Buf32 F S_ → Buf32 F S8x3x1x1)
  :: binary main_v11 main_v12 main_v13 (Host.divf : Buf32 F S8x3x1x1 → Buf32 F S8x3x1x1 → Buf32 F S8x3x1x1)
  :: nullary main_c_6 (constantI S_ 32 1#32)
  :: [] )
theorem seg6_sub : (seg6 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg6_W : List (Ref sig .tc) := [main_cst_4, main_v10, main_v11, main_cst_5, main_v12, main_v13, main_c_6]
theorem seg6_writes : (seg6 : List (HloOp τ sig (Elt F))).Forall fun op => op.writes ⊆ (seg6_W.map (Proc.devRef (τ := τ) .tc)).toFinset := by
  simp only [List.Forall]; and_intros <;> exact sub_W rfl (by decide)

abbrev seg7 : List (HloOp τ sig (Elt F)) :=
  ( TRef.nullary (.of main_call3_call0_cst : Ref32 S_) (constant S_ .f32 0x00000000#32)
  :: TRef.binary (.of main_arg1 : Ref32 S8x3x1024x1024) (.of main_call3_call0_cst : Ref32 S_) (.of main_call3_call0_v0 : Ref32 S8x3) (fun x v => Host.reduceAdd x v reducesTo_S8x3x1024x1024_S8x3_d2_3 h_S_)
  :: TRef.unary (.of main_call3_call0_v0 : Ref32 S8x3) (.of main_call3_call0_v1 : Ref32 S8x3x1x1) (broadcastInDim S8x3x1x1 ![0, 1] bcast_S8x3_S8x3x1x1_0_1)
  :: TRef.nullary (.of main_call3_call0_cst_0 : Ref32 S_) (constant S_ .f32 0x49800000#32)
  :: TRef.unary (.of main_call3_call0_cst_0 : Ref32 S_) (.of main_call3_call0_v2 : Ref32 S8x3x1x1) (broadcastInDim S8x3x1x1 ![] bcast_S_S8x3x1x1)
  :: TRef.binary (.of main_call3_call0_v1 : Ref32 S8x3x1x1) (.of main_call3_call0_v2 : Ref32 S8x3x1x1) (.of main_call3_call0_v3 : Ref32 S8x3x1x1) Host.divf
  :: TRef.unary (.of main_call3_call0_v3 : Ref32 S8x3x1x1) (.of main_call3_call0_v4 : Ref32 S8x3x1024x1024) (broadcastInDim S8x3x1024x1024 ![0, 1, 2, 3] bcast_S8x3x1x1_S8x3x1024x1024_0_1_2_3)
  :: TRef.binary (.of main_arg1 : Ref32 S8x3x1024x1024) (.of main_call3_call0_v4 : Ref32 S8x3x1024x1024) (.of main_call3_call0_v5 : Ref32 S8x3x1024x1024) subf
  :: TRef.binary (.of main_call3_call0_v5 : Ref32 S8x3x1024x1024) (.of main_call3_call0_v5 : Ref32 S8x3x1024x1024) (.of main_call3_call0_v6 : Ref32 S8x3x1024x1024) mulf
  :: TRef.unary (.of main_c_6 : TRef sig ⟨S_, .i32⟩) (.of main_call3_call0_v7 : Ref32 S_) (sitofp .f32)
  :: TRef.nullary (.of main_call3_call0_cst_1 : Ref32 S_) (constant S_ .f32 0x49800000#32)
  :: TRef.binary (.of main_call3_call0_cst_1 : Ref32 S_) (.of main_call3_call0_v7 : Ref32 S_) (.of main_call3_call0_v8 : Ref32 S_) subf
  :: TRef.nullary (.of main_call3_call0_cst_2 : Ref32 S_) (constant S_ .f32 0x00000000#32)
  :: TRef.binary (.of main_call3_call0_v6 : Ref32 S8x3x1024x1024) (.of main_call3_call0_cst_2 : Ref32 S_) (.of main_call3_call0_v9 : Ref32 S8x3) (fun x v => Host.reduceAdd x v reducesTo_S8x3x1024x1024_S8x3_d2_3 h_S_)
  :: TRef.unary (.of main_call3_call0_v8 : Ref32 S_) (.of main_call3_call0_v10 : Ref32 S8x3) (broadcastInDim S8x3 ![] bcast_S_S8x3)
  :: TRef.binary (.of main_call3_call0_v9 : Ref32 S8x3) (.of main_call3_call0_v10 : Ref32 S8x3) (.of main_call3_call0_v11 : Ref32 S8x3) Host.divf
  :: TRef.nullary (.of main_call3_call0_cst_3 : Ref32 S_) (constant S_ .f32 0x00000000#32)
  :: TRef.binary (.of main_call3_call0_v8 : Ref32 S_) (.of main_call3_call0_cst_3 : Ref32 S_) (.of main_call3_call0_v12 : TRef sig ⟨S_, .i1⟩) (cmpf .ogt)
  :: TRef.nullary (.of main_call3_call0_cst_4 : Ref32 S_) (constant S_ .f32 0x7FC00000#32)
  :: TRef.unary (.of main_call3_call0_cst_4 : Ref32 S_) (.of main_call3_call0_call0_v0 : Ref32 S_) id
  :: TRef.unary (.of main_call3_call0_call0_v0 : Ref32 S_) (.of main_call3_call0_call0_v1 : Ref32 S8x3) (broadcastInDim S8x3 ![] bcast_S_S8x3)
  :: TRef.ternary (.of main_call3_call0_v12 : TRef sig ⟨S_, .i1⟩) (.of main_call3_call0_v11 : Ref32 S8x3) (.of main_call3_call0_call0_v1 : Ref32 S8x3) (.of main_call3_v0 : Ref32 S8x3) (fun p a b => select (broadcastInDim S8x3 ![] bcast_S_S8x3 p) a b)
  :: TRef.unary (.of main_call3_v0 : Ref32 S8x3) (.of main_v14 : Ref32 S8x3) Host.sqrt
  :: [] )
theorem seg7_sub : (seg7 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg7_W : List (Ref sig .tc) := [main_call3_call0_cst, main_call3_call0_v0, main_call3_call0_v1, main_call3_call0_cst_0, main_call3_call0_v2, main_call3_call0_v3, main_call3_call0_v4, main_call3_call0_v5, main_call3_call0_v6, main_call3_call0_v7, main_call3_call0_cst_1, main_call3_call0_v8, main_call3_call0_cst_2, main_call3_call0_v9, main_call3_call0_v10, main_call3_call0_v11, main_call3_call0_cst_3, main_call3_call0_v12, main_call3_call0_cst_4, main_call3_call0_call0_v0, main_call3_call0_call0_v1, main_call3_v0, main_v14]
theorem seg7_writes : (seg7 : List (HloOp τ sig (Elt F))).Forall fun op => op.writes ⊆ (seg7_W.map (Proc.devRef (τ := τ) .tc)).toFinset := by
  simp only [List.Forall]; and_intros <;> exact sub_W rfl (by decide)

abbrev seg8 : List (HloOp τ sig (Elt F)) :=
  ( nullary main_cst_7 (constant S_ .f32 0x3F000000#32)
  :: unary main_cst_7 main_v15 (broadcastInDim S8x3x1x1 ![] bcast_S_S8x3x1x1 : Buf32 F S_ → Buf32 F S8x3x1x1)
  :: binary main_v13 main_v15 main_v16 (subf : Buf32 F S8x3x1x1 → Buf32 F S8x3x1x1 → Buf32 F S8x3x1x1)
  :: binary main_v16 main_v16 main_v17 (mulf : Buf32 F S8x3x1x1 → Buf32 F S8x3x1x1 → Buf32 F S8x3x1x1)
  :: nullary main_cst_8 (constant S_ .f32 0x00000000#32)
  :: binary main_v17 main_cst_8 main_v18 ((fun x v => Host.reduceAdd x v reducesTo_S8x3x1x1_S_d0_1_2_3 h_S_) : Buf32 F S8x3x1x1 → Buf32 F S_ → Buf32 F S_)
  :: nullary main_cst_9 (constant S_ .f32 0x41C00000#32)
  :: binary main_v18 main_cst_9 main_v19 (Host.divf : Buf32 F S_ → Buf32 F S_ → Buf32 F S_)
  :: binary main_v14 main_v9 main_v20 (subf : Buf32 F S8x3 → Buf32 F S8x3 → Buf32 F S8x3)
  :: binary main_v20 main_v20 main_v21 (mulf : Buf32 F S8x3 → Buf32 F S8x3 → Buf32 F S8x3)
  :: nullary main_cst_10 (constant S_ .f32 0x00000000#32)
  :: binary main_v21 main_cst_10 main_v22 ((fun x v => Host.reduceAdd x v reducesTo_S8x3_S_d0_1 h_S_) : Buf32 F S8x3 → Buf32 F S_ → Buf32 F S_)
  :: nullary main_cst_11 (constant S_ .f32 0x41C00000#32)
  :: binary main_v22 main_cst_11 main_v23 (Host.divf : Buf32 F S_ → Buf32 F S_ → Buf32 F S_)
  :: unary main_arg1 main_v24 ((extractStridedSlice S1x1x1024x1024 ![0, 0, 0, 0] · slices_S8x3x1024x1024_S1x1x1024x1024_0_0_0_0) : Buf32 F S8x3x1024x1024 → Buf32 F S1x1x1024x1024)
  :: reshape main_v24 main_v25 rfl shapeCasts_S1x1x1024x1024_S1024x1024
  :: unary main_arg0 main_v26 ((extractStridedSlice S1x1x1024x1024 ![0, 0, 0, 0] · slices_S8x3x1024x1024_S1x1x1024x1024_0_0_0_0) : Buf32 F S8x3x1024x1024 → Buf32 F S1x1x1024x1024)
  :: reshape main_v26 main_v27 rfl shapeCasts_S1x1x1024x1024_S1024x1024
  :: nullary main_c_12 (constantI S_ 32 0#32)
  :: [] )
theorem seg8_sub : (seg8 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg8_W : List (Ref sig .tc) := [main_cst_7, main_v15, main_v16, main_v17, main_cst_8, main_v18, main_cst_9, main_v19, main_v20, main_v21, main_cst_10, main_v22, main_cst_11, main_v23, main_v24, main_v25, main_v26, main_v27, main_c_12]
theorem seg8_writes : (seg8 : List (HloOp τ sig (Elt F))).Forall fun op => op.writes ⊆ (seg8_W.map (Proc.devRef (τ := τ) .tc)).toFinset := by
  simp only [List.Forall]; and_intros <;> exact sub_W rfl (by decide)

abbrev seg9 : List (HloOp τ sig (Elt F)) :=
  ( TRef.unary (.of main_v25 : Ref32 S1024x1024) (.of main_call4_v0 : Ref32 S1024x1) (extractStridedSlice S1024x1 ![0, 0] · slices_S1024x1024_S1024x1_0_0)
  :: TRef.unary (.of main_v25 : Ref32 S1024x1024) (.of main_call4_v1 : Ref32 S1024x1) (extractStridedSlice S1024x1 ![0, 1] · slices_S1024x1024_S1024x1_0_1)
  :: TRef.unary (.of main_call4_v1 : Ref32 S1024x1) (.of main_call4_v2 : Ref32 S1024x1) (Host.reverse [1])
  :: TRef.binary (.of main_call4_v2 : Ref32 S1024x1) (.of main_v25 : Ref32 S1024x1024) (.of main_call4_v3 : Ref32 S1024x1025) (fun a b => concatenate S1024x1025 1 [⟨S1024x1, a⟩, ⟨S1024x1024, b⟩] concatenates_S1024x1_S1024x1024_S1024x1025_d1)
  :: TRef.unary (.of main_call4_v3 : Ref32 S1024x1025) (.of main_call4_v4 : Ref32 S1024x1) (extractStridedSlice S1024x1 ![0, 1024] · slices_S1024x1025_S1024x1_0_1024)
  :: TRef.unary (.of main_call4_v3 : Ref32 S1024x1025) (.of main_call4_v5 : Ref32 S1024x1) (extractStridedSlice S1024x1 ![0, 1023] · slices_S1024x1025_S1024x1_0_1023)
  :: TRef.unary (.of main_call4_v5 : Ref32 S1024x1) (.of main_call4_v6 : Ref32 S1024x1) (Host.reverse [1])
  :: TRef.binary (.of main_call4_v3 : Ref32 S1024x1025) (.of main_call4_v6 : Ref32 S1024x1) (.of main_v28 : Ref32 S1024x1026) (fun a b => concatenate S1024x1026 1 [⟨S1024x1025, a⟩, ⟨S1024x1, b⟩] concatenates_S1024x1025_S1024x1_S1024x1026_d1)
  :: [] )
theorem seg9_sub : (seg9 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg9_W : List (Ref sig .tc) := [main_call4_v0, main_call4_v1, main_call4_v2, main_call4_v3, main_call4_v4, main_call4_v5, main_call4_v6, main_v28]
theorem seg9_writes : (seg9 : List (HloOp τ sig (Elt F))).Forall fun op => op.writes ⊆ (seg9_W.map (Proc.devRef (τ := τ) .tc)).toFinset := by
  simp only [List.Forall]; and_intros <;> exact sub_W rfl (by decide)

abbrev seg10 : List (HloOp τ sig (Elt F)) :=
  ( unary main_v28 main_v29 ((extractStridedSlice S1024x1024 ![0, 0] · slices_S1024x1026_S1024x1024_0_0) : Buf32 F S1024x1026 → Buf32 F S1024x1024)
  :: nullary main_cst_13 (constant S_ .f32 0x40800000#32)
  :: unary main_cst_13 main_v30 (broadcastInDim S1024x1024 ![] bcast_S_S1024x1024 : Buf32 F S_ → Buf32 F S1024x1024)
  :: binary main_v30 main_v29 main_v31 (mulf : Buf32 F S1024x1024 → Buf32 F S1024x1024 → Buf32 F S1024x1024)
  :: unary main_v28 main_v32 ((extractStridedSlice S1024x1024 ![0, 2] · slices_S1024x1026_S1024x1024_0_2) : Buf32 F S1024x1026 → Buf32 F S1024x1024)
  :: nullary main_cst_14 (constant S_ .f32 0x40800000#32)
  :: unary main_cst_14 main_v33 (broadcastInDim S1024x1024 ![] bcast_S_S1024x1024 : Buf32 F S_ → Buf32 F S1024x1024)
  :: binary main_v33 main_v32 main_v34 (mulf : Buf32 F S1024x1024 → Buf32 F S1024x1024 → Buf32 F S1024x1024)
  :: binary main_v31 main_v34 main_v35 (subf : Buf32 F S1024x1024 → Buf32 F S1024x1024 → Buf32 F S1024x1024)
  :: nullary main_c_15 (constantI S_ 32 0#32)
  :: [] )
theorem seg10_sub : (seg10 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg10_W : List (Ref sig .tc) := [main_v29, main_cst_13, main_v30, main_v31, main_v32, main_cst_14, main_v33, main_v34, main_v35, main_c_15]
theorem seg10_writes : (seg10 : List (HloOp τ sig (Elt F))).Forall fun op => op.writes ⊆ (seg10_W.map (Proc.devRef (τ := τ) .tc)).toFinset := by
  simp only [List.Forall]; and_intros <;> exact sub_W rfl (by decide)

abbrev seg11 : List (HloOp τ sig (Elt F)) :=
  ( TRef.unary (.of main_v27 : Ref32 S1024x1024) (.of main_call5_v0 : Ref32 S1024x1) (extractStridedSlice S1024x1 ![0, 0] · slices_S1024x1024_S1024x1_0_0)
  :: TRef.unary (.of main_v27 : Ref32 S1024x1024) (.of main_call5_v1 : Ref32 S1024x1) (extractStridedSlice S1024x1 ![0, 1] · slices_S1024x1024_S1024x1_0_1)
  :: TRef.unary (.of main_call5_v1 : Ref32 S1024x1) (.of main_call5_v2 : Ref32 S1024x1) (Host.reverse [1])
  :: TRef.binary (.of main_call5_v2 : Ref32 S1024x1) (.of main_v27 : Ref32 S1024x1024) (.of main_call5_v3 : Ref32 S1024x1025) (fun a b => concatenate S1024x1025 1 [⟨S1024x1, a⟩, ⟨S1024x1024, b⟩] concatenates_S1024x1_S1024x1024_S1024x1025_d1)
  :: TRef.unary (.of main_call5_v3 : Ref32 S1024x1025) (.of main_call5_v4 : Ref32 S1024x1) (extractStridedSlice S1024x1 ![0, 1024] · slices_S1024x1025_S1024x1_0_1024)
  :: TRef.unary (.of main_call5_v3 : Ref32 S1024x1025) (.of main_call5_v5 : Ref32 S1024x1) (extractStridedSlice S1024x1 ![0, 1023] · slices_S1024x1025_S1024x1_0_1023)
  :: TRef.unary (.of main_call5_v5 : Ref32 S1024x1) (.of main_call5_v6 : Ref32 S1024x1) (Host.reverse [1])
  :: TRef.binary (.of main_call5_v3 : Ref32 S1024x1025) (.of main_call5_v6 : Ref32 S1024x1) (.of main_v36 : Ref32 S1024x1026) (fun a b => concatenate S1024x1026 1 [⟨S1024x1025, a⟩, ⟨S1024x1, b⟩] concatenates_S1024x1025_S1024x1_S1024x1026_d1)
  :: [] )
theorem seg11_sub : (seg11 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg11_W : List (Ref sig .tc) := [main_call5_v0, main_call5_v1, main_call5_v2, main_call5_v3, main_call5_v4, main_call5_v5, main_call5_v6, main_v36]
theorem seg11_writes : (seg11 : List (HloOp τ sig (Elt F))).Forall fun op => op.writes ⊆ (seg11_W.map (Proc.devRef (τ := τ) .tc)).toFinset := by
  simp only [List.Forall]; and_intros <;> exact sub_W rfl (by decide)

abbrev seg12 : List (HloOp τ sig (Elt F)) :=
  ( unary main_v36 main_v37 ((extractStridedSlice S1024x1024 ![0, 0] · slices_S1024x1026_S1024x1024_0_0) : Buf32 F S1024x1026 → Buf32 F S1024x1024)
  :: nullary main_cst_16 (constant S_ .f32 0x40800000#32)
  :: unary main_cst_16 main_v38 (broadcastInDim S1024x1024 ![] bcast_S_S1024x1024 : Buf32 F S_ → Buf32 F S1024x1024)
  :: binary main_v38 main_v37 main_v39 (mulf : Buf32 F S1024x1024 → Buf32 F S1024x1024 → Buf32 F S1024x1024)
  :: unary main_v36 main_v40 ((extractStridedSlice S1024x1024 ![0, 2] · slices_S1024x1026_S1024x1024_0_2) : Buf32 F S1024x1026 → Buf32 F S1024x1024)
  :: [] )
theorem seg12_sub : (seg12 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg12_W : List (Ref sig .tc) := [main_v37, main_cst_16, main_v38, main_v39, main_v40]
theorem seg12_writes : (seg12 : List (HloOp τ sig (Elt F))).Forall fun op => op.writes ⊆ (seg12_W.map (Proc.devRef (τ := τ) .tc)).toFinset := by
  simp only [List.Forall]; and_intros <;> exact sub_W rfl (by decide)

abbrev seg13 : List (HloOp τ sig (Elt F)) :=
  ( nullary main_cst_17 (constant S_ .f32 0x40800000#32)
  :: unary main_cst_17 main_v41 (broadcastInDim S1024x1024 ![] bcast_S_S1024x1024 : Buf32 F S_ → Buf32 F S1024x1024)
  :: binary main_v41 main_v40 main_v42 (mulf : Buf32 F S1024x1024 → Buf32 F S1024x1024 → Buf32 F S1024x1024)
  :: binary main_v39 main_v42 main_v43 (subf : Buf32 F S1024x1024 → Buf32 F S1024x1024 → Buf32 F S1024x1024)
  :: binary main_v35 main_v43 main_v44 (subf : Buf32 F S1024x1024 → Buf32 F S1024x1024 → Buf32 F S1024x1024)
  :: unary main_v44 main_v45 (Host.absf : Buf32 F S1024x1024 → Buf32 F S1024x1024)
  :: nullary main_cst_18 (constant S_ .f32 0x00000000#32)
  :: binary main_v45 main_cst_18 main_v46 ((fun x v => Host.reduceAdd x v reducesTo_S1024x1024_S_d0_1 h_S_) : Buf32 F S1024x1024 → Buf32 F S_ → Buf32 F S_)
  :: nullary main_cst_19 (constant S_ .f32 0x49800000#32)
  :: binary main_v46 main_cst_19 main_v47 (Host.divf : Buf32 F S_ → Buf32 F S_ → Buf32 F S_)
  :: nullary main_cst_20 (constant S_ .f32 0x00000000#32)
  :: binary main_arg1 main_cst_20 main_v48 ((fun x v => Host.reduceAdd x v reducesTo_S8x3x1024x1024_S8x1024x1024_d1 h_S_) : Buf32 F S8x3x1024x1024 → Buf32 F S_ → Buf32 F S8x1024x1024)
  :: nullary main_cst_21 (constant S_ .f32 0x40400000#32)
  :: unary main_cst_21 main_v49 (broadcastInDim S8x1024x1024 ![] bcast_S_S8x1024x1024 : Buf32 F S_ → Buf32 F S8x1024x1024)
  :: binary main_v48 main_v49 main_v50 (Host.divf : Buf32 F S8x1024x1024 → Buf32 F S8x1024x1024 → Buf32 F S8x1024x1024)
  :: nullary main_cst_22 (constant S_ .f32 0x00000000#32)
  :: binary main_arg0 main_cst_22 main_v51 ((fun x v => Host.reduceAdd x v reducesTo_S8x3x1024x1024_S8x1024x1024_d1 h_S_) : Buf32 F S8x3x1024x1024 → Buf32 F S_ → Buf32 F S8x1024x1024)
  :: nullary main_cst_23 (constant S_ .f32 0x40400000#32)
  :: unary main_cst_23 main_v52 (broadcastInDim S8x1024x1024 ![] bcast_S_S8x1024x1024 : Buf32 F S_ → Buf32 F S8x1024x1024)
  :: binary main_v51 main_v52 main_v53 (Host.divf : Buf32 F S8x1024x1024 → Buf32 F S8x1024x1024 → Buf32 F S8x1024x1024)
  :: nullary main_c_24 (constantI S_ 32 0#32)
  :: [] )
theorem seg13_sub : (seg13 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg13_W : List (Ref sig .tc) := [main_cst_17, main_v41, main_v42, main_v43, main_v44, main_v45, main_cst_18, main_v46, main_cst_19, main_v47, main_cst_20, main_v48, main_cst_21, main_v49, main_v50, main_cst_22, main_v51, main_cst_23, main_v52, main_v53, main_c_24]
theorem seg13_writes : (seg13 : List (HloOp τ sig (Elt F))).Forall fun op => op.writes ⊆ (seg13_W.map (Proc.devRef (τ := τ) .tc)).toFinset := by
  simp only [List.Forall]; and_intros <;> exact sub_W rfl (by decide)

abbrev seg14 : List (HloOp τ sig (Elt F)) :=
  ( TRef.unary (.of main_v50 : Ref32 S8x1024x1024) (.of main_call6_v0 : Ref32 S8x1x1024) (extractStridedSlice S8x1x1024 ![0, 0, 0] · slices_S8x1024x1024_S8x1x1024_0_0_0)
  :: TRef.unary (.of main_v50 : Ref32 S8x1024x1024) (.of main_call6_v1 : Ref32 S8x1x1024) (extractStridedSlice S8x1x1024 ![0, 1, 0] · slices_S8x1024x1024_S8x1x1024_0_1_0)
  :: TRef.unary (.of main_call6_v1 : Ref32 S8x1x1024) (.of main_call6_v2 : Ref32 S8x1x1024) (Host.reverse [1])
  :: TRef.binary (.of main_call6_v2 : Ref32 S8x1x1024) (.of main_v50 : Ref32 S8x1024x1024) (.of main_call6_v3 : Ref32 S8x1025x1024) (fun a b => concatenate S8x1025x1024 1 [⟨S8x1x1024, a⟩, ⟨S8x1024x1024, b⟩] concatenates_S8x1x1024_S8x1024x1024_S8x1025x1024_d1)
  :: TRef.unary (.of main_call6_v3 : Ref32 S8x1025x1024) (.of main_call6_v4 : Ref32 S8x1x1024) (extractStridedSlice S8x1x1024 ![0, 1024, 0] · slices_S8x1025x1024_S8x1x1024_0_1024_0)
  :: TRef.unary (.of main_call6_v3 : Ref32 S8x1025x1024) (.of main_call6_v5 : Ref32 S8x1x1024) (extractStridedSlice S8x1x1024 ![0, 1023, 0] · slices_S8x1025x1024_S8x1x1024_0_1023_0)
  :: TRef.unary (.of main_call6_v5 : Ref32 S8x1x1024) (.of main_call6_v6 : Ref32 S8x1x1024) (Host.reverse [1])
  :: TRef.binary (.of main_call6_v3 : Ref32 S8x1025x1024) (.of main_call6_v6 : Ref32 S8x1x1024) (.of main_call6_v7 : Ref32 S8x1026x1024) (fun a b => concatenate S8x1026x1024 1 [⟨S8x1025x1024, a⟩, ⟨S8x1x1024, b⟩] concatenates_S8x1025x1024_S8x1x1024_S8x1026x1024_d1)
  :: TRef.unary (.of main_call6_v7 : Ref32 S8x1026x1024) (.of main_call6_v8 : Ref32 S8x1026x1) (extractStridedSlice S8x1026x1 ![0, 0, 0] · slices_S8x1026x1024_S8x1026x1_0_0_0)
  :: TRef.unary (.of main_call6_v7 : Ref32 S8x1026x1024) (.of main_call6_v9 : Ref32 S8x1026x1) (extractStridedSlice S8x1026x1 ![0, 0, 1] · slices_S8x1026x1024_S8x1026x1_0_0_1)
  :: TRef.unary (.of main_call6_v9 : Ref32 S8x1026x1) (.of main_call6_v10 : Ref32 S8x1026x1) (Host.reverse [2])
  :: TRef.binary (.of main_call6_v10 : Ref32 S8x1026x1) (.of main_call6_v7 : Ref32 S8x1026x1024) (.of main_call6_v11 : Ref32 S8x1026x1025) (fun a b => concatenate S8x1026x1025 2 [⟨S8x1026x1, a⟩, ⟨S8x1026x1024, b⟩] concatenates_S8x1026x1_S8x1026x1024_S8x1026x1025_d2)
  :: TRef.unary (.of main_call6_v11 : Ref32 S8x1026x1025) (.of main_call6_v12 : Ref32 S8x1026x1) (extractStridedSlice S8x1026x1 ![0, 0, 1024] · slices_S8x1026x1025_S8x1026x1_0_0_1024)
  :: TRef.unary (.of main_call6_v11 : Ref32 S8x1026x1025) (.of main_call6_v13 : Ref32 S8x1026x1) (extractStridedSlice S8x1026x1 ![0, 0, 1023] · slices_S8x1026x1025_S8x1026x1_0_0_1023)
  :: TRef.unary (.of main_call6_v13 : Ref32 S8x1026x1) (.of main_call6_v14 : Ref32 S8x1026x1) (Host.reverse [2])
  :: TRef.binary (.of main_call6_v11 : Ref32 S8x1026x1025) (.of main_call6_v14 : Ref32 S8x1026x1) (.of main_v54 : Ref32 S8x1026x1026) (fun a b => concatenate S8x1026x1026 2 [⟨S8x1026x1025, a⟩, ⟨S8x1026x1, b⟩] concatenates_S8x1026x1025_S8x1026x1_S8x1026x1026_d2)
  :: [] )
theorem seg14_sub : (seg14 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg14_W : List (Ref sig .tc) := [main_call6_v0, main_call6_v1, main_call6_v2, main_call6_v3, main_call6_v4, main_call6_v5, main_call6_v6, main_call6_v7, main_call6_v8, main_call6_v9, main_call6_v10, main_call6_v11, main_call6_v12, main_call6_v13, main_call6_v14, main_v54]
theorem seg14_writes : (seg14 : List (HloOp τ sig (Elt F))).Forall fun op => op.writes ⊆ (seg14_W.map (Proc.devRef (τ := τ) .tc)).toFinset := by
  simp only [List.Forall]; and_intros <;> exact sub_W rfl (by decide)

abbrev seg15 : List (HloOp τ sig (Elt F)) :=
  ( nullary main_cst_25 (constant S_ .f32 0x00000000#32)
  :: unary main_cst_25 main_v55 (broadcastInDim S8x1024x1024 ![] bcast_S_S8x1024x1024 : Buf32 F S_ → Buf32 F S8x1024x1024)
  :: unary main_cst main_v56 ((extractStridedSlice S1x1 ![0, 0] · slices_S3x3_S1x1_0_0) : Buf32 F S3x3 → Buf32 F S1x1)
  :: reshape main_v56 main_v57 rfl shapeCasts_S1x1_S_
  :: unary main_v54 main_v58 ((extractStridedSlice S8x1024x1024 ![0, 0, 0] · slices_S8x1026x1026_S8x1024x1024_0_0_0) : Buf32 F S8x1026x1026 → Buf32 F S8x1024x1024)
  :: unary main_v57 main_v59 (broadcastInDim S8x1024x1024 ![] bcast_S_S8x1024x1024 : Buf32 F S_ → Buf32 F S8x1024x1024)
  :: binary main_v59 main_v58 main_v60 (mulf : Buf32 F S8x1024x1024 → Buf32 F S8x1024x1024 → Buf32 F S8x1024x1024)
  :: binary main_v55 main_v60 main_v61 (addf : Buf32 F S8x1024x1024 → Buf32 F S8x1024x1024 → Buf32 F S8x1024x1024)
  :: unary main_cst main_v62 ((extractStridedSlice S1x1 ![0, 1] · slices_S3x3_S1x1_0_1) : Buf32 F S3x3 → Buf32 F S1x1)
  :: reshape main_v62 main_v63 rfl shapeCasts_S1x1_S_
  :: unary main_v54 main_v64 ((extractStridedSlice S8x1024x1024 ![0, 0, 1] · slices_S8x1026x1026_S8x1024x1024_0_0_1) : Buf32 F S8x1026x1026 → Buf32 F S8x1024x1024)
  :: unary main_v63 main_v65 (broadcastInDim S8x1024x1024 ![] bcast_S_S8x1024x1024 : Buf32 F S_ → Buf32 F S8x1024x1024)
  :: binary main_v65 main_v64 main_v66 (mulf : Buf32 F S8x1024x1024 → Buf32 F S8x1024x1024 → Buf32 F S8x1024x1024)
  :: binary main_v61 main_v66 main_v67 (addf : Buf32 F S8x1024x1024 → Buf32 F S8x1024x1024 → Buf32 F S8x1024x1024)
  :: unary main_cst main_v68 ((extractStridedSlice S1x1 ![0, 2] · slices_S3x3_S1x1_0_2) : Buf32 F S3x3 → Buf32 F S1x1)
  :: reshape main_v68 main_v69 rfl shapeCasts_S1x1_S_
  :: unary main_v54 main_v70 ((extractStridedSlice S8x1024x1024 ![0, 0, 2] · slices_S8x1026x1026_S8x1024x1024_0_0_2) : Buf32 F S8x1026x1026 → Buf32 F S8x1024x1024)
  :: unary main_v69 main_v71 (broadcastInDim S8x1024x1024 ![] bcast_S_S8x1024x1024 : Buf32 F S_ → Buf32 F S8x1024x1024)
  :: binary main_v71 main_v70 main_v72 (mulf : Buf32 F S8x1024x1024 → Buf32 F S8x1024x1024 → Buf32 F S8x1024x1024)
  :: binary main_v67 main_v72 main_v73 (addf : Buf32 F S8x1024x1024 → Buf32 F S8x1024x1024 → Buf32 F S8x1024x1024)
  :: unary main_cst main_v74 ((extractStridedSlice S1x1 ![1, 0] · slices_S3x3_S1x1_1_0) : Buf32 F S3x3 → Buf32 F S1x1)
  :: reshape main_v74 main_v75 rfl shapeCasts_S1x1_S_
  :: unary main_v54 main_v76 ((extractStridedSlice S8x1024x1024 ![0, 1, 0] · slices_S8x1026x1026_S8x1024x1024_0_1_0) : Buf32 F S8x1026x1026 → Buf32 F S8x1024x1024)
  :: unary main_v75 main_v77 (broadcastInDim S8x1024x1024 ![] bcast_S_S8x1024x1024 : Buf32 F S_ → Buf32 F S8x1024x1024)
  :: binary main_v77 main_v76 main_v78 (mulf : Buf32 F S8x1024x1024 → Buf32 F S8x1024x1024 → Buf32 F S8x1024x1024)
  :: binary main_v73 main_v78 main_v79 (addf : Buf32 F S8x1024x1024 → Buf32 F S8x1024x1024 → Buf32 F S8x1024x1024)
  :: unary main_cst main_v80 ((extractStridedSlice S1x1 ![1, 1] · slices_S3x3_S1x1_1_1) : Buf32 F S3x3 → Buf32 F S1x1)
  :: reshape main_v80 main_v81 rfl shapeCasts_S1x1_S_
  :: unary main_v54 main_v82 ((extractStridedSlice S8x1024x1024 ![0, 1, 1] · slices_S8x1026x1026_S8x1024x1024_0_1_1) : Buf32 F S8x1026x1026 → Buf32 F S8x1024x1024)
  :: unary main_v81 main_v83 (broadcastInDim S8x1024x1024 ![] bcast_S_S8x1024x1024 : Buf32 F S_ → Buf32 F S8x1024x1024)
  :: binary main_v83 main_v82 main_v84 (mulf : Buf32 F S8x1024x1024 → Buf32 F S8x1024x1024 → Buf32 F S8x1024x1024)
  :: binary main_v79 main_v84 main_v85 (addf : Buf32 F S8x1024x1024 → Buf32 F S8x1024x1024 → Buf32 F S8x1024x1024)
  :: unary main_cst main_v86 ((extractStridedSlice S1x1 ![1, 2] · slices_S3x3_S1x1_1_2) : Buf32 F S3x3 → Buf32 F S1x1)
  :: reshape main_v86 main_v87 rfl shapeCasts_S1x1_S_
  :: unary main_v54 main_v88 ((extractStridedSlice S8x1024x1024 ![0, 1, 2] · slices_S8x1026x1026_S8x1024x1024_0_1_2) : Buf32 F S8x1026x1026 → Buf32 F S8x1024x1024)
  :: unary main_v87 main_v89 (broadcastInDim S8x1024x1024 ![] bcast_S_S8x1024x1024 : Buf32 F S_ → Buf32 F S8x1024x1024)
  :: binary main_v89 main_v88 main_v90 (mulf : Buf32 F S8x1024x1024 → Buf32 F S8x1024x1024 → Buf32 F S8x1024x1024)
  :: binary main_v85 main_v90 main_v91 (addf : Buf32 F S8x1024x1024 → Buf32 F S8x1024x1024 → Buf32 F S8x1024x1024)
  :: [] )
theorem seg15_sub : (seg15 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg15_W : List (Ref sig .tc) := [main_cst_25, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91]
theorem seg15_writes : (seg15 : List (HloOp τ sig (Elt F))).Forall fun op => op.writes ⊆ (seg15_W.map (Proc.devRef (τ := τ) .tc)).toFinset := by
  simp only [List.Forall]; and_intros <;> exact sub_W rfl (by decide)

abbrev seg16 : List (HloOp τ sig (Elt F)) :=
  ( unary main_cst main_v92 ((extractStridedSlice S1x1 ![2, 0] · slices_S3x3_S1x1_2_0) : Buf32 F S3x3 → Buf32 F S1x1)
  :: reshape main_v92 main_v93 rfl shapeCasts_S1x1_S_
  :: unary main_v54 main_v94 ((extractStridedSlice S8x1024x1024 ![0, 2, 0] · slices_S8x1026x1026_S8x1024x1024_0_2_0) : Buf32 F S8x1026x1026 → Buf32 F S8x1024x1024)
  :: unary main_v93 main_v95 (broadcastInDim S8x1024x1024 ![] bcast_S_S8x1024x1024 : Buf32 F S_ → Buf32 F S8x1024x1024)
  :: binary main_v95 main_v94 main_v96 (mulf : Buf32 F S8x1024x1024 → Buf32 F S8x1024x1024 → Buf32 F S8x1024x1024)
  :: binary main_v91 main_v96 main_v97 (addf : Buf32 F S8x1024x1024 → Buf32 F S8x1024x1024 → Buf32 F S8x1024x1024)
  :: unary main_cst main_v98 ((extractStridedSlice S1x1 ![2, 1] · slices_S3x3_S1x1_2_1) : Buf32 F S3x3 → Buf32 F S1x1)
  :: reshape main_v98 main_v99 rfl shapeCasts_S1x1_S_
  :: unary main_v54 main_v100 ((extractStridedSlice S8x1024x1024 ![0, 2, 1] · slices_S8x1026x1026_S8x1024x1024_0_2_1) : Buf32 F S8x1026x1026 → Buf32 F S8x1024x1024)
  :: unary main_v99 main_v101 (broadcastInDim S8x1024x1024 ![] bcast_S_S8x1024x1024 : Buf32 F S_ → Buf32 F S8x1024x1024)
  :: binary main_v101 main_v100 main_v102 (mulf : Buf32 F S8x1024x1024 → Buf32 F S8x1024x1024 → Buf32 F S8x1024x1024)
  :: binary main_v97 main_v102 main_v103 (addf : Buf32 F S8x1024x1024 → Buf32 F S8x1024x1024 → Buf32 F S8x1024x1024)
  :: unary main_cst main_v104 ((extractStridedSlice S1x1 ![2, 2] · slices_S3x3_S1x1_2_2) : Buf32 F S3x3 → Buf32 F S1x1)
  :: reshape main_v104 main_v105 rfl shapeCasts_S1x1_S_
  :: unary main_v54 main_v106 ((extractStridedSlice S8x1024x1024 ![0, 2, 2] · slices_S8x1026x1026_S8x1024x1024_0_2_2) : Buf32 F S8x1026x1026 → Buf32 F S8x1024x1024)
  :: unary main_v105 main_v107 (broadcastInDim S8x1024x1024 ![] bcast_S_S8x1024x1024 : Buf32 F S_ → Buf32 F S8x1024x1024)
  :: binary main_v107 main_v106 main_v108 (mulf : Buf32 F S8x1024x1024 → Buf32 F S8x1024x1024 → Buf32 F S8x1024x1024)
  :: binary main_v103 main_v108 main_v109 (addf : Buf32 F S8x1024x1024 → Buf32 F S8x1024x1024 → Buf32 F S8x1024x1024)
  :: nullary main_c_26 (constantI S_ 32 0#32)
  :: [] )
theorem seg16_sub : (seg16 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg16_W : List (Ref sig .tc) := [main_v92, main_v93, main_v94, main_v95, main_v96, main_v97, main_v98, main_v99, main_v100, main_v101, main_v102, main_v103, main_v104, main_v105, main_v106, main_v107, main_v108, main_v109, main_c_26]
theorem seg16_writes : (seg16 : List (HloOp τ sig (Elt F))).Forall fun op => op.writes ⊆ (seg16_W.map (Proc.devRef (τ := τ) .tc)).toFinset := by
  simp only [List.Forall]; and_intros <;> exact sub_W rfl (by decide)

abbrev seg17 : List (HloOp τ sig (Elt F)) :=
  ( TRef.unary (.of main_v53 : Ref32 S8x1024x1024) (.of main_call7_v0 : Ref32 S8x1x1024) (extractStridedSlice S8x1x1024 ![0, 0, 0] · slices_S8x1024x1024_S8x1x1024_0_0_0)
  :: TRef.unary (.of main_v53 : Ref32 S8x1024x1024) (.of main_call7_v1 : Ref32 S8x1x1024) (extractStridedSlice S8x1x1024 ![0, 1, 0] · slices_S8x1024x1024_S8x1x1024_0_1_0)
  :: TRef.unary (.of main_call7_v1 : Ref32 S8x1x1024) (.of main_call7_v2 : Ref32 S8x1x1024) (Host.reverse [1])
  :: TRef.binary (.of main_call7_v2 : Ref32 S8x1x1024) (.of main_v53 : Ref32 S8x1024x1024) (.of main_call7_v3 : Ref32 S8x1025x1024) (fun a b => concatenate S8x1025x1024 1 [⟨S8x1x1024, a⟩, ⟨S8x1024x1024, b⟩] concatenates_S8x1x1024_S8x1024x1024_S8x1025x1024_d1)
  :: TRef.unary (.of main_call7_v3 : Ref32 S8x1025x1024) (.of main_call7_v4 : Ref32 S8x1x1024) (extractStridedSlice S8x1x1024 ![0, 1024, 0] · slices_S8x1025x1024_S8x1x1024_0_1024_0)
  :: TRef.unary (.of main_call7_v3 : Ref32 S8x1025x1024) (.of main_call7_v5 : Ref32 S8x1x1024) (extractStridedSlice S8x1x1024 ![0, 1023, 0] · slices_S8x1025x1024_S8x1x1024_0_1023_0)
  :: TRef.unary (.of main_call7_v5 : Ref32 S8x1x1024) (.of main_call7_v6 : Ref32 S8x1x1024) (Host.reverse [1])
  :: TRef.binary (.of main_call7_v3 : Ref32 S8x1025x1024) (.of main_call7_v6 : Ref32 S8x1x1024) (.of main_call7_v7 : Ref32 S8x1026x1024) (fun a b => concatenate S8x1026x1024 1 [⟨S8x1025x1024, a⟩, ⟨S8x1x1024, b⟩] concatenates_S8x1025x1024_S8x1x1024_S8x1026x1024_d1)
  :: TRef.unary (.of main_call7_v7 : Ref32 S8x1026x1024) (.of main_call7_v8 : Ref32 S8x1026x1) (extractStridedSlice S8x1026x1 ![0, 0, 0] · slices_S8x1026x1024_S8x1026x1_0_0_0)
  :: TRef.unary (.of main_call7_v7 : Ref32 S8x1026x1024) (.of main_call7_v9 : Ref32 S8x1026x1) (extractStridedSlice S8x1026x1 ![0, 0, 1] · slices_S8x1026x1024_S8x1026x1_0_0_1)
  :: TRef.unary (.of main_call7_v9 : Ref32 S8x1026x1) (.of main_call7_v10 : Ref32 S8x1026x1) (Host.reverse [2])
  :: TRef.binary (.of main_call7_v10 : Ref32 S8x1026x1) (.of main_call7_v7 : Ref32 S8x1026x1024) (.of main_call7_v11 : Ref32 S8x1026x1025) (fun a b => concatenate S8x1026x1025 2 [⟨S8x1026x1, a⟩, ⟨S8x1026x1024, b⟩] concatenates_S8x1026x1_S8x1026x1024_S8x1026x1025_d2)
  :: TRef.unary (.of main_call7_v11 : Ref32 S8x1026x1025) (.of main_call7_v12 : Ref32 S8x1026x1) (extractStridedSlice S8x1026x1 ![0, 0, 1024] · slices_S8x1026x1025_S8x1026x1_0_0_1024)
  :: TRef.unary (.of main_call7_v11 : Ref32 S8x1026x1025) (.of main_call7_v13 : Ref32 S8x1026x1) (extractStridedSlice S8x1026x1 ![0, 0, 1023] · slices_S8x1026x1025_S8x1026x1_0_0_1023)
  :: TRef.unary (.of main_call7_v13 : Ref32 S8x1026x1) (.of main_call7_v14 : Ref32 S8x1026x1) (Host.reverse [2])
  :: TRef.binary (.of main_call7_v11 : Ref32 S8x1026x1025) (.of main_call7_v14 : Ref32 S8x1026x1) (.of main_v110 : Ref32 S8x1026x1026) (fun a b => concatenate S8x1026x1026 2 [⟨S8x1026x1025, a⟩, ⟨S8x1026x1, b⟩] concatenates_S8x1026x1025_S8x1026x1_S8x1026x1026_d2)
  :: [] )
theorem seg17_sub : (seg17 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg17_W : List (Ref sig .tc) := [main_call7_v0, main_call7_v1, main_call7_v2, main_call7_v3, main_call7_v4, main_call7_v5, main_call7_v6, main_call7_v7, main_call7_v8, main_call7_v9, main_call7_v10, main_call7_v11, main_call7_v12, main_call7_v13, main_call7_v14, main_v110]
theorem seg17_writes : (seg17 : List (HloOp τ sig (Elt F))).Forall fun op => op.writes ⊆ (seg17_W.map (Proc.devRef (τ := τ) .tc)).toFinset := by
  simp only [List.Forall]; and_intros <;> exact sub_W rfl (by decide)

abbrev seg18 : List (HloOp τ sig (Elt F)) :=
  ( nullary main_cst_27 (constant S_ .f32 0x00000000#32)
  :: unary main_cst_27 main_v111 (broadcastInDim S8x1024x1024 ![] bcast_S_S8x1024x1024 : Buf32 F S_ → Buf32 F S8x1024x1024)
  :: unary main_cst main_v112 ((extractStridedSlice S1x1 ![0, 0] · slices_S3x3_S1x1_0_0) : Buf32 F S3x3 → Buf32 F S1x1)
  :: reshape main_v112 main_v113 rfl shapeCasts_S1x1_S_
  :: unary main_v110 main_v114 ((extractStridedSlice S8x1024x1024 ![0, 0, 0] · slices_S8x1026x1026_S8x1024x1024_0_0_0) : Buf32 F S8x1026x1026 → Buf32 F S8x1024x1024)
  :: unary main_v113 main_v115 (broadcastInDim S8x1024x1024 ![] bcast_S_S8x1024x1024 : Buf32 F S_ → Buf32 F S8x1024x1024)
  :: binary main_v115 main_v114 main_v116 (mulf : Buf32 F S8x1024x1024 → Buf32 F S8x1024x1024 → Buf32 F S8x1024x1024)
  :: binary main_v111 main_v116 main_v117 (addf : Buf32 F S8x1024x1024 → Buf32 F S8x1024x1024 → Buf32 F S8x1024x1024)
  :: unary main_cst main_v118 ((extractStridedSlice S1x1 ![0, 1] · slices_S3x3_S1x1_0_1) : Buf32 F S3x3 → Buf32 F S1x1)
  :: reshape main_v118 main_v119 rfl shapeCasts_S1x1_S_
  :: unary main_v110 main_v120 ((extractStridedSlice S8x1024x1024 ![0, 0, 1] · slices_S8x1026x1026_S8x1024x1024_0_0_1) : Buf32 F S8x1026x1026 → Buf32 F S8x1024x1024)
  :: unary main_v119 main_v121 (broadcastInDim S8x1024x1024 ![] bcast_S_S8x1024x1024 : Buf32 F S_ → Buf32 F S8x1024x1024)
  :: binary main_v121 main_v120 main_v122 (mulf : Buf32 F S8x1024x1024 → Buf32 F S8x1024x1024 → Buf32 F S8x1024x1024)
  :: binary main_v117 main_v122 main_v123 (addf : Buf32 F S8x1024x1024 → Buf32 F S8x1024x1024 → Buf32 F S8x1024x1024)
  :: unary main_cst main_v124 ((extractStridedSlice S1x1 ![0, 2] · slices_S3x3_S1x1_0_2) : Buf32 F S3x3 → Buf32 F S1x1)
  :: reshape main_v124 main_v125 rfl shapeCasts_S1x1_S_
  :: unary main_v110 main_v126 ((extractStridedSlice S8x1024x1024 ![0, 0, 2] · slices_S8x1026x1026_S8x1024x1024_0_0_2) : Buf32 F S8x1026x1026 → Buf32 F S8x1024x1024)
  :: unary main_v125 main_v127 (broadcastInDim S8x1024x1024 ![] bcast_S_S8x1024x1024 : Buf32 F S_ → Buf32 F S8x1024x1024)
  :: binary main_v127 main_v126 main_v128 (mulf : Buf32 F S8x1024x1024 → Buf32 F S8x1024x1024 → Buf32 F S8x1024x1024)
  :: binary main_v123 main_v128 main_v129 (addf : Buf32 F S8x1024x1024 → Buf32 F S8x1024x1024 → Buf32 F S8x1024x1024)
  :: unary main_cst main_v130 ((extractStridedSlice S1x1 ![1, 0] · slices_S3x3_S1x1_1_0) : Buf32 F S3x3 → Buf32 F S1x1)
  :: reshape main_v130 main_v131 rfl shapeCasts_S1x1_S_
  :: unary main_v110 main_v132 ((extractStridedSlice S8x1024x1024 ![0, 1, 0] · slices_S8x1026x1026_S8x1024x1024_0_1_0) : Buf32 F S8x1026x1026 → Buf32 F S8x1024x1024)
  :: unary main_v131 main_v133 (broadcastInDim S8x1024x1024 ![] bcast_S_S8x1024x1024 : Buf32 F S_ → Buf32 F S8x1024x1024)
  :: binary main_v133 main_v132 main_v134 (mulf : Buf32 F S8x1024x1024 → Buf32 F S8x1024x1024 → Buf32 F S8x1024x1024)
  :: binary main_v129 main_v134 main_v135 (addf : Buf32 F S8x1024x1024 → Buf32 F S8x1024x1024 → Buf32 F S8x1024x1024)
  :: unary main_cst main_v136 ((extractStridedSlice S1x1 ![1, 1] · slices_S3x3_S1x1_1_1) : Buf32 F S3x3 → Buf32 F S1x1)
  :: reshape main_v136 main_v137 rfl shapeCasts_S1x1_S_
  :: unary main_v110 main_v138 ((extractStridedSlice S8x1024x1024 ![0, 1, 1] · slices_S8x1026x1026_S8x1024x1024_0_1_1) : Buf32 F S8x1026x1026 → Buf32 F S8x1024x1024)
  :: unary main_v137 main_v139 (broadcastInDim S8x1024x1024 ![] bcast_S_S8x1024x1024 : Buf32 F S_ → Buf32 F S8x1024x1024)
  :: binary main_v139 main_v138 main_v140 (mulf : Buf32 F S8x1024x1024 → Buf32 F S8x1024x1024 → Buf32 F S8x1024x1024)
  :: binary main_v135 main_v140 main_v141 (addf : Buf32 F S8x1024x1024 → Buf32 F S8x1024x1024 → Buf32 F S8x1024x1024)
  :: unary main_cst main_v142 ((extractStridedSlice S1x1 ![1, 2] · slices_S3x3_S1x1_1_2) : Buf32 F S3x3 → Buf32 F S1x1)
  :: reshape main_v142 main_v143 rfl shapeCasts_S1x1_S_
  :: unary main_v110 main_v144 ((extractStridedSlice S8x1024x1024 ![0, 1, 2] · slices_S8x1026x1026_S8x1024x1024_0_1_2) : Buf32 F S8x1026x1026 → Buf32 F S8x1024x1024)
  :: unary main_v143 main_v145 (broadcastInDim S8x1024x1024 ![] bcast_S_S8x1024x1024 : Buf32 F S_ → Buf32 F S8x1024x1024)
  :: binary main_v145 main_v144 main_v146 (mulf : Buf32 F S8x1024x1024 → Buf32 F S8x1024x1024 → Buf32 F S8x1024x1024)
  :: binary main_v141 main_v146 main_v147 (addf : Buf32 F S8x1024x1024 → Buf32 F S8x1024x1024 → Buf32 F S8x1024x1024)
  :: unary main_cst main_v148 ((extractStridedSlice S1x1 ![2, 0] · slices_S3x3_S1x1_2_0) : Buf32 F S3x3 → Buf32 F S1x1)
  :: reshape main_v148 main_v149 rfl shapeCasts_S1x1_S_
  :: [] )
theorem seg18_sub : (seg18 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg18_W : List (Ref sig .tc) := [main_cst_27, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149]
theorem seg18_writes : (seg18 : List (HloOp τ sig (Elt F))).Forall fun op => op.writes ⊆ (seg18_W.map (Proc.devRef (τ := τ) .tc)).toFinset := by
  simp only [List.Forall]; and_intros <;> exact sub_W rfl (by decide)

abbrev seg19 : List (HloOp τ sig (Elt F)) :=
  ( unary main_v110 main_v150 ((extractStridedSlice S8x1024x1024 ![0, 2, 0] · slices_S8x1026x1026_S8x1024x1024_0_2_0) : Buf32 F S8x1026x1026 → Buf32 F S8x1024x1024)
  :: unary main_v149 main_v151 (broadcastInDim S8x1024x1024 ![] bcast_S_S8x1024x1024 : Buf32 F S_ → Buf32 F S8x1024x1024)
  :: binary main_v151 main_v150 main_v152 (mulf : Buf32 F S8x1024x1024 → Buf32 F S8x1024x1024 → Buf32 F S8x1024x1024)
  :: binary main_v147 main_v152 main_v153 (addf : Buf32 F S8x1024x1024 → Buf32 F S8x1024x1024 → Buf32 F S8x1024x1024)
  :: unary main_cst main_v154 ((extractStridedSlice S1x1 ![2, 1] · slices_S3x3_S1x1_2_1) : Buf32 F S3x3 → Buf32 F S1x1)
  :: reshape main_v154 main_v155 rfl shapeCasts_S1x1_S_
  :: unary main_v110 main_v156 ((extractStridedSlice S8x1024x1024 ![0, 2, 1] · slices_S8x1026x1026_S8x1024x1024_0_2_1) : Buf32 F S8x1026x1026 → Buf32 F S8x1024x1024)
  :: unary main_v155 main_v157 (broadcastInDim S8x1024x1024 ![] bcast_S_S8x1024x1024 : Buf32 F S_ → Buf32 F S8x1024x1024)
  :: binary main_v157 main_v156 main_v158 (mulf : Buf32 F S8x1024x1024 → Buf32 F S8x1024x1024 → Buf32 F S8x1024x1024)
  :: binary main_v153 main_v158 main_v159 (addf : Buf32 F S8x1024x1024 → Buf32 F S8x1024x1024 → Buf32 F S8x1024x1024)
  :: unary main_cst main_v160 ((extractStridedSlice S1x1 ![2, 2] · slices_S3x3_S1x1_2_2) : Buf32 F S3x3 → Buf32 F S1x1)
  :: reshape main_v160 main_v161 rfl shapeCasts_S1x1_S_
  :: unary main_v110 main_v162 ((extractStridedSlice S8x1024x1024 ![0, 2, 2] · slices_S8x1026x1026_S8x1024x1024_0_2_2) : Buf32 F S8x1026x1026 → Buf32 F S8x1024x1024)
  :: unary main_v161 main_v163 (broadcastInDim S8x1024x1024 ![] bcast_S_S8x1024x1024 : Buf32 F S_ → Buf32 F S8x1024x1024)
  :: binary main_v163 main_v162 main_v164 (mulf : Buf32 F S8x1024x1024 → Buf32 F S8x1024x1024 → Buf32 F S8x1024x1024)
  :: binary main_v159 main_v164 main_v165 (addf : Buf32 F S8x1024x1024 → Buf32 F S8x1024x1024 → Buf32 F S8x1024x1024)
  :: unary main_arg1 main_v166 ((extractStridedSlice S1x1x1024x1024 ![0, 0, 0, 0] · slices_S8x3x1024x1024_S1x1x1024x1024_0_0_0_0) : Buf32 F S8x3x1024x1024 → Buf32 F S1x1x1024x1024)
  :: reshape main_v166 main_v167 rfl shapeCasts_S1x1x1024x1024_S1024x1024
  :: nullary main_c_28 (constantI S_ 32 0#32)
  :: [] )
theorem seg19_sub : (seg19 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg19_W : List (Ref sig .tc) := [main_v150, main_v151, main_v152, main_v153, main_v154, main_v155, main_v156, main_v157, main_v158, main_v159, main_v160, main_v161, main_v162, main_v163, main_v164, main_v165, main_v166, main_v167, main_c_28]
theorem seg19_writes : (seg19 : List (HloOp τ sig (Elt F))).Forall fun op => op.writes ⊆ (seg19_W.map (Proc.devRef (τ := τ) .tc)).toFinset := by
  simp only [List.Forall]; and_intros <;> exact sub_W rfl (by decide)

abbrev seg20 : List (HloOp τ sig (Elt F)) :=
  ( TRef.unary (.of main_v167 : Ref32 S1024x1024) (.of main_call8_v0 : Ref32 S1x1024) (extractStridedSlice S1x1024 ![0, 0] · slices_S1024x1024_S1x1024_0_0)
  :: TRef.unary (.of main_v167 : Ref32 S1024x1024) (.of main_call8_v1 : Ref32 S1x1024) (extractStridedSlice S1x1024 ![1, 0] · slices_S1024x1024_S1x1024_1_0)
  :: TRef.unary (.of main_call8_v1 : Ref32 S1x1024) (.of main_call8_v2 : Ref32 S1x1024) (Host.reverse [0])
  :: TRef.binary (.of main_call8_v2 : Ref32 S1x1024) (.of main_v167 : Ref32 S1024x1024) (.of main_call8_v3 : Ref32 S1025x1024) (fun a b => concatenate S1025x1024 0 [⟨S1x1024, a⟩, ⟨S1024x1024, b⟩] concatenates_S1x1024_S1024x1024_S1025x1024_d0)
  :: TRef.unary (.of main_call8_v3 : Ref32 S1025x1024) (.of main_call8_v4 : Ref32 S1x1024) (extractStridedSlice S1x1024 ![1024, 0] · slices_S1025x1024_S1x1024_1024_0)
  :: TRef.unary (.of main_call8_v3 : Ref32 S1025x1024) (.of main_call8_v5 : Ref32 S1x1024) (extractStridedSlice S1x1024 ![1023, 0] · slices_S1025x1024_S1x1024_1023_0)
  :: TRef.unary (.of main_call8_v5 : Ref32 S1x1024) (.of main_call8_v6 : Ref32 S1x1024) (Host.reverse [0])
  :: TRef.binary (.of main_call8_v3 : Ref32 S1025x1024) (.of main_call8_v6 : Ref32 S1x1024) (.of main_call8_v7 : Ref32 S1026x1024) (fun a b => concatenate S1026x1024 0 [⟨S1025x1024, a⟩, ⟨S1x1024, b⟩] concatenates_S1025x1024_S1x1024_S1026x1024_d0)
  :: TRef.unary (.of main_call8_v7 : Ref32 S1026x1024) (.of main_call8_v8 : Ref32 S1026x1) (extractStridedSlice S1026x1 ![0, 0] · slices_S1026x1024_S1026x1_0_0)
  :: TRef.unary (.of main_call8_v7 : Ref32 S1026x1024) (.of main_call8_v9 : Ref32 S1026x1) (extractStridedSlice S1026x1 ![0, 1] · slices_S1026x1024_S1026x1_0_1)
  :: TRef.unary (.of main_call8_v9 : Ref32 S1026x1) (.of main_call8_v10 : Ref32 S1026x1) (Host.reverse [1])
  :: TRef.binary (.of main_call8_v10 : Ref32 S1026x1) (.of main_call8_v7 : Ref32 S1026x1024) (.of main_call8_v11 : Ref32 S1026x1025) (fun a b => concatenate S1026x1025 1 [⟨S1026x1, a⟩, ⟨S1026x1024, b⟩] concatenates_S1026x1_S1026x1024_S1026x1025_d1)
  :: TRef.unary (.of main_call8_v11 : Ref32 S1026x1025) (.of main_call8_v12 : Ref32 S1026x1) (extractStridedSlice S1026x1 ![0, 1024] · slices_S1026x1025_S1026x1_0_1024)
  :: TRef.unary (.of main_call8_v11 : Ref32 S1026x1025) (.of main_call8_v13 : Ref32 S1026x1) (extractStridedSlice S1026x1 ![0, 1023] · slices_S1026x1025_S1026x1_0_1023)
  :: TRef.unary (.of main_call8_v13 : Ref32 S1026x1) (.of main_call8_v14 : Ref32 S1026x1) (Host.reverse [1])
  :: TRef.binary (.of main_call8_v11 : Ref32 S1026x1025) (.of main_call8_v14 : Ref32 S1026x1) (.of main_v168 : Ref32 S1026x1026) (fun a b => concatenate S1026x1026 1 [⟨S1026x1025, a⟩, ⟨S1026x1, b⟩] concatenates_S1026x1025_S1026x1_S1026x1026_d1)
  :: [] )
theorem seg20_sub : (seg20 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg20_W : List (Ref sig .tc) := [main_call8_v0, main_call8_v1, main_call8_v2, main_call8_v3, main_call8_v4, main_call8_v5, main_call8_v6, main_call8_v7, main_call8_v8, main_call8_v9, main_call8_v10, main_call8_v11, main_call8_v12, main_call8_v13, main_call8_v14, main_v168]
theorem seg20_writes : (seg20 : List (HloOp τ sig (Elt F))).Forall fun op => op.writes ⊆ (seg20_W.map (Proc.devRef (τ := τ) .tc)).toFinset := by
  simp only [List.Forall]; and_intros <;> exact sub_W rfl (by decide)

abbrev seg21 : List (HloOp τ sig (Elt F)) :=
  ( nullary main_cst_29 (constant S_ .f32 0x00000000#32)
  :: unary main_cst_29 main_v169 (broadcastInDim S1024x1024 ![] bcast_S_S1024x1024 : Buf32 F S_ → Buf32 F S1024x1024)
  :: unary main_cst main_v170 ((extractStridedSlice S1x1 ![0, 0] · slices_S3x3_S1x1_0_0) : Buf32 F S3x3 → Buf32 F S1x1)
  :: reshape main_v170 main_v171 rfl shapeCasts_S1x1_S_
  :: unary main_v168 main_v172 ((extractStridedSlice S1024x1024 ![0, 0] · slices_S1026x1026_S1024x1024_0_0) : Buf32 F S1026x1026 → Buf32 F S1024x1024)
  :: unary main_v171 main_v173 (broadcastInDim S1024x1024 ![] bcast_S_S1024x1024 : Buf32 F S_ → Buf32 F S1024x1024)
  :: binary main_v173 main_v172 main_v174 (mulf : Buf32 F S1024x1024 → Buf32 F S1024x1024 → Buf32 F S1024x1024)
  :: binary main_v169 main_v174 main_v175 (addf : Buf32 F S1024x1024 → Buf32 F S1024x1024 → Buf32 F S1024x1024)
  :: unary main_cst main_v176 ((extractStridedSlice S1x1 ![0, 1] · slices_S3x3_S1x1_0_1) : Buf32 F S3x3 → Buf32 F S1x1)
  :: reshape main_v176 main_v177 rfl shapeCasts_S1x1_S_
  :: unary main_v168 main_v178 ((extractStridedSlice S1024x1024 ![0, 1] · slices_S1026x1026_S1024x1024_0_1) : Buf32 F S1026x1026 → Buf32 F S1024x1024)
  :: unary main_v177 main_v179 (broadcastInDim S1024x1024 ![] bcast_S_S1024x1024 : Buf32 F S_ → Buf32 F S1024x1024)
  :: binary main_v179 main_v178 main_v180 (mulf : Buf32 F S1024x1024 → Buf32 F S1024x1024 → Buf32 F S1024x1024)
  :: binary main_v175 main_v180 main_v181 (addf : Buf32 F S1024x1024 → Buf32 F S1024x1024 → Buf32 F S1024x1024)
  :: unary main_cst main_v182 ((extractStridedSlice S1x1 ![0, 2] · slices_S3x3_S1x1_0_2) : Buf32 F S3x3 → Buf32 F S1x1)
  :: reshape main_v182 main_v183 rfl shapeCasts_S1x1_S_
  :: unary main_v168 main_v184 ((extractStridedSlice S1024x1024 ![0, 2] · slices_S1026x1026_S1024x1024_0_2) : Buf32 F S1026x1026 → Buf32 F S1024x1024)
  :: unary main_v183 main_v185 (broadcastInDim S1024x1024 ![] bcast_S_S1024x1024 : Buf32 F S_ → Buf32 F S1024x1024)
  :: binary main_v185 main_v184 main_v186 (mulf : Buf32 F S1024x1024 → Buf32 F S1024x1024 → Buf32 F S1024x1024)
  :: binary main_v181 main_v186 main_v187 (addf : Buf32 F S1024x1024 → Buf32 F S1024x1024 → Buf32 F S1024x1024)
  :: unary main_cst main_v188 ((extractStridedSlice S1x1 ![1, 0] · slices_S3x3_S1x1_1_0) : Buf32 F S3x3 → Buf32 F S1x1)
  :: reshape main_v188 main_v189 rfl shapeCasts_S1x1_S_
  :: unary main_v168 main_v190 ((extractStridedSlice S1024x1024 ![1, 0] · slices_S1026x1026_S1024x1024_1_0) : Buf32 F S1026x1026 → Buf32 F S1024x1024)
  :: unary main_v189 main_v191 (broadcastInDim S1024x1024 ![] bcast_S_S1024x1024 : Buf32 F S_ → Buf32 F S1024x1024)
  :: binary main_v191 main_v190 main_v192 (mulf : Buf32 F S1024x1024 → Buf32 F S1024x1024 → Buf32 F S1024x1024)
  :: binary main_v187 main_v192 main_v193 (addf : Buf32 F S1024x1024 → Buf32 F S1024x1024 → Buf32 F S1024x1024)
  :: unary main_cst main_v194 ((extractStridedSlice S1x1 ![1, 1] · slices_S3x3_S1x1_1_1) : Buf32 F S3x3 → Buf32 F S1x1)
  :: reshape main_v194 main_v195 rfl shapeCasts_S1x1_S_
  :: unary main_v168 main_v196 ((extractStridedSlice S1024x1024 ![1, 1] · slices_S1026x1026_S1024x1024_1_1) : Buf32 F S1026x1026 → Buf32 F S1024x1024)
  :: unary main_v195 main_v197 (broadcastInDim S1024x1024 ![] bcast_S_S1024x1024 : Buf32 F S_ → Buf32 F S1024x1024)
  :: binary main_v197 main_v196 main_v198 (mulf : Buf32 F S1024x1024 → Buf32 F S1024x1024 → Buf32 F S1024x1024)
  :: binary main_v193 main_v198 main_v199 (addf : Buf32 F S1024x1024 → Buf32 F S1024x1024 → Buf32 F S1024x1024)
  :: unary main_cst main_v200 ((extractStridedSlice S1x1 ![1, 2] · slices_S3x3_S1x1_1_2) : Buf32 F S3x3 → Buf32 F S1x1)
  :: reshape main_v200 main_v201 rfl shapeCasts_S1x1_S_
  :: unary main_v168 main_v202 ((extractStridedSlice S1024x1024 ![1, 2] · slices_S1026x1026_S1024x1024_1_2) : Buf32 F S1026x1026 → Buf32 F S1024x1024)
  :: unary main_v201 main_v203 (broadcastInDim S1024x1024 ![] bcast_S_S1024x1024 : Buf32 F S_ → Buf32 F S1024x1024)
  :: binary main_v203 main_v202 main_v204 (mulf : Buf32 F S1024x1024 → Buf32 F S1024x1024 → Buf32 F S1024x1024)
  :: binary main_v199 main_v204 main_v205 (addf : Buf32 F S1024x1024 → Buf32 F S1024x1024 → Buf32 F S1024x1024)
  :: unary main_cst main_v206 ((extractStridedSlice S1x1 ![2, 0] · slices_S3x3_S1x1_2_0) : Buf32 F S3x3 → Buf32 F S1x1)
  :: reshape main_v206 main_v207 rfl shapeCasts_S1x1_S_
  :: [] )
theorem seg21_sub : (seg21 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg21_W : List (Ref sig .tc) := [main_cst_29, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207]
theorem seg21_writes : (seg21 : List (HloOp τ sig (Elt F))).Forall fun op => op.writes ⊆ (seg21_W.map (Proc.devRef (τ := τ) .tc)).toFinset := by
  simp only [List.Forall]; and_intros <;> exact sub_W rfl (by decide)

abbrev seg22 : List (HloOp τ sig (Elt F)) :=
  ( unary main_v168 main_v208 ((extractStridedSlice S1024x1024 ![2, 0] · slices_S1026x1026_S1024x1024_2_0) : Buf32 F S1026x1026 → Buf32 F S1024x1024)
  :: unary main_v207 main_v209 (broadcastInDim S1024x1024 ![] bcast_S_S1024x1024 : Buf32 F S_ → Buf32 F S1024x1024)
  :: binary main_v209 main_v208 main_v210 (mulf : Buf32 F S1024x1024 → Buf32 F S1024x1024 → Buf32 F S1024x1024)
  :: binary main_v205 main_v210 main_v211 (addf : Buf32 F S1024x1024 → Buf32 F S1024x1024 → Buf32 F S1024x1024)
  :: unary main_cst main_v212 ((extractStridedSlice S1x1 ![2, 1] · slices_S3x3_S1x1_2_1) : Buf32 F S3x3 → Buf32 F S1x1)
  :: reshape main_v212 main_v213 rfl shapeCasts_S1x1_S_
  :: unary main_v168 main_v214 ((extractStridedSlice S1024x1024 ![2, 1] · slices_S1026x1026_S1024x1024_2_1) : Buf32 F S1026x1026 → Buf32 F S1024x1024)
  :: unary main_v213 main_v215 (broadcastInDim S1024x1024 ![] bcast_S_S1024x1024 : Buf32 F S_ → Buf32 F S1024x1024)
  :: binary main_v215 main_v214 main_v216 (mulf : Buf32 F S1024x1024 → Buf32 F S1024x1024 → Buf32 F S1024x1024)
  :: binary main_v211 main_v216 main_v217 (addf : Buf32 F S1024x1024 → Buf32 F S1024x1024 → Buf32 F S1024x1024)
  :: unary main_cst main_v218 ((extractStridedSlice S1x1 ![2, 2] · slices_S3x3_S1x1_2_2) : Buf32 F S3x3 → Buf32 F S1x1)
  :: reshape main_v218 main_v219 rfl shapeCasts_S1x1_S_
  :: unary main_v168 main_v220 ((extractStridedSlice S1024x1024 ![2, 2] · slices_S1026x1026_S1024x1024_2_2) : Buf32 F S1026x1026 → Buf32 F S1024x1024)
  :: unary main_v219 main_v221 (broadcastInDim S1024x1024 ![] bcast_S_S1024x1024 : Buf32 F S_ → Buf32 F S1024x1024)
  :: binary main_v221 main_v220 main_v222 (mulf : Buf32 F S1024x1024 → Buf32 F S1024x1024 → Buf32 F S1024x1024)
  :: binary main_v217 main_v222 main_v223 (addf : Buf32 F S1024x1024 → Buf32 F S1024x1024 → Buf32 F S1024x1024)
  :: nullary main_c_30 (constantI S_ 32 0#32)
  :: [] )
theorem seg22_sub : (seg22 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg22_W : List (Ref sig .tc) := [main_v208, main_v209, main_v210, main_v211, main_v212, main_v213, main_v214, main_v215, main_v216, main_v217, main_v218, main_v219, main_v220, main_v221, main_v222, main_v223, main_c_30]
theorem seg22_writes : (seg22 : List (HloOp τ sig (Elt F))).Forall fun op => op.writes ⊆ (seg22_W.map (Proc.devRef (τ := τ) .tc)).toFinset := by
  simp only [List.Forall]; and_intros <;> exact sub_W rfl (by decide)

abbrev seg23 : List (HloOp τ sig (Elt F)) :=
  ( TRef.unary (.of main_v223 : Ref32 S1024x1024) (.of main_call9_v0 : Ref32 S1x1024) (extractStridedSlice S1x1024 ![0, 0] · slices_S1024x1024_S1x1024_0_0)
  :: TRef.unary (.of main_v223 : Ref32 S1024x1024) (.of main_call9_v1 : Ref32 S1x1024) (extractStridedSlice S1x1024 ![1, 0] · slices_S1024x1024_S1x1024_1_0)
  :: TRef.unary (.of main_call9_v1 : Ref32 S1x1024) (.of main_call9_v2 : Ref32 S1x1024) (Host.reverse [0])
  :: TRef.binary (.of main_call9_v2 : Ref32 S1x1024) (.of main_v223 : Ref32 S1024x1024) (.of main_call9_v3 : Ref32 S1025x1024) (fun a b => concatenate S1025x1024 0 [⟨S1x1024, a⟩, ⟨S1024x1024, b⟩] concatenates_S1x1024_S1024x1024_S1025x1024_d0)
  :: TRef.unary (.of main_call9_v3 : Ref32 S1025x1024) (.of main_call9_v4 : Ref32 S1x1024) (extractStridedSlice S1x1024 ![1024, 0] · slices_S1025x1024_S1x1024_1024_0)
  :: TRef.unary (.of main_call9_v3 : Ref32 S1025x1024) (.of main_call9_v5 : Ref32 S1x1024) (extractStridedSlice S1x1024 ![1023, 0] · slices_S1025x1024_S1x1024_1023_0)
  :: TRef.unary (.of main_call9_v5 : Ref32 S1x1024) (.of main_call9_v6 : Ref32 S1x1024) (Host.reverse [0])
  :: TRef.binary (.of main_call9_v3 : Ref32 S1025x1024) (.of main_call9_v6 : Ref32 S1x1024) (.of main_call9_v7 : Ref32 S1026x1024) (fun a b => concatenate S1026x1024 0 [⟨S1025x1024, a⟩, ⟨S1x1024, b⟩] concatenates_S1025x1024_S1x1024_S1026x1024_d0)
  :: TRef.unary (.of main_call9_v7 : Ref32 S1026x1024) (.of main_call9_v8 : Ref32 S1026x1) (extractStridedSlice S1026x1 ![0, 0] · slices_S1026x1024_S1026x1_0_0)
  :: TRef.unary (.of main_call9_v7 : Ref32 S1026x1024) (.of main_call9_v9 : Ref32 S1026x1) (extractStridedSlice S1026x1 ![0, 1] · slices_S1026x1024_S1026x1_0_1)
  :: TRef.unary (.of main_call9_v9 : Ref32 S1026x1) (.of main_call9_v10 : Ref32 S1026x1) (Host.reverse [1])
  :: TRef.binary (.of main_call9_v10 : Ref32 S1026x1) (.of main_call9_v7 : Ref32 S1026x1024) (.of main_call9_v11 : Ref32 S1026x1025) (fun a b => concatenate S1026x1025 1 [⟨S1026x1, a⟩, ⟨S1026x1024, b⟩] concatenates_S1026x1_S1026x1024_S1026x1025_d1)
  :: TRef.unary (.of main_call9_v11 : Ref32 S1026x1025) (.of main_call9_v12 : Ref32 S1026x1) (extractStridedSlice S1026x1 ![0, 1024] · slices_S1026x1025_S1026x1_0_1024)
  :: TRef.unary (.of main_call9_v11 : Ref32 S1026x1025) (.of main_call9_v13 : Ref32 S1026x1) (extractStridedSlice S1026x1 ![0, 1023] · slices_S1026x1025_S1026x1_0_1023)
  :: TRef.unary (.of main_call9_v13 : Ref32 S1026x1) (.of main_call9_v14 : Ref32 S1026x1) (Host.reverse [1])
  :: TRef.binary (.of main_call9_v11 : Ref32 S1026x1025) (.of main_call9_v14 : Ref32 S1026x1) (.of main_v224 : Ref32 S1026x1026) (fun a b => concatenate S1026x1026 1 [⟨S1026x1025, a⟩, ⟨S1026x1, b⟩] concatenates_S1026x1025_S1026x1_S1026x1026_d1)
  :: [] )
theorem seg23_sub : (seg23 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg23_W : List (Ref sig .tc) := [main_call9_v0, main_call9_v1, main_call9_v2, main_call9_v3, main_call9_v4, main_call9_v5, main_call9_v6, main_call9_v7, main_call9_v8, main_call9_v9, main_call9_v10, main_call9_v11, main_call9_v12, main_call9_v13, main_call9_v14, main_v224]
theorem seg23_writes : (seg23 : List (HloOp τ sig (Elt F))).Forall fun op => op.writes ⊆ (seg23_W.map (Proc.devRef (τ := τ) .tc)).toFinset := by
  simp only [List.Forall]; and_intros <;> exact sub_W rfl (by decide)

abbrev seg24 : List (HloOp τ sig (Elt F)) :=
  ( nullary main_cst_31 (constant S_ .f32 0x00000000#32)
  :: unary main_cst_31 main_v225 (broadcastInDim S1024x1024 ![] bcast_S_S1024x1024 : Buf32 F S_ → Buf32 F S1024x1024)
  :: unary main_cst_0 main_v226 ((extractStridedSlice S1x1 ![0, 0] · slices_S3x3_S1x1_0_0) : Buf32 F S3x3 → Buf32 F S1x1)
  :: reshape main_v226 main_v227 rfl shapeCasts_S1x1_S_
  :: unary main_v224 main_v228 ((extractStridedSlice S1024x1024 ![0, 0] · slices_S1026x1026_S1024x1024_0_0) : Buf32 F S1026x1026 → Buf32 F S1024x1024)
  :: unary main_v227 main_v229 (broadcastInDim S1024x1024 ![] bcast_S_S1024x1024 : Buf32 F S_ → Buf32 F S1024x1024)
  :: binary main_v229 main_v228 main_v230 (mulf : Buf32 F S1024x1024 → Buf32 F S1024x1024 → Buf32 F S1024x1024)
  :: binary main_v225 main_v230 main_v231 (addf : Buf32 F S1024x1024 → Buf32 F S1024x1024 → Buf32 F S1024x1024)
  :: unary main_cst_0 main_v232 ((extractStridedSlice S1x1 ![0, 1] · slices_S3x3_S1x1_0_1) : Buf32 F S3x3 → Buf32 F S1x1)
  :: reshape main_v232 main_v233 rfl shapeCasts_S1x1_S_
  :: unary main_v224 main_v234 ((extractStridedSlice S1024x1024 ![0, 1] · slices_S1026x1026_S1024x1024_0_1) : Buf32 F S1026x1026 → Buf32 F S1024x1024)
  :: unary main_v233 main_v235 (broadcastInDim S1024x1024 ![] bcast_S_S1024x1024 : Buf32 F S_ → Buf32 F S1024x1024)
  :: binary main_v235 main_v234 main_v236 (mulf : Buf32 F S1024x1024 → Buf32 F S1024x1024 → Buf32 F S1024x1024)
  :: binary main_v231 main_v236 main_v237 (addf : Buf32 F S1024x1024 → Buf32 F S1024x1024 → Buf32 F S1024x1024)
  :: unary main_cst_0 main_v238 ((extractStridedSlice S1x1 ![0, 2] · slices_S3x3_S1x1_0_2) : Buf32 F S3x3 → Buf32 F S1x1)
  :: reshape main_v238 main_v239 rfl shapeCasts_S1x1_S_
  :: unary main_v224 main_v240 ((extractStridedSlice S1024x1024 ![0, 2] · slices_S1026x1026_S1024x1024_0_2) : Buf32 F S1026x1026 → Buf32 F S1024x1024)
  :: unary main_v239 main_v241 (broadcastInDim S1024x1024 ![] bcast_S_S1024x1024 : Buf32 F S_ → Buf32 F S1024x1024)
  :: binary main_v241 main_v240 main_v242 (mulf : Buf32 F S1024x1024 → Buf32 F S1024x1024 → Buf32 F S1024x1024)
  :: binary main_v237 main_v242 main_v243 (addf : Buf32 F S1024x1024 → Buf32 F S1024x1024 → Buf32 F S1024x1024)
  :: unary main_cst_0 main_v244 ((extractStridedSlice S1x1 ![1, 0] · slices_S3x3_S1x1_1_0) : Buf32 F S3x3 → Buf32 F S1x1)
  :: reshape main_v244 main_v245 rfl shapeCasts_S1x1_S_
  :: unary main_v224 main_v246 ((extractStridedSlice S1024x1024 ![1, 0] · slices_S1026x1026_S1024x1024_1_0) : Buf32 F S1026x1026 → Buf32 F S1024x1024)
  :: unary main_v245 main_v247 (broadcastInDim S1024x1024 ![] bcast_S_S1024x1024 : Buf32 F S_ → Buf32 F S1024x1024)
  :: binary main_v247 main_v246 main_v248 (mulf : Buf32 F S1024x1024 → Buf32 F S1024x1024 → Buf32 F S1024x1024)
  :: binary main_v243 main_v248 main_v249 (addf : Buf32 F S1024x1024 → Buf32 F S1024x1024 → Buf32 F S1024x1024)
  :: unary main_cst_0 main_v250 ((extractStridedSlice S1x1 ![1, 1] · slices_S3x3_S1x1_1_1) : Buf32 F S3x3 → Buf32 F S1x1)
  :: reshape main_v250 main_v251 rfl shapeCasts_S1x1_S_
  :: unary main_v224 main_v252 ((extractStridedSlice S1024x1024 ![1, 1] · slices_S1026x1026_S1024x1024_1_1) : Buf32 F S1026x1026 → Buf32 F S1024x1024)
  :: unary main_v251 main_v253 (broadcastInDim S1024x1024 ![] bcast_S_S1024x1024 : Buf32 F S_ → Buf32 F S1024x1024)
  :: binary main_v253 main_v252 main_v254 (mulf : Buf32 F S1024x1024 → Buf32 F S1024x1024 → Buf32 F S1024x1024)
  :: binary main_v249 main_v254 main_v255 (addf : Buf32 F S1024x1024 → Buf32 F S1024x1024 → Buf32 F S1024x1024)
  :: unary main_cst_0 main_v256 ((extractStridedSlice S1x1 ![1, 2] · slices_S3x3_S1x1_1_2) : Buf32 F S3x3 → Buf32 F S1x1)
  :: reshape main_v256 main_v257 rfl shapeCasts_S1x1_S_
  :: unary main_v224 main_v258 ((extractStridedSlice S1024x1024 ![1, 2] · slices_S1026x1026_S1024x1024_1_2) : Buf32 F S1026x1026 → Buf32 F S1024x1024)
  :: unary main_v257 main_v259 (broadcastInDim S1024x1024 ![] bcast_S_S1024x1024 : Buf32 F S_ → Buf32 F S1024x1024)
  :: binary main_v259 main_v258 main_v260 (mulf : Buf32 F S1024x1024 → Buf32 F S1024x1024 → Buf32 F S1024x1024)
  :: binary main_v255 main_v260 main_v261 (addf : Buf32 F S1024x1024 → Buf32 F S1024x1024 → Buf32 F S1024x1024)
  :: unary main_cst_0 main_v262 ((extractStridedSlice S1x1 ![2, 0] · slices_S3x3_S1x1_2_0) : Buf32 F S3x3 → Buf32 F S1x1)
  :: reshape main_v262 main_v263 rfl shapeCasts_S1x1_S_
  :: unary main_v224 main_v264 ((extractStridedSlice S1024x1024 ![2, 0] · slices_S1026x1026_S1024x1024_2_0) : Buf32 F S1026x1026 → Buf32 F S1024x1024)
  :: unary main_v263 main_v265 (broadcastInDim S1024x1024 ![] bcast_S_S1024x1024 : Buf32 F S_ → Buf32 F S1024x1024)
  :: [] )
theorem seg24_sub : (seg24 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg24_W : List (Ref sig .tc) := [main_cst_31, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265]
theorem seg24_writes : (seg24 : List (HloOp τ sig (Elt F))).Forall fun op => op.writes ⊆ (seg24_W.map (Proc.devRef (τ := τ) .tc)).toFinset := by
  simp only [List.Forall]; and_intros <;> exact sub_W rfl (by decide)

abbrev seg25 : List (HloOp τ sig (Elt F)) :=
  ( binary main_v265 main_v264 main_v266 (mulf : Buf32 F S1024x1024 → Buf32 F S1024x1024 → Buf32 F S1024x1024)
  :: binary main_v261 main_v266 main_v267 (addf : Buf32 F S1024x1024 → Buf32 F S1024x1024 → Buf32 F S1024x1024)
  :: unary main_cst_0 main_v268 ((extractStridedSlice S1x1 ![2, 1] · slices_S3x3_S1x1_2_1) : Buf32 F S3x3 → Buf32 F S1x1)
  :: reshape main_v268 main_v269 rfl shapeCasts_S1x1_S_
  :: unary main_v224 main_v270 ((extractStridedSlice S1024x1024 ![2, 1] · slices_S1026x1026_S1024x1024_2_1) : Buf32 F S1026x1026 → Buf32 F S1024x1024)
  :: unary main_v269 main_v271 (broadcastInDim S1024x1024 ![] bcast_S_S1024x1024 : Buf32 F S_ → Buf32 F S1024x1024)
  :: binary main_v271 main_v270 main_v272 (mulf : Buf32 F S1024x1024 → Buf32 F S1024x1024 → Buf32 F S1024x1024)
  :: binary main_v267 main_v272 main_v273 (addf : Buf32 F S1024x1024 → Buf32 F S1024x1024 → Buf32 F S1024x1024)
  :: unary main_cst_0 main_v274 ((extractStridedSlice S1x1 ![2, 2] · slices_S3x3_S1x1_2_2) : Buf32 F S3x3 → Buf32 F S1x1)
  :: reshape main_v274 main_v275 rfl shapeCasts_S1x1_S_
  :: unary main_v224 main_v276 ((extractStridedSlice S1024x1024 ![2, 2] · slices_S1026x1026_S1024x1024_2_2) : Buf32 F S1026x1026 → Buf32 F S1024x1024)
  :: unary main_v275 main_v277 (broadcastInDim S1024x1024 ![] bcast_S_S1024x1024 : Buf32 F S_ → Buf32 F S1024x1024)
  :: binary main_v277 main_v276 main_v278 (mulf : Buf32 F S1024x1024 → Buf32 F S1024x1024 → Buf32 F S1024x1024)
  :: binary main_v273 main_v278 main_v279 (addf : Buf32 F S1024x1024 → Buf32 F S1024x1024 → Buf32 F S1024x1024)
  :: unary main_arg0 main_v280 ((extractStridedSlice S1x1x1024x1024 ![0, 0, 0, 0] · slices_S8x3x1024x1024_S1x1x1024x1024_0_0_0_0) : Buf32 F S8x3x1024x1024 → Buf32 F S1x1x1024x1024)
  :: reshape main_v280 main_v281 rfl shapeCasts_S1x1x1024x1024_S1024x1024
  :: nullary main_c_32 (constantI S_ 32 0#32)
  :: [] )
theorem seg25_sub : (seg25 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg25_W : List (Ref sig .tc) := [main_v266, main_v267, main_v268, main_v269, main_v270, main_v271, main_v272, main_v273, main_v274, main_v275, main_v276, main_v277, main_v278, main_v279, main_v280, main_v281, main_c_32]
theorem seg25_writes : (seg25 : List (HloOp τ sig (Elt F))).Forall fun op => op.writes ⊆ (seg25_W.map (Proc.devRef (τ := τ) .tc)).toFinset := by
  simp only [List.Forall]; and_intros <;> exact sub_W rfl (by decide)

abbrev seg26 : List (HloOp τ sig (Elt F)) :=
  ( TRef.unary (.of main_v281 : Ref32 S1024x1024) (.of main_call10_v0 : Ref32 S1x1024) (extractStridedSlice S1x1024 ![0, 0] · slices_S1024x1024_S1x1024_0_0)
  :: TRef.unary (.of main_v281 : Ref32 S1024x1024) (.of main_call10_v1 : Ref32 S1x1024) (extractStridedSlice S1x1024 ![1, 0] · slices_S1024x1024_S1x1024_1_0)
  :: TRef.unary (.of main_call10_v1 : Ref32 S1x1024) (.of main_call10_v2 : Ref32 S1x1024) (Host.reverse [0])
  :: TRef.binary (.of main_call10_v2 : Ref32 S1x1024) (.of main_v281 : Ref32 S1024x1024) (.of main_call10_v3 : Ref32 S1025x1024) (fun a b => concatenate S1025x1024 0 [⟨S1x1024, a⟩, ⟨S1024x1024, b⟩] concatenates_S1x1024_S1024x1024_S1025x1024_d0)
  :: TRef.unary (.of main_call10_v3 : Ref32 S1025x1024) (.of main_call10_v4 : Ref32 S1x1024) (extractStridedSlice S1x1024 ![1024, 0] · slices_S1025x1024_S1x1024_1024_0)
  :: TRef.unary (.of main_call10_v3 : Ref32 S1025x1024) (.of main_call10_v5 : Ref32 S1x1024) (extractStridedSlice S1x1024 ![1023, 0] · slices_S1025x1024_S1x1024_1023_0)
  :: TRef.unary (.of main_call10_v5 : Ref32 S1x1024) (.of main_call10_v6 : Ref32 S1x1024) (Host.reverse [0])
  :: TRef.binary (.of main_call10_v3 : Ref32 S1025x1024) (.of main_call10_v6 : Ref32 S1x1024) (.of main_call10_v7 : Ref32 S1026x1024) (fun a b => concatenate S1026x1024 0 [⟨S1025x1024, a⟩, ⟨S1x1024, b⟩] concatenates_S1025x1024_S1x1024_S1026x1024_d0)
  :: TRef.unary (.of main_call10_v7 : Ref32 S1026x1024) (.of main_call10_v8 : Ref32 S1026x1) (extractStridedSlice S1026x1 ![0, 0] · slices_S1026x1024_S1026x1_0_0)
  :: TRef.unary (.of main_call10_v7 : Ref32 S1026x1024) (.of main_call10_v9 : Ref32 S1026x1) (extractStridedSlice S1026x1 ![0, 1] · slices_S1026x1024_S1026x1_0_1)
  :: TRef.unary (.of main_call10_v9 : Ref32 S1026x1) (.of main_call10_v10 : Ref32 S1026x1) (Host.reverse [1])
  :: TRef.binary (.of main_call10_v10 : Ref32 S1026x1) (.of main_call10_v7 : Ref32 S1026x1024) (.of main_call10_v11 : Ref32 S1026x1025) (fun a b => concatenate S1026x1025 1 [⟨S1026x1, a⟩, ⟨S1026x1024, b⟩] concatenates_S1026x1_S1026x1024_S1026x1025_d1)
  :: TRef.unary (.of main_call10_v11 : Ref32 S1026x1025) (.of main_call10_v12 : Ref32 S1026x1) (extractStridedSlice S1026x1 ![0, 1024] · slices_S1026x1025_S1026x1_0_1024)
  :: TRef.unary (.of main_call10_v11 : Ref32 S1026x1025) (.of main_call10_v13 : Ref32 S1026x1) (extractStridedSlice S1026x1 ![0, 1023] · slices_S1026x1025_S1026x1_0_1023)
  :: TRef.unary (.of main_call10_v13 : Ref32 S1026x1) (.of main_call10_v14 : Ref32 S1026x1) (Host.reverse [1])
  :: TRef.binary (.of main_call10_v11 : Ref32 S1026x1025) (.of main_call10_v14 : Ref32 S1026x1) (.of main_v282 : Ref32 S1026x1026) (fun a b => concatenate S1026x1026 1 [⟨S1026x1025, a⟩, ⟨S1026x1, b⟩] concatenates_S1026x1025_S1026x1_S1026x1026_d1)
  :: [] )
theorem seg26_sub : (seg26 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg26_W : List (Ref sig .tc) := [main_call10_v0, main_call10_v1, main_call10_v2, main_call10_v3, main_call10_v4, main_call10_v5, main_call10_v6, main_call10_v7, main_call10_v8, main_call10_v9, main_call10_v10, main_call10_v11, main_call10_v12, main_call10_v13, main_call10_v14, main_v282]
theorem seg26_writes : (seg26 : List (HloOp τ sig (Elt F))).Forall fun op => op.writes ⊆ (seg26_W.map (Proc.devRef (τ := τ) .tc)).toFinset := by
  simp only [List.Forall]; and_intros <;> exact sub_W rfl (by decide)

abbrev seg27 : List (HloOp τ sig (Elt F)) :=
  ( nullary main_cst_33 (constant S_ .f32 0x00000000#32)
  :: unary main_cst_33 main_v283 (broadcastInDim S1024x1024 ![] bcast_S_S1024x1024 : Buf32 F S_ → Buf32 F S1024x1024)
  :: unary main_cst main_v284 ((extractStridedSlice S1x1 ![0, 0] · slices_S3x3_S1x1_0_0) : Buf32 F S3x3 → Buf32 F S1x1)
  :: reshape main_v284 main_v285 rfl shapeCasts_S1x1_S_
  :: unary main_v282 main_v286 ((extractStridedSlice S1024x1024 ![0, 0] · slices_S1026x1026_S1024x1024_0_0) : Buf32 F S1026x1026 → Buf32 F S1024x1024)
  :: unary main_v285 main_v287 (broadcastInDim S1024x1024 ![] bcast_S_S1024x1024 : Buf32 F S_ → Buf32 F S1024x1024)
  :: binary main_v287 main_v286 main_v288 (mulf : Buf32 F S1024x1024 → Buf32 F S1024x1024 → Buf32 F S1024x1024)
  :: binary main_v283 main_v288 main_v289 (addf : Buf32 F S1024x1024 → Buf32 F S1024x1024 → Buf32 F S1024x1024)
  :: unary main_cst main_v290 ((extractStridedSlice S1x1 ![0, 1] · slices_S3x3_S1x1_0_1) : Buf32 F S3x3 → Buf32 F S1x1)
  :: reshape main_v290 main_v291 rfl shapeCasts_S1x1_S_
  :: unary main_v282 main_v292 ((extractStridedSlice S1024x1024 ![0, 1] · slices_S1026x1026_S1024x1024_0_1) : Buf32 F S1026x1026 → Buf32 F S1024x1024)
  :: unary main_v291 main_v293 (broadcastInDim S1024x1024 ![] bcast_S_S1024x1024 : Buf32 F S_ → Buf32 F S1024x1024)
  :: binary main_v293 main_v292 main_v294 (mulf : Buf32 F S1024x1024 → Buf32 F S1024x1024 → Buf32 F S1024x1024)
  :: binary main_v289 main_v294 main_v295 (addf : Buf32 F S1024x1024 → Buf32 F S1024x1024 → Buf32 F S1024x1024)
  :: unary main_cst main_v296 ((extractStridedSlice S1x1 ![0, 2] · slices_S3x3_S1x1_0_2) : Buf32 F S3x3 → Buf32 F S1x1)
  :: reshape main_v296 main_v297 rfl shapeCasts_S1x1_S_
  :: unary main_v282 main_v298 ((extractStridedSlice S1024x1024 ![0, 2] · slices_S1026x1026_S1024x1024_0_2) : Buf32 F S1026x1026 → Buf32 F S1024x1024)
  :: unary main_v297 main_v299 (broadcastInDim S1024x1024 ![] bcast_S_S1024x1024 : Buf32 F S_ → Buf32 F S1024x1024)
  :: binary main_v299 main_v298 main_v300 (mulf : Buf32 F S1024x1024 → Buf32 F S1024x1024 → Buf32 F S1024x1024)
  :: binary main_v295 main_v300 main_v301 (addf : Buf32 F S1024x1024 → Buf32 F S1024x1024 → Buf32 F S1024x1024)
  :: unary main_cst main_v302 ((extractStridedSlice S1x1 ![1, 0] · slices_S3x3_S1x1_1_0) : Buf32 F S3x3 → Buf32 F S1x1)
  :: reshape main_v302 main_v303 rfl shapeCasts_S1x1_S_
  :: unary main_v282 main_v304 ((extractStridedSlice S1024x1024 ![1, 0] · slices_S1026x1026_S1024x1024_1_0) : Buf32 F S1026x1026 → Buf32 F S1024x1024)
  :: unary main_v303 main_v305 (broadcastInDim S1024x1024 ![] bcast_S_S1024x1024 : Buf32 F S_ → Buf32 F S1024x1024)
  :: binary main_v305 main_v304 main_v306 (mulf : Buf32 F S1024x1024 → Buf32 F S1024x1024 → Buf32 F S1024x1024)
  :: binary main_v301 main_v306 main_v307 (addf : Buf32 F S1024x1024 → Buf32 F S1024x1024 → Buf32 F S1024x1024)
  :: unary main_cst main_v308 ((extractStridedSlice S1x1 ![1, 1] · slices_S3x3_S1x1_1_1) : Buf32 F S3x3 → Buf32 F S1x1)
  :: reshape main_v308 main_v309 rfl shapeCasts_S1x1_S_
  :: unary main_v282 main_v310 ((extractStridedSlice S1024x1024 ![1, 1] · slices_S1026x1026_S1024x1024_1_1) : Buf32 F S1026x1026 → Buf32 F S1024x1024)
  :: unary main_v309 main_v311 (broadcastInDim S1024x1024 ![] bcast_S_S1024x1024 : Buf32 F S_ → Buf32 F S1024x1024)
  :: binary main_v311 main_v310 main_v312 (mulf : Buf32 F S1024x1024 → Buf32 F S1024x1024 → Buf32 F S1024x1024)
  :: binary main_v307 main_v312 main_v313 (addf : Buf32 F S1024x1024 → Buf32 F S1024x1024 → Buf32 F S1024x1024)
  :: unary main_cst main_v314 ((extractStridedSlice S1x1 ![1, 2] · slices_S3x3_S1x1_1_2) : Buf32 F S3x3 → Buf32 F S1x1)
  :: reshape main_v314 main_v315 rfl shapeCasts_S1x1_S_
  :: unary main_v282 main_v316 ((extractStridedSlice S1024x1024 ![1, 2] · slices_S1026x1026_S1024x1024_1_2) : Buf32 F S1026x1026 → Buf32 F S1024x1024)
  :: unary main_v315 main_v317 (broadcastInDim S1024x1024 ![] bcast_S_S1024x1024 : Buf32 F S_ → Buf32 F S1024x1024)
  :: binary main_v317 main_v316 main_v318 (mulf : Buf32 F S1024x1024 → Buf32 F S1024x1024 → Buf32 F S1024x1024)
  :: binary main_v313 main_v318 main_v319 (addf : Buf32 F S1024x1024 → Buf32 F S1024x1024 → Buf32 F S1024x1024)
  :: unary main_cst main_v320 ((extractStridedSlice S1x1 ![2, 0] · slices_S3x3_S1x1_2_0) : Buf32 F S3x3 → Buf32 F S1x1)
  :: reshape main_v320 main_v321 rfl shapeCasts_S1x1_S_
  :: unary main_v282 main_v322 ((extractStridedSlice S1024x1024 ![2, 0] · slices_S1026x1026_S1024x1024_2_0) : Buf32 F S1026x1026 → Buf32 F S1024x1024)
  :: unary main_v321 main_v323 (broadcastInDim S1024x1024 ![] bcast_S_S1024x1024 : Buf32 F S_ → Buf32 F S1024x1024)
  :: [] )
theorem seg27_sub : (seg27 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg27_W : List (Ref sig .tc) := [main_cst_33, main_v283, main_v284, main_v285, main_v286, main_v287, main_v288, main_v289, main_v290, main_v291, main_v292, main_v293, main_v294, main_v295, main_v296, main_v297, main_v298, main_v299, main_v300, main_v301, main_v302, main_v303, main_v304, main_v305, main_v306, main_v307, main_v308, main_v309, main_v310, main_v311, main_v312, main_v313, main_v314, main_v315, main_v316, main_v317, main_v318, main_v319, main_v320, main_v321, main_v322, main_v323]
theorem seg27_writes : (seg27 : List (HloOp τ sig (Elt F))).Forall fun op => op.writes ⊆ (seg27_W.map (Proc.devRef (τ := τ) .tc)).toFinset := by
  simp only [List.Forall]; and_intros <;> exact sub_W rfl (by decide)

abbrev seg28 : List (HloOp τ sig (Elt F)) :=
  ( binary main_v323 main_v322 main_v324 (mulf : Buf32 F S1024x1024 → Buf32 F S1024x1024 → Buf32 F S1024x1024)
  :: binary main_v319 main_v324 main_v325 (addf : Buf32 F S1024x1024 → Buf32 F S1024x1024 → Buf32 F S1024x1024)
  :: unary main_cst main_v326 ((extractStridedSlice S1x1 ![2, 1] · slices_S3x3_S1x1_2_1) : Buf32 F S3x3 → Buf32 F S1x1)
  :: reshape main_v326 main_v327 rfl shapeCasts_S1x1_S_
  :: unary main_v282 main_v328 ((extractStridedSlice S1024x1024 ![2, 1] · slices_S1026x1026_S1024x1024_2_1) : Buf32 F S1026x1026 → Buf32 F S1024x1024)
  :: unary main_v327 main_v329 (broadcastInDim S1024x1024 ![] bcast_S_S1024x1024 : Buf32 F S_ → Buf32 F S1024x1024)
  :: binary main_v329 main_v328 main_v330 (mulf : Buf32 F S1024x1024 → Buf32 F S1024x1024 → Buf32 F S1024x1024)
  :: binary main_v325 main_v330 main_v331 (addf : Buf32 F S1024x1024 → Buf32 F S1024x1024 → Buf32 F S1024x1024)
  :: unary main_cst main_v332 ((extractStridedSlice S1x1 ![2, 2] · slices_S3x3_S1x1_2_2) : Buf32 F S3x3 → Buf32 F S1x1)
  :: reshape main_v332 main_v333 rfl shapeCasts_S1x1_S_
  :: unary main_v282 main_v334 ((extractStridedSlice S1024x1024 ![2, 2] · slices_S1026x1026_S1024x1024_2_2) : Buf32 F S1026x1026 → Buf32 F S1024x1024)
  :: unary main_v333 main_v335 (broadcastInDim S1024x1024 ![] bcast_S_S1024x1024 : Buf32 F S_ → Buf32 F S1024x1024)
  :: binary main_v335 main_v334 main_v336 (mulf : Buf32 F S1024x1024 → Buf32 F S1024x1024 → Buf32 F S1024x1024)
  :: binary main_v331 main_v336 main_v337 (addf : Buf32 F S1024x1024 → Buf32 F S1024x1024 → Buf32 F S1024x1024)
  :: nullary main_c_34 (constantI S_ 32 0#32)
  :: [] )
theorem seg28_sub : (seg28 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg28_W : List (Ref sig .tc) := [main_v324, main_v325, main_v326, main_v327, main_v328, main_v329, main_v330, main_v331, main_v332, main_v333, main_v334, main_v335, main_v336, main_v337, main_c_34]
theorem seg28_writes : (seg28 : List (HloOp τ sig (Elt F))).Forall fun op => op.writes ⊆ (seg28_W.map (Proc.devRef (τ := τ) .tc)).toFinset := by
  simp only [List.Forall]; and_intros <;> exact sub_W rfl (by decide)

abbrev seg29 : List (HloOp τ sig (Elt F)) :=
  ( TRef.unary (.of main_v337 : Ref32 S1024x1024) (.of main_call11_v0 : Ref32 S1x1024) (extractStridedSlice S1x1024 ![0, 0] · slices_S1024x1024_S1x1024_0_0)
  :: TRef.unary (.of main_v337 : Ref32 S1024x1024) (.of main_call11_v1 : Ref32 S1x1024) (extractStridedSlice S1x1024 ![1, 0] · slices_S1024x1024_S1x1024_1_0)
  :: TRef.unary (.of main_call11_v1 : Ref32 S1x1024) (.of main_call11_v2 : Ref32 S1x1024) (Host.reverse [0])
  :: TRef.binary (.of main_call11_v2 : Ref32 S1x1024) (.of main_v337 : Ref32 S1024x1024) (.of main_call11_v3 : Ref32 S1025x1024) (fun a b => concatenate S1025x1024 0 [⟨S1x1024, a⟩, ⟨S1024x1024, b⟩] concatenates_S1x1024_S1024x1024_S1025x1024_d0)
  :: TRef.unary (.of main_call11_v3 : Ref32 S1025x1024) (.of main_call11_v4 : Ref32 S1x1024) (extractStridedSlice S1x1024 ![1024, 0] · slices_S1025x1024_S1x1024_1024_0)
  :: TRef.unary (.of main_call11_v3 : Ref32 S1025x1024) (.of main_call11_v5 : Ref32 S1x1024) (extractStridedSlice S1x1024 ![1023, 0] · slices_S1025x1024_S1x1024_1023_0)
  :: TRef.unary (.of main_call11_v5 : Ref32 S1x1024) (.of main_call11_v6 : Ref32 S1x1024) (Host.reverse [0])
  :: TRef.binary (.of main_call11_v3 : Ref32 S1025x1024) (.of main_call11_v6 : Ref32 S1x1024) (.of main_call11_v7 : Ref32 S1026x1024) (fun a b => concatenate S1026x1024 0 [⟨S1025x1024, a⟩, ⟨S1x1024, b⟩] concatenates_S1025x1024_S1x1024_S1026x1024_d0)
  :: TRef.unary (.of main_call11_v7 : Ref32 S1026x1024) (.of main_call11_v8 : Ref32 S1026x1) (extractStridedSlice S1026x1 ![0, 0] · slices_S1026x1024_S1026x1_0_0)
  :: TRef.unary (.of main_call11_v7 : Ref32 S1026x1024) (.of main_call11_v9 : Ref32 S1026x1) (extractStridedSlice S1026x1 ![0, 1] · slices_S1026x1024_S1026x1_0_1)
  :: TRef.unary (.of main_call11_v9 : Ref32 S1026x1) (.of main_call11_v10 : Ref32 S1026x1) (Host.reverse [1])
  :: TRef.binary (.of main_call11_v10 : Ref32 S1026x1) (.of main_call11_v7 : Ref32 S1026x1024) (.of main_call11_v11 : Ref32 S1026x1025) (fun a b => concatenate S1026x1025 1 [⟨S1026x1, a⟩, ⟨S1026x1024, b⟩] concatenates_S1026x1_S1026x1024_S1026x1025_d1)
  :: TRef.unary (.of main_call11_v11 : Ref32 S1026x1025) (.of main_call11_v12 : Ref32 S1026x1) (extractStridedSlice S1026x1 ![0, 1024] · slices_S1026x1025_S1026x1_0_1024)
  :: TRef.unary (.of main_call11_v11 : Ref32 S1026x1025) (.of main_call11_v13 : Ref32 S1026x1) (extractStridedSlice S1026x1 ![0, 1023] · slices_S1026x1025_S1026x1_0_1023)
  :: TRef.unary (.of main_call11_v13 : Ref32 S1026x1) (.of main_call11_v14 : Ref32 S1026x1) (Host.reverse [1])
  :: TRef.binary (.of main_call11_v11 : Ref32 S1026x1025) (.of main_call11_v14 : Ref32 S1026x1) (.of main_v338 : Ref32 S1026x1026) (fun a b => concatenate S1026x1026 1 [⟨S1026x1025, a⟩, ⟨S1026x1, b⟩] concatenates_S1026x1025_S1026x1_S1026x1026_d1)
  :: [] )
theorem seg29_sub : (seg29 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg29_W : List (Ref sig .tc) := [main_call11_v0, main_call11_v1, main_call11_v2, main_call11_v3, main_call11_v4, main_call11_v5, main_call11_v6, main_call11_v7, main_call11_v8, main_call11_v9, main_call11_v10, main_call11_v11, main_call11_v12, main_call11_v13, main_call11_v14, main_v338]
theorem seg29_writes : (seg29 : List (HloOp τ sig (Elt F))).Forall fun op => op.writes ⊆ (seg29_W.map (Proc.devRef (τ := τ) .tc)).toFinset := by
  simp only [List.Forall]; and_intros <;> exact sub_W rfl (by decide)

abbrev seg30 : List (HloOp τ sig (Elt F)) :=
  ( nullary main_cst_35 (constant S_ .f32 0x00000000#32)
  :: unary main_cst_35 main_v339 (broadcastInDim S1024x1024 ![] bcast_S_S1024x1024 : Buf32 F S_ → Buf32 F S1024x1024)
  :: unary main_cst_0 main_v340 ((extractStridedSlice S1x1 ![0, 0] · slices_S3x3_S1x1_0_0) : Buf32 F S3x3 → Buf32 F S1x1)
  :: reshape main_v340 main_v341 rfl shapeCasts_S1x1_S_
  :: unary main_v338 main_v342 ((extractStridedSlice S1024x1024 ![0, 0] · slices_S1026x1026_S1024x1024_0_0) : Buf32 F S1026x1026 → Buf32 F S1024x1024)
  :: unary main_v341 main_v343 (broadcastInDim S1024x1024 ![] bcast_S_S1024x1024 : Buf32 F S_ → Buf32 F S1024x1024)
  :: binary main_v343 main_v342 main_v344 (mulf : Buf32 F S1024x1024 → Buf32 F S1024x1024 → Buf32 F S1024x1024)
  :: binary main_v339 main_v344 main_v345 (addf : Buf32 F S1024x1024 → Buf32 F S1024x1024 → Buf32 F S1024x1024)
  :: unary main_cst_0 main_v346 ((extractStridedSlice S1x1 ![0, 1] · slices_S3x3_S1x1_0_1) : Buf32 F S3x3 → Buf32 F S1x1)
  :: reshape main_v346 main_v347 rfl shapeCasts_S1x1_S_
  :: unary main_v338 main_v348 ((extractStridedSlice S1024x1024 ![0, 1] · slices_S1026x1026_S1024x1024_0_1) : Buf32 F S1026x1026 → Buf32 F S1024x1024)
  :: unary main_v347 main_v349 (broadcastInDim S1024x1024 ![] bcast_S_S1024x1024 : Buf32 F S_ → Buf32 F S1024x1024)
  :: binary main_v349 main_v348 main_v350 (mulf : Buf32 F S1024x1024 → Buf32 F S1024x1024 → Buf32 F S1024x1024)
  :: binary main_v345 main_v350 main_v351 (addf : Buf32 F S1024x1024 → Buf32 F S1024x1024 → Buf32 F S1024x1024)
  :: unary main_cst_0 main_v352 ((extractStridedSlice S1x1 ![0, 2] · slices_S3x3_S1x1_0_2) : Buf32 F S3x3 → Buf32 F S1x1)
  :: reshape main_v352 main_v353 rfl shapeCasts_S1x1_S_
  :: unary main_v338 main_v354 ((extractStridedSlice S1024x1024 ![0, 2] · slices_S1026x1026_S1024x1024_0_2) : Buf32 F S1026x1026 → Buf32 F S1024x1024)
  :: unary main_v353 main_v355 (broadcastInDim S1024x1024 ![] bcast_S_S1024x1024 : Buf32 F S_ → Buf32 F S1024x1024)
  :: binary main_v355 main_v354 main_v356 (mulf : Buf32 F S1024x1024 → Buf32 F S1024x1024 → Buf32 F S1024x1024)
  :: binary main_v351 main_v356 main_v357 (addf : Buf32 F S1024x1024 → Buf32 F S1024x1024 → Buf32 F S1024x1024)
  :: unary main_cst_0 main_v358 ((extractStridedSlice S1x1 ![1, 0] · slices_S3x3_S1x1_1_0) : Buf32 F S3x3 → Buf32 F S1x1)
  :: reshape main_v358 main_v359 rfl shapeCasts_S1x1_S_
  :: unary main_v338 main_v360 ((extractStridedSlice S1024x1024 ![1, 0] · slices_S1026x1026_S1024x1024_1_0) : Buf32 F S1026x1026 → Buf32 F S1024x1024)
  :: unary main_v359 main_v361 (broadcastInDim S1024x1024 ![] bcast_S_S1024x1024 : Buf32 F S_ → Buf32 F S1024x1024)
  :: binary main_v361 main_v360 main_v362 (mulf : Buf32 F S1024x1024 → Buf32 F S1024x1024 → Buf32 F S1024x1024)
  :: binary main_v357 main_v362 main_v363 (addf : Buf32 F S1024x1024 → Buf32 F S1024x1024 → Buf32 F S1024x1024)
  :: unary main_cst_0 main_v364 ((extractStridedSlice S1x1 ![1, 1] · slices_S3x3_S1x1_1_1) : Buf32 F S3x3 → Buf32 F S1x1)
  :: reshape main_v364 main_v365 rfl shapeCasts_S1x1_S_
  :: unary main_v338 main_v366 ((extractStridedSlice S1024x1024 ![1, 1] · slices_S1026x1026_S1024x1024_1_1) : Buf32 F S1026x1026 → Buf32 F S1024x1024)
  :: unary main_v365 main_v367 (broadcastInDim S1024x1024 ![] bcast_S_S1024x1024 : Buf32 F S_ → Buf32 F S1024x1024)
  :: binary main_v367 main_v366 main_v368 (mulf : Buf32 F S1024x1024 → Buf32 F S1024x1024 → Buf32 F S1024x1024)
  :: binary main_v363 main_v368 main_v369 (addf : Buf32 F S1024x1024 → Buf32 F S1024x1024 → Buf32 F S1024x1024)
  :: unary main_cst_0 main_v370 ((extractStridedSlice S1x1 ![1, 2] · slices_S3x3_S1x1_1_2) : Buf32 F S3x3 → Buf32 F S1x1)
  :: reshape main_v370 main_v371 rfl shapeCasts_S1x1_S_
  :: unary main_v338 main_v372 ((extractStridedSlice S1024x1024 ![1, 2] · slices_S1026x1026_S1024x1024_1_2) : Buf32 F S1026x1026 → Buf32 F S1024x1024)
  :: unary main_v371 main_v373 (broadcastInDim S1024x1024 ![] bcast_S_S1024x1024 : Buf32 F S_ → Buf32 F S1024x1024)
  :: binary main_v373 main_v372 main_v374 (mulf : Buf32 F S1024x1024 → Buf32 F S1024x1024 → Buf32 F S1024x1024)
  :: binary main_v369 main_v374 main_v375 (addf : Buf32 F S1024x1024 → Buf32 F S1024x1024 → Buf32 F S1024x1024)
  :: unary main_cst_0 main_v376 ((extractStridedSlice S1x1 ![2, 0] · slices_S3x3_S1x1_2_0) : Buf32 F S3x3 → Buf32 F S1x1)
  :: reshape main_v376 main_v377 rfl shapeCasts_S1x1_S_
  :: unary main_v338 main_v378 ((extractStridedSlice S1024x1024 ![2, 0] · slices_S1026x1026_S1024x1024_2_0) : Buf32 F S1026x1026 → Buf32 F S1024x1024)
  :: unary main_v377 main_v379 (broadcastInDim S1024x1024 ![] bcast_S_S1024x1024 : Buf32 F S_ → Buf32 F S1024x1024)
  :: binary main_v379 main_v378 main_v380 (mulf : Buf32 F S1024x1024 → Buf32 F S1024x1024 → Buf32 F S1024x1024)
  :: binary main_v375 main_v380 main_v381 (addf : Buf32 F S1024x1024 → Buf32 F S1024x1024 → Buf32 F S1024x1024)
  :: [] )
theorem seg30_sub : (seg30 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg30_W : List (Ref sig .tc) := [main_cst_35, main_v339, main_v340, main_v341, main_v342, main_v343, main_v344, main_v345, main_v346, main_v347, main_v348, main_v349, main_v350, main_v351, main_v352, main_v353, main_v354, main_v355, main_v356, main_v357, main_v358, main_v359, main_v360, main_v361, main_v362, main_v363, main_v364, main_v365, main_v366, main_v367, main_v368, main_v369, main_v370, main_v371, main_v372, main_v373, main_v374, main_v375, main_v376, main_v377, main_v378, main_v379, main_v380, main_v381]
theorem seg30_writes : (seg30 : List (HloOp τ sig (Elt F))).Forall fun op => op.writes ⊆ (seg30_W.map (Proc.devRef (τ := τ) .tc)).toFinset := by
  simp only [List.Forall]; and_intros <;> exact sub_W rfl (by decide)

abbrev seg31 : List (HloOp τ sig (Elt F)) :=
  ( unary main_cst_0 main_v382 ((extractStridedSlice S1x1 ![2, 1] · slices_S3x3_S1x1_2_1) : Buf32 F S3x3 → Buf32 F S1x1)
  :: reshape main_v382 main_v383 rfl shapeCasts_S1x1_S_
  :: unary main_v338 main_v384 ((extractStridedSlice S1024x1024 ![2, 1] · slices_S1026x1026_S1024x1024_2_1) : Buf32 F S1026x1026 → Buf32 F S1024x1024)
  :: unary main_v383 main_v385 (broadcastInDim S1024x1024 ![] bcast_S_S1024x1024 : Buf32 F S_ → Buf32 F S1024x1024)
  :: binary main_v385 main_v384 main_v386 (mulf : Buf32 F S1024x1024 → Buf32 F S1024x1024 → Buf32 F S1024x1024)
  :: binary main_v381 main_v386 main_v387 (addf : Buf32 F S1024x1024 → Buf32 F S1024x1024 → Buf32 F S1024x1024)
  :: unary main_cst_0 main_v388 ((extractStridedSlice S1x1 ![2, 2] · slices_S3x3_S1x1_2_2) : Buf32 F S3x3 → Buf32 F S1x1)
  :: reshape main_v388 main_v389 rfl shapeCasts_S1x1_S_
  :: unary main_v338 main_v390 ((extractStridedSlice S1024x1024 ![2, 2] · slices_S1026x1026_S1024x1024_2_2) : Buf32 F S1026x1026 → Buf32 F S1024x1024)
  :: unary main_v389 main_v391 (broadcastInDim S1024x1024 ![] bcast_S_S1024x1024 : Buf32 F S_ → Buf32 F S1024x1024)
  :: binary main_v391 main_v390 main_v392 (mulf : Buf32 F S1024x1024 → Buf32 F S1024x1024 → Buf32 F S1024x1024)
  :: binary main_v387 main_v392 main_v393 (addf : Buf32 F S1024x1024 → Buf32 F S1024x1024 → Buf32 F S1024x1024)
  :: unary main_v279 main_v394 (broadcastInDim S1x1024x1024 ![1, 2] bcast_S1024x1024_S1x1024x1024_1_2 : Buf32 F S1024x1024 → Buf32 F S1x1024x1024)
  :: unary main_v394 main_v395 (broadcastInDim S8x1024x1024 ![0, 1, 2] bcast_S1x1024x1024_S8x1024x1024_0_1_2 : Buf32 F S1x1024x1024 → Buf32 F S8x1024x1024)
  :: binary main_v109 main_v395 main_v396 (mulf : Buf32 F S8x1024x1024 → Buf32 F S8x1024x1024 → Buf32 F S8x1024x1024)
  :: unary main_v393 main_v397 (broadcastInDim S1x1024x1024 ![1, 2] bcast_S1024x1024_S1x1024x1024_1_2 : Buf32 F S1024x1024 → Buf32 F S1x1024x1024)
  :: unary main_v397 main_v398 (broadcastInDim S8x1024x1024 ![0, 1, 2] bcast_S1x1024x1024_S8x1024x1024_0_1_2 : Buf32 F S1x1024x1024 → Buf32 F S8x1024x1024)
  :: binary main_v165 main_v398 main_v399 (mulf : Buf32 F S8x1024x1024 → Buf32 F S8x1024x1024 → Buf32 F S8x1024x1024)
  :: binary main_v396 main_v399 main_v400 (subf : Buf32 F S8x1024x1024 → Buf32 F S8x1024x1024 → Buf32 F S8x1024x1024)
  :: unary main_v400 main_v401 (Host.absf : Buf32 F S8x1024x1024 → Buf32 F S8x1024x1024)
  :: nullary main_cst_36 (constant S_ .f32 0x00000000#32)
  :: binary main_v401 main_cst_36 main_v402 ((fun x v => Host.reduceAdd x v reducesTo_S8x1024x1024_S_d0_1_2 h_S_) : Buf32 F S8x1024x1024 → Buf32 F S_ → Buf32 F S_)
  :: nullary main_cst_37 (constant S_ .f32 0x4B000000#32)
  :: binary main_v402 main_cst_37 main_v403 (Host.divf : Buf32 F S_ → Buf32 F S_ → Buf32 F S_)
  :: binary main_v8 main_v23 main_v404 (addf : Buf32 F S_ → Buf32 F S_ → Buf32 F S_)
  :: binary main_v404 main_v47 main_v405 (addf : Buf32 F S_ → Buf32 F S_ → Buf32 F S_)
  :: binary main_v405 main_v19 main_v406 (addf : Buf32 F S_ → Buf32 F S_ → Buf32 F S_)
  :: binary main_v406 main_v403 main_v407 (addf : Buf32 F S_ → Buf32 F S_ → Buf32 F S_)
  :: [] )
theorem seg31_sub : (seg31 : List (HloOp τ sig (Elt F))).Forall fun op => op.bufs ⊆ tcRefs τ sig := by
  simp only [List.Forall]; and_intros <;> simp only [nullary_bufs_sub, unary_bufs_sub, binary_bufs_sub, ternary_bufs_sub, reshape_bufs_sub]
abbrev seg31_W : List (Ref sig .tc) := [main_v382, main_v383, main_v384, main_v385, main_v386, main_v387, main_v388, main_v389, main_v390, main_v391, main_v392, main_v393, main_v394, main_v395, main_v396, main_v397, main_v398, main_v399, main_v400, main_v401, main_cst_36, main_v402, main_cst_37, main_v403, main_v404, main_v405, main_v406, main_v407]
theorem seg31_writes : (seg31 : List (HloOp τ sig (Elt F))).Forall fun op => op.writes ⊆ (seg31_W.map (Proc.devRef (τ := τ) .tc)).toFinset := by
  simp only [List.Forall]; and_intros <;> exact sub_W rfl (by decide)

abbrev segs : List (List (HloOp τ sig (Elt F))) := [seg0, seg1, seg2, seg3, seg4, seg5, seg6, seg7, seg8, seg9, seg10, seg11, seg12, seg13, seg14, seg15, seg16, seg17, seg18, seg19, seg20, seg21, seg22, seg23, seg24, seg25, seg26, seg27, seg28, seg29, seg30, seg31]
abbrev ops : List (HloOp τ sig (Elt F)) := segs.flatten

theorem segs_fresh : (segs : List (List (HloOp τ sig (Elt F)))).Forall fun l => l.Forall fun op => op.fresh = ∅ := by
  simp only [List.Forall]; and_intros <;> rfl

variable (m : (ℓ : Loc nD τ sig) → Buf (Elt F) ℓ) (c : Dev nD)

def R0 : Valuation τ sig (Elt F) := launchContents m c
def R1 : Valuation τ sig (Elt F) := after seg0 (R0 m c)
theorem R1_keep (r : Ref sig .tc) (h : r ∉ (seg0_W : List (Ref sig .tc))) : R1 m c (Proc.devRef .tc r) = R0 m c (Proc.devRef .tc r) :=
  after_of_writes_sub seg0 _ seg0_writes h
def R2 : Valuation τ sig (Elt F) := after seg1 (R1 m c)
theorem R2_keep (r : Ref sig .tc) (h : r ∉ (seg1_W : List (Ref sig .tc))) : R2 m c (Proc.devRef .tc r) = R1 m c (Proc.devRef .tc r) :=
  after_of_writes_sub seg1 _ seg1_writes h
def R3 : Valuation τ sig (Elt F) := after seg2 (R2 m c)
theorem R3_keep (r : Ref sig .tc) (h : r ∉ (seg2_W : List (Ref sig .tc))) : R3 m c (Proc.devRef .tc r) = R2 m c (Proc.devRef .tc r) :=
  after_of_writes_sub seg2 _ seg2_writes h
def R4 : Valuation τ sig (Elt F) := after seg3 (R3 m c)
theorem R4_keep (r : Ref sig .tc) (h : r ∉ (seg3_W : List (Ref sig .tc))) : R4 m c (Proc.devRef .tc r) = R3 m c (Proc.devRef .tc r) :=
  after_of_writes_sub seg3 _ seg3_writes h
def R5 : Valuation τ sig (Elt F) := after seg4 (R4 m c)
theorem R5_keep (r : Ref sig .tc) (h : r ∉ (seg4_W : List (Ref sig .tc))) : R5 m c (Proc.devRef .tc r) = R4 m c (Proc.devRef .tc r) :=
  after_of_writes_sub seg4 _ seg4_writes h
def R6 : Valuation τ sig (Elt F) := after seg5 (R5 m c)
theorem R6_keep (r : Ref sig .tc) (h : r ∉ (seg5_W : List (Ref sig .tc))) : R6 m c (Proc.devRef .tc r) = R5 m c (Proc.devRef .tc r) :=
  after_of_writes_sub seg5 _ seg5_writes h
def R7 : Valuation τ sig (Elt F) := after seg6 (R6 m c)
theorem R7_keep (r : Ref sig .tc) (h : r ∉ (seg6_W : List (Ref sig .tc))) : R7 m c (Proc.devRef .tc r) = R6 m c (Proc.devRef .tc r) :=
  after_of_writes_sub seg6 _ seg6_writes h
def R8 : Valuation τ sig (Elt F) := after seg7 (R7 m c)
theorem R8_keep (r : Ref sig .tc) (h : r ∉ (seg7_W : List (Ref sig .tc))) : R8 m c (Proc.devRef .tc r) = R7 m c (Proc.devRef .tc r) :=
  after_of_writes_sub seg7 _ seg7_writes h
def R9 : Valuation τ sig (Elt F) := after seg8 (R8 m c)
theorem R9_keep (r : Ref sig .tc) (h : r ∉ (seg8_W : List (Ref sig .tc))) : R9 m c (Proc.devRef .tc r) = R8 m c (Proc.devRef .tc r) :=
  after_of_writes_sub seg8 _ seg8_writes h
def R10 : Valuation τ sig (Elt F) := after seg9 (R9 m c)
theorem R10_keep (r : Ref sig .tc) (h : r ∉ (seg9_W : List (Ref sig .tc))) : R10 m c (Proc.devRef .tc r) = R9 m c (Proc.devRef .tc r) :=
  after_of_writes_sub seg9 _ seg9_writes h
def R11 : Valuation τ sig (Elt F) := after seg10 (R10 m c)
theorem R11_keep (r : Ref sig .tc) (h : r ∉ (seg10_W : List (Ref sig .tc))) : R11 m c (Proc.devRef .tc r) = R10 m c (Proc.devRef .tc r) :=
  after_of_writes_sub seg10 _ seg10_writes h
def R12 : Valuation τ sig (Elt F) := after seg11 (R11 m c)
theorem R12_keep (r : Ref sig .tc) (h : r ∉ (seg11_W : List (Ref sig .tc))) : R12 m c (Proc.devRef .tc r) = R11 m c (Proc.devRef .tc r) :=
  after_of_writes_sub seg11 _ seg11_writes h
def R13 : Valuation τ sig (Elt F) := after seg12 (R12 m c)
theorem R13_keep (r : Ref sig .tc) (h : r ∉ (seg12_W : List (Ref sig .tc))) : R13 m c (Proc.devRef .tc r) = R12 m c (Proc.devRef .tc r) :=
  after_of_writes_sub seg12 _ seg12_writes h
def R14 : Valuation τ sig (Elt F) := after seg13 (R13 m c)
theorem R14_keep (r : Ref sig .tc) (h : r ∉ (seg13_W : List (Ref sig .tc))) : R14 m c (Proc.devRef .tc r) = R13 m c (Proc.devRef .tc r) :=
  after_of_writes_sub seg13 _ seg13_writes h
def R15 : Valuation τ sig (Elt F) := after seg14 (R14 m c)
theorem R15_keep (r : Ref sig .tc) (h : r ∉ (seg14_W : List (Ref sig .tc))) : R15 m c (Proc.devRef .tc r) = R14 m c (Proc.devRef .tc r) :=
  after_of_writes_sub seg14 _ seg14_writes h
def R16 : Valuation τ sig (Elt F) := after seg15 (R15 m c)
theorem R16_keep (r : Ref sig .tc) (h : r ∉ (seg15_W : List (Ref sig .tc))) : R16 m c (Proc.devRef .tc r) = R15 m c (Proc.devRef .tc r) :=
  after_of_writes_sub seg15 _ seg15_writes h
def R17 : Valuation τ sig (Elt F) := after seg16 (R16 m c)
theorem R17_keep (r : Ref sig .tc) (h : r ∉ (seg16_W : List (Ref sig .tc))) : R17 m c (Proc.devRef .tc r) = R16 m c (Proc.devRef .tc r) :=
  after_of_writes_sub seg16 _ seg16_writes h
def R18 : Valuation τ sig (Elt F) := after seg17 (R17 m c)
theorem R18_keep (r : Ref sig .tc) (h : r ∉ (seg17_W : List (Ref sig .tc))) : R18 m c (Proc.devRef .tc r) = R17 m c (Proc.devRef .tc r) :=
  after_of_writes_sub seg17 _ seg17_writes h
def R19 : Valuation τ sig (Elt F) := after seg18 (R18 m c)
theorem R19_keep (r : Ref sig .tc) (h : r ∉ (seg18_W : List (Ref sig .tc))) : R19 m c (Proc.devRef .tc r) = R18 m c (Proc.devRef .tc r) :=
  after_of_writes_sub seg18 _ seg18_writes h
def R20 : Valuation τ sig (Elt F) := after seg19 (R19 m c)
theorem R20_keep (r : Ref sig .tc) (h : r ∉ (seg19_W : List (Ref sig .tc))) : R20 m c (Proc.devRef .tc r) = R19 m c (Proc.devRef .tc r) :=
  after_of_writes_sub seg19 _ seg19_writes h
def R21 : Valuation τ sig (Elt F) := after seg20 (R20 m c)
theorem R21_keep (r : Ref sig .tc) (h : r ∉ (seg20_W : List (Ref sig .tc))) : R21 m c (Proc.devRef .tc r) = R20 m c (Proc.devRef .tc r) :=
  after_of_writes_sub seg20 _ seg20_writes h
def R22 : Valuation τ sig (Elt F) := after seg21 (R21 m c)
theorem R22_keep (r : Ref sig .tc) (h : r ∉ (seg21_W : List (Ref sig .tc))) : R22 m c (Proc.devRef .tc r) = R21 m c (Proc.devRef .tc r) :=
  after_of_writes_sub seg21 _ seg21_writes h
def R23 : Valuation τ sig (Elt F) := after seg22 (R22 m c)
theorem R23_keep (r : Ref sig .tc) (h : r ∉ (seg22_W : List (Ref sig .tc))) : R23 m c (Proc.devRef .tc r) = R22 m c (Proc.devRef .tc r) :=
  after_of_writes_sub seg22 _ seg22_writes h
def R24 : Valuation τ sig (Elt F) := after seg23 (R23 m c)
theorem R24_keep (r : Ref sig .tc) (h : r ∉ (seg23_W : List (Ref sig .tc))) : R24 m c (Proc.devRef .tc r) = R23 m c (Proc.devRef .tc r) :=
  after_of_writes_sub seg23 _ seg23_writes h
def R25 : Valuation τ sig (Elt F) := after seg24 (R24 m c)
theorem R25_keep (r : Ref sig .tc) (h : r ∉ (seg24_W : List (Ref sig .tc))) : R25 m c (Proc.devRef .tc r) = R24 m c (Proc.devRef .tc r) :=
  after_of_writes_sub seg24 _ seg24_writes h
def R26 : Valuation τ sig (Elt F) := after seg25 (R25 m c)
theorem R26_keep (r : Ref sig .tc) (h : r ∉ (seg25_W : List (Ref sig .tc))) : R26 m c (Proc.devRef .tc r) = R25 m c (Proc.devRef .tc r) :=
  after_of_writes_sub seg25 _ seg25_writes h
def R27 : Valuation τ sig (Elt F) := after seg26 (R26 m c)
theorem R27_keep (r : Ref sig .tc) (h : r ∉ (seg26_W : List (Ref sig .tc))) : R27 m c (Proc.devRef .tc r) = R26 m c (Proc.devRef .tc r) :=
  after_of_writes_sub seg26 _ seg26_writes h
def R28 : Valuation τ sig (Elt F) := after seg27 (R27 m c)
theorem R28_keep (r : Ref sig .tc) (h : r ∉ (seg27_W : List (Ref sig .tc))) : R28 m c (Proc.devRef .tc r) = R27 m c (Proc.devRef .tc r) :=
  after_of_writes_sub seg27 _ seg27_writes h
def R29 : Valuation τ sig (Elt F) := after seg28 (R28 m c)
theorem R29_keep (r : Ref sig .tc) (h : r ∉ (seg28_W : List (Ref sig .tc))) : R29 m c (Proc.devRef .tc r) = R28 m c (Proc.devRef .tc r) :=
  after_of_writes_sub seg28 _ seg28_writes h
def R30 : Valuation τ sig (Elt F) := after seg29 (R29 m c)
theorem R30_keep (r : Ref sig .tc) (h : r ∉ (seg29_W : List (Ref sig .tc))) : R30 m c (Proc.devRef .tc r) = R29 m c (Proc.devRef .tc r) :=
  after_of_writes_sub seg29 _ seg29_writes h
def R31 : Valuation τ sig (Elt F) := after seg30 (R30 m c)
theorem R31_keep (r : Ref sig .tc) (h : r ∉ (seg30_W : List (Ref sig .tc))) : R31 m c (Proc.devRef .tc r) = R30 m c (Proc.devRef .tc r) :=
  after_of_writes_sub seg30 _ seg30_writes h
def R32 : Valuation τ sig (Elt F) := after seg31 (R31 m c)
theorem R32_keep (r : Ref sig .tc) (h : r ∉ (seg31_W : List (Ref sig .tc))) : R32 m c (Proc.devRef .tc r) = R31 m c (Proc.devRef .tc r) :=
  after_of_writes_sub seg31 _ seg31_writes h

end Cert.ReferenceIdeal.ROps

end
-- ==== Proof.RRun.lean ====
import proofs.«147778_j69123203661888_1_alg».proof.Proof.ROps
import Idealize.ShloMosaic.Lib.StableHlo.Run
import Idealize.ShloMosaic.Lib.Pipeline.Regions

set_option maxRecDepth 4096

noncomputable section

namespace Cert.ReferenceIdeal.RRun

open Idealize.ShloMosaic Idealize.ShloMosaic.TcCoe Idealize.SL.Sem

section Lines

variable {nD' : Nat} {τ' : Topo} {sig' : RefSig} {Val : EltTy → Type} {Λ : Labels}

theorem after_append (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => simp only [List.cons_append, StableHlo.after_cons, ih]

theorem after_flatten (ls : List (List (HloOp τ' sig' Val))) (V : Valuation τ' sig' Val) :
    StableHlo.after ls.flatten V = ls.foldl (fun W l => StableHlo.after l W) V := by
  induction ls generalizing V with
  | nil => rfl
  | cons l ls ih => simp only [List.flatten_cons, after_append, List.foldl_cons, ih]

theorem chain_map_seq (ls : List (List (HloOp τ' sig' Val))) :
    (Pipeline.chain (ls.map StableHlo.seq) : Prog (TpuEff nD' τ' sig' Val Λ .tc) PUnit) = StableHlo.seq ls.flatten := by
  induction ls with
  | nil => rfl
  | cons l ls ih => simp only [List.map_cons, Pipeline.chain_cons, List.flatten_cons, StableHlo.seq_append, ih]

theorem forall_flatten {α : Type} {p : α → Prop} {ls : List (List α)} (h : ls.Forall fun l => l.Forall p) :
    ls.flatten.Forall p := by
  rw [List.forall_iff_forall_mem] at h ⊢
  intro x hx
  obtain ⟨l, hl, hxl⟩ := List.mem_flatten.mp hx
  exact List.forall_iff_forall_mem.mp (h l hl) x hxl

end Lines

open Cert.ReferenceIdeal Cert.ReferenceIdeal.Gen Cert.ReferenceIdeal.ROps

variable {F : FTy → Type} [FloatOps F]

theorem main_part0_eq (c : Dev nD) : main_part0 (F := F) c = (Pipeline.chainK
  [ StableHlo.seq seg0, StableHlo.seq seg1, StableHlo.seq seg2, StableHlo.seq seg3, StableHlo.seq seg4, StableHlo.seq seg5, StableHlo.seq seg6, StableHlo.seq seg7, StableHlo.seq seg8, StableHlo.seq seg9, StableHlo.seq seg10, StableHlo.seq seg11 ]
  (StableHlo.seq seg12) : Prog (TpuEff nD τ sig (Elt F) (Pipeline.Sig Λ₀ (Fin 0) fun p => (pcfgs (F := F) p).Adm) .tc) PUnit) := by
  chain_rfl

theorem main_part1_eq (c : Dev nD) : main_part1 (F := F) c = (Pipeline.chainK
  [ StableHlo.seq seg13, StableHlo.seq seg14 ]
  (StableHlo.seq seg15) : Prog (TpuEff nD τ sig (Elt F) (Pipeline.Sig Λ₀ (Fin 0) fun p => (pcfgs (F := F) p).Adm) .tc) PUnit) := by
  chain_rfl

theorem main_part2_eq (c : Dev nD) : main_part2 (F := F) c = (Pipeline.chainK
  [ StableHlo.seq seg16, StableHlo.seq seg17 ]
  (StableHlo.seq seg18) : Prog (TpuEff nD τ sig (Elt F) (Pipeline.Sig Λ₀ (Fin 0) fun p => (pcfgs (F := F) p).Adm) .tc) PUnit) := by
  chain_rfl

theorem main_part3_eq (c : Dev nD) : main_part3 (F := F) c = (Pipeline.chainK
  [ StableHlo.seq seg19, StableHlo.seq seg20 ]
  (StableHlo.seq seg21) : Prog (TpuEff nD τ sig (Elt F) (Pipeline.Sig Λ₀ (Fin 0) fun p => (pcfgs (F := F) p).Adm) .tc) PUnit) := by
  chain_rfl

theorem main_part4_eq (c : Dev nD) : main_part4 (F := F) c = (Pipeline.chainK
  [ StableHlo.seq seg22, StableHlo.seq seg23 ]
  (StableHlo.seq seg24) : Prog (TpuEff nD τ sig (Elt F) (Pipeline.Sig Λ₀ (Fin 0) fun p => (pcfgs (F := F) p).Adm) .tc) PUnit) := by
  chain_rfl

theorem main_part5_eq (c : Dev nD) : main_part5 (F := F) c = (Pipeline.chainK
  [ StableHlo.seq seg25, StableHlo.seq seg26 ]
  (StableHlo.seq seg27) : Prog (TpuEff nD τ sig (Elt F) (Pipeline.Sig Λ₀ (Fin 0) fun p => (pcfgs (F := F) p).Adm) .tc) PUnit) := by
  chain_rfl

theorem main_part6_eq (c : Dev nD) : main_part6 (F := F) c = (Pipeline.chainK
  [ StableHlo.seq seg28, StableHlo.seq seg29 ]
  (StableHlo.seq seg30) : Prog (TpuEff nD τ sig (Elt F) (Pipeline.Sig Λ₀ (Fin 0) fun p => (pcfgs (F := F) p).Adm) .tc) PUnit) := by
  chain_rfl

theorem main_part7_eq (c : Dev nD) : main_part7 (F := F) c = (Pipeline.chain
  [ StableHlo.seq seg31 ] : Prog (TpuEff nD τ sig (Elt F) (Pipeline.Sig Λ₀ (Fin 0) fun p => (pcfgs (F := F) p).Adm) .tc) PUnit) := by
  chain_rfl

theorem main_eq (c : Dev nD) : main (F := F) c = StableHlo.seq ops := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c) = _
  rewrite [main_part7_eq, main_part6_eq, Pipeline.chainK_bind_chain, main_part5_eq, Pipeline.chainK_bind_chain,
    main_part4_eq, Pipeline.chainK_bind_chain, main_part3_eq, Pipeline.chainK_bind_chain, main_part2_eq,
    Pipeline.chainK_bind_chain, main_part1_eq, Pipeline.chainK_bind_chain, main_part0_eq, Pipeline.chainK_bind_chain]
  exact chain_map_seq segs

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ StableHlo.tcRefs τ sig :=
  forall_flatten ⟨seg0_sub, seg1_sub, seg2_sub, seg3_sub, seg4_sub, seg5_sub, seg6_sub, seg7_sub, seg8_sub, seg9_sub, seg10_sub, seg11_sub, seg12_sub, seg13_sub, seg14_sub, seg15_sub, seg16_sub, seg17_sub, seg18_sub, seg19_sub, seg20_sub, seg21_sub, seg22_sub, seg23_sub, seg24_sub, seg25_sub, seg26_sub, seg27_sub, seg28_sub, seg29_sub, seg30_sub, seg31_sub⟩

theorem ops_fresh : ∀ op ∈ (ops : List (HloOp τ sig (Elt F))), op.fresh = ∅ :=
  List.forall_iff_forall_mem.mp (forall_flatten segs_fresh)

theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ (fun _ => ops_fresh)

variable (m : (ℓ : Loc nD τ sig) → Buf (Elt F) ℓ) (c : Dev nD)

theorem after_ops_eq : StableHlo.after ops (StableHlo.launchContents m c) = R32 m c := by
  rw [show (ops : List (HloOp τ sig (Elt F))) = segs.flatten from rfl, after_flatten]
  rfl

theorem args_kept :
    StableHlo.after ops (StableHlo.launchContents m c) (Proc.devRef .tc main_arg0) = m ((c.tc : Thread nD τ).loc main_arg0)
    ∧ StableHlo.after ops (StableHlo.launchContents m c) (Proc.devRef .tc main_arg1) = m ((c.tc : Thread nD τ).loc main_arg1) := by
  rw [after_ops_eq]
  exact ⟨(R32_keep m c main_arg0 (by decide)).trans ((R31_keep m c main_arg0 (by decide)).trans ((R30_keep m c main_arg0 (by decide)).trans ((R29_keep m c main_arg0 (by decide)).trans ((R28_keep m c main_arg0 (by decide)).trans ((R27_keep m c main_arg0 (by decide)).trans ((R26_keep m c main_arg0 (by decide)).trans ((R25_keep m c main_arg0 (by decide)).trans ((R24_keep m c main_arg0 (by decide)).trans ((R23_keep m c main_arg0 (by decide)).trans ((R22_keep m c main_arg0 (by decide)).trans ((R21_keep m c main_arg0 (by decide)).trans ((R20_keep m c main_arg0 (by decide)).trans ((R19_keep m c main_arg0 (by decide)).trans ((R18_keep m c main_arg0 (by decide)).trans ((R17_keep m c main_arg0 (by decide)).trans ((R16_keep m c main_arg0 (by decide)).trans ((R15_keep m c main_arg0 (by decide)).trans ((R14_keep m c main_arg0 (by decide)).trans ((R13_keep m c main_arg0 (by decide)).trans ((R12_keep m c main_arg0 (by decide)).trans ((R11_keep m c main_arg0 (by decide)).trans ((R10_keep m c main_arg0 (by decide)).trans ((R9_keep m c main_arg0 (by decide)).trans ((R8_keep m c main_arg0 (by decide)).trans ((R7_keep m c main_arg0 (by decide)).trans ((R6_keep m c main_arg0 (by decide)).trans ((R5_keep m c main_arg0 (by decide)).trans ((R4_keep m c main_arg0 (by decide)).trans ((R3_keep m c main_arg0 (by decide)).trans ((R2_keep m c main_arg0 (by decide)).trans (R1_keep m c main_arg0 (by decide)))))))))))))))))))))))))))))))),
    (R32_keep m c main_arg1 (by decide)).trans ((R31_keep m c main_arg1 (by decide)).trans ((R30_keep m c main_arg1 (by decide)).trans ((R29_keep m c main_arg1 (by decide)).trans ((R28_keep m c main_arg1 (by decide)).trans ((R27_keep m c main_arg1 (by decide)).trans ((R26_keep m c main_arg1 (by decide)).trans ((R25_keep m c main_arg1 (by decide)).trans ((R24_keep m c main_arg1 (by decide)).trans ((R23_keep m c main_arg1 (by decide)).trans ((R22_keep m c main_arg1 (by decide)).trans ((R21_keep m c main_arg1 (by decide)).trans ((R20_keep m c main_arg1 (by decide)).trans ((R19_keep m c main_arg1 (by decide)).trans ((R18_keep m c main_arg1 (by decide)).trans ((R17_keep m c main_arg1 (by decide)).trans ((R16_keep m c main_arg1 (by decide)).trans ((R15_keep m c main_arg1 (by decide)).trans ((R14_keep m c main_arg1 (by decide)).trans ((R13_keep m c main_arg1 (by decide)).trans ((R12_keep m c main_arg1 (by decide)).trans ((R11_keep m c main_arg1 (by decide)).trans ((R10_keep m c main_arg1 (by decide)).trans ((R9_keep m c main_arg1 (by decide)).trans ((R8_keep m c main_arg1 (by decide)).trans ((R7_keep m c main_arg1 (by decide)).trans ((R6_keep m c main_arg1 (by decide)).trans ((R5_keep m c main_arg1 (by decide)).trans ((R4_keep m c main_arg1 (by decide)).trans ((R3_keep m c main_arg1 (by decide)).trans ((R2_keep m c main_arg1 (by decide)).trans (R1_keep m c main_arg1 (by decide))))))))))))))))))))))))))))))))⟩

end Cert.ReferenceIdeal.RRun

end
-- ==== Proof.Consts.lean ====
import proofs.«147778_j69123203661888_1_alg».proof.Proof.Spec
import Idealize.ShloMosaic.PureOps.Ideal.Laws

noncomputable section

namespace Cert.Consts

open Idealize.ShloMosaic

theorem nPix_val : Ideal.ofBits .f32 0x49800000#32 = ((1048576 : ℝ) : EReal) := by
  simp [Ideal.ofBits, Ideal.ieee, -EReal.coe_mul]; norm_num

theorem nPixM1_val : Ideal.ofBits .f32 0x497FFFF0#32 = ((1048575 : ℝ) : EReal) := by
  simp [Ideal.ofBits, Ideal.ieee, -EReal.coe_mul]; norm_num

theorem inf_val : Ideal.ofBits .f32 0x7F800000#32 = (⊤ : EReal) := by
  simp [Ideal.ofBits, Ideal.ieee]

theorem coe_sum {ι : Type} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem nPix_sub_one : Cert.Spec.nPix - ((1 : ℝ) : EReal) = ((1048575 : ℝ) : EReal) := by
  rw [Cert.Spec.nPix, Cert.Spec.lit, nPix_val, ← EReal.coe_sub]; norm_num

theorem nPix_sub_one_pos :
    Ideal.cmp .ogt (Cert.Spec.nPix - ((1 : ℝ) : EReal)) (Ideal.ofBits .f32 0x00000000#32) = 1#1 := by
  rw [nPix_sub_one, Ideal.ofBits_zero_f32]
  have h : (0 : EReal) < ((1048575 : ℝ) : EReal) := by exact_mod_cast (by norm_num : (0 : ℝ) < 1048575)
  simp [Ideal.cmp, h]

end Cert.Consts

end
-- ==== Proof.RStats.lean ====
import proofs.«147778_j69123203661888_1_alg».proof.Proof.Gen.ReferenceIdeal
import proofs.«147778_j69123203661888_1_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«147778_j69123203661888_1_alg».proof.Proof.Consts

noncomputable section

namespace Cert.ReferenceIdeal.RStats

open Cert.ReferenceIdeal Cert.ReferenceIdeal.Gen Idealize.ShloMosaic Idealize.ShloMosaic.TcCoe Idealize.SL.Sem Idealize.ShloMosaic.ValueIdx

def A (x : Vec Ideal S8x3x1024x1024 .f32) : Cert.Spec.A4 := fun b ch r cc => x (ix4 b ch r cc)

def relu (v : Vec Ideal S8x3x1024x1024 .f32) : Vec Ideal S8x3x1024x1024 .f32 :=
  maximumf v (broadcastInDim S8x3x1024x1024 ![] bcast_S_S8x3x1024x1024 (constant (F := Ideal) S_ .f32 0x00000000#32))

def satV5 (x : Vec Ideal S8x3x1024x1024 .f32) : Vec Ideal S8x3x1024x1024 .f32 :=
  addf (F := Ideal) (φ := .f32) (relu (Host.negf (F := Ideal) (φ := .f32) x))
    (relu (subf (F := Ideal) (φ := .f32) x (broadcastInDim S8x3x1024x1024 ![] bcast_S_S8x3x1024x1024 (constant (F := Ideal) S_ .f32 0x3F800000#32))))

def satChain (x : Vec Ideal S8x3x1024x1024 .f32) : Vec Ideal S_ .f32 :=
  Host.divf
    (Host.reduceAdd (mulf (satV5 x) (satV5 x)) (constant (F := Ideal) S_ .f32 0x00000000#32)
      reducesTo_S8x3x1024x1024_S_d0_1_2_3 h_S_)
    (constant (F := Ideal) S_ .f32 0x4BC00000#32)

def meanChain (x : Vec Ideal S8x3x1024x1024 .f32) : Vec Ideal S8x3x1x1 .f32 :=
  Host.divf
    (broadcastInDim S8x3x1x1 ![0, 1] bcast_S8x3_S8x3x1x1_0_1
      (Host.reduceAdd x (constant (F := Ideal) S_ .f32 0x00000000#32) reducesTo_S8x3x1024x1024_S8x3_d2_3 h_S_))
    (broadcastInDim S8x3x1x1 ![] bcast_S_S8x3x1x1 (constant (F := Ideal) S_ .f32 0x49800000#32))

def centered (x : Vec Ideal S8x3x1024x1024 .f32) : Vec Ideal S8x3x1024x1024 .f32 :=
  subf (F := Ideal) (φ := .f32) x (broadcastInDim S8x3x1024x1024 ![0, 1, 2, 3] bcast_S8x3x1x1_S8x3x1024x1024_0_1_2_3 (meanChain x))

def normalizer : Vec Ideal S_ .f32 :=
  subf (constant (F := Ideal) S_ .f32 0x49800000#32) (sitofp (F := Ideal) .f32 (constantI S_ 32 1#32))

def varChain (x : Vec Ideal S8x3x1024x1024 .f32) : Vec Ideal S8x3 .f32 :=
  (fun p a b => select (broadcastInDim S8x3 ![] bcast_S_S8x3 p) a b)
    (cmpf .ogt normalizer (constant (F := Ideal) S_ .f32 0x00000000#32))
    (Host.divf
      (Host.reduceAdd (mulf (centered x) (centered x)) (constant (F := Ideal) S_ .f32 0x00000000#32)
        reducesTo_S8x3x1024x1024_S8x3_d2_3 h_S_)
      (broadcastInDim S8x3 ![] bcast_S_S8x3 normalizer))
    (broadcastInDim S8x3 ![] bcast_S_S8x3 (id (constant (F := Ideal) S_ .f32 0x7FC00000#32)))

def stdChain (x : Vec Ideal S8x3x1024x1024 .f32) : Vec Ideal S8x3 .f32 :=
  Host.sqrt (F := Ideal) (φ := .f32) (varChain x)

def intV16 (x : Vec Ideal S8x3x1024x1024 .f32) : Vec Ideal S8x3x1x1 .f32 :=
  subf (meanChain x) (broadcastInDim S8x3x1x1 ![] bcast_S_S8x3x1x1 (constant (F := Ideal) S_ .f32 0x3F000000#32))

def intChain (x : Vec Ideal S8x3x1024x1024 .f32) : Vec Ideal S_ .f32 :=
  Host.divf
    (Host.reduceAdd (mulf (intV16 x) (intV16 x)) (constant (F := Ideal) S_ .f32 0x00000000#32)
      reducesTo_S8x3x1x1_S_d0_1_2_3 h_S_)
    (constant (F := Ideal) S_ .f32 0x41C00000#32)

def svV20 (x xd : Vec Ideal S8x3x1024x1024 .f32) : Vec Ideal S8x3 .f32 :=
  subf (F := Ideal) (φ := .f32) (stdChain x) (stdChain xd)

def svChain (x xd : Vec Ideal S8x3x1024x1024 .f32) : Vec Ideal S_ .f32 :=
  Host.divf
    (Host.reduceAdd (mulf (svV20 x xd) (svV20 x xd)) (constant (F := Ideal) S_ .f32 0x00000000#32)
      reducesTo_S8x3_S_d0_1 h_S_)
    (constant (F := Ideal) S_ .f32 0x41C00000#32)

def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

theorem drop23_ix4 (b : Fin 8) (ch : Fin 3) (r cc : Fin 1024) :
    Shape.ReducesTo.drop reducesTo_S8x3x1024x1024_S8x3_d2_3 (ix4 b ch r cc) = ix2 b ch := by
  funext a; match a with | ⟨0, _⟩ => rfl | ⟨1, _⟩ => rfl

theorem ix2_inj {n0 n1 : Nat} {a a' : Fin n0} {b b' : Fin n1} (h : ix2 a' b' = ix2 a b) : a' = a ∧ b' = b :=
  ⟨congrFun h 0, congrFun h 1⟩

theorem hostReduceAdd23 (x : S8x3x1024x1024.Idx → EReal) (init : EReal) (b : Fin 8) (ch : Fin 3) :
    Ideal.hostReduceAdd reducesTo_S8x3x1024x1024_S8x3_d2_3 x init (ix2 b ch)
      = init + ∑ r : Fin 1024, ∑ cc : Fin 1024, x (ix4 b ch r cc) := by
  unfold Ideal.hostReduceAdd
  congr 1
  rw [Finset.sum_filter, sum_idx4, Finset.sum_eq_single b, Finset.sum_eq_single ch]
  · refine Finset.sum_congr rfl fun r _ => Finset.sum_congr rfl fun cc _ => ?_
    rw [drop23_ix4, if_pos rfl]
  · intro ch' _ hne
    refine Finset.sum_eq_zero fun r _ => Finset.sum_eq_zero fun cc _ => ?_
    rw [drop23_ix4, if_neg fun h => hne (ix2_inj h).2]
  · intro h; exact absurd (Finset.mem_univ _) h
  · intro b' _ hne
    refine Finset.sum_eq_zero fun ch' _ => Finset.sum_eq_zero fun r _ => Finset.sum_eq_zero fun cc _ => ?_
    rw [drop23_ix4, if_neg fun h => hne (ix2_inj h).1]
  · intro h; exact absurd (Finset.mem_univ _) h

theorem relu_apply (v : Vec Ideal S8x3x1024x1024 .f32) (i : S8x3x1024x1024.Idx) : relu v i = max (v i) 0 := by
  show max (v i) (Ideal.ofBits .f32 0x00000000#32) = _
  rw [Ideal.ofBits_zero_f32]

theorem satV5_apply (x : Vec Ideal S8x3x1024x1024 .f32) (i : S8x3x1024x1024.Idx) :
    satV5 x i = max (-(x i)) 0 + max (x i - Cert.Spec.lit 0x3F800000#32) 0 := by
  show relu _ i + relu _ i = _
  rw [relu_apply, relu_apply]
  rfl

theorem satChain_eq (x : Vec Ideal S8x3x1024x1024 .f32) : satChain x ix0 = Cert.Spec.lSat (A x) := by
  show Ideal.div (Ideal.hostReduceAdd reducesTo_S8x3x1024x1024_S_d0_1_2_3 (mulf (F := Ideal) (φ := .f32) (satV5 x) (satV5 x))
      (Ideal.ofBits .f32 0x00000000#32) ix0) (Ideal.ofBits .f32 0x4BC00000#32) = _
  rw [Ideal.hostReduceAdd_total _ (fun b => b.elim0), Ideal.ofBits_zero_f32, zero_add, sum_idx4]
  unfold Cert.Spec.lSat Cert.Spec.satAll
  congr 1
  refine Finset.sum_congr rfl fun b _ => Finset.sum_congr rfl fun ch _ => Finset.sum_congr rfl fun r _ =>
    Finset.sum_congr rfl fun cc _ => ?_
  show satV5 x (ix4 b ch r cc) * satV5 x (ix4 b ch r cc) = _
  rw [satV5_apply]
  rfl

theorem meanChain_apply (x : Vec Ideal S8x3x1024x1024 .f32) (b : Fin 8) (ch : Fin 3) (r cc : Fin 1) :
    meanChain x (ix4 b ch r cc) = Cert.Spec.mean (A x) b ch := by
  show Ideal.div (broadcastInDim S8x3x1x1 ![0, 1] bcast_S8x3_S8x3x1x1_0_1
      (Ideal.hostReduceAdd reducesTo_S8x3x1024x1024_S8x3_d2_3 x (Ideal.ofBits .f32 0x00000000#32)) (ix4 b ch r cc))
      (Ideal.ofBits .f32 0x49800000#32) = _
  rw [broadcastInDim_apply _ _ _ _ (ix2 b ch) (fun a => by match a with | ⟨0, _⟩ => rfl | ⟨1, _⟩ => rfl),
    hostReduceAdd23, Ideal.ofBits_zero_f32, zero_add]
  rfl

theorem intV16_apply (x : Vec Ideal S8x3x1024x1024 .f32) (b : Fin 8) (ch : Fin 3) (r cc : Fin 1) :
    intV16 x (ix4 b ch r cc) = Cert.Spec.mean (A x) b ch - Cert.Spec.lit 0x3F000000#32 := by
  show meanChain x (ix4 b ch r cc) - Ideal.ofBits .f32 0x3F000000#32 = _
  rw [meanChain_apply]

theorem intChain_eq (x : Vec Ideal S8x3x1024x1024 .f32) : intChain x ix0 = Cert.Spec.lInt (A x) := by
  show Ideal.div (Ideal.hostReduceAdd reducesTo_S8x3x1x1_S_d0_1_2_3 (mulf (F := Ideal) (φ := .f32) (intV16 x) (intV16 x))
      (Ideal.ofBits .f32 0x00000000#32) ix0) (Ideal.ofBits .f32 0x41C00000#32) = _
  rw [Ideal.hostReduceAdd_total _ (fun b => b.elim0), Ideal.ofBits_zero_f32, zero_add, sum_idx4]
  unfold Cert.Spec.lInt
  congr 1
  refine Finset.sum_congr rfl fun b _ => Finset.sum_congr rfl fun ch _ => ?_
  rw [Fin.sum_univ_one, Fin.sum_univ_one]
  show intV16 x (ix4 b ch 0 0) * intV16 x (ix4 b ch 0 0) = _
  rw [intV16_apply]

theorem centered_apply (x : Vec Ideal S8x3x1024x1024 .f32) (b : Fin 8) (ch : Fin 3) (r cc : Fin 1024) :
    centered x (ix4 b ch r cc) = A x b ch r cc - Cert.Spec.mean (A x) b ch := by
  show x (ix4 b ch r cc) - broadcastInDim S8x3x1024x1024 ![0, 1, 2, 3] bcast_S8x3x1x1_S8x3x1024x1024_0_1_2_3
      (meanChain x) (ix4 b ch r cc) = _
  rw [broadcastInDim_apply _ _ _ _ (ix4 b ch 0 0)
    (fun a => by match a with | ⟨0, _⟩ => rfl | ⟨1, _⟩ => rfl | ⟨2, _⟩ => rfl | ⟨3, _⟩ => rfl), meanChain_apply]
  rfl

theorem normalizer_apply (j : S_.Idx) : normalizer j = Cert.Spec.nPix - ((1 : ℝ) : EReal) := by
  show Ideal.ofBits .f32 0x49800000#32 - (((1#32 : BitVec 32).toInt : ℝ) : EReal) = _
  rw [show (1#32 : BitVec 32).toInt = 1 from by decide, Int.cast_one]

theorem varChain_apply (x : Vec Ideal S8x3x1024x1024 .f32) (b : Fin 8) (ch : Fin 3) :
    varChain x (ix2 b ch) = Cert.Spec.varR (A x) b ch := by
  show Scalar.select (FloatOps.cmpf .ogt (normalizer _) (Ideal.ofBits .f32 0x00000000#32))
      (Ideal.div (Ideal.hostReduceAdd reducesTo_S8x3x1024x1024_S8x3_d2_3 (mulf (F := Ideal) (φ := .f32) (centered x) (centered x))
        (Ideal.ofBits .f32 0x00000000#32) (ix2 b ch)) (normalizer _)) _ = _
  rw [normalizer_apply, Ideal.cmpf_def, Cert.Consts.nPix_sub_one_pos, select_one, hostReduceAdd23,
    Ideal.ofBits_zero_f32, zero_add]
  unfold Cert.Spec.varR
  congr 1
  refine Finset.sum_congr rfl fun r _ => Finset.sum_congr rfl fun cc _ => ?_
  show centered x (ix4 b ch r cc) * centered x (ix4 b ch r cc) = _
  rw [centered_apply]

theorem stdChain_apply (x : Vec Ideal S8x3x1024x1024 .f32) (b : Fin 8) (ch : Fin 3) :
    stdChain x (ix2 b ch) = Ideal.sqrt (Cert.Spec.varR (A x) b ch) := by
  show Ideal.sqrt (varChain x (ix2 b ch)) = _
  rw [varChain_apply]

theorem svV20_apply (x xd : Vec Ideal S8x3x1024x1024 .f32) (b : Fin 8) (ch : Fin 3) :
    svV20 x xd (ix2 b ch) = Ideal.sqrt (Cert.Spec.varR (A x) b ch) - Ideal.sqrt (Cert.Spec.varR (A xd) b ch) := by
  show stdChain x (ix2 b ch) - stdChain xd (ix2 b ch) = _
  rw [stdChain_apply, stdChain_apply]

theorem svChain_eq (x xd : Vec Ideal S8x3x1024x1024 .f32) :
    svChain x xd ix0 = Cert.Spec.lSv Cert.Spec.varR (A x) (A xd) := by
  show Ideal.div (Ideal.hostReduceAdd reducesTo_S8x3_S_d0_1 (mulf (F := Ideal) (φ := .f32) (svV20 x xd) (svV20 x xd))
      (Ideal.ofBits .f32 0x00000000#32) ix0) (Ideal.ofBits .f32 0x41C00000#32) = _
  rw [Ideal.hostReduceAdd_total _ (fun b => b.elim0), Ideal.ofBits_zero_f32, zero_add, sum_idx2]
  unfold Cert.Spec.lSv
  congr 1
  refine Finset.sum_congr rfl fun b _ => Finset.sum_congr rfl fun ch _ => ?_
  show svV20 x xd (ix2 b ch) * svV20 x xd (ix2 b ch) = _
  rw [svV20_apply]

end Cert.ReferenceIdeal.RStats

end
-- ==== Proof.RGauss.lean ====
import proofs.«147778_j69123203661888_1_alg».proof.Proof.Gen.ReferenceIdeal
import proofs.«147778_j69123203661888_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RGauss

open Cert.ReferenceIdeal Cert.ReferenceIdeal.Gen Idealize.ShloMosaic Idealize.ShloMosaic.TcCoe Idealize.SL.Sem Idealize.ShloMosaic.ValueIdx

def grayChain (x : Vec Ideal S8x3x1024x1024 .f32) : Vec Ideal S8x1024x1024 .f32 :=
  Host.divf
    (Host.reduceAdd x (constant (F := Ideal) S_ .f32 0x00000000#32) reducesTo_S8x3x1024x1024_S8x1024x1024_d1 h_S_)
    (broadcastInDim S8x1024x1024 ![] bcast_S_S8x1024x1024 (constant (F := Ideal) S_ .f32 0x40400000#32))

def padTop (g : Vec Ideal S8x1024x1024 .f32) : Vec Ideal S8x1025x1024 .f32 :=
  concatenate S8x1025x1024 1
    [⟨S8x1x1024, Host.reverse [1] (extractStridedSlice S8x1x1024 ![0, 1, 0] g slices_S8x1024x1024_S8x1x1024_0_1_0)⟩,
     ⟨S8x1024x1024, g⟩] concatenates_S8x1x1024_S8x1024x1024_S8x1025x1024_d1

def padRows (g : Vec Ideal S8x1024x1024 .f32) : Vec Ideal S8x1026x1024 .f32 :=
  concatenate S8x1026x1024 1
    [⟨S8x1025x1024, padTop g⟩,
     ⟨S8x1x1024, Host.reverse [1] (extractStridedSlice S8x1x1024 ![0, 1023, 0] (padTop g) slices_S8x1025x1024_S8x1x1024_0_1023_0)⟩]
    concatenates_S8x1025x1024_S8x1x1024_S8x1026x1024_d1

def padLeft (g : Vec Ideal S8x1024x1024 .f32) : Vec Ideal S8x1026x1025 .f32 :=
  concatenate S8x1026x1025 2
    [⟨S8x1026x1, Host.reverse [2] (extractStridedSlice S8x1026x1 ![0, 0, 1] (padRows g) slices_S8x1026x1024_S8x1026x1_0_0_1)⟩,
     ⟨S8x1026x1024, padRows g⟩] concatenates_S8x1026x1_S8x1026x1024_S8x1026x1025_d2

def pad3Chain (g : Vec Ideal S8x1024x1024 .f32) : Vec Ideal S8x1026x1026 .f32 :=
  concatenate S8x1026x1026 2
    [⟨S8x1026x1025, padLeft g⟩,
     ⟨S8x1026x1, Host.reverse [2] (extractStridedSlice S8x1026x1 ![0, 0, 1023] (padLeft g) slices_S8x1026x1025_S8x1026x1_0_0_1023)⟩]
    concatenates_S8x1026x1025_S8x1026x1_S8x1026x1026_d2

def gaussTable : Vec Ideal S3x3 .f32 := fun i => FloatOps.ofBits (F := Ideal) .f32 (lit0 (S3x3.rowMajor i))

def tap (tbl : Vec Ideal S3x3 .f32) (p : Vec Ideal S8x1026x1026 .f32) (o2 : Fin 2 → Nat) (o3 : Fin 3 → Nat)
    (h2 : S3x3.Slices o2 S1x1) (h3 : S8x1026x1026.Slices o3 S8x1024x1024) : Vec Ideal S8x1024x1024 .f32 :=
  mulf (F := Ideal) (φ := .f32)
    (broadcastInDim S8x1024x1024 ![] bcast_S_S8x1024x1024 (shapeCast S_ (extractStridedSlice S1x1 o2 tbl h2) shapeCasts_S1x1_S_))
    (extractStridedSlice S8x1024x1024 o3 p h3)

def gauss3Chain (tbl : Vec Ideal S3x3 .f32) (p : Vec Ideal S8x1026x1026 .f32) : Vec Ideal S8x1024x1024 .f32 :=
  (addf (F := Ideal) (φ := .f32) (addf (addf (F := Ideal) (φ := .f32) (addf (addf (F := Ideal) (φ := .f32) (addf (addf (F := Ideal) (φ := .f32) (addf (addf (F := Ideal) (φ := .f32) (broadcastInDim S8x1024x1024 ![] bcast_S_S8x1024x1024 (constant (F := Ideal) S_ .f32 0x00000000#32))
      (tap tbl p ![0, 0] ![0, 0, 0] slices_S3x3_S1x1_0_0 slices_S8x1026x1026_S8x1024x1024_0_0_0))
      (tap tbl p ![0, 1] ![0, 0, 1] slices_S3x3_S1x1_0_1 slices_S8x1026x1026_S8x1024x1024_0_0_1))
      (tap tbl p ![0, 2] ![0, 0, 2] slices_S3x3_S1x1_0_2 slices_S8x1026x1026_S8x1024x1024_0_0_2))
      (tap tbl p ![1, 0] ![0, 1, 0] slices_S3x3_S1x1_1_0 slices_S8x1026x1026_S8x1024x1024_0_1_0))
      (tap tbl p ![1, 1] ![0, 1, 1] slices_S3x3_S1x1_1_1 slices_S8x1026x1026_S8x1024x1024_0_1_1))
      (tap tbl p ![1, 2] ![0, 1, 2] slices_S3x3_S1x1_1_2 slices_S8x1026x1026_S8x1024x1024_0_1_2))
      (tap tbl p ![2, 0] ![0, 2, 0] slices_S3x3_S1x1_2_0 slices_S8x1026x1026_S8x1024x1024_0_2_0))
      (tap tbl p ![2, 1] ![0, 2, 1] slices_S3x3_S1x1_2_1 slices_S8x1026x1026_S8x1024x1024_0_2_1))
      (tap tbl p ![2, 2] ![0, 2, 2] slices_S3x3_S1x1_2_2 slices_S8x1026x1026_S8x1024x1024_0_2_2))

variable {α : Type}

theorem reverse1_unit {n0 n2 : Nat} (v : (⟨3, ![n0, 1, n2]⟩ : Shape).Idx → α) : Host.reverse [1] v = v := by
  funext j
  unfold Host.reverse
  refine congrArg v (funext fun a => ?_)
  have e : ∀ u w : Fin 1, u = w := fun u w => Subsingleton.elim u w
  match a with
  | ⟨0, _⟩ => rfl
  | ⟨1, _⟩ => exact e _ _
  | ⟨2, _⟩ => rfl

theorem reverse2_unit {n0 n1 : Nat} (v : (⟨3, ![n0, n1, 1]⟩ : Shape).Idx → α) : Host.reverse [2] v = v := by
  funext j
  unfold Host.reverse
  refine congrArg v (funext fun a => ?_)
  have e : ∀ u w : Fin 1, u = w := fun u w => Subsingleton.elim u w
  match a with
  | ⟨0, _⟩ => rfl
  | ⟨1, _⟩ => rfl
  | ⟨2, _⟩ => exact e _ _

theorem cat1_left {n0 m1 m2 n1 n2 : Nat} (x₁ : (⟨3, ![n0, m1, n2]⟩ : Shape).Idx → α) (x₂ : (⟨3, ![n0, m2, n2]⟩ : Shape).Idx → α)
    (h : Shape.Concatenates [⟨3, ![n0, m1, n2]⟩, ⟨3, ![n0, m2, n2]⟩] ⟨3, ![n0, n1, n2]⟩ 1)
    (a : Fin n0) (j : Fin n1) (e : Fin n2) (i : Fin m1) (hi : i.val = j.val) :
    concatenate ⟨3, ![n0, n1, n2]⟩ 1 [⟨⟨3, ![n0, m1, n2]⟩, x₁⟩, ⟨⟨3, ![n0, m2, n2]⟩, x₂⟩] h (ix3 a j e) = x₁ (ix3 a i e) :=
  concatenate_pair_apply_left 1 x₁ x₂ h _ rfl _ (fun b => match b with | ⟨0, _⟩ => rfl | ⟨1, _⟩ => hi | ⟨2, _⟩ => rfl)

theorem cat1_right {n0 m1 m2 n1 n2 : Nat} (x₁ : (⟨3, ![n0, m1, n2]⟩ : Shape).Idx → α) (x₂ : (⟨3, ![n0, m2, n2]⟩ : Shape).Idx → α)
    (h : Shape.Concatenates [⟨3, ![n0, m1, n2]⟩, ⟨3, ![n0, m2, n2]⟩] ⟨3, ![n0, n1, n2]⟩ 1)
    (a : Fin n0) (j : Fin n1) (e : Fin n2) (i : Fin m2) (hi : i.val + m1 = j.val) :
    concatenate ⟨3, ![n0, n1, n2]⟩ 1 [⟨⟨3, ![n0, m1, n2]⟩, x₁⟩, ⟨⟨3, ![n0, m2, n2]⟩, x₂⟩] h (ix3 a j e) = x₂ (ix3 a i e) :=
  concatenate_pair_apply_right 1 x₁ x₂ h _ rfl rfl _
    (fun b hb => match b, hb with | ⟨0, _⟩, _ => rfl | ⟨1, _⟩, hb => absurd rfl hb | ⟨2, _⟩, _ => rfl) hi

theorem cat2_left {n0 n1 m1 m2 n2 : Nat} (x₁ : (⟨3, ![n0, n1, m1]⟩ : Shape).Idx → α) (x₂ : (⟨3, ![n0, n1, m2]⟩ : Shape).Idx → α)
    (h : Shape.Concatenates [⟨3, ![n0, n1, m1]⟩, ⟨3, ![n0, n1, m2]⟩] ⟨3, ![n0, n1, n2]⟩ 2)
    (a : Fin n0) (j : Fin n1) (e : Fin n2) (i : Fin m1) (hi : i.val = e.val) :
    concatenate ⟨3, ![n0, n1, n2]⟩ 2 [⟨⟨3, ![n0, n1, m1]⟩, x₁⟩, ⟨⟨3, ![n0, n1, m2]⟩, x₂⟩] h (ix3 a j e) = x₁ (ix3 a j i) :=
  concatenate_pair_apply_left 2 x₁ x₂ h _ rfl _ (fun b => match b with | ⟨0, _⟩ => rfl | ⟨1, _⟩ => rfl | ⟨2, _⟩ => hi)

theorem cat2_right {n0 n1 m1 m2 n2 : Nat} (x₁ : (⟨3, ![n0, n1, m1]⟩ : Shape).Idx → α) (x₂ : (⟨3, ![n0, n1, m2]⟩ : Shape).Idx → α)
    (h : Shape.Concatenates [⟨3, ![n0, n1, m1]⟩, ⟨3, ![n0, n1, m2]⟩] ⟨3, ![n0, n1, n2]⟩ 2)
    (a : Fin n0) (j : Fin n1) (e : Fin n2) (i : Fin m2) (hi : i.val + m1 = e.val) :
    concatenate ⟨3, ![n0, n1, n2]⟩ 2 [⟨⟨3, ![n0, n1, m1]⟩, x₁⟩, ⟨⟨3, ![n0, n1, m2]⟩, x₂⟩] h (ix3 a j e) = x₂ (ix3 a j i) :=
  concatenate_pair_apply_right 2 x₁ x₂ h _ rfl rfl _
    (fun b hb => match b, hb with | ⟨0, _⟩, _ => rfl | ⟨1, _⟩, _ => rfl | ⟨2, _⟩, hb => absurd rfl hb) hi

theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (j : Fin n1) (e : Fin m) (k : Fin n2) (hk : k.val = o + e.val) :
    extractStridedSlice ⟨3, ![n0, n1, m]⟩ ![0, 0, o] X h (ix3 a j e) = X (ix3 a j k) :=
  extractStridedSlice_apply _ _ _ _ _ (fun ax => by
    match ax with
    | ⟨0, _⟩ => exact (Nat.zero_add _).symm
    | ⟨1, _⟩ => exact (Nat.zero_add _).symm
    | ⟨2, _⟩ => exact hk)

theorem slice3_axis12_apply {n0 n1 n2 m1 m2 : Nat} (o1 o2 : Nat) (X : (⟨3, ![n0, n1, n2]⟩ : Shape).Idx → α)
    (h : (⟨3, ![n0, n1, n2]⟩ : Shape).Slices ![0, o1, o2] ⟨3, ![n0, m1, m2]⟩)
    (a : Fin n0) (j : Fin m1) (e : Fin m2) (k : Fin n1) (l : Fin n2) (hk : k.val = o1 + j.val) (hl : l.val = o2 + e.val) :
    extractStridedSlice ⟨3, ![n0, m1, m2]⟩ ![0, o1, o2] X h (ix3 a j e) = X (ix3 a k l) :=
  extractStridedSlice_apply _ _ _ _ _ (fun ax => by
    match ax with
    | ⟨0, _⟩ => exact (Nat.zero_add _).symm
    | ⟨1, _⟩ => exact hk
    | ⟨2, _⟩ => exact hl)

theorem grayChain_apply (x : Vec Ideal S8x3x1024x1024 .f32) (b : Fin 8) (r cc : Fin 1024) :
    grayChain x (ix3 b r cc) = Cert.Spec.gray (fun b ch r cc => x (ix4 b ch r cc)) b r cc := by
  have hR : S8x3x1024x1024.Reduces [1] S8x1024x1024 := by decide
  unfold grayChain Cert.Spec.gray
  rw [hostDivf_apply, hostReduceAdd_apply, Ideal.hostReduceAdd_single _ hR, broadcastInDim_scalar_apply, constant_apply,
    constant_apply, Ideal.ofBits_zero_f32, zero_add]
  refine congrArg (fun s => Ideal.div s _) ?_
  show ∑ k : Fin 3, x (hR.lift (ix3 b r cc) k) = ∑ ch : Fin 3, x (ix4 b ch r cc)
  refine Finset.sum_congr rfl fun k _ => congrArg x ?_
  funext a
  match a with
  | ⟨0, _⟩ => rfl
  | ⟨1, _⟩ => rfl
  | ⟨2, _⟩ => rfl
  | ⟨3, _⟩ => rfl

theorem padTop_apply (g : Vec Ideal S8x1024x1024 .f32) (b : Fin 8) (r' : Fin 1025) (c : Fin 1024) (k : Fin 1024)
    (hk : k.val = Cert.Spec.refl r'.val) : padTop g (ix3 b r' c) = g (ix3 b k c) := by
  unfold padTop
  by_cases h0 : r'.val = 0
  · have hk1 : k.val = 1 + (0 : Fin 1).val := by rw [hk, h0]; rfl
    rw [cat1_left _ _ _ b r' c (0 : Fin 1) h0.symm, reverse1_unit]
    exact slice3_axis1_apply 1 g _ b 0 c k hk1
  · have hk1 : k.val + 1 = r'.val := by
      have := r'.isLt; unfold Cert.Spec.refl at hk; rw [if_neg h0, if_neg (by omega)] at hk; omega
    exact cat1_right _ _ _ b r' c k hk1

theorem padRows_apply (g : Vec Ideal S8x1024x1024 .f32) (b : Fin 8) (r' : Fin 1026) (c : Fin 1024) (k : Fin 1024)
    (hk : k.val = Cert.Spec.refl r'.val) : padRows g (ix3 b r' c) = g (ix3 b k c) := by
  unfold padRows
  by_cases h1 : r'.val < 1025
  · rw [cat1_left _ _ _ b r' c (⟨r'.val, h1⟩ : Fin 1025) rfl]
    exact padTop_apply g b _ c k hk
  · have hr : r'.val = 1025 := by have := r'.isLt; omega
    have hk' : k.val = 1022 := by rw [hk, hr]; rfl
    rw [cat1_right _ _ _ b r' c (0 : Fin 1) (by rw [hr]; rfl), reverse1_unit,
      slice3_axis1_apply 1023 (padTop g) _ b 0 c (⟨1023, by omega⟩ : Fin 1025) rfl]
    exact padTop_apply g b _ c k (by rw [hk']; rfl)

theorem padLeft_apply (g : Vec Ideal S8x1024x1024 .f32) (b : Fin 8) (r' : Fin 1026) (c' : Fin 1025) (k l : Fin 1024)
    (hk : k.val = Cert.Spec.refl r'.val) (hl : l.val = Cert.Spec.refl c'.val) :
    padLeft g (ix3 b r' c') = g (ix3 b k l) := by
  unfold padLeft
  by_cases h0 : c'.val = 0
  · have hl1 : l.val = 1 + (0 : Fin 1).val := by rw [hl, h0]; rfl
    rw [cat2_left _ _ _ b r' c' (0 : Fin 1) h0.symm, reverse2_unit,
      slice3_axis2_apply 1 (padRows g) _ b r' 0 l hl1]
    exact padRows_apply g b r' l k hk
  · have hl1 : l.val + 1 = c'.val := by
      have := c'.isLt; unfold Cert.Spec.refl at hl; rw [if_neg h0, if_neg (by omega)] at hl; omega
    rw [cat2_right _ _ _ b r' c' l hl1]
    exact padRows_apply g b r' l k hk

theorem pad3Chain_apply (g : Vec Ideal S8x1024x1024 .f32) (b : Fin 8) (r' c' : Fin 1026) (k l : Fin 1024)
    (hk : k.val = Cert.Spec.refl r'.val) (hl : l.val = Cert.Spec.refl c'.val) :
    pad3Chain g (ix3 b r' c') = g (ix3 b k l) := by
  unfold pad3Chain
  by_cases h1 : c'.val < 1025
  · rw [cat2_left _ _ _ b r' c' (⟨c'.val, h1⟩ : Fin 1025) rfl]
    exact padLeft_apply g b r' _ k l hk hl
  · have hc : c'.val = 1025 := by have := c'.isLt; omega
    have hl' : l.val = 1022 := by rw [hl, hc]; rfl
    rw [cat2_right _ _ _ b r' c' (0 : Fin 1) (by rw [hc]; rfl), reverse2_unit,
      slice3_axis2_apply 1023 (padLeft g) _ b r' 0 (⟨1023, by omega⟩ : Fin 1025) rfl]
    exact padLeft_apply g b r' _ k l hk (by rw [hl']; rfl)

theorem pad3Chain_eq_pad (g : Vec Ideal S8x1024x1024 .f32) (b : Fin 8) (R C : ℕ) (hR : R < 1026) (hC : C < 1026) :
    pad3Chain g (ix3 b (⟨R, hR⟩ : Fin 1026) (⟨C, hC⟩ : Fin 1026)) = Cert.Spec.pad (fun r c => g (ix3 b r c)) R C := by
  have hrR : Cert.Spec.refl R < 1024 := by unfold Cert.Spec.refl; split_ifs <;> omega
  have hrC : Cert.Spec.refl C < 1024 := by unfold Cert.Spec.refl; split_ifs <;> omega
  unfold Cert.Spec.pad Cert.Spec.getN
  rw [dif_pos ⟨hrR, hrC⟩]
  exact pad3Chain_apply g b _ _ ⟨_, hrR⟩ ⟨_, hrC⟩ rfl rfl

theorem table_entry (o2 : Fin 2 → Nat) (h2 : S3x3.Slices o2 S1x1) (i j : Fin 3) (hi : i.val = o2 0) (hj : j.val = o2 1) :
    shapeCast S_ (extractStridedSlice S1x1 o2 gaussTable h2) shapeCasts_S1x1_S_ ix0 = gaussTable (ix2 i j) := by
  rw [shapeCast_apply _ _ ix0 (ix2 (0 : Fin 1) (0 : Fin 1)) rfl]
  exact extractStridedSlice_apply _ _ _ _ _ (fun ax => by
    match ax with
    | ⟨0, _⟩ => exact hi
    | ⟨1, _⟩ => exact hj)

theorem gaussTable_eq (i j : Fin 3) (w : BitVec 32) (hw : lit0 (S3x3.rowMajor (ix2 i j)) = w) :
    gaussTable (ix2 i j) = Cert.Spec.lit w := by
  subst hw; rfl

theorem tap_apply (g : Vec Ideal S8x1024x1024 .f32) (oi oj : ℕ) (hoi : oi < 3) (hoj : oj < 3) (w : BitVec 32)
    (hw : lit0 (S3x3.rowMajor (ix2 (⟨oi, hoi⟩ : Fin 3) (⟨oj, hoj⟩ : Fin 3))) = w)
    (h2 : S3x3.Slices ![oi, oj] S1x1) (h3 : S8x1026x1026.Slices ![0, oi, oj] S8x1024x1024) (b : Fin 8) (r cc : Fin 1024) :
    tap gaussTable (pad3Chain g) ![oi, oj] ![0, oi, oj] h2 h3 (ix3 b r cc)
      = Cert.Spec.lit w * Cert.Spec.pad (fun r c => g (ix3 b r c)) (r.val + oi) (cc.val + oj) := by
  unfold tap
  rw [mulf_apply, broadcastInDim_scalar_apply, table_entry ![oi, oj] h2 ⟨oi, hoi⟩ ⟨oj, hoj⟩ rfl rfl, gaussTable_eq _ _ w hw,
    slice3_axis12_apply oi oj (pad3Chain g) h3 b r cc (⟨r.val + oi, by omega⟩ : Fin 1026) (⟨cc.val + oj, by omega⟩ : Fin 1026)
      (Nat.add_comm _ _) (Nat.add_comm _ _),
    pad3Chain_eq_pad]

theorem gaussGray_eq (x : Vec Ideal S8x3x1024x1024 .f32) (b : Fin 8) (r cc : Fin 1024) :
    gauss3Chain gaussTable (pad3Chain (grayChain x)) (ix3 b r cc)
      = Cert.Spec.gaussGray (fun b ch r cc => x (ix4 b ch r cc)) b r cc := by
  have hg : (fun r c => grayChain x (ix3 b r c)) = Cert.Spec.gray (fun b ch r cc => x (ix4 b ch r cc)) b :=
    funext fun r => funext fun c => grayChain_apply x b r c
  unfold gauss3Chain Cert.Spec.gaussGray Cert.Spec.gauss
  simp only [addf_apply]
  rw [broadcastInDim_scalar_apply, constant_apply, Ideal.ofBits_zero_f32, zero_add,
    tap_apply (grayChain x) 0 0 (by decide) (by decide) 0x3D800000#32 rfl,
    tap_apply (grayChain x) 0 1 (by decide) (by decide) 0x3E000000#32 rfl,
    tap_apply (grayChain x) 0 2 (by decide) (by decide) 0x3D800000#32 rfl,
    tap_apply (grayChain x) 1 0 (by decide) (by decide) 0x3E000000#32 rfl,
    tap_apply (grayChain x) 1 1 (by decide) (by decide) 0x3E800000#32 rfl,
    tap_apply (grayChain x) 1 2 (by decide) (by decide) 0x3E000000#32 rfl,
    tap_apply (grayChain x) 2 0 (by decide) (by decide) 0x3D800000#32 rfl,
    tap_apply (grayChain x) 2 1 (by decide) (by decide) 0x3E000000#32 rfl,
    tap_apply (grayChain x) 2 2 (by decide) (by decide) 0x3D800000#32 rfl, hg]

end Cert.ReferenceIdeal.RGauss

end
-- ==== Proof.RLap.lean ====
import proofs.«147778_j69123203661888_1_alg».proof.Proof.Gen.ReferenceIdeal
import proofs.«147778_j69123203661888_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

set_option maxRecDepth 16384
set_option pp.maxSteps 5000
set_option pp.deepTerms false

noncomputable section

namespace Cert.ReferenceIdeal.RLap

open Cert.ReferenceIdeal Cert.ReferenceIdeal.Gen Idealize.ShloMosaic Idealize.ShloMosaic.TcCoe Idealize.SL.Sem Idealize.ShloMosaic.ValueIdx

section Defs
variable {F : FTy → Type} [FloatOps F]

def sel00 (x : Vec F S8x3x1024x1024 .f32) : Vec F S1024x1024 .f32 :=
  shapeCast S1024x1024
    (extractStridedSlice S1x1x1024x1024 ![0, 0, 0, 0] x slices_S8x3x1024x1024_S1x1x1024x1024_0_0_0_0)
    shapeCasts_S1x1x1024x1024_S1024x1024

def padc (y : Vec F S1024x1024 .f32) : Vec F S1024x1026 .f32 :=
  concatenate S1024x1026 1
    [⟨S1024x1025,
        concatenate S1024x1025 1
          [⟨S1024x1, Host.reverse [1] (extractStridedSlice S1024x1 ![0, 1] y slices_S1024x1024_S1024x1_0_1)⟩,
           ⟨S1024x1024, y⟩] concatenates_S1024x1_S1024x1024_S1024x1025_d1⟩,
     ⟨S1024x1,
        Host.reverse [1]
          (extractStridedSlice S1024x1 ![0, 1023]
            (concatenate S1024x1025 1
              [⟨S1024x1, Host.reverse [1] (extractStridedSlice S1024x1 ![0, 1] y slices_S1024x1024_S1024x1_0_1)⟩,
               ⟨S1024x1024, y⟩] concatenates_S1024x1_S1024x1024_S1024x1025_d1)
            slices_S1024x1025_S1024x1_0_1023)⟩]
    concatenates_S1024x1025_S1024x1_S1024x1026_d1

def sx (y : Vec F S1024x1024 .f32) : Vec F S1024x1024 .f32 :=
  subf
    (mulf (broadcastInDim S1024x1024 ![] bcast_S_S1024x1024 (constant S_ .f32 0x40800000#32))
      (extractStridedSlice S1024x1024 ![0, 0] (padc y) slices_S1024x1026_S1024x1024_0_0))
    (mulf (broadcastInDim S1024x1024 ![] bcast_S_S1024x1024 (constant S_ .f32 0x40800000#32))
      (extractStridedSlice S1024x1024 ![0, 2] (padc y) slices_S1024x1026_S1024x1024_0_2))

def sobelR (x xd : Vec F S8x3x1024x1024 .f32) : Vec F S_ .f32 :=
  Host.divf
    (Host.reduceAdd (Host.absf (subf (sx (sel00 x)) (sx (sel00 xd)))) (constant S_ .f32 0x00000000#32)
      reducesTo_S1024x1024_S_d0_1 h_S_)
    (constant S_ .f32 0x49800000#32)

def pad2 (y : Vec F S1024x1024 .f32) : Vec F S1026x1026 .f32 :=
  have v1 : Vec F S1x1024 .f32 := extractStridedSlice S1x1024 ![1, 0] y slices_S1024x1024_S1x1024_1_0
  have v2 : Vec F S1x1024 .f32 := Host.reverse [0] v1
  have v3 : Vec F S1025x1024 .f32 := concatenate S1025x1024 0 [⟨S1x1024, v2⟩, ⟨S1024x1024, y⟩] concatenates_S1x1024_S1024x1024_S1025x1024_d0
  have v5 : Vec F S1x1024 .f32 := extractStridedSlice S1x1024 ![1023, 0] v3 slices_S1025x1024_S1x1024_1023_0
  have v6 : Vec F S1x1024 .f32 := Host.reverse [0] v5
  have v7 : Vec F S1026x1024 .f32 := concatenate S1026x1024 0 [⟨S1025x1024, v3⟩, ⟨S1x1024, v6⟩] concatenates_S1025x1024_S1x1024_S1026x1024_d0
  have v9 : Vec F S1026x1 .f32 := extractStridedSlice S1026x1 ![0, 1] v7 slices_S1026x1024_S1026x1_0_1
  have v10 : Vec F S1026x1 .f32 := Host.reverse [1] v9
  have v11 : Vec F S1026x1025 .f32 := concatenate S1026x1025 1 [⟨S1026x1, v10⟩, ⟨S1026x1024, v7⟩] concatenates_S1026x1_S1026x1024_S1026x1025_d1
  have v13 : Vec F S1026x1 .f32 := extractStridedSlice S1026x1 ![0, 1023] v11 slices_S1026x1025_S1026x1_0_1023
  have v14 : Vec F S1026x1 .f32 := Host.reverse [1] v13
  concatenate S1026x1026 1 [⟨S1026x1025, v11⟩, ⟨S1026x1, v14⟩] concatenates_S1026x1025_S1026x1_S1026x1026_d1

def filt2 (w0 w1 w2 w3 w4 w5 w6 w7 w8 : Vec F S_ .f32) (p : Vec F S1026x1026 .f32) : Vec F S1024x1024 .f32 :=
  addf (addf (addf (addf (addf (addf (addf (addf (addf
    (broadcastInDim S1024x1024 ![] bcast_S_S1024x1024 (constant S_ .f32 0x00000000#32))
    (mulf (broadcastInDim S1024x1024 ![] bcast_S_S1024x1024 w0) (extractStridedSlice S1024x1024 ![0, 0] p slices_S1026x1026_S1024x1024_0_0)))
    (mulf (broadcastInDim S1024x1024 ![] bcast_S_S1024x1024 w1) (extractStridedSlice S1024x1024 ![0, 1] p slices_S1026x1026_S1024x1024_0_1)))
    (mulf (broadcastInDim S1024x1024 ![] bcast_S_S1024x1024 w2) (extractStridedSlice S1024x1024 ![0, 2] p slices_S1026x1026_S1024x1024_0_2)))
    (mulf (broadcastInDim S1024x1024 ![] bcast_S_S1024x1024 w3) (extractStridedSlice S1024x1024 ![1, 0] p slices_S1026x1026_S1024x1024_1_0)))
    (mulf (broadcastInDim S1024x1024 ![] bcast_S_S1024x1024 w4) (extractStridedSlice S1024x1024 ![1, 1] p slices_S1026x1026_S1024x1024_1_1)))
    (mulf (broadcastInDim S1024x1024 ![] bcast_S_S1024x1024 w5) (extractStridedSlice S1024x1024 ![1, 2] p slices_S1026x1026_S1024x1024_1_2)))
    (mulf (broadcastInDim S1024x1024 ![] bcast_S_S1024x1024 w6) (extractStridedSlice S1024x1024 ![2, 0] p slices_S1026x1026_S1024x1024_2_0)))
    (mulf (broadcastInDim S1024x1024 ![] bcast_S_S1024x1024 w7) (extractStridedSlice S1024x1024 ![2, 1] p slices_S1026x1026_S1024x1024_2_1)))
    (mulf (broadcastInDim S1024x1024 ![] bcast_S_S1024x1024 w8) (extractStridedSlice S1024x1024 ![2, 2] p slices_S1026x1026_S1024x1024_2_2))

def gaussTable : Vec F S3x3 .f32 := fun i => FloatOps.ofBits .f32 (lit0 (S3x3.rowMajor i))

def laplTable : Vec F S3x3 .f32 := fun i => FloatOps.ofBits .f32 (lit1 (S3x3.rowMajor i))

def tblW (tbl : Vec F S3x3 .f32) (i j : ℕ) (h : S3x3.Slices ![i, j] S1x1 := by decide) : Vec F S_ .f32 :=
  shapeCast S_ (extractStridedSlice S1x1 ![i, j] tbl h) shapeCasts_S1x1_S_

def gaussW : Fin 9 → Vec F S_ .f32 :=
  ![constant S_ .f32 0x3D800000#32, constant S_ .f32 0x3E000000#32, constant S_ .f32 0x3D800000#32,
    constant S_ .f32 0x3E000000#32, constant S_ .f32 0x3E800000#32, constant S_ .f32 0x3E000000#32,
    constant S_ .f32 0x3D800000#32, constant S_ .f32 0x3E000000#32, constant S_ .f32 0x3D800000#32]

def laplW : Fin 9 → Vec F S_ .f32 :=
  ![constant S_ .f32 0x00000000#32, constant S_ .f32 0xBF800000#32, constant S_ .f32 0x00000000#32,
    constant S_ .f32 0xBF800000#32, constant S_ .f32 0x40800000#32, constant S_ .f32 0xBF800000#32,
    constant S_ .f32 0x00000000#32, constant S_ .f32 0xBF800000#32, constant S_ .f32 0x00000000#32]

def gaussP (p : Vec F S1026x1026 .f32) : Vec F S1024x1024 .f32 :=
  filt2 (gaussW 0) (gaussW 1) (gaussW 2) (gaussW 3) (gaussW 4) (gaussW 5) (gaussW 6) (gaussW 7) (gaussW 8) p

def laplP (p : Vec F S1026x1026 .f32) : Vec F S1024x1024 .f32 :=
  filt2 (laplW 0) (laplW 1) (laplW 2) (laplW 3) (laplW 4) (laplW 5) (laplW 6) (laplW 7) (laplW 8) p

def gaussF (y : Vec F S1024x1024 .f32) : Vec F S1024x1024 .f32 := gaussP (pad2 y)

def laplF (y : Vec F S1024x1024 .f32) : Vec F S1024x1024 .f32 := laplP (pad2 y)

def lapR (x : Vec F S8x3x1024x1024 .f32) : Vec F S1024x1024 .f32 :=
  filt2 (laplW 0) (laplW 1) (laplW 2) (laplW 3) (laplW 4) (laplW 5) (laplW 6) (laplW 7) (laplW 8)
    (pad2 (filt2 (gaussW 0) (gaussW 1) (gaussW 2) (gaussW 3) (gaussW 4) (gaussW 5) (gaussW 6) (gaussW 7) (gaussW 8)
      (pad2 (sel00 x))))

def lapT (x : Vec F S8x3x1024x1024 .f32) : Vec F S1024x1024 .f32 :=
  filt2 (tblW laplTable 0 0) (tblW laplTable 0 1) (tblW laplTable 0 2)
    (tblW laplTable 1 0) (tblW laplTable 1 1) (tblW laplTable 1 2)
    (tblW laplTable 2 0) (tblW laplTable 2 1) (tblW laplTable 2 2)
    (pad2 (filt2 (tblW gaussTable 0 0) (tblW gaussTable 0 1) (tblW gaussTable 0 2)
      (tblW gaussTable 1 0) (tblW gaussTable 1 1) (tblW gaussTable 1 2)
      (tblW gaussTable 2 0) (tblW gaussTable 2 1) (tblW gaussTable 2 2)
      (pad2 (sel00 x))))

def logChain (gp gt : Vec F S8x1024x1024 .f32) (lp lt : Vec F S1024x1024 .f32) : Vec F S_ .f32 :=
  Host.divf
    (Host.reduceAdd
      (Host.absf
        (subf
          (mulf gp (broadcastInDim S8x1024x1024 ![0, 1, 2] bcast_S1x1024x1024_S8x1024x1024_0_1_2
            (broadcastInDim S1x1024x1024 ![1, 2] bcast_S1024x1024_S1x1024x1024_1_2 lp)))
          (mulf gt (broadcastInDim S8x1024x1024 ![0, 1, 2] bcast_S1x1024x1024_S8x1024x1024_0_1_2
            (broadcastInDim S1x1024x1024 ![1, 2] bcast_S1024x1024_S1x1024x1024_1_2 lt)))))
      (constant S_ .f32 0x00000000#32) reducesTo_S8x1024x1024_S_d0_1_2 h_S_)
    (constant S_ .f32 0x4B000000#32)

end Defs

/-- An entry of a 3 × 3 table, taken out as a scalar, is the table read at that entry. -/
theorem tblW_apply (tbl : Vec Ideal S3x3 .f32) (i j : ℕ) (hi : i < 3) (hj : j < 3) (h : S3x3.Slices ![i, j] S1x1) :
    tblW tbl i j h = fun _ => tbl (ix2 ⟨i, hi⟩ ⟨j, hj⟩) := by
  funext k
  obtain rfl := eq_ix0 k
  unfold tblW
  refine (shapeCast_apply _ _ ix0 (ix2 0 0) (by decide)).trans ?_
  refine extractStridedSlice_apply _ _ _ (ix2 0 0) (ix2 ⟨i, hi⟩ ⟨j, hj⟩) fun a => ?_
  match a with
  | ⟨0, _⟩ => rfl
  | ⟨1, _⟩ => rfl

theorem lap_table_eq (x : Vec Ideal S8x3x1024x1024 .f32) : lapT x = lapR x := by
  unfold lapT lapR
  simp only [tblW_apply, show (0 : ℕ) < 3 by decide, show (1 : ℕ) < 3 by decide, show (2 : ℕ) < 3 by decide]
  rfl

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

theorem bcast_batch_apply (l : Vec Ideal S1024x1024 .f32) (b : Fin 8) (r cc : Fin 1024) :
    broadcastInDim S8x1024x1024 ![0, 1, 2] bcast_S1x1024x1024_S8x1024x1024_0_1_2
        (broadcastInDim S1x1024x1024 ![1, 2] bcast_S1024x1024_S1x1024x1024_1_2 l) (ix3 b r cc)
      = l (ix2 r cc) := by
  refine (broadcastInDim_apply _ _ _ (ix3 b r cc) (ix3 (0 : Fin 1) r cc) ?_).trans ?_
  · intro a; fin_cases a <;> rfl
  refine (broadcastInDim_apply _ _ _ (ix3 (0 : Fin 1) r cc) (ix2 r cc) ?_).trans rfl
  intro a; fin_cases a <;> rfl

theorem logChain_eq (gp gt : Vec Ideal S8x1024x1024 .f32) (lp lt : Vec Ideal S1024x1024 .f32) :
    logChain (F := Ideal) gp gt lp lt ix0
      = Cert.Spec.lLog (fun b r cc => gp (ix3 b r cc)) (fun b r cc => gt (ix3 b r cc))
          (fun r cc => lp (ix2 r cc)) (fun r cc => lt (ix2 r cc)) := by
  unfold logChain Cert.Spec.lLog Cert.Spec.logAll
  rw [hostDivf_apply, hostReduceAdd_apply, Ideal.hostReduceAdd_total _ (fun b => b.elim0), constant_apply,
    constant_apply, Ideal.ofBits_zero_f32, zero_add, sum_idx3]
  refine congrArg (fun s => Ideal.div s _) ?_
  refine Finset.sum_congr rfl fun b _ => Finset.sum_congr rfl fun r _ => Finset.sum_congr rfl fun cc _ => ?_
  show max (gp (ix3 b r cc) * _ - gt (ix3 b r cc) * _) (-(gp (ix3 b r cc) * _ - gt (ix3 b r cc) * _)) = _
  rw [bcast_batch_apply, bcast_batch_apply]
  rfl

end Cert.ReferenceIdeal.RLap

end
-- ==== Proof.RConnectA.lean ====
import proofs.«147778_j69123203661888_1_alg».proof.Proof.Gen.ReferenceIdeal
import proofs.«147778_j69123203661888_1_alg».proof.Proof.ROps
import proofs.«147778_j69123203661888_1_alg».proof.Proof.RStats
import proofs.«147778_j69123203661888_1_alg».proof.Proof.RLap
import Idealize.ShloMosaic.Lib.StableHlo.Run

noncomputable section

namespace Cert.ReferenceIdeal.RConnectA
open Cert.ReferenceIdeal Cert.ReferenceIdeal.Gen Idealize.ShloMosaic Idealize.ShloMosaic.TcCoe Idealize.SL.Sem
open Idealize.ShloMosaic.StableHlo
open Cert.ReferenceIdeal.ROps

section Segments
variable (W : Valuation τ sig (Elt Ideal))

set_option maxHeartbeats 4000000 in

theorem sat_seg : StableHlo.after seg4 (StableHlo.after seg3 (StableHlo.after seg2 (StableHlo.after seg1 (StableHlo.after seg0 W))))
      (Proc.devRef .tc main_v8) = RStats.satChain (W (Proc.devRef .tc main_arg1)) := by
  after_results_simp
  rfl

set_option maxHeartbeats 4000000 in

theorem std0_seg : StableHlo.after seg5 (StableHlo.after seg4 W) (Proc.devRef .tc main_v9)
      = RStats.stdChain (W (Proc.devRef .tc main_arg0)) := by
  after_results_simp
  rfl

set_option maxHeartbeats 4000000 in

theorem mean_seg : StableHlo.after seg6 W (Proc.devRef .tc main_v13) = RStats.meanChain (W (Proc.devRef .tc main_arg1)) := by
  after_results_simp
  rfl

set_option maxHeartbeats 4000000 in

theorem std1_seg : StableHlo.after seg7 (StableHlo.after seg6 W) (Proc.devRef .tc main_v14)
      = RStats.stdChain (W (Proc.devRef .tc main_arg1)) := by
  after_results_simp
  rfl

set_option maxHeartbeats 4000000 in

theorem int_seg : StableHlo.after seg8 W (Proc.devRef .tc main_v19)
      = Host.divf
          (Host.reduceAdd
            (mulf (subf (W (Proc.devRef .tc main_v13)) (broadcastInDim S8x3x1x1 ![] bcast_S_S8x3x1x1 (constant (F := Ideal) S_ .f32 0x3F000000#32)))
              (subf (W (Proc.devRef .tc main_v13)) (broadcastInDim S8x3x1x1 ![] bcast_S_S8x3x1x1 (constant (F := Ideal) S_ .f32 0x3F000000#32))))
            (constant (F := Ideal) S_ .f32 0x00000000#32) reducesTo_S8x3x1x1_S_d0_1_2_3 h_S_)
          (constant (F := Ideal) S_ .f32 0x41C00000#32) := by
  after_results_simp

set_option maxHeartbeats 4000000 in

theorem sv_seg : StableHlo.after seg8 W (Proc.devRef .tc main_v23)
      = Host.divf
          (Host.reduceAdd
            (mulf (subf (F := Ideal) (φ := .f32) (W (Proc.devRef .tc main_v14)) (W (Proc.devRef .tc main_v9)))
              (subf (F := Ideal) (φ := .f32) (W (Proc.devRef .tc main_v14)) (W (Proc.devRef .tc main_v9))))
            (constant (F := Ideal) S_ .f32 0x00000000#32) reducesTo_S8x3_S_d0_1 h_S_)
          (constant (F := Ideal) S_ .f32 0x41C00000#32) := by
  after_results_simp

set_option maxHeartbeats 4000000 in

theorem sel1_seg : StableHlo.after seg8 W (Proc.devRef .tc main_v25) = RLap.sel00 (W (Proc.devRef .tc main_arg1)) := by
  after_results_simp
  rfl

set_option maxHeartbeats 4000000 in
theorem sel0_seg : StableHlo.after seg8 W (Proc.devRef .tc main_v27) = RLap.sel00 (W (Proc.devRef .tc main_arg0)) := by
  after_results_simp
  rfl

set_option maxHeartbeats 4000000 in

theorem sx1_seg : StableHlo.after seg10 (StableHlo.after seg9 W) (Proc.devRef .tc main_v35) = RLap.sx (W (Proc.devRef .tc main_v25)) := by
  after_results_simp
  rfl

set_option maxHeartbeats 4000000 in

theorem edge_seg : StableHlo.after seg13 (StableHlo.after seg12 (StableHlo.after seg11 W)) (Proc.devRef .tc main_v47)
      = Host.divf
          (Host.reduceAdd (Host.absf (subf (W (Proc.devRef .tc main_v35)) (RLap.sx (W (Proc.devRef .tc main_v27)))))
            (constant (F := Ideal) S_ .f32 0x00000000#32) reducesTo_S1024x1024_S_d0_1 h_S_)
          (constant (F := Ideal) S_ .f32 0x49800000#32) := by
  after_results_simp
  rfl

end Segments

variable (m : (ℓ : Loc nD τ sig) → Buf (Elt Ideal) ℓ) (c : Dev nD)

theorem R32_v8 : R32 m c (Proc.devRef .tc main_v8) = RStats.satChain (R0 m c (Proc.devRef .tc main_arg1)) := by
  rw [R32_keep m c main_v8 (by decide), R31_keep m c main_v8 (by decide), R30_keep m c main_v8 (by decide), R29_keep m c main_v8 (by decide), R28_keep m c main_v8 (by decide), R27_keep m c main_v8 (by decide), R26_keep m c main_v8 (by decide), R25_keep m c main_v8 (by decide), R24_keep m c main_v8 (by decide), R23_keep m c main_v8 (by decide), R22_keep m c main_v8 (by decide), R21_keep m c main_v8 (by decide), R20_keep m c main_v8 (by decide), R19_keep m c main_v8 (by decide), R18_keep m c main_v8 (by decide), R17_keep m c main_v8 (by decide), R16_keep m c main_v8 (by decide), R15_keep m c main_v8 (by decide), R14_keep m c main_v8 (by decide), R13_keep m c main_v8 (by decide), R12_keep m c main_v8 (by decide), R11_keep m c main_v8 (by decide), R10_keep m c main_v8 (by decide), R9_keep m c main_v8 (by decide), R8_keep m c main_v8 (by decide), R7_keep m c main_v8 (by decide), R6_keep m c main_v8 (by decide)]
  rw [R5, R4, R3, R2, R1]
  exact sat_seg (R0 m c)

theorem arg1_R8 : R8 m c (Proc.devRef .tc main_arg1) = R0 m c (Proc.devRef .tc main_arg1) := by
  rw [R8_keep m c main_arg1 (by decide), R7_keep m c main_arg1 (by decide), R6_keep m c main_arg1 (by decide), R5_keep m c main_arg1 (by decide), R4_keep m c main_arg1 (by decide), R3_keep m c main_arg1 (by decide), R2_keep m c main_arg1 (by decide), R1_keep m c main_arg1 (by decide)]
theorem arg0_R8 : R8 m c (Proc.devRef .tc main_arg0) = R0 m c (Proc.devRef .tc main_arg0) := by
  rw [R8_keep m c main_arg0 (by decide), R7_keep m c main_arg0 (by decide), R6_keep m c main_arg0 (by decide), R5_keep m c main_arg0 (by decide), R4_keep m c main_arg0 (by decide), R3_keep m c main_arg0 (by decide), R2_keep m c main_arg0 (by decide), R1_keep m c main_arg0 (by decide)]
theorem arg1_R6 : R6 m c (Proc.devRef .tc main_arg1) = R0 m c (Proc.devRef .tc main_arg1) := by
  rw [R6_keep m c main_arg1 (by decide), R5_keep m c main_arg1 (by decide), R4_keep m c main_arg1 (by decide), R3_keep m c main_arg1 (by decide), R2_keep m c main_arg1 (by decide), R1_keep m c main_arg1 (by decide)]
theorem arg0_R4 : R4 m c (Proc.devRef .tc main_arg0) = R0 m c (Proc.devRef .tc main_arg0) := by
  rw [R4_keep m c main_arg0 (by decide), R3_keep m c main_arg0 (by decide), R2_keep m c main_arg0 (by decide), R1_keep m c main_arg0 (by decide)]

theorem R8_v13 : R8 m c (Proc.devRef .tc main_v13) = RStats.meanChain (R0 m c (Proc.devRef .tc main_arg1)) := by
  rw [R8_keep m c main_v13 (by decide), R7, mean_seg, arg1_R6]
theorem R8_v14 : R8 m c (Proc.devRef .tc main_v14) = RStats.stdChain (R0 m c (Proc.devRef .tc main_arg1)) := by
  rw [R8, R7, std1_seg, arg1_R6]
theorem R8_v9 : R8 m c (Proc.devRef .tc main_v9) = RStats.stdChain (R0 m c (Proc.devRef .tc main_arg0)) := by
  rw [R8_keep m c main_v9 (by decide), R7_keep m c main_v9 (by decide), R6, R5, std0_seg, arg0_R4]

theorem R32_v19 : R32 m c (Proc.devRef .tc main_v19) = RStats.intChain (R0 m c (Proc.devRef .tc main_arg1)) := by
  rw [R32_keep m c main_v19 (by decide), R31_keep m c main_v19 (by decide), R30_keep m c main_v19 (by decide), R29_keep m c main_v19 (by decide), R28_keep m c main_v19 (by decide), R27_keep m c main_v19 (by decide), R26_keep m c main_v19 (by decide), R25_keep m c main_v19 (by decide), R24_keep m c main_v19 (by decide), R23_keep m c main_v19 (by decide), R22_keep m c main_v19 (by decide), R21_keep m c main_v19 (by decide), R20_keep m c main_v19 (by decide), R19_keep m c main_v19 (by decide), R18_keep m c main_v19 (by decide), R17_keep m c main_v19 (by decide), R16_keep m c main_v19 (by decide), R15_keep m c main_v19 (by decide), R14_keep m c main_v19 (by decide), R13_keep m c main_v19 (by decide), R12_keep m c main_v19 (by decide), R11_keep m c main_v19 (by decide), R10_keep m c main_v19 (by decide)]
  rw [R9, int_seg, R8_v13]
  rfl

theorem R32_v23 : R32 m c (Proc.devRef .tc main_v23)
    = RStats.svChain (R0 m c (Proc.devRef .tc main_arg1)) (R0 m c (Proc.devRef .tc main_arg0)) := by
  rw [R32_keep m c main_v23 (by decide), R31_keep m c main_v23 (by decide), R30_keep m c main_v23 (by decide), R29_keep m c main_v23 (by decide), R28_keep m c main_v23 (by decide), R27_keep m c main_v23 (by decide), R26_keep m c main_v23 (by decide), R25_keep m c main_v23 (by decide), R24_keep m c main_v23 (by decide), R23_keep m c main_v23 (by decide), R22_keep m c main_v23 (by decide), R21_keep m c main_v23 (by decide), R20_keep m c main_v23 (by decide), R19_keep m c main_v23 (by decide), R18_keep m c main_v23 (by decide), R17_keep m c main_v23 (by decide), R16_keep m c main_v23 (by decide), R15_keep m c main_v23 (by decide), R14_keep m c main_v23 (by decide), R13_keep m c main_v23 (by decide), R12_keep m c main_v23 (by decide), R11_keep m c main_v23 (by decide), R10_keep m c main_v23 (by decide)]
  rw [R9, sv_seg, R8_v14, R8_v9]
  rfl

theorem R11_v35 : R11 m c (Proc.devRef .tc main_v35) = RLap.sx (RLap.sel00 (R0 m c (Proc.devRef .tc main_arg1))) := by
  rw [R11, R10, sx1_seg, R9, sel1_seg, arg1_R8]
theorem R11_v27 : R11 m c (Proc.devRef .tc main_v27) = RLap.sel00 (R0 m c (Proc.devRef .tc main_arg0)) := by
  rw [R11_keep m c main_v27 (by decide), R10_keep m c main_v27 (by decide), R9, sel0_seg, arg0_R8]

theorem R32_v47 : R32 m c (Proc.devRef .tc main_v47)
    = RLap.sobelR (F := Ideal) (R0 m c (Proc.devRef .tc main_arg1)) (R0 m c (Proc.devRef .tc main_arg0)) := by
  rw [R32_keep m c main_v47 (by decide), R31_keep m c main_v47 (by decide), R30_keep m c main_v47 (by decide), R29_keep m c main_v47 (by decide), R28_keep m c main_v47 (by decide), R27_keep m c main_v47 (by decide), R26_keep m c main_v47 (by decide), R25_keep m c main_v47 (by decide), R24_keep m c main_v47 (by decide), R23_keep m c main_v47 (by decide), R22_keep m c main_v47 (by decide), R21_keep m c main_v47 (by decide), R20_keep m c main_v47 (by decide), R19_keep m c main_v47 (by decide), R18_keep m c main_v47 (by decide), R17_keep m c main_v47 (by decide), R16_keep m c main_v47 (by decide), R15_keep m c main_v47 (by decide)]
  rw [R14, R13, R12, edge_seg, R11_v35, R11_v27]
  rfl

end Cert.ReferenceIdeal.RConnectA

end
-- ==== Proof.RConnectGP.lean ====
import proofs.«147778_j69123203661888_1_alg».proof.Proof.ROps
import proofs.«147778_j69123203661888_1_alg».proof.Proof.RGauss
import Idealize.ShloMosaic.Lib.StableHlo.Run

set_option maxRecDepth 4096

noncomputable section

namespace Cert.ReferenceIdeal.RConnectGP

open Cert.ReferenceIdeal Cert.ReferenceIdeal.Gen Idealize.ShloMosaic Idealize.ShloMosaic.TcCoe Idealize.SL.Sem
open Cert.ReferenceIdeal.ROps

def first6 (tbl : Vec Ideal S3x3 .f32) (p : Vec Ideal S8x1026x1026 .f32) : Vec Ideal S8x1024x1024 .f32 :=
  (addf (F := Ideal) (φ := .f32) (addf (F := Ideal) (φ := .f32) (addf (F := Ideal) (φ := .f32) (addf (F := Ideal) (φ := .f32) (addf (F := Ideal) (φ := .f32) (addf (F := Ideal) (φ := .f32) (broadcastInDim S8x1024x1024 ![] bcast_S_S8x1024x1024 (constant (F := Ideal) S_ .f32 0x00000000#32))
      (RGauss.tap tbl p ![0, 0] ![0, 0, 0] slices_S3x3_S1x1_0_0 slices_S8x1026x1026_S8x1024x1024_0_0_0))
      (RGauss.tap tbl p ![0, 1] ![0, 0, 1] slices_S3x3_S1x1_0_1 slices_S8x1026x1026_S8x1024x1024_0_0_1))
      (RGauss.tap tbl p ![0, 2] ![0, 0, 2] slices_S3x3_S1x1_0_2 slices_S8x1026x1026_S8x1024x1024_0_0_2))
      (RGauss.tap tbl p ![1, 0] ![0, 1, 0] slices_S3x3_S1x1_1_0 slices_S8x1026x1026_S8x1024x1024_0_1_0))
      (RGauss.tap tbl p ![1, 1] ![0, 1, 1] slices_S3x3_S1x1_1_1 slices_S8x1026x1026_S8x1024x1024_0_1_1))
      (RGauss.tap tbl p ![1, 2] ![0, 1, 2] slices_S3x3_S1x1_1_2 slices_S8x1026x1026_S8x1024x1024_0_1_2))

def last3 (acc : Vec Ideal S8x1024x1024 .f32) (tbl : Vec Ideal S3x3 .f32) (p : Vec Ideal S8x1026x1026 .f32) :
    Vec Ideal S8x1024x1024 .f32 :=
  (addf (F := Ideal) (φ := .f32) (addf (F := Ideal) (φ := .f32) (addf (F := Ideal) (φ := .f32) acc
      (RGauss.tap tbl p ![2, 0] ![0, 2, 0] slices_S3x3_S1x1_2_0 slices_S8x1026x1026_S8x1024x1024_0_2_0))
      (RGauss.tap tbl p ![2, 1] ![0, 2, 1] slices_S3x3_S1x1_2_1 slices_S8x1026x1026_S8x1024x1024_0_2_1))
      (RGauss.tap tbl p ![2, 2] ![0, 2, 2] slices_S3x3_S1x1_2_2 slices_S8x1026x1026_S8x1024x1024_0_2_2))

theorem gauss3Chain_eq (tbl : Vec Ideal S3x3 .f32) (p : Vec Ideal S8x1026x1026 .f32) :
    RGauss.gauss3Chain tbl p = last3 (first6 tbl p) tbl p := rfl

section Stretches

variable (W : Valuation τ sig (Elt Ideal))

theorem seg0_cst : StableHlo.after (seg0 (F := Ideal)) W (Proc.devRef .tc main_cst) = RGauss.gaussTable := by
  after_results_simp
  rfl

theorem seg13_v50 : StableHlo.after (seg13 (F := Ideal)) W (Proc.devRef .tc main_v50)
    = RGauss.grayChain (W (Proc.devRef .tc main_arg1)) := by
  after_results_simp
  rfl

theorem seg13_v53 : StableHlo.after (seg13 (F := Ideal)) W (Proc.devRef .tc main_v53)
    = RGauss.grayChain (W (Proc.devRef .tc main_arg0)) := by
  after_results_simp
  rfl

theorem seg14_v54 : StableHlo.after (seg14 (F := Ideal)) W (Proc.devRef .tc main_v54)
    = RGauss.pad3Chain (W (Proc.devRef .tc main_v50)) := by
  after_results
  simp only [StableHlo.TRef.ofBuf, StableHlo.TRef.toBuf, cast_eq]
  rfl

theorem seg15_v91 : StableHlo.after (seg15 (F := Ideal)) W (Proc.devRef .tc main_v91)
    = first6 (W (Proc.devRef .tc main_cst)) (W (Proc.devRef .tc main_v54)) := by
  after_results_simp
  rfl

theorem seg16_v109 : StableHlo.after (seg16 (F := Ideal)) W (Proc.devRef .tc main_v109)
    = last3 (W (Proc.devRef .tc main_v91)) (W (Proc.devRef .tc main_cst)) (W (Proc.devRef .tc main_v54)) := by
  after_results_simp
  rfl

end Stretches

section Boundaries

variable (m : (ℓ : Loc nD τ sig) → Buf (Elt Ideal) ℓ) (c : Dev nD)

theorem R13_arg1 : R13 m c (Proc.devRef .tc main_arg1) = R0 m c (Proc.devRef .tc main_arg1) := by
  rw [R13_keep m c main_arg1 (by decide),
    R12_keep m c main_arg1 (by decide),
    R11_keep m c main_arg1 (by decide),
    R10_keep m c main_arg1 (by decide),
    R9_keep m c main_arg1 (by decide),
    R8_keep m c main_arg1 (by decide),
    R7_keep m c main_arg1 (by decide),
    R6_keep m c main_arg1 (by decide),
    R5_keep m c main_arg1 (by decide),
    R4_keep m c main_arg1 (by decide),
    R3_keep m c main_arg1 (by decide),
    R2_keep m c main_arg1 (by decide),
    R1_keep m c main_arg1 (by decide)]

theorem R15_cst : R15 m c (Proc.devRef .tc main_cst) = RGauss.gaussTable := by
  rw [R15_keep m c main_cst (by decide),
    R14_keep m c main_cst (by decide),
    R13_keep m c main_cst (by decide),
    R12_keep m c main_cst (by decide),
    R11_keep m c main_cst (by decide),
    R10_keep m c main_cst (by decide),
    R9_keep m c main_cst (by decide),
    R8_keep m c main_cst (by decide),
    R7_keep m c main_cst (by decide),
    R6_keep m c main_cst (by decide),
    R5_keep m c main_cst (by decide),
    R4_keep m c main_cst (by decide),
    R3_keep m c main_cst (by decide),
    R2_keep m c main_cst (by decide)]
  exact seg0_cst (R0 m c)

theorem R14_v50 : R14 m c (Proc.devRef .tc main_v50) = RGauss.grayChain (R0 m c (Proc.devRef .tc main_arg1)) := by
  rw [R14, seg13_v50, R13_arg1]

theorem R15_v54 : R15 m c (Proc.devRef .tc main_v54)
    = RGauss.pad3Chain (RGauss.grayChain (R0 m c (Proc.devRef .tc main_arg1))) := by
  rw [R15, seg14_v54, R14_v50]

theorem R16_v91 : R16 m c (Proc.devRef .tc main_v91)
    = first6 RGauss.gaussTable (RGauss.pad3Chain (RGauss.grayChain (R0 m c (Proc.devRef .tc main_arg1)))) := by
  rw [R16, seg15_v91, R15_cst, R15_v54]

theorem R17_v109 : R17 m c (Proc.devRef .tc main_v109)
    = RGauss.gauss3Chain RGauss.gaussTable (RGauss.pad3Chain (RGauss.grayChain (R0 m c (Proc.devRef .tc main_arg1)))) := by
  rw [R17, seg16_v109, R16_v91, R16_keep m c main_cst (by decide), R16_keep m c main_v54 (by decide), R15_cst, R15_v54,
    gauss3Chain_eq]

theorem R32_v109 : R32 m c (Proc.devRef .tc main_v109)
    = RGauss.gauss3Chain RGauss.gaussTable (RGauss.pad3Chain (RGauss.grayChain (R0 m c (Proc.devRef .tc main_arg1)))) := by
  rw [R32_keep m c main_v109 (by decide),
    R31_keep m c main_v109 (by decide),
    R30_keep m c main_v109 (by decide),
    R29_keep m c main_v109 (by decide),
    R28_keep m c main_v109 (by decide),
    R27_keep m c main_v109 (by decide),
    R26_keep m c main_v109 (by decide),
    R25_keep m c main_v109 (by decide),
    R24_keep m c main_v109 (by decide),
    R23_keep m c main_v109 (by decide),
    R22_keep m c main_v109 (by decide),
    R21_keep m c main_v109 (by decide),
    R20_keep m c main_v109 (by decide),
    R19_keep m c main_v109 (by decide),
    R18_keep m c main_v109 (by decide)]
  exact R17_v109 m c

end Boundaries

end Cert.ReferenceIdeal.RConnectGP

end
-- ==== Proof.RConnectGT.lean ====
import proofs.«147778_j69123203661888_1_alg».proof.Proof.Gen.ReferenceIdeal
import proofs.«147778_j69123203661888_1_alg».proof.Proof.ROps
import proofs.«147778_j69123203661888_1_alg».proof.Proof.RGauss
import proofs.«147778_j69123203661888_1_alg».proof.Proof.RConnectGP
import Idealize.ShloMosaic.Lib.StableHlo.Run

noncomputable section

namespace Cert.ReferenceIdeal.RConnectGT

open Cert.ReferenceIdeal Cert.ReferenceIdeal.Gen Idealize.ShloMosaic Idealize.ShloMosaic.TcCoe Idealize.SL.Sem
open Cert.ReferenceIdeal.ROps
open Cert.ReferenceIdeal.RConnectGP (seg0_cst seg13_v53 first6)
open Idealize.ShloMosaic.StableHlo

section Stretches
variable (W : Valuation τ sig (Elt Ideal))

theorem seg17_v110 : StableHlo.after (seg17 (F := Ideal)) W (Proc.devRef .tc main_v110)
    = RGauss.pad3Chain (W (Proc.devRef .tc main_v53)) := by
  after_results
  simp only [StableHlo.TRef.ofBuf, StableHlo.TRef.toBuf, cast_eq]
  rfl

end Stretches

section Taps
variable (W : Valuation τ sig (Elt Ideal))

theorem seg18_v147 : StableHlo.after (seg18 (F := Ideal)) W (Proc.devRef .tc main_v147)
    = first6 (W (Proc.devRef .tc main_cst)) (W (Proc.devRef .tc main_v110)) := by
  after_results_simp
  rfl

theorem seg18_v149 : StableHlo.after (seg18 (F := Ideal)) W (Proc.devRef .tc main_v149)
    = shapeCast S_ (extractStridedSlice S1x1 ![2, 0] (W (Proc.devRef .tc main_cst)) slices_S3x3_S1x1_2_0) shapeCasts_S1x1_S_ := by
  after_results_simp
  rfl

theorem seg19_v165 : StableHlo.after (seg19 (F := Ideal)) W (Proc.devRef .tc main_v165)
    = addf (F := Ideal) (φ := .f32) (addf (F := Ideal) (φ := .f32) (addf (F := Ideal) (φ := .f32) (W (Proc.devRef .tc main_v147))
        (mulf (F := Ideal) (φ := .f32) (broadcastInDim S8x1024x1024 ![] bcast_S_S8x1024x1024 (W (Proc.devRef .tc main_v149)))
          (extractStridedSlice S8x1024x1024 ![0, 2, 0] (W (Proc.devRef .tc main_v110)) slices_S8x1026x1026_S8x1024x1024_0_2_0)))
        (RGauss.tap (W (Proc.devRef .tc main_cst)) (W (Proc.devRef .tc main_v110)) ![2, 1] ![0, 2, 1] slices_S3x3_S1x1_2_1 slices_S8x1026x1026_S8x1024x1024_0_2_1))
        (RGauss.tap (W (Proc.devRef .tc main_cst)) (W (Proc.devRef .tc main_v110)) ![2, 2] ![0, 2, 2] slices_S3x3_S1x1_2_2 slices_S8x1026x1026_S8x1024x1024_0_2_2) := by
  after_results_simp
  rfl

theorem seg18_19_v165 : StableHlo.after (seg19 (F := Ideal)) (StableHlo.after (seg18 (F := Ideal)) W) (Proc.devRef .tc main_v165)
    = RGauss.gauss3Chain (W (Proc.devRef .tc main_cst)) (W (Proc.devRef .tc main_v110)) := by
  rw [seg19_v165, seg18_v147, seg18_v149,
    StableHlo.after_of_writes_sub (seg18 (F := Ideal)) W seg18_writes (r := main_cst) (by decide),
    StableHlo.after_of_writes_sub (seg18 (F := Ideal)) W seg18_writes (r := main_v110) (by decide)]
  rfl

end Taps

section Run
variable (m : (ℓ : Loc nD τ sig) → Buf (Elt Ideal) ℓ) (c : Dev nD)

theorem R13_arg0 : R13 m c (Proc.devRef .tc main_arg0) = R0 m c (Proc.devRef .tc main_arg0) := by
  rw [R13_keep m c main_arg0 (by decide),
    R12_keep m c main_arg0 (by decide),
    R11_keep m c main_arg0 (by decide),
    R10_keep m c main_arg0 (by decide),
    R9_keep m c main_arg0 (by decide),
    R8_keep m c main_arg0 (by decide),
    R7_keep m c main_arg0 (by decide),
    R6_keep m c main_arg0 (by decide),
    R5_keep m c main_arg0 (by decide),
    R4_keep m c main_arg0 (by decide),
    R3_keep m c main_arg0 (by decide),
    R2_keep m c main_arg0 (by decide),
    R1_keep m c main_arg0 (by decide)]

theorem R14_v53 : R14 m c (Proc.devRef .tc main_v53) = RGauss.grayChain (R0 m c (Proc.devRef .tc main_arg0)) := by
  rw [R14, seg13_v53, R13_arg0]

theorem R17_v53 : R17 m c (Proc.devRef .tc main_v53) = RGauss.grayChain (R0 m c (Proc.devRef .tc main_arg0)) := by
  rw [R17_keep m c main_v53 (by decide),
    R16_keep m c main_v53 (by decide),
    R15_keep m c main_v53 (by decide),
    R14_v53]

theorem R18_v110 : R18 m c (Proc.devRef .tc main_v110)
    = RGauss.pad3Chain (RGauss.grayChain (R0 m c (Proc.devRef .tc main_arg0))) := by
  rw [R18, seg17_v110, R17_v53]

theorem R18_cst : R18 m c (Proc.devRef .tc main_cst) = RGauss.gaussTable := by
  rw [R18_keep m c main_cst (by decide),
    R17_keep m c main_cst (by decide),
    R16_keep m c main_cst (by decide),
    R15_keep m c main_cst (by decide),
    R14_keep m c main_cst (by decide),
    R13_keep m c main_cst (by decide),
    R12_keep m c main_cst (by decide),
    R11_keep m c main_cst (by decide),
    R10_keep m c main_cst (by decide),
    R9_keep m c main_cst (by decide),
    R8_keep m c main_cst (by decide),
    R7_keep m c main_cst (by decide),
    R6_keep m c main_cst (by decide),
    R5_keep m c main_cst (by decide),
    R4_keep m c main_cst (by decide),
    R3_keep m c main_cst (by decide),
    R2_keep m c main_cst (by decide),
    R1, seg0_cst]

theorem R20_v165 : R20 m c (Proc.devRef .tc main_v165)
    = RGauss.gauss3Chain RGauss.gaussTable (RGauss.pad3Chain (RGauss.grayChain (R0 m c (Proc.devRef .tc main_arg0)))) := by
  rw [R20, R19, seg18_19_v165, R18_cst, R18_v110]

theorem R32_v165 : R32 m c (Proc.devRef .tc main_v165)
    = RGauss.gauss3Chain RGauss.gaussTable (RGauss.pad3Chain (RGauss.grayChain (R0 m c (Proc.devRef .tc main_arg0)))) := by
  rw [R32_keep m c main_v165 (by decide),
    R31_keep m c main_v165 (by decide),
    R30_keep m c main_v165 (by decide),
    R29_keep m c main_v165 (by decide),
    R28_keep m c main_v165 (by decide),
    R27_keep m c main_v165 (by decide),
    R26_keep m c main_v165 (by decide),
    R25_keep m c main_v165 (by decide),
    R24_keep m c main_v165 (by decide),
    R23_keep m c main_v165 (by decide),
    R22_keep m c main_v165 (by decide),
    R21_keep m c main_v165 (by decide),
    R20_v165]

end Run

end Cert.ReferenceIdeal.RConnectGT

end
-- ==== Proof.RConnectLap.lean ====
import proofs.«147778_j69123203661888_1_alg».proof.Proof.ROps
import proofs.«147778_j69123203661888_1_alg».proof.Proof.RLap
import Idealize.ShloMosaic.Lib.StableHlo.Run

set_option maxRecDepth 16384

noncomputable section

namespace Cert.ReferenceIdeal.RConnectLap

open Cert.ReferenceIdeal Cert.ReferenceIdeal.Gen Cert.ReferenceIdeal.ROps Cert.ReferenceIdeal.RLap
open Idealize.ShloMosaic Idealize.ShloMosaic.TcCoe Idealize.SL.Sem

section Stretches

variable {F : FTy → Type} [FloatOps F]

def filtT (tbl : Vec F S3x3 .f32) (p : Vec F S1026x1026 .f32) : Vec F S1024x1024 .f32 :=
  filt2 (tblW tbl 0 0) (tblW tbl 0 1) (tblW tbl 0 2) (tblW tbl 1 0) (tblW tbl 1 1) (tblW tbl 1 2)
    (tblW tbl 2 0) (tblW tbl 2 1) (tblW tbl 2 2) p

variable (W : Valuation τ sig (Elt F))

theorem tbl_g : StableHlo.after seg0 W (Proc.devRef .tc main_cst) = (gaussTable : Vec F S3x3 .f32) := by
  after_results
  rfl

theorem tbl_l : StableHlo.after seg0 W (Proc.devRef .tc main_cst_0) = (laplTable : Vec F S3x3 .f32) := by
  after_results
  rfl

theorem selR_a : StableHlo.after seg19 W (Proc.devRef .tc main_v167) = sel00 (W (Proc.devRef .tc main_arg1)) := by
  after_results
  rfl

theorem selR_b : StableHlo.after seg25 W (Proc.devRef .tc main_v281) = sel00 (W (Proc.devRef .tc main_arg0)) := by
  after_results
  rfl

theorem padR_a : StableHlo.after seg20 W (Proc.devRef .tc main_v168) = pad2 (W (Proc.devRef .tc main_v167)) := by
  after_results
  simp only [StableHlo.TRef.ofBuf, StableHlo.TRef.toBuf, cast_eq]
  rfl

theorem filtR_a : StableHlo.after seg22 (StableHlo.after seg21 W) (Proc.devRef .tc main_v223)
    = filtT (W (Proc.devRef .tc main_cst)) (W (Proc.devRef .tc main_v168)) := by
  after_results_simp
  rfl

theorem padR_b : StableHlo.after seg23 W (Proc.devRef .tc main_v224) = pad2 (W (Proc.devRef .tc main_v223)) := by
  after_results
  simp only [StableHlo.TRef.ofBuf, StableHlo.TRef.toBuf, cast_eq]
  rfl

theorem filtR_b : StableHlo.after seg25 (StableHlo.after seg24 W) (Proc.devRef .tc main_v279)
    = filtT (W (Proc.devRef .tc main_cst_0)) (W (Proc.devRef .tc main_v224)) := by
  after_results_simp
  rfl

theorem padR_c : StableHlo.after seg26 W (Proc.devRef .tc main_v282) = pad2 (W (Proc.devRef .tc main_v281)) := by
  after_results
  simp only [StableHlo.TRef.ofBuf, StableHlo.TRef.toBuf, cast_eq]
  rfl

theorem filtR_c : StableHlo.after seg28 (StableHlo.after seg27 W) (Proc.devRef .tc main_v337)
    = filtT (W (Proc.devRef .tc main_cst)) (W (Proc.devRef .tc main_v282)) := by
  after_results_simp
  rfl

theorem padR_d : StableHlo.after seg29 W (Proc.devRef .tc main_v338) = pad2 (W (Proc.devRef .tc main_v337)) := by
  after_results
  simp only [StableHlo.TRef.ofBuf, StableHlo.TRef.toBuf, cast_eq]
  rfl

theorem filtR_d : StableHlo.after seg31 (StableHlo.after seg30 W) (Proc.devRef .tc main_v393)
    = filtT (W (Proc.devRef .tc main_cst_0)) (W (Proc.devRef .tc main_v338)) := by
  after_results_simp
  rfl

end Stretches

section Run

variable (m : (ℓ : Loc nD τ sig) → Buf (Elt Ideal) ℓ) (c : Dev nD)

theorem R1_cst : R1 m c (Proc.devRef .tc main_cst) = (gaussTable : Vec Ideal S3x3 .f32) := tbl_g _
theorem R1_cst0 : R1 m c (Proc.devRef .tc main_cst_0) = (laplTable : Vec Ideal S3x3 .f32) := tbl_l _

theorem R21_cst : R21 m c (Proc.devRef .tc main_cst) = (gaussTable : Vec Ideal S3x3 .f32) := by
  rw [R21_keep m c main_cst (by decide), R20_keep m c main_cst (by decide), R19_keep m c main_cst (by decide),
    R18_keep m c main_cst (by decide), R17_keep m c main_cst (by decide), R16_keep m c main_cst (by decide),
    R15_keep m c main_cst (by decide), R14_keep m c main_cst (by decide), R13_keep m c main_cst (by decide),
    R12_keep m c main_cst (by decide), R11_keep m c main_cst (by decide), R10_keep m c main_cst (by decide),
    R9_keep m c main_cst (by decide), R8_keep m c main_cst (by decide), R7_keep m c main_cst (by decide),
    R6_keep m c main_cst (by decide), R5_keep m c main_cst (by decide), R4_keep m c main_cst (by decide),
    R3_keep m c main_cst (by decide), R2_keep m c main_cst (by decide)]
  exact R1_cst m c

theorem R27_cst : R27 m c (Proc.devRef .tc main_cst) = (gaussTable : Vec Ideal S3x3 .f32) := by
  rw [R27_keep m c main_cst (by decide), R26_keep m c main_cst (by decide), R25_keep m c main_cst (by decide),
    R24_keep m c main_cst (by decide), R23_keep m c main_cst (by decide), R22_keep m c main_cst (by decide)]
  exact R21_cst m c

theorem R24_cst0 : R24 m c (Proc.devRef .tc main_cst_0) = (laplTable : Vec Ideal S3x3 .f32) := by
  rw [R24_keep m c main_cst_0 (by decide), R23_keep m c main_cst_0 (by decide),
    R22_keep m c main_cst_0 (by decide), R21_keep m c main_cst_0 (by decide),
    R20_keep m c main_cst_0 (by decide), R19_keep m c main_cst_0 (by decide),
    R18_keep m c main_cst_0 (by decide), R17_keep m c main_cst_0 (by decide),
    R16_keep m c main_cst_0 (by decide), R15_keep m c main_cst_0 (by decide),
    R14_keep m c main_cst_0 (by decide), R13_keep m c main_cst_0 (by decide),
    R12_keep m c main_cst_0 (by decide), R11_keep m c main_cst_0 (by decide),
    R10_keep m c main_cst_0 (by decide), R9_keep m c main_cst_0 (by decide), R8_keep m c main_cst_0 (by decide),
    R7_keep m c main_cst_0 (by decide), R6_keep m c main_cst_0 (by decide), R5_keep m c main_cst_0 (by decide),
    R4_keep m c main_cst_0 (by decide), R3_keep m c main_cst_0 (by decide), R2_keep m c main_cst_0 (by decide)]
  exact R1_cst0 m c

theorem R30_cst0 : R30 m c (Proc.devRef .tc main_cst_0) = (laplTable : Vec Ideal S3x3 .f32) := by
  rw [R30_keep m c main_cst_0 (by decide), R29_keep m c main_cst_0 (by decide),
    R28_keep m c main_cst_0 (by decide), R27_keep m c main_cst_0 (by decide),
    R26_keep m c main_cst_0 (by decide), R25_keep m c main_cst_0 (by decide)]
  exact R24_cst0 m c

theorem R19_arg1 : R19 m c (Proc.devRef .tc main_arg1) = R0 m c (Proc.devRef .tc main_arg1) := by
  rw [R19_keep m c main_arg1 (by decide), R18_keep m c main_arg1 (by decide), R17_keep m c main_arg1 (by decide),
    R16_keep m c main_arg1 (by decide), R15_keep m c main_arg1 (by decide), R14_keep m c main_arg1 (by decide),
    R13_keep m c main_arg1 (by decide), R12_keep m c main_arg1 (by decide), R11_keep m c main_arg1 (by decide),
    R10_keep m c main_arg1 (by decide), R9_keep m c main_arg1 (by decide), R8_keep m c main_arg1 (by decide),
    R7_keep m c main_arg1 (by decide), R6_keep m c main_arg1 (by decide), R5_keep m c main_arg1 (by decide),
    R4_keep m c main_arg1 (by decide), R3_keep m c main_arg1 (by decide), R2_keep m c main_arg1 (by decide),
    R1_keep m c main_arg1 (by decide)]

theorem R25_arg0 : R25 m c (Proc.devRef .tc main_arg0) = R0 m c (Proc.devRef .tc main_arg0) := by
  rw [R25_keep m c main_arg0 (by decide), R24_keep m c main_arg0 (by decide), R23_keep m c main_arg0 (by decide),
    R22_keep m c main_arg0 (by decide), R21_keep m c main_arg0 (by decide), R20_keep m c main_arg0 (by decide),
    R19_keep m c main_arg0 (by decide), R18_keep m c main_arg0 (by decide), R17_keep m c main_arg0 (by decide),
    R16_keep m c main_arg0 (by decide), R15_keep m c main_arg0 (by decide), R14_keep m c main_arg0 (by decide),
    R13_keep m c main_arg0 (by decide), R12_keep m c main_arg0 (by decide), R11_keep m c main_arg0 (by decide),
    R10_keep m c main_arg0 (by decide), R9_keep m c main_arg0 (by decide), R8_keep m c main_arg0 (by decide),
    R7_keep m c main_arg0 (by decide), R6_keep m c main_arg0 (by decide), R5_keep m c main_arg0 (by decide),
    R4_keep m c main_arg0 (by decide), R3_keep m c main_arg0 (by decide), R2_keep m c main_arg0 (by decide),
    R1_keep m c main_arg0 (by decide)]

theorem R20_v167 : R20 m c (Proc.devRef .tc main_v167) = sel00 (F := Ideal) (R0 m c (Proc.devRef .tc main_arg1)) :=
  (selR_a (R19 m c)).trans (congrArg sel00 (R19_arg1 m c))

theorem R21_v168 : R21 m c (Proc.devRef .tc main_v168) = pad2 (sel00 (F := Ideal) (R0 m c (Proc.devRef .tc main_arg1))) :=
  (padR_a (R20 m c)).trans (congrArg pad2 (R20_v167 m c))

theorem R23_v223 : R23 m c (Proc.devRef .tc main_v223)
    = filtT gaussTable (pad2 (sel00 (F := Ideal) (R0 m c (Proc.devRef .tc main_arg1)))) :=
  (filtR_a (R21 m c)).trans (congrArg₂ filtT (R21_cst m c) (R21_v168 m c))

theorem R24_v224 : R24 m c (Proc.devRef .tc main_v224)
    = pad2 (filtT gaussTable (pad2 (sel00 (F := Ideal) (R0 m c (Proc.devRef .tc main_arg1))))) :=
  (padR_b (R23 m c)).trans (congrArg pad2 (R23_v223 m c))

theorem R26_v279 : R26 m c (Proc.devRef .tc main_v279)
    = lapT (F := Ideal) (R0 m c (Proc.devRef .tc main_arg1)) :=
  (filtR_b (R24 m c)).trans (congrArg₂ filtT (R24_cst0 m c) (R24_v224 m c))

theorem R32_v279 : R32 m c (Proc.devRef .tc main_v279) = lapT (F := Ideal) (R0 m c (Proc.devRef .tc main_arg1)) := by
  rw [R32_keep m c main_v279 (by decide), R31_keep m c main_v279 (by decide), R30_keep m c main_v279 (by decide),
    R29_keep m c main_v279 (by decide), R28_keep m c main_v279 (by decide), R27_keep m c main_v279 (by decide)]
  exact R26_v279 m c

theorem R26_v281 : R26 m c (Proc.devRef .tc main_v281) = sel00 (F := Ideal) (R0 m c (Proc.devRef .tc main_arg0)) :=
  (selR_b (R25 m c)).trans (congrArg sel00 (R25_arg0 m c))

theorem R27_v282 : R27 m c (Proc.devRef .tc main_v282) = pad2 (sel00 (F := Ideal) (R0 m c (Proc.devRef .tc main_arg0))) :=
  (padR_c (R26 m c)).trans (congrArg pad2 (R26_v281 m c))

theorem R29_v337 : R29 m c (Proc.devRef .tc main_v337)
    = filtT gaussTable (pad2 (sel00 (F := Ideal) (R0 m c (Proc.devRef .tc main_arg0)))) :=
  (filtR_c (R27 m c)).trans (congrArg₂ filtT (R27_cst m c) (R27_v282 m c))

theorem R30_v338 : R30 m c (Proc.devRef .tc main_v338)
    = pad2 (filtT gaussTable (pad2 (sel00 (F := Ideal) (R0 m c (Proc.devRef .tc main_arg0))))) :=
  (padR_d (R29 m c)).trans (congrArg pad2 (R29_v337 m c))

theorem R32_v393 : R32 m c (Proc.devRef .tc main_v393) = lapT (F := Ideal) (R0 m c (Proc.devRef .tc main_arg0)) :=
  (filtR_d (R30 m c)).trans (congrArg₂ filtT (R30_cst0 m c) (R30_v338 m c))

end Run

end Cert.ReferenceIdeal.RConnectLap

end
-- ==== Proof.RConnect.lean ====
import proofs.«147778_j69123203661888_1_alg».proof.Proof.Gen.ReferenceIdeal
import proofs.«147778_j69123203661888_1_alg».proof.Proof.Spec
import proofs.«147778_j69123203661888_1_alg».proof.Proof.ROps
import proofs.«147778_j69123203661888_1_alg».proof.Proof.RStats
import proofs.«147778_j69123203661888_1_alg».proof.Proof.RGauss
import proofs.«147778_j69123203661888_1_alg».proof.Proof.RLap
import proofs.«147778_j69123203661888_1_alg».proof.Proof.RConnectA
import proofs.«147778_j69123203661888_1_alg».proof.Proof.RConnectGP
import proofs.«147778_j69123203661888_1_alg».proof.Proof.RConnectGT
import proofs.«147778_j69123203661888_1_alg».proof.Proof.RConnectLap
import Idealize.ShloMosaic.Lib.ValueIdx
import Idealize.ShloMosaic.Lib.Pipeline.Value
import Idealize.ShloMosaic.Lib.Pipeline.Frame
import Idealize.ShloMosaic.Lib.ValueLayout
import Idealize.ShloMosaic.PureOps.Ideal.Laws
import Idealize.ShloMosaic.Lib.StableHlo.Run

noncomputable section

namespace Cert.ReferenceIdeal.RConnect
open Cert.ReferenceIdeal Cert.ReferenceIdeal.Gen Idealize.ShloMosaic Idealize.ShloMosaic.TcCoe Idealize.SL.Sem Idealize.ShloMosaic.ValueIdx
open Cert.ReferenceIdeal.ROps

section Tail
variable {F : FTy → Type} [FloatOps F]

abbrev seg31a : List (HloOp τ sig (Elt F)) :=
  ( StableHlo.unary main_cst_0 main_v382 ((extractStridedSlice S1x1 ![2, 1] · slices_S3x3_S1x1_2_1) : (⟨S3x3, .f32⟩ : BufTy).Contents (Elt F) → (⟨S1x1, .f32⟩ : BufTy).Contents (Elt F))
  :: StableHlo.reshape main_v382 main_v383 rfl shapeCasts_S1x1_S_
  :: StableHlo.unary main_v338 main_v384 ((extractStridedSlice S1024x1024 ![2, 1] · slices_S1026x1026_S1024x1024_2_1) : (⟨S1026x1026, .f32⟩ : BufTy).Contents (Elt F) → (⟨S1024x1024, .f32⟩ : BufTy).Contents (Elt F))
  :: StableHlo.unary main_v383 main_v385 (broadcastInDim S1024x1024 ![] bcast_S_S1024x1024 : (⟨S_, .f32⟩ : BufTy).Contents (Elt F) → (⟨S1024x1024, .f32⟩ : BufTy).Contents (Elt F))
  :: StableHlo.binary main_v385 main_v384 main_v386 (mulf : (⟨S1024x1024, .f32⟩ : BufTy).Contents (Elt F) → (⟨S1024x1024, .f32⟩ : BufTy).Contents (Elt F) → (⟨S1024x1024, .f32⟩ : BufTy).Contents (Elt F))
  :: StableHlo.binary main_v381 main_v386 main_v387 (addf : (⟨S1024x1024, .f32⟩ : BufTy).Contents (Elt F) → (⟨S1024x1024, .f32⟩ : BufTy).Contents (Elt F) → (⟨S1024x1024, .f32⟩ : BufTy).Contents (Elt F))
  :: StableHlo.unary main_cst_0 main_v388 ((extractStridedSlice S1x1 ![2, 2] · slices_S3x3_S1x1_2_2) : (⟨S3x3, .f32⟩ : BufTy).Contents (Elt F) → (⟨S1x1, .f32⟩ : BufTy).Contents (Elt F))
  :: StableHlo.reshape main_v388 main_v389 rfl shapeCasts_S1x1_S_
  :: StableHlo.unary main_v338 main_v390 ((extractStridedSlice S1024x1024 ![2, 2] · slices_S1026x1026_S1024x1024_2_2) : (⟨S1026x1026, .f32⟩ : BufTy).Contents (Elt F) → (⟨S1024x1024, .f32⟩ : BufTy).Contents (Elt F))
  :: StableHlo.unary main_v389 main_v391 (broadcastInDim S1024x1024 ![] bcast_S_S1024x1024 : (⟨S_, .f32⟩ : BufTy).Contents (Elt F) → (⟨S1024x1024, .f32⟩ : BufTy).Contents (Elt F))
  :: StableHlo.binary main_v391 main_v390 main_v392 (mulf : (⟨S1024x1024, .f32⟩ : BufTy).Contents (Elt F) → (⟨S1024x1024, .f32⟩ : BufTy).Contents (Elt F) → (⟨S1024x1024, .f32⟩ : BufTy).Contents (Elt F))
  :: StableHlo.binary main_v387 main_v392 main_v393 (addf : (⟨S1024x1024, .f32⟩ : BufTy).Contents (Elt F) → (⟨S1024x1024, .f32⟩ : BufTy).Contents (Elt F) → (⟨S1024x1024, .f32⟩ : BufTy).Contents (Elt F))
  :: [] )

abbrev tailSeg : List (HloOp τ sig (Elt F)) :=
  ( StableHlo.unary main_v279 main_v394 (broadcastInDim S1x1024x1024 ![1, 2] bcast_S1024x1024_S1x1024x1024_1_2 : (⟨S1024x1024, .f32⟩ : BufTy).Contents (Elt F) → (⟨S1x1024x1024, .f32⟩ : BufTy).Contents (Elt F))
  :: StableHlo.unary main_v394 main_v395 (broadcastInDim S8x1024x1024 ![0, 1, 2] bcast_S1x1024x1024_S8x1024x1024_0_1_2 : (⟨S1x1024x1024, .f32⟩ : BufTy).Contents (Elt F) → (⟨S8x1024x1024, .f32⟩ : BufTy).Contents (Elt F))
  :: StableHlo.binary main_v109 main_v395 main_v396 (mulf : (⟨S8x1024x1024, .f32⟩ : BufTy).Contents (Elt F) → (⟨S8x1024x1024, .f32⟩ : BufTy).Contents (Elt F) → (⟨S8x1024x1024, .f32⟩ : BufTy).Contents (Elt F))
  :: StableHlo.unary main_v393 main_v397 (broadcastInDim S1x1024x1024 ![1, 2] bcast_S1024x1024_S1x1024x1024_1_2 : (⟨S1024x1024, .f32⟩ : BufTy).Contents (Elt F) → (⟨S1x1024x1024, .f32⟩ : BufTy).Contents (Elt F))
  :: StableHlo.unary main_v397 main_v398 (broadcastInDim S8x1024x1024 ![0, 1, 2] bcast_S1x1024x1024_S8x1024x1024_0_1_2 : (⟨S1x1024x1024, .f32⟩ : BufTy).Contents (Elt F) → (⟨S8x1024x1024, .f32⟩ : BufTy).Contents (Elt F))
  :: StableHlo.binary main_v165 main_v398 main_v399 (mulf : (⟨S8x1024x1024, .f32⟩ : BufTy).Contents (Elt F) → (⟨S8x1024x1024, .f32⟩ : BufTy).Contents (Elt F) → (⟨S8x1024x1024, .f32⟩ : BufTy).Contents (Elt F))
  :: StableHlo.binary main_v396 main_v399 main_v400 (subf : (⟨S8x1024x1024, .f32⟩ : BufTy).Contents (Elt F) → (⟨S8x1024x1024, .f32⟩ : BufTy).Contents (Elt F) → (⟨S8x1024x1024, .f32⟩ : BufTy).Contents (Elt F))
  :: StableHlo.unary main_v400 main_v401 (Host.absf : (⟨S8x1024x1024, .f32⟩ : BufTy).Contents (Elt F) → (⟨S8x1024x1024, .f32⟩ : BufTy).Contents (Elt F))
  :: StableHlo.nullary main_cst_36 (constant S_ .f32 0x00000000#32)
  :: StableHlo.binary main_v401 main_cst_36 main_v402 ((fun x v => Host.reduceAdd x v reducesTo_S8x1024x1024_S_d0_1_2 h_S_) : (⟨S8x1024x1024, .f32⟩ : BufTy).Contents (Elt F) → (⟨S_, .f32⟩ : BufTy).Contents (Elt F) → (⟨S_, .f32⟩ : BufTy).Contents (Elt F))
  :: StableHlo.nullary main_cst_37 (constant S_ .f32 0x4B000000#32)
  :: StableHlo.binary main_v402 main_cst_37 main_v403 (Host.divf : (⟨S_, .f32⟩ : BufTy).Contents (Elt F) → (⟨S_, .f32⟩ : BufTy).Contents (Elt F) → (⟨S_, .f32⟩ : BufTy).Contents (Elt F))
  :: StableHlo.binary main_v8 main_v23 main_v404 (addf : (⟨S_, .f32⟩ : BufTy).Contents (Elt F) → (⟨S_, .f32⟩ : BufTy).Contents (Elt F) → (⟨S_, .f32⟩ : BufTy).Contents (Elt F))
  :: StableHlo.binary main_v404 main_v47 main_v405 (addf : (⟨S_, .f32⟩ : BufTy).Contents (Elt F) → (⟨S_, .f32⟩ : BufTy).Contents (Elt F) → (⟨S_, .f32⟩ : BufTy).Contents (Elt F))
  :: StableHlo.binary main_v405 main_v19 main_v406 (addf : (⟨S_, .f32⟩ : BufTy).Contents (Elt F) → (⟨S_, .f32⟩ : BufTy).Contents (Elt F) → (⟨S_, .f32⟩ : BufTy).Contents (Elt F))
  :: StableHlo.binary main_v406 main_v403 main_v407 (addf : (⟨S_, .f32⟩ : BufTy).Contents (Elt F) → (⟨S_, .f32⟩ : BufTy).Contents (Elt F) → (⟨S_, .f32⟩ : BufTy).Contents (Elt F))
  :: [] )

theorem seg31_split : (seg31 : List (HloOp τ sig (Elt F))) = seg31a ++ tailSeg := rfl

theorem tail_v407 (W : Valuation τ sig (Elt F)) :
    StableHlo.after tailSeg W (Proc.devRef .tc main_v407)
      = addf (F := F) (s := S_) (φ := .f32)
          (addf (F := F) (s := S_) (φ := .f32)
            (addf (F := F) (s := S_) (φ := .f32)
              (addf (F := F) (s := S_) (φ := .f32) (W (Proc.devRef .tc main_v8)) (W (Proc.devRef .tc main_v23)))
              (W (Proc.devRef .tc main_v47)))
            (W (Proc.devRef .tc main_v19)))
          (RLap.logChain (F := F) (W (Proc.devRef .tc main_v109)) (W (Proc.devRef .tc main_v165))
            (W (Proc.devRef .tc main_v279)) (W (Proc.devRef .tc main_v393))) := by
  after_results_simp
  rfl

theorem tail_keep_v8 (W : Valuation τ sig (Elt F)) :
    StableHlo.after tailSeg W (Proc.devRef .tc main_v8) = W (Proc.devRef .tc main_v8) := by
  after_results_simp
theorem tail_keep_v23 (W : Valuation τ sig (Elt F)) :
    StableHlo.after tailSeg W (Proc.devRef .tc main_v23) = W (Proc.devRef .tc main_v23) := by
  after_results_simp
theorem tail_keep_v47 (W : Valuation τ sig (Elt F)) :
    StableHlo.after tailSeg W (Proc.devRef .tc main_v47) = W (Proc.devRef .tc main_v47) := by
  after_results_simp
theorem tail_keep_v19 (W : Valuation τ sig (Elt F)) :
    StableHlo.after tailSeg W (Proc.devRef .tc main_v19) = W (Proc.devRef .tc main_v19) := by
  after_results_simp
theorem tail_keep_v109 (W : Valuation τ sig (Elt F)) :
    StableHlo.after tailSeg W (Proc.devRef .tc main_v109) = W (Proc.devRef .tc main_v109) := by
  after_results_simp
theorem tail_keep_v165 (W : Valuation τ sig (Elt F)) :
    StableHlo.after tailSeg W (Proc.devRef .tc main_v165) = W (Proc.devRef .tc main_v165) := by
  after_results_simp
theorem tail_keep_v279 (W : Valuation τ sig (Elt F)) :
    StableHlo.after tailSeg W (Proc.devRef .tc main_v279) = W (Proc.devRef .tc main_v279) := by
  after_results_simp
theorem tail_keep_v393 (W : Valuation τ sig (Elt F)) :
    StableHlo.after tailSeg W (Proc.devRef .tc main_v393) = W (Proc.devRef .tc main_v393) := by
  after_results_simp

end Tail

variable (m : (ℓ : Loc nD τ sig) → Buf (Elt Ideal) ℓ) (c : Dev nD)

abbrev xI : Vec Ideal S8x3x1024x1024 .f32 := R0 m c (Proc.devRef .tc main_arg1)

abbrev xD : Vec Ideal S8x3x1024x1024 .f32 := R0 m c (Proc.devRef .tc main_arg0)

theorem after_ops : StableHlo.after (ops (F := Ideal)) (StableHlo.launchContents m c) = R32 m c := by
  simp only [ops, segs, List.flatten_cons, List.flatten_nil, List.append_nil, StableHlo.after_append]
  rfl

theorem R32_split : R32 m c = StableHlo.after tailSeg (StableHlo.after seg31a (R31 m c)) := by
  show StableHlo.after seg31 (R31 m c) = _
  rw [seg31_split, StableHlo.after_append]

theorem R32_v407 :
    R32 m c (Proc.devRef .tc main_v407)
      = addf (F := Ideal) (s := S_) (φ := .f32)
          (addf (F := Ideal) (s := S_) (φ := .f32)
            (addf (F := Ideal) (s := S_) (φ := .f32)
              (addf (F := Ideal) (s := S_) (φ := .f32) (R32 m c (Proc.devRef .tc main_v8)) (R32 m c (Proc.devRef .tc main_v23)))
              (R32 m c (Proc.devRef .tc main_v47)))
            (R32 m c (Proc.devRef .tc main_v19)))
          (RLap.logChain (F := Ideal) (R32 m c (Proc.devRef .tc main_v109)) (R32 m c (Proc.devRef .tc main_v165))
            (R32 m c (Proc.devRef .tc main_v279)) (R32 m c (Proc.devRef .tc main_v393))) := by
  rw [R32_split m c, tail_v407, tail_keep_v8, tail_keep_v23, tail_keep_v47, tail_keep_v19, tail_keep_v109, tail_keep_v165,
    tail_keep_v279, tail_keep_v393]

theorem gauss_fun (y : Vec Ideal S8x3x1024x1024 .f32) :
    (fun b r cc => RGauss.gauss3Chain RGauss.gaussTable (RGauss.pad3Chain (RGauss.grayChain y)) (ix3 b r cc))
      = Cert.Spec.gaussGray (RStats.A y) := by
  funext b r cc
  exact RGauss.gaussGray_eq y b r cc

theorem R32_value_of
    (h8 : R32 m c (Proc.devRef .tc main_v8) = RStats.satChain (xI m c))
    (h19 : R32 m c (Proc.devRef .tc main_v19) = RStats.intChain (xI m c))
    (h23 : R32 m c (Proc.devRef .tc main_v23) = RStats.svChain (xI m c) (xD m c))
    (h47 : R32 m c (Proc.devRef .tc main_v47) = RLap.sobelR (F := Ideal) (xI m c) (xD m c))
    (h109 : R32 m c (Proc.devRef .tc main_v109) = RGauss.gauss3Chain RGauss.gaussTable (RGauss.pad3Chain (RGauss.grayChain (xI m c))))
    (h165 : R32 m c (Proc.devRef .tc main_v165) = RGauss.gauss3Chain RGauss.gaussTable (RGauss.pad3Chain (RGauss.grayChain (xD m c))))
    (h279 : R32 m c (Proc.devRef .tc main_v279) = RLap.lapT (F := Ideal) (xI m c))
    (h393 : R32 m c (Proc.devRef .tc main_v393) = RLap.lapT (F := Ideal) (xD m c)) :
    R32 m c (Proc.devRef .tc main_v407) ix0
      = Cert.Spec.finalR (RStats.A (xI m c)) (RStats.A (xD m c)) (RLap.sobelR (F := Ideal) (xI m c) (xD m c) ix0)
          (fun r cc => RLap.lapR (F := Ideal) (xI m c) (ix2 r cc)) (fun r cc => RLap.lapR (F := Ideal) (xD m c) (ix2 r cc)) := by
  rw [R32_v407 m c, h8, h23, h47, h19, h109, h165, h279, h393]
  rw [addf_apply, addf_apply, addf_apply, addf_apply]
  rw [RStats.satChain_eq, RStats.svChain_eq, RStats.intChain_eq, RLap.logChain_eq, RLap.lap_table_eq, RLap.lap_table_eq,
    gauss_fun, gauss_fun]
  rfl

theorem result_value_of
    (h8 : R32 m c (Proc.devRef .tc main_v8) = RStats.satChain (xI m c))
    (h19 : R32 m c (Proc.devRef .tc main_v19) = RStats.intChain (xI m c))
    (h23 : R32 m c (Proc.devRef .tc main_v23) = RStats.svChain (xI m c) (xD m c))
    (h47 : R32 m c (Proc.devRef .tc main_v47) = RLap.sobelR (F := Ideal) (xI m c) (xD m c))
    (h109 : R32 m c (Proc.devRef .tc main_v109) = RGauss.gauss3Chain RGauss.gaussTable (RGauss.pad3Chain (RGauss.grayChain (xI m c))))
    (h165 : R32 m c (Proc.devRef .tc main_v165) = RGauss.gauss3Chain RGauss.gaussTable (RGauss.pad3Chain (RGauss.grayChain (xD m c))))
    (h279 : R32 m c (Proc.devRef .tc main_v279) = RLap.lapT (F := Ideal) (xI m c))
    (h393 : R32 m c (Proc.devRef .tc main_v393) = RLap.lapT (F := Ideal) (xD m c)) :
    StableHlo.after (ROps.ops (F := Ideal)) (StableHlo.launchContents m c) (Proc.devRef .tc main_v407) ix0
      = Cert.Spec.finalR (RStats.A (m ((c : Thread nD τ).loc main_arg1))) (RStats.A (m ((c : Thread nD τ).loc main_arg0)))
          (RLap.sobelR (m ((c : Thread nD τ).loc main_arg1)) (m ((c : Thread nD τ).loc main_arg0)) ix0)
          (fun r cc => RLap.lapR (m ((c : Thread nD τ).loc main_arg1)) (ix2 r cc))
          (fun r cc => RLap.lapR (m ((c : Thread nD τ).loc main_arg0)) (ix2 r cc)) := by
  rw [after_ops m c]
  exact R32_value_of m c h8 h19 h23 h47 h109 h165 h279 h393

theorem result_value :
    StableHlo.after (ROps.ops (F := Ideal)) (StableHlo.launchContents m c) (Proc.devRef .tc main_v407) ix0
      = Cert.Spec.finalR (RStats.A (m ((c : Thread nD τ).loc main_arg1))) (RStats.A (m ((c : Thread nD τ).loc main_arg0)))
          (RLap.sobelR (m ((c : Thread nD τ).loc main_arg1)) (m ((c : Thread nD τ).loc main_arg0)) ix0)
          (fun r cc => RLap.lapR (m ((c : Thread nD τ).loc main_arg1)) (ix2 r cc))
          (fun r cc => RLap.lapR (m ((c : Thread nD τ).loc main_arg0)) (ix2 r cc)) :=
  result_value_of m c (RConnectA.R32_v8 m c) (RConnectA.R32_v19 m c) (RConnectA.R32_v23 m c) (RConnectA.R32_v47 m c)
    (RConnectGP.R32_v109 m c) (RConnectGT.R32_v165 m c) (RConnectLap.R32_v279 m c) (RConnectLap.R32_v393 m c)

end Cert.ReferenceIdeal.RConnect
end
-- ==== Proof.Bridge.lean ====
import proofs.«147778_j69123203661888_1_alg».proof.Defs
import proofs.«147778_j69123203661888_1_alg».proof.Proof.Gen.Pre_finite_inputs
import proofs.«147778_j69123203661888_1_alg».proof.Proof.Spec
import proofs.«147778_j69123203661888_1_alg».proof.Proof.Consts
import Idealize.ShloMosaic.Lib.ReduceAll
import Idealize.ShloMosaic.Lib.ValueIdx

noncomputable section

namespace Cert.Bridge

open Idealize.ShloMosaic Idealize.SL.Sem
open Cert.Consts (nPix_val nPixM1_val inf_val coe_sum)

theorem real_var (f : Fin 1024 → Fin 1024 → ℝ) :
    ∑ r : Fin 1024, ∑ c : Fin 1024,
        (f r c - (∑ r : Fin 1024, ∑ c : Fin 1024, f r c) * (1 / 1048576))
          * (f r c - (∑ r : Fin 1024, ∑ c : Fin 1024, f r c) * (1 / 1048576))
      = (∑ r : Fin 1024, ∑ c : Fin 1024, f r c * f r c)
          - (∑ r : Fin 1024, ∑ c : Fin 1024, f r c) * (∑ r : Fin 1024, ∑ c : Fin 1024, f r c) * (1 / 1048576) := by
  generalize hS : (∑ r : Fin 1024, ∑ c : Fin 1024, f r c) = S
  have e : ∀ r c, (f r c - S * (1 / 1048576)) * (f r c - S * (1 / 1048576))
      = f r c * f r c - (2 * S * (1 / 1048576)) * f r c + S * (1 / 1048576) * (S * (1 / 1048576)) := by
    intro r c; ring
  simp only [e, Finset.sum_add_distrib, Finset.sum_sub_distrib, ← Finset.mul_sum, hS, Finset.sum_const,
    Finset.card_univ, Fintype.card_fin, nsmul_eq_mul]
  push_cast
  ring

theorem var_eq (x : Cert.Spec.A4) (hx : ∀ b ch r c, ∃ v : ℝ, x b ch r c = (v : EReal)) (b : Fin 8) (ch : Fin 3) :
    Cert.Spec.varK x b ch = Cert.Spec.varR x b ch := by
  choose f hf using hx
  have h1 : Cert.Spec.sum1 x b ch = ((∑ r : Fin 1024, ∑ c : Fin 1024, f b ch r c : ℝ) : EReal) := by
    unfold Cert.Spec.sum1
    simp only [hf, coe_sum]
  have h2 : Cert.Spec.sum2 x b ch = ((∑ r : Fin 1024, ∑ c : Fin 1024, f b ch r c * f b ch r c : ℝ) : EReal) := by
    unfold Cert.Spec.sum2
    simp only [hf, ← EReal.coe_mul, coe_sum]
  have hN1 : ((1048576 : ℝ) : EReal) - ((1 : ℝ) : EReal) = ((1048575 : ℝ) : EReal) := by
    rw [← EReal.coe_sub]; norm_num
  unfold Cert.Spec.varK Cert.Spec.varR Cert.Spec.mean
  rw [h1, h2]
  simp only [Cert.Spec.nPix, Cert.Spec.nPixM1, Cert.Spec.lit, nPix_val, nPixM1_val, hN1, hf]
  simp only [Ideal.div_coe (by norm_num : (1048576 : ℝ) ≠ 0), Ideal.div_coe (by norm_num : (1048575 : ℝ) ≠ 0),
    ← EReal.coe_mul, ← EReal.coe_sub, coe_sum]
  rw [real_var]

theorem final_eq (x xd : Cert.Spec.A4) (hx : ∀ b ch r c, ∃ v : ℝ, x b ch r c = (v : EReal))
    (hxd : ∀ b ch r c, ∃ v : ℝ, xd b ch r c = (v : EReal)) (sobel : EReal) (lp lt : Cert.Spec.Img) :
    Cert.Spec.finalK x xd sobel lp lt = Cert.Spec.finalR x xd sobel lp lt := by
  unfold Cert.Spec.finalK Cert.Spec.finalR Cert.Spec.final Cert.Spec.lSv
  simp only [var_eq x hx, var_eq xd hxd]

theorem real_of_abs_lt_inf (v : EReal)
    (h : Ideal.cmp .olt (max v (-v)) (Ideal.ofBits .f32 0x7F800000#32) = 1#1) : ∃ r : ℝ, v = (r : EReal) := by
  rw [inf_val] at h
  induction v using EReal.rec with
  | bot => simp [Ideal.cmp] at h
  | coe r => exact ⟨r, rfl⟩
  | top => simp [Ideal.cmp] at h

instance : Subsingleton Cert.Pre_finite_inputs.S_.Idx := ⟨fun a b => funext fun d => d.elim0⟩

theorem finite_of_fn [Cert.Pre_finite_inputs.Facts]
    (a0 a1 : FVec Ideal Cert.Pre_finite_inputs.S8x3x1024x1024 .f32)
    (h : Cert.Pre_finite_inputs.fn (F := Ideal) a0 a1 = (fun _ => 1#1)) :
    (∀ i, ∃ v : ℝ, a0 i = (v : EReal)) ∧ (∀ i, ∃ v : ℝ, a1 i = (v : EReal)) := by
  have h0 := congrFun h ValueIdx.ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact real_of_abs_lt_inf (a0 i) e
  · have e := Host.reduce_andi_all _ _ _ _ _ hb i
    exact real_of_abs_lt_inf (a1 i) e

theorem finite_of_pre (m : (ℓ : Loc Cert.KernelIdeal.nD Cert.KernelIdeal.τ Cert.KernelIdeal.sig) → Buf (Elt Ideal) ℓ)
    [Cert.Pre_finite_inputs.Facts] (h : Cert.Pre_KernelIdeal m) (c : Dev Cert.KernelIdeal.nD) :
    (∀ i, ∃ v : ℝ, m ((c.tc : Thread Cert.KernelIdeal.nD Cert.KernelIdeal.τ).loc Cert.KernelIdeal.main_arg0) i = (v : EReal))
    ∧ (∀ i, ∃ v : ℝ, m ((c.tc : Thread Cert.KernelIdeal.nD Cert.KernelIdeal.τ).loc Cert.KernelIdeal.main_arg1) i = (v : EReal)) := by
  exact finite_of_fn _ _ (h c)

end Cert.Bridge

end
-- ==== Proof.Match.lean ====
import proofs.«147778_j69123203661888_1_alg».proof.Proof.KHostTail
import proofs.«147778_j69123203661888_1_alg».proof.Proof.KHostLap
import proofs.«147778_j69123203661888_1_alg».proof.Proof.RLap

noncomputable section

namespace Cert.Match

open Idealize.ShloMosaic

section Sobel
variable {F : FTy → Type} [FloatOps F]

theorem sel00_eq (x : Vec F Cert.KernelIdeal.S8x3x1024x1024 .f32) :
    Cert.KernelIdeal.KHostTail.sel00 x = Cert.ReferenceIdeal.RLap.sel00 x := rfl

theorem padc_eq (y : Vec F Cert.KernelIdeal.S1024x1024 .f32) :
    Cert.KernelIdeal.KHostTail.padc y = Cert.ReferenceIdeal.RLap.padc y := rfl

theorem sx_eq (y : Vec F Cert.KernelIdeal.S1024x1024 .f32) :
    Cert.KernelIdeal.KHostTail.sx y = Cert.ReferenceIdeal.RLap.sx y := by
  unfold Cert.KernelIdeal.KHostTail.sx Cert.ReferenceIdeal.RLap.sx
  rw [padc_eq]

end Sobel

theorem sobel_eq (x xd : Vec Ideal Cert.KernelIdeal.S8x3x1024x1024 .f32) :
    Cert.KernelIdeal.KHostTail.sobelK (F := Ideal) x xd = Cert.ReferenceIdeal.RLap.sobelR (F := Ideal) x xd := by
  unfold Cert.KernelIdeal.KHostTail.sobelK Cert.ReferenceIdeal.RLap.sobelR
  rw [sel00_eq, sel00_eq, sx_eq, sx_eq]

section Lap
variable {F : FTy → Type} [FloatOps F]

theorem sel00L_eq (x : Vec F Cert.KernelIdeal.S8x3x1024x1024 .f32) :
    Cert.KernelIdeal.KHostLap.sel00 x = Cert.ReferenceIdeal.RLap.sel00 x := rfl

theorem pad2_eq (y : Vec F Cert.KernelIdeal.S1024x1024 .f32) :
    Cert.KernelIdeal.KHostLap.pad2 y = Cert.ReferenceIdeal.RLap.pad2 y := rfl

theorem filt2_eq (w0 w1 w2 w3 w4 w5 w6 w7 w8 : Vec F Cert.KernelIdeal.S_ .f32) (p : Vec F Cert.KernelIdeal.S1026x1026 .f32) :
    Cert.KernelIdeal.KHostLap.filt2 w0 w1 w2 w3 w4 w5 w6 w7 w8 p
      = Cert.ReferenceIdeal.RLap.filt2 w0 w1 w2 w3 w4 w5 w6 w7 w8 p := rfl

theorem gaussW_eq : Cert.KernelIdeal.KHostLap.gaussW (F := F) = Cert.ReferenceIdeal.RLap.gaussW := rfl

theorem laplW_eq : Cert.KernelIdeal.KHostLap.laplW (F := F) = Cert.ReferenceIdeal.RLap.laplW := rfl

theorem lap_eq' (x : Vec F Cert.KernelIdeal.S8x3x1024x1024 .f32) :
    Cert.KernelIdeal.KHostLap.lapK x = Cert.ReferenceIdeal.RLap.lapR x := by
  unfold Cert.KernelIdeal.KHostLap.lapK Cert.ReferenceIdeal.RLap.lapR
  rw [sel00L_eq, pad2_eq, filt2_eq, pad2_eq, filt2_eq, gaussW_eq, laplW_eq]

end Lap

theorem lap_eq (x : Vec Ideal Cert.KernelIdeal.S8x3x1024x1024 .f32) :
    Cert.KernelIdeal.KHostLap.lapK (F := Ideal) x = Cert.ReferenceIdeal.RLap.lapR (F := Ideal) x := lap_eq' x

end Cert.Match

end
-- ==== Proof.lean ====
import proofs.«147778_j69123203661888_1_alg».proof.Defs
import proofs.«147778_j69123203661888_1_alg».proof.Proof.Gen.Kernel
import proofs.«147778_j69123203661888_1_alg».proof.Proof.Gen.Kernel.Frame
import proofs.«147778_j69123203661888_1_alg».proof.Proof.Gen.KernelIdeal
import proofs.«147778_j69123203661888_1_alg».proof.Proof.Gen.KernelIdeal.Frame
import proofs.«147778_j69123203661888_1_alg».proof.Proof.Gen.ReferenceIdeal
import proofs.«147778_j69123203661888_1_alg».proof.Proof.Gen.Pre_finite_inputs
import proofs.«147778_j69123203661888_1_alg».proof.Proof.Spec
import proofs.«147778_j69123203661888_1_alg».proof.Proof.KRun
import proofs.«147778_j69123203661888_1_alg».proof.Proof.KValue
import proofs.«147778_j69123203661888_1_alg».proof.Proof.RRun
import proofs.«147778_j69123203661888_1_alg».proof.Proof.RConnect
import proofs.«147778_j69123203661888_1_alg».proof.Proof.Bridge
import proofs.«147778_j69123203661888_1_alg».proof.Proof.Match
import Idealize.ShloMosaic.Adequacy
import Idealize.ShloMosaic.Init

/-! Both programs compute one scalar loss of two stacks of images. They differ in one law only: the variance taken as
    (Σx² − (Σx)²/N)/(N − 1) against Σ(x − Σx/N)²/(N − 1). On finite inputs the two agree, and that is the one place the
    precondition is used. -/

noncomputable section

namespace Cert.Proof

open Idealize.ShloMosaic Idealize.ShloMosaic.TcCoe Idealize.SL.Sem Idealize.ShloMosaic.ValueIdx

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ

theorem frame_ri : Cert.frame_ReferenceIdeal := fun m ρ _ =>
  (θ_run Cert.ReferenceIdeal.defs _ _).mono
    (fun _ h c => ⟨(h c Cert.ReferenceIdeal.main_arg0).trans (Cert.ReferenceIdeal.RRun.args_kept m c).1,
      (h c Cert.ReferenceIdeal.main_arg1).trans (Cert.ReferenceIdeal.RRun.args_kept m c).2⟩)
    (Cert.ReferenceIdeal.RRun.run (F := Ideal) m ρ)

theorem algebraic : Cert.algebraic_KernelIdeal_ReferenceIdeal := by
  intro m g m' g' hpre hagree
  refine ⟨fun c => Cert.KernelIdeal.Gen.W18 m g c (Proc.devRef .tc Cert.KernelIdeal.main_v222), ?_, ?_⟩
  · exact Cert.KernelIdeal.KRun.run (F := Ideal) m g
  · refine (θ_run Cert.ReferenceIdeal.defs _ _).mono (fun _ h c => ⟨?_, (h c Cert.ReferenceIdeal.main_arg0).trans (Cert.ReferenceIdeal.RRun.args_kept m' c).1,
      (h c Cert.ReferenceIdeal.main_arg1).trans (Cert.ReferenceIdeal.RRun.args_kept m' c).2⟩) (Cert.ReferenceIdeal.RRun.run (F := Ideal) m' g')
    rw [h c Cert.ReferenceIdeal.main_v407]
    funext i
    obtain rfl : i = ix0 := funext fun d => d.elim0
    obtain ⟨hfd, hfi⟩ := Cert.Bridge.finite_of_pre m hpre c
    show _ = Cert.KernelIdeal.Gen.W18 m g c (Proc.devRef .tc Cert.KernelIdeal.main_v222) ix0
    rw [Cert.ReferenceIdeal.RConnect.result_value m' c, Cert.KernelIdeal.KValue.result_value m g c, (hagree c).1, (hagree c).2,
      Cert.Match.sobel_eq, Cert.Match.lap_eq, Cert.Match.lap_eq]
    exact (Cert.Bridge.final_eq _ _ (fun b ch r cc => hfi _) (fun b ch r cc => hfd _) _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
